-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)) →
    ∃ (v0 : (c : Dev Cert.KernelIdeal.nD) → Buf (Elt Ideal) ((c.tc : Thread Cert.KernelIdeal.nD Cert.KernelIdeal.τ).loc Cert.KernelIdeal.main_v72)) (v1 : (c : Dev Cert.KernelIdeal.nD) → Buf (Elt Ideal) ((c.tc : Thread Cert.KernelIdeal.nD Cert.KernelIdeal.τ).loc Cert.KernelIdeal.main_v76)) (v2 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_v76) = v1 c
          ∧ r.2.mem ((c.tc : Thread Cert.KernelIdeal.nD Cert.KernelIdeal.τ).loc Cert.KernelIdeal.main_v80) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v220) = v0 c
          ∧ r.2.mem ((c.tc : Thread Cert.ReferenceIdeal.nD Cert.ReferenceIdeal.τ).loc Cert.ReferenceIdeal.main_v221) = v1 c
          ∧ r.2.mem ((c.tc : Thread Cert.ReferenceIdeal.nD Cert.ReferenceIdeal.τ).loc Cert.ReferenceIdeal.main_v222) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S150000x128 : Shape := ⟨2, ![150000, 128]⟩
abbrev S80000x128 : Shape := ⟨2, ![80000, 128]⟩
abbrev S2x500000 : Shape := ⟨2, ![2, 500000]⟩
abbrev S2x300000 : Shape := ⟨2, ![2, 300000]⟩
abbrev S2x200000 : Shape := ⟨2, ![2, 200000]⟩
abbrev S500000x3 : Shape := ⟨2, ![500000, 3]⟩
abbrev S300000x3 : Shape := ⟨2, ![300000, 3]⟩
abbrev S200000x3 : Shape := ⟨2, ![200000, 3]⟩
abbrev S259x128 : Shape := ⟨2, ![259, 128]⟩
abbrev S128 : Shape := ⟨1, ![128]⟩
abbrev S128x1 : Shape := ⟨2, ![128, 1]⟩
abbrev S1 : Shape := ⟨1, ![1]⟩
abbrev S256x128 : Shape := ⟨2, ![256, 128]⟩
abbrev S384x128 : Shape := ⟨2, ![384, 128]⟩
abbrev S_ : Shape := ⟨0, ![]⟩
abbrev S1x500000 : Shape := ⟨2, ![1, 500000]⟩
abbrev S500000 : Shape := ⟨1, ![500000]⟩
abbrev S1x300000 : Shape := ⟨2, ![1, 300000]⟩
abbrev S300000 : Shape := ⟨1, ![300000]⟩
abbrev S1x200000 : Shape := ⟨2, ![1, 200000]⟩
abbrev S200000 : Shape := ⟨1, ![200000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S150000x128 : S_.BroadcastsInDim S150000x128 (![] : Fin 0 → Fin S150000x128.rank)
  reducesTo_S150000x128_S_d0_1 : S150000x128.ReducesTo [0, 1] S_
  bcast_S_S80000x128 : S_.BroadcastsInDim S80000x128 (![] : Fin 0 → Fin S80000x128.rank)
  reducesTo_S80000x128_S_d0_1 : S80000x128.ReducesTo [0, 1] S_
  bcast_S_S500000x3 : S_.BroadcastsInDim S500000x3 (![] : Fin 0 → Fin S500000x3.rank)
  reducesTo_S500000x3_S_d0_1 : S500000x3.ReducesTo [0, 1] S_
  bcast_S_S300000x3 : S_.BroadcastsInDim S300000x3 (![] : Fin 0 → Fin S300000x3.rank)
  reducesTo_S300000x3_S_d0_1 : S300000x3.ReducesTo [0, 1] S_
  bcast_S_S200000x3 : S_.BroadcastsInDim S200000x3 (![] : Fin 0 → Fin S200000x3.rank)
  reducesTo_S200000x3_S_d0_1 : S200000x3.ReducesTo [0, 1] S_
  bcast_S_S259x128 : S_.BroadcastsInDim S259x128 (![] : Fin 0 → Fin S259x128.rank)
  reducesTo_S259x128_S_d0_1 : S259x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_
  bcast_S_S384x128 : S_.BroadcastsInDim S384x128 (![] : Fin 0 → Fin S384x128.rank)
  reducesTo_S384x128_S_d0_1 : S384x128.ReducesTo [0, 1] S_
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  reducesTo_S500000_S_d0 : S500000.ReducesTo [0] S_
  slices_S2x500000_S1x500000_1_0 : S2x500000.Slices ![1, 0] S1x500000
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  reducesTo_S300000_S_d0 : S300000.ReducesTo [0] S_
  slices_S2x300000_S1x300000_1_0 : S2x300000.Slices ![1, 0] S1x300000
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  reducesTo_S200000_S_d0 : S200000.ReducesTo [0] S_
  slices_S2x200000_S1x200000_1_0 : S2x200000.Slices ![1, 0] S1x200000

variable [Facts]

def fn_part15 {F : FTy → Type} [FloatOps F] (main_arg7 : IVec S2x200000 32) (main_v256 : IVec S_ 1) (main_v265 : IVec S200000 1) : IVec S_ 1 :=
  let main_c_92 : IVec S_ 1 := constantI S_ 1 1#1
  let main_v266 : IVec S_ 1 := (fun x v => Host.reduce IntOp.andi x v reducesTo_S200000_S_d0 h_S_) main_v265 main_c_92
  let main_v267 : IVec S_ 1 := andi main_v256 main_v266
  let main_v268 : IVec S1x200000 32 := (extractStridedSlice S1x200000 ![1, 0] · slices_S2x200000_S1x200000_1_0) main_arg7
  let main_v269 : IVec S200000 32 := shapeCast S200000 main_v268 shapeCasts_S1x200000_S200000
  let main_c_93 : IVec S_ 32 := constantI S_ 32 0#32
  let main_v270 : IVec S200000 32 := broadcastInDim S200000 ![] bcast_S_S200000 main_c_93
  let main_v271 : IVec S200000 1 := cmpi .sge main_v269 main_v270
  let main_v272 : IVec S1x200000 32 := (extractStridedSlice S1x200000 ![1, 0] · slices_S2x200000_S1x200000_1_0) main_arg7
  let main_v273 : IVec S200000 32 := shapeCast S200000 main_v272 shapeCasts_S1x200000_S200000
  let main_c_94 : IVec S_ 32 := constantI S_ 32 80000#32
  let main_v274 : IVec S200000 32 := broadcastInDim S200000 ![] bcast_S_S200000 main_c_94
  let main_v275 : IVec S200000 1 := cmpi .slt main_v273 main_v274
  let main_v276 : IVec S200000 1 := andi main_v271 main_v275
  let main_c_95 : IVec S_ 1 := constantI S_ 1 1#1
  let main_v277 : IVec S_ 1 := (fun x v => Host.reduce IntOp.andi x v reducesTo_S200000_S_d0 h_S_) main_v276 main_c_95
  let main_v278 : IVec S_ 1 := andi main_v267 main_v277
  main_v278

def fn_part14 {F : FTy → Type} [FloatOps F] (main_arg6 : IVec S2x200000 32) (main_arg7 : IVec S2x200000 32) (main_v245 : IVec S_ 1) (main_v246 : IVec S1x200000 32) : IVec S_ 1 :=
  let main_v247 : IVec S200000 32 := shapeCast S200000 main_v246 shapeCasts_S1x200000_S200000
  let main_c_87 : IVec S_ 32 := constantI S_ 32 0#32
  let main_v248 : IVec S200000 32 := broadcastInDim S200000 ![] bcast_S_S200000 main_c_87
  let main_v249 : IVec S200000 1 := cmpi .sge main_v247 main_v248
  let main_v250 : IVec S1x200000 32 := (extractStridedSlice S1x200000 ![1, 0] · slices_S2x200000_S1x200000_1_0) main_arg6
  let main_v251 : IVec S200000 32 := shapeCast S200000 main_v250 shapeCasts_S1x200000_S200000
  let main_c_88 : IVec S_ 32 := constantI S_ 32 80000#32
  let main_v252 : IVec S200000 32 := broadcastInDim S200000 ![] bcast_S_S200000 main_c_88
  let main_v253 : IVec S200000 1 := cmpi .slt main_v251 main_v252
  let main_v254 : IVec S200000 1 := andi main_v249 main_v253
  let main_c_89 : IVec S_ 1 := constantI S_ 1 1#1
  let main_v255 : IVec S_ 1 := (fun x v => Host.reduce IntOp.andi x v reducesTo_S200000_S_d0 h_S_) main_v254 main_c_89
  let main_v256 : IVec S_ 1 := andi main_v245 main_v255
  let main_v257 : IVec S1x200000 32 := (extractStridedSlice S1x200000 ![0, 0] · slices_S2x200000_S1x200000_0_0) main_arg7
  let main_v258 : IVec S200000 32 := shapeCast S200000 main_v257 shapeCasts_S1x200000_S200000
  let main_c_90 : IVec S_ 32 := constantI S_ 32 0#32
  let main_v259 : IVec S200000 32 := broadcastInDim S200000 ![] bcast_S_S200000 main_c_90
  let main_v260 : IVec S200000 1 := cmpi .sge main_v258 main_v259
  let main_v261 : IVec S1x200000 32 := (extractStridedSlice S1x200000 ![0, 0] · slices_S2x200000_S1x200000_0_0) main_arg7
  let main_v262 : IVec S200000 32 := shapeCast S200000 main_v261 shapeCasts_S1x200000_S200000
  let main_c_91 : IVec S_ 32 := constantI S_ 32 80000#32
  let main_v263 : IVec S200000 32 := broadcastInDim S200000 ![] bcast_S_S200000 main_c_91
  let main_v264 : IVec S200000 1 := cmpi .slt main_v262 main_v263
  let main_v265 : IVec S200000 1 := andi main_v260 main_v264
  fn_part15 (F := F) main_arg7 main_v256 main_v265

def fn_part13 {F : FTy → Type} [FloatOps F] (main_arg5 : IVec S2x300000 32) (main_arg6 : IVec S2x200000 32) (main_arg7 : IVec S2x200000 32) (main_v223 : IVec S_ 1) (main_v227 : IVec S300000 1) : IVec S_ 1 :=
  let main_v228 : IVec S1x300000 32 := (extractStridedSlice S1x300000 ![1, 0] · slices_S2x300000_S1x300000_1_0) main_arg5
  let main_v229 : IVec S300000 32 := shapeCast S300000 main_v228 shapeCasts_S1x300000_S300000
  let main_c_82 : IVec S_ 32 := constantI S_ 32 150000#32
  let main_v230 : IVec S300000 32 := broadcastInDim S300000 ![] bcast_S_S300000 main_c_82
  let main_v231 : IVec S300000 1 := cmpi .slt main_v229 main_v230
  let main_v232 : IVec S300000 1 := andi main_v227 main_v231
  let main_c_83 : IVec S_ 1 := constantI S_ 1 1#1
  let main_v233 : IVec S_ 1 := (fun x v => Host.reduce IntOp.andi x v reducesTo_S300000_S_d0 h_S_) main_v232 main_c_83
  let main_v234 : IVec S_ 1 := andi main_v223 main_v233
  let main_v235 : IVec S1x200000 32 := (extractStridedSlice S1x200000 ![0, 0] · slices_S2x200000_S1x200000_0_0) main_arg6
  let main_v236 : IVec S200000 32 := shapeCast S200000 main_v235 shapeCasts_S1x200000_S200000
  let main_c_84 : IVec S_ 32 := constantI S_ 32 0#32
  let main_v237 : IVec S200000 32 := broadcastInDim S200000 ![] bcast_S_S200000 main_c_84
  let main_v238 : IVec S200000 1 := cmpi .sge main_v236 main_v237
  let main_v239 : IVec S1x200000 32 := (extractStridedSlice S1x200000 ![0, 0] · slices_S2x200000_S1x200000_0_0) main_arg6
  let main_v240 : IVec S200000 32 := shapeCast S200000 main_v239 shapeCasts_S1x200000_S200000
  let main_c_85 : IVec S_ 32 := constantI S_ 32 150000#32
  let main_v241 : IVec S200000 32 := broadcastInDim S200000 ![] bcast_S_S200000 main_c_85
  let main_v242 : IVec S200000 1 := cmpi .slt main_v240 main_v241
  let main_v243 : IVec S200000 1 := andi main_v238 main_v242
  let main_c_86 : IVec S_ 1 := constantI S_ 1 1#1
  let main_v244 : IVec S_ 1 := (fun x v => Host.reduce IntOp.andi x v reducesTo_S200000_S_d0 h_S_) main_v243 main_c_86
  let main_v245 : IVec S_ 1 := andi main_v234 main_v244
  let main_v246 : IVec S1x200000 32 := (extractStridedSlice S1x200000 ![1, 0] · slices_S2x200000_S1x200000_1_0) main_arg6
  fn_part14 (F := F) main_arg6 main_arg7 main_v245 main_v246

def fn_part12 {F : FTy → Type} [FloatOps F] (main_arg5 : IVec S2x300000 32) (main_arg6 : IVec S2x200000 32) (main_arg7 : IVec S2x200000 32) (main_v201 : IVec S_ 1) (main_v205 : IVec S300000 1) (main_v207 : IVec S300000 32) (main_v208 : IVec S300000 32) : IVec S_ 1 :=
  let main_v209 : IVec S300000 1 := cmpi .slt main_v207 main_v208
  let main_v210 : IVec S300000 1 := andi main_v205 main_v209
  let main_c_77 : IVec S_ 1 := constantI S_ 1 1#1
  let main_v211 : IVec S_ 1 := (fun x v => Host.reduce IntOp.andi x v reducesTo_S300000_S_d0 h_S_) main_v210 main_c_77
  let main_v212 : IVec S_ 1 := andi main_v201 main_v211
  let main_v213 : IVec S1x300000 32 := (extractStridedSlice S1x300000 ![0, 0] · slices_S2x300000_S1x300000_0_0) main_arg5
  let main_v214 : IVec S300000 32 := shapeCast S300000 main_v213 shapeCasts_S1x300000_S300000
  let main_c_78 : IVec S_ 32 := constantI S_ 32 0#32
  let main_v215 : IVec S300000 32 := broadcastInDim S300000 ![] bcast_S_S300000 main_c_78
  let main_v216 : IVec S300000 1 := cmpi .sge main_v214 main_v215
  let main_v217 : IVec S1x300000 32 := (extractStridedSlice S1x300000 ![0, 0] · slices_S2x300000_S1x300000_0_0) main_arg5
  let main_v218 : IVec S300000 32 := shapeCast S300000 main_v217 shapeCasts_S1x300000_S300000
  let main_c_79 : IVec S_ 32 := constantI S_ 32 150000#32
  let main_v219 : IVec S300000 32 := broadcastInDim S300000 ![] bcast_S_S300000 main_c_79
  let main_v220 : IVec S300000 1 := cmpi .slt main_v218 main_v219
  let main_v221 : IVec S300000 1 := andi main_v216 main_v220
  let main_c_80 : IVec S_ 1 := constantI S_ 1 1#1
  let main_v222 : IVec S_ 1 := (fun x v => Host.reduce IntOp.andi x v reducesTo_S300000_S_d0 h_S_) main_v221 main_c_80
  let main_v223 : IVec S_ 1 := andi main_v212 main_v222
  let main_v224 : IVec S1x300000 32 := (extractStridedSlice S1x300000 ![1, 0] · slices_S2x300000_S1x300000_1_0) main_arg5
  let main_v225 : IVec S300000 32 := shapeCast S300000 main_v224 shapeCasts_S1x300000_S300000
  let main_c_81 : IVec S_ 32 := constantI S_ 32 0#32
  let main_v226 : IVec S300000 32 := broadcastInDim S300000 ![] bcast_S_S300000 main_c_81
  let main_v227 : IVec S300000 1 := cmpi .sge main_v225 main_v226
  fn_part13 (F := F) main_arg5 main_arg6 main_arg7 main_v223 main_v227

def fn_part11 {F : FTy → Type} [FloatOps F] (main_arg4 : IVec S2x300000 32) (main_arg5 : IVec S2x300000 32) (main_arg6 : IVec S2x200000 32) (main_arg7 : IVec S2x200000 32) (main_v179 : IVec S_ 1) (main_v189 : IVec S_ 1) : IVec S_ 1 :=
  let main_v190 : IVec S_ 1 := andi main_v179 main_v189
  let main_v191 : IVec S1x300000 32 := (extractStridedSlice S1x300000 ![0, 0] · slices_S2x300000_S1x300000_0_0) main_arg4
  let main_v192 : IVec S300000 32 := shapeCast S300000 main_v191 shapeCasts_S1x300000_S300000
  let main_c_72 : IVec S_ 32 := constantI S_ 32 0#32
  let main_v193 : IVec S300000 32 := broadcastInDim S300000 ![] bcast_S_S300000 main_c_72
  let main_v194 : IVec S300000 1 := cmpi .sge main_v192 main_v193
  let main_v195 : IVec S1x300000 32 := (extractStridedSlice S1x300000 ![0, 0] · slices_S2x300000_S1x300000_0_0) main_arg4
  let main_v196 : IVec S300000 32 := shapeCast S300000 main_v195 shapeCasts_S1x300000_S300000
  let main_c_73 : IVec S_ 32 := constantI S_ 32 100000#32
  let main_v197 : IVec S300000 32 := broadcastInDim S300000 ![] bcast_S_S300000 main_c_73
  let main_v198 : IVec S300000 1 := cmpi .slt main_v196 main_v197
  let main_v199 : IVec S300000 1 := andi main_v194 main_v198
  let main_c_74 : IVec S_ 1 := constantI S_ 1 1#1
  let main_v200 : IVec S_ 1 := (fun x v => Host.reduce IntOp.andi x v reducesTo_S300000_S_d0 h_S_) main_v199 main_c_74
  let main_v201 : IVec S_ 1 := andi main_v190 main_v200
  let main_v202 : IVec S1x300000 32 := (extractStridedSlice S1x300000 ![1, 0] · slices_S2x300000_S1x300000_1_0) main_arg4
  let main_v203 : IVec S300000 32 := shapeCast S300000 main_v202 shapeCasts_S1x300000_S300000
  let main_c_75 : IVec S_ 32 := constantI S_ 32 0#32
  let main_v204 : IVec S300000 32 := broadcastInDim S300000 ![] bcast_S_S300000 main_c_75
  let main_v205 : IVec S300000 1 := cmpi .sge main_v203 main_v204
  let main_v206 : IVec S1x300000 32 := (extractStridedSlice S1x300000 ![1, 0] · slices_S2x300000_S1x300000_1_0) main_arg4
  let main_v207 : IVec S300000 32 := shapeCast S300000 main_v206 shapeCasts_S1x300000_S300000
  let main_c_76 : IVec S_ 32 := constantI S_ 32 150000#32
  let main_v208 : IVec S300000 32 := broadcastInDim S300000 ![] bcast_S_S300000 main_c_76
  fn_part12 (F := F) main_arg5 main_arg6 main_arg7 main_v201 main_v205 main_v207 main_v208

def fn_part10 {F : FTy → Type} [FloatOps F] (main_arg3 : IVec S2x500000 32) (main_arg4 : IVec S2x300000 32) (main_arg5 : IVec S2x300000 32) (main_arg6 : IVec S2x200000 32) (main_arg7 : IVec S2x200000 32) (main_v168 : IVec S_ 1) (main_v170 : IVec S500000 32) (main_c_66 : IVec S_ 32) : IVec S_ 1 :=
  let main_v171 : IVec S500000 32 := broadcastInDim S500000 ![] bcast_S_S500000 main_c_66
  let main_v172 : IVec S500000 1 := cmpi .sge main_v170 main_v171
  let main_v173 : IVec S1x500000 32 := (extractStridedSlice S1x500000 ![0, 0] · slices_S2x500000_S1x500000_0_0) main_arg3
  let main_v174 : IVec S500000 32 := shapeCast S500000 main_v173 shapeCasts_S1x500000_S500000
  let main_c_67 : IVec S_ 32 := constantI S_ 32 100000#32
  let main_v175 : IVec S500000 32 := broadcastInDim S500000 ![] bcast_S_S500000 main_c_67
  let main_v176 : IVec S500000 1 := cmpi .slt main_v174 main_v175
  let main_v177 : IVec S500000 1 := andi main_v172 main_v176
  let main_c_68 : IVec S_ 1 := constantI S_ 1 1#1
  let main_v178 : IVec S_ 1 := (fun x v => Host.reduce IntOp.andi x v reducesTo_S500000_S_d0 h_S_) main_v177 main_c_68
  let main_v179 : IVec S_ 1 := andi main_v168 main_v178
  let main_v180 : IVec S1x500000 32 := (extractStridedSlice S1x500000 ![1, 0] · slices_S2x500000_S1x500000_1_0) main_arg3
  let main_v181 : IVec S500000 32 := shapeCast S500000 main_v180 shapeCasts_S1x500000_S500000
  let main_c_69 : IVec S_ 32 := constantI S_ 32 0#32
  let main_v182 : IVec S500000 32 := broadcastInDim S500000 ![] bcast_S_S500000 main_c_69
  let main_v183 : IVec S500000 1 := cmpi .sge main_v181 main_v182
  let main_v184 : IVec S1x500000 32 := (extractStridedSlice S1x500000 ![1, 0] · slices_S2x500000_S1x500000_1_0) main_arg3
  let main_v185 : IVec S500000 32 := shapeCast S500000 main_v184 shapeCasts_S1x500000_S500000
  let main_c_70 : IVec S_ 32 := constantI S_ 32 100000#32
  let main_v186 : IVec S500000 32 := broadcastInDim S500000 ![] bcast_S_S500000 main_c_70
  let main_v187 : IVec S500000 1 := cmpi .slt main_v185 main_v186
  let main_v188 : IVec S500000 1 := andi main_v183 main_v187
  let main_c_71 : IVec S_ 1 := constantI S_ 1 1#1
  let main_v189 : IVec S_ 1 := (fun x v => Host.reduce IntOp.andi x v reducesTo_S500000_S_d0 h_S_) main_v188 main_c_71
  fn_part11 (F := F) main_arg4 main_arg5 main_arg6 main_arg7 main_v179 main_v189

def fn_part9 {F : FTy → Type} [FloatOps F] (main_arg3 : IVec S2x500000 32) (main_arg4 : IVec S2x300000 32) (main_arg5 : IVec S2x300000 32) (main_arg6 : IVec S2x200000 32) (main_arg7 : IVec S2x200000 32) (main_arg36 : FVec F S128 .f32) (main_arg37 : FVec F S384x128 .f32) (main_arg38 : FVec F S128 .f32) (main_v153 : IVec S_ 1) : IVec S_ 1 :=
  let main_v154 : FVec F S128 .f32 := Host.absf main_arg36
  let main_cst_60 : FVec F S_ .f32 := constant S_ .f32 0x7F800000#32
  let main_v155 : FVec F S128 .f32 := broadcastInDim S128 ![] bcast_S_S128 main_cst_60
  let main_v156 : IVec S128 1 := cmpf .olt main_v154 main_v155
  let main_c_61 : IVec S_ 1 := constantI S_ 1 1#1
  let main_v157 : IVec S_ 1 := (fun x v => Host.reduce IntOp.andi x v reducesTo_S128_S_d0 h_S_) main_v156 main_c_61
  let main_v158 : IVec S_ 1 := andi main_v153 main_v157
  let main_v159 : FVec F S384x128 .f32 := Host.absf main_arg37
  let main_cst_62 : FVec F S_ .f32 := constant S_ .f32 0x7F800000#32
  let main_v160 : FVec F S384x128 .f32 := broadcastInDim S384x128 ![] bcast_S_S384x128 main_cst_62
  let main_v161 : IVec S384x128 1 := cmpf .olt main_v159 main_v160
  let main_c_63 : IVec S_ 1 := constantI S_ 1 1#1
  let main_v162 : IVec S_ 1 := (fun x v => Host.reduce IntOp.andi x v reducesTo_S384x128_S_d0_1 h_S_) main_v161 main_c_63
  let main_v163 : IVec S_ 1 := andi main_v158 main_v162
  let main_v164 : FVec F S128 .f32 := Host.absf main_arg38
  let main_cst_64 : FVec F S_ .f32 := constant S_ .f32 0x7F800000#32
  let main_v165 : FVec F S128 .f32 := broadcastInDim S128 ![] bcast_S_S128 main_cst_64
  let main_v166 : IVec S128 1 := cmpf .olt main_v164 main_v165
  let main_c_65 : IVec S_ 1 := constantI S_ 1 1#1
  let main_v167 : IVec S_ 1 := (fun x v => Host.reduce IntOp.andi x v reducesTo_S128_S_d0 h_S_) main_v166 main_c_65
  let main_v168 : IVec S_ 1 := andi main_v163 main_v167
  let main_v169 : IVec S1x500000 32 := (extractStridedSlice S1x500000 ![0, 0] · slices_S2x500000_S1x500000_0_0) main_arg3
  let main_v170 : IVec S500000 32 := shapeCast S500000 main_v169 shapeCasts_S1x500000_S500000
  let main_c_66 : IVec S_ 32 := constantI S_ 32 0#32
  fn_part10 (F := F) main_arg3 main_arg4 main_arg5 main_arg6 main_arg7 main_v168 main_v170 main_c_66

def fn_part8 {F : FTy → Type} [FloatOps F] (main_arg3 : IVec S2x500000 32) (main_arg4 : IVec S2x300000 32) (main_arg5 : IVec S2x300000 32) (main_arg6 : IVec S2x200000 32) (main_arg7 : IVec S2x200000 32) (main_arg33 : FVec F S256x128 .f32) (main_arg34 : FVec F S128 .f32) (main_arg35 : FVec F S384x128 .f32) (main_arg36 : FVec F S128 .f32) (main_arg37 : FVec F S384x128 .f32) (main_arg38 : FVec F S128 .f32) (main_v133 : IVec S_ 1) (main_v136 : IVec S1 1) : IVec S_ 1 :=
  let main_c_53 : IVec S_ 1 := constantI S_ 1 1#1
  let main_v137 : IVec S_ 1 := (fun x v => Host.reduce IntOp.andi x v reducesTo_S1_S_d0 h_S_) main_v136 main_c_53
  let main_v138 : IVec S_ 1 := andi main_v133 main_v137
  let main_v139 : FVec F S256x128 .f32 := Host.absf main_arg33
  let main_cst_54 : FVec F S_ .f32 := constant S_ .f32 0x7F800000#32
  let main_v140 : FVec F S256x128 .f32 := broadcastInDim S256x128 ![] bcast_S_S256x128 main_cst_54
  let main_v141 : IVec S256x128 1 := cmpf .olt main_v139 main_v140
  let main_c_55 : IVec S_ 1 := constantI S_ 1 1#1
  let main_v142 : IVec S_ 1 := (fun x v => Host.reduce IntOp.andi x v reducesTo_S256x128_S_d0_1 h_S_) main_v141 main_c_55
  let main_v143 : IVec S_ 1 := andi main_v138 main_v142
  let main_v144 : FVec F S128 .f32 := Host.absf main_arg34
  let main_cst_56 : FVec F S_ .f32 := constant S_ .f32 0x7F800000#32
  let main_v145 : FVec F S128 .f32 := broadcastInDim S128 ![] bcast_S_S128 main_cst_56
  let main_v146 : IVec S128 1 := cmpf .olt main_v144 main_v145
  let main_c_57 : IVec S_ 1 := constantI S_ 1 1#1
  let main_v147 : IVec S_ 1 := (fun x v => Host.reduce IntOp.andi x v reducesTo_S128_S_d0 h_S_) main_v146 main_c_57
  let main_v148 : IVec S_ 1 := andi main_v143 main_v147
  let main_v149 : FVec F S384x128 .f32 := Host.absf main_arg35
  let main_cst_58 : FVec F S_ .f32 := constant S_ .f32 0x7F800000#32
  let main_v150 : FVec F S384x128 .f32 := broadcastInDim S384x128 ![] bcast_S_S384x128 main_cst_58
  let main_v151 : IVec S384x128 1 := cmpf .olt main_v149 main_v150
  let main_c_59 : IVec S_ 1 := constantI S_ 1 1#1
  let main_v152 : IVec S_ 1 := (fun x v => Host.reduce IntOp.andi x v reducesTo_S384x128_S_d0_1 h_S_) main_v151 main_c_59
  let main_v153 : IVec S_ 1 := andi main_v148 main_v152
  fn_part9 (F := F) main_arg3 main_arg4 main_arg5 main_arg6 main_arg7 main_arg36 main_arg37 main_arg38 main_v153

def fn_part7 {F : FTy → Type} [FloatOps F] (main_arg3 : IVec S2x500000 32) (main_arg4 : IVec S2x300000 32) (main_arg5 : IVec S2x300000 32) (main_arg6 : IVec S2x200000 32) (main_arg7 : IVec S2x200000 32) (main_arg30 : FVec F S128 .f32) (main_arg31 : FVec F S128x1 .f32) (main_arg32 : FVec F S1 .f32) (main_arg33 : FVec F S256x128 .f32) (main_arg34 : FVec F S128 .f32) (main_arg35 : FVec F S384x128 .f32) (main_arg36 : FVec F S128 .f32) (main_arg37 : FVec F S384x128 .f32) (main_arg38 : FVec F S128 .f32) (main_v118 : IVec S_ 1) (main_v119 : FVec F S259x128 .f32) : IVec S_ 1 :=
  let main_cst_46 : FVec F S_ .f32 := constant S_ .f32 0x7F800000#32
  let main_v120 : FVec F S259x128 .f32 := broadcastInDim S259x128 ![] bcast_S_S259x128 main_cst_46
  let main_v121 : IVec S259x128 1 := cmpf .olt main_v119 main_v120
  let main_c_47 : IVec S_ 1 := constantI S_ 1 1#1
  let main_v122 : IVec S_ 1 := (fun x v => Host.reduce IntOp.andi x v reducesTo_S259x128_S_d0_1 h_S_) main_v121 main_c_47
  let main_v123 : IVec S_ 1 := andi main_v118 main_v122
  let main_v124 : FVec F S128 .f32 := Host.absf main_arg30
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128x1 .f32 := Host.absf main_arg31
  let main_cst_50 : FVec F S_ .f32 := constant S_ .f32 0x7F800000#32
  let main_v130 : FVec F S128x1 .f32 := broadcastInDim S128x1 ![] bcast_S_S128x1 main_cst_50
  let main_v131 : IVec S128x1 1 := cmpf .olt main_v129 main_v130
  let main_c_51 : IVec S_ 1 := constantI S_ 1 1#1
  let main_v132 : IVec S_ 1 := (fun x v => Host.reduce IntOp.andi x v reducesTo_S128x1_S_d0_1 h_S_) main_v131 main_c_51
  let main_v133 : IVec S_ 1 := andi main_v128 main_v132
  let main_v134 : FVec F S1 .f32 := Host.absf main_arg32
  let main_cst_52 : FVec F S_ .f32 := constant S_ .f32 0x7F800000#32
  let main_v135 : FVec F S1 .f32 := broadcastInDim S1 ![] bcast_S_S1 main_cst_52
  let main_v136 : IVec S1 1 := cmpf .olt main_v134 main_v135
  fn_part8 (F := F) main_arg3 main_arg4 main_arg5 main_arg6 main_arg7 main_arg33 main_arg34 main_arg35 main_arg36 main_arg37 main_arg38 main_v133 main_v136

def fn_part6 {F : FTy → Type} [FloatOps F] (main_arg3 : IVec S2x500000 32) (main_arg4 : IVec S2x300000 32) (main_arg5 : IVec S2x300000 32) (main_arg6 : IVec S2x200000 32) (main_arg7 : IVec S2x200000 32) (main_arg26 : FVec F S128 .f32) (main_arg27 : FVec F S128x1 .f32) (main_arg28 : FVec F S1 .f32) (main_arg29 : FVec F S259x128 .f32) (main_arg30 : FVec F S128 .f32) (main_arg31 : FVec F S128x1 .f32) (main_arg32 : FVec F S1 .f32) (main_arg33 : FVec F S256x128 .f32) (main_arg34 : FVec F S128 .f32) (main_arg35 : FVec F S384x128 .f32) (main_arg36 : FVec F S128 .f32) (main_arg37 : FVec F S384x128 .f32) (main_arg38 : FVec F S128 .f32) (main_v98 : IVec S_ 1) (main_v101 : IVec S259x128 1) (main_c_39 : IVec S_ 1) : IVec S_ 1 :=
  let main_v102 : IVec S_ 1 := (fun x v => Host.reduce IntOp.andi x v reducesTo_S259x128_S_d0_1 h_S_) main_v101 main_c_39
  let main_v103 : IVec S_ 1 := andi main_v98 main_v102
  let main_v104 : FVec F S128 .f32 := Host.absf main_arg26
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x1 .f32 := Host.absf main_arg27
  let main_cst_42 : FVec F S_ .f32 := constant S_ .f32 0x7F800000#32
  let main_v110 : FVec F S128x1 .f32 := broadcastInDim S128x1 ![] bcast_S_S128x1 main_cst_42
  let main_v111 : IVec S128x1 1 := cmpf .olt main_v109 main_v110
  let main_c_43 : IVec S_ 1 := constantI S_ 1 1#1
  let main_v112 : IVec S_ 1 := (fun x v => Host.reduce IntOp.andi x v reducesTo_S128x1_S_d0_1 h_S_) main_v111 main_c_43
  let main_v113 : IVec S_ 1 := andi main_v108 main_v112
  let main_v114 : FVec F S1 .f32 := Host.absf main_arg28
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  let main_v119 : FVec F S259x128 .f32 := Host.absf main_arg29
  fn_part7 (F := F) main_arg3 main_arg4 main_arg5 main_arg6 main_arg7 main_arg30 main_arg31 main_arg32 main_arg33 main_arg34 main_arg35 main_arg36 main_arg37 main_arg38 main_v118 main_v119

def fn_part5 {F : FTy → Type} [FloatOps F] (main_arg3 : IVec S2x500000 32) (main_arg4 : IVec S2x300000 32) (main_arg5 : IVec S2x300000 32) (main_arg6 : IVec S2x200000 32) (main_arg7 : IVec S2x200000 32) (main_arg23 : FVec F S128x1 .f32) (main_arg24 : FVec F S1 .f32) (main_arg25 : FVec F S259x128 .f32) (main_arg26 : FVec F S128 .f32) (main_arg27 : FVec F S128x1 .f32) (main_arg28 : FVec F S1 .f32) (main_arg29 : FVec F S259x128 .f32) (main_arg30 : FVec F S128 .f32) (main_arg31 : FVec F S128x1 .f32) (main_arg32 : FVec F S1 .f32) (main_arg33 : FVec F S256x128 .f32) (main_arg34 : FVec F S128 .f32) (main_arg35 : FVec F S384x128 .f32) (main_arg36 : FVec F S128 .f32) (main_arg37 : FVec F S384x128 .f32) (main_arg38 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x1 .f32 := Host.absf main_arg23
  let main_cst_34 : FVec F S_ .f32 := constant S_ .f32 0x7F800000#32
  let main_v90 : FVec F S128x1 .f32 := broadcastInDim S128x1 ![] bcast_S_S128x1 main_cst_34
  let main_v91 : IVec S128x1 1 := cmpf .olt main_v89 main_v90
  let main_c_35 : IVec S_ 1 := constantI S_ 1 1#1
  let main_v92 : IVec S_ 1 := (fun x v => Host.reduce IntOp.andi x v reducesTo_S128x1_S_d0_1 h_S_) main_v91 main_c_35
  let main_v93 : IVec S_ 1 := andi main_v88 main_v92
  let main_v94 : FVec F S1 .f32 := Host.absf main_arg24
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_v99 : FVec F S259x128 .f32 := Host.absf main_arg25
  let main_cst_38 : FVec F S_ .f32 := constant S_ .f32 0x7F800000#32
  let main_v100 : FVec F S259x128 .f32 := broadcastInDim S259x128 ![] bcast_S_S259x128 main_cst_38
  let main_v101 : IVec S259x128 1 := cmpf .olt main_v99 main_v100
  let main_c_39 : IVec S_ 1 := constantI S_ 1 1#1
  fn_part6 (F := F) main_arg3 main_arg4 main_arg5 main_arg6 main_arg7 main_arg26 main_arg27 main_arg28 main_arg29 main_arg30 main_arg31 main_arg32 main_arg33 main_arg34 main_arg35 main_arg36 main_arg37 main_arg38 main_v98 main_v101 main_c_39

def fn_part4 {F : FTy → Type} [FloatOps F] (main_arg3 : IVec S2x500000 32) (main_arg4 : IVec S2x300000 32) (main_arg5 : IVec S2x300000 32) (main_arg6 : IVec S2x200000 32) (main_arg7 : IVec S2x200000 32) (main_arg19 : FVec F S128x1 .f32) (main_arg20 : FVec F S1 .f32) (main_arg21 : FVec F S259x128 .f32) (main_arg22 : FVec F S128 .f32) (main_arg23 : FVec F S128x1 .f32) (main_arg24 : FVec F S1 .f32) (main_arg25 : FVec F S259x128 .f32) (main_arg26 : FVec F S128 .f32) (main_arg27 : FVec F S128x1 .f32) (main_arg28 : FVec F S1 .f32) (main_arg29 : FVec F S259x128 .f32) (main_arg30 : FVec F S128 .f32) (main_arg31 : FVec F S128x1 .f32) (main_arg32 : FVec F S1 .f32) (main_arg33 : FVec F S256x128 .f32) (main_arg34 : FVec F S128 .f32) (main_arg35 : FVec F S384x128 .f32) (main_arg36 : FVec F S128 .f32) (main_arg37 : FVec F S384x128 .f32) (main_arg38 : FVec F S128 .f32) (main_v63 : IVec S_ 1) (main_v67 : IVec S_ 1) : IVec S_ 1 :=
  let main_v68 : IVec S_ 1 := andi main_v63 main_v67
  let main_v69 : FVec F S128x1 .f32 := Host.absf main_arg19
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg20
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S259x128 .f32 := Host.absf main_arg21
  let main_cst_30 : FVec F S_ .f32 := constant S_ .f32 0x7F800000#32
  let main_v80 : FVec F S259x128 .f32 := broadcastInDim S259x128 ![] bcast_S_S259x128 main_cst_30
  let main_v81 : IVec S259x128 1 := cmpf .olt main_v79 main_v80
  let main_c_31 : IVec S_ 1 := constantI S_ 1 1#1
  let main_v82 : IVec S_ 1 := (fun x v => Host.reduce IntOp.andi x v reducesTo_S259x128_S_d0_1 h_S_) main_v81 main_c_31
  let main_v83 : IVec S_ 1 := andi main_v78 main_v82
  let main_v84 : FVec F S128 .f32 := Host.absf main_arg22
  let main_cst_32 : FVec F S_ .f32 := constant S_ .f32 0x7F800000#32
  fn_part5 (F := F) main_arg3 main_arg4 main_arg5 main_arg6 main_arg7 main_arg23 main_arg24 main_arg25 main_arg26 main_arg27 main_arg28 main_arg29 main_arg30 main_arg31 main_arg32 main_arg33 main_arg34 main_arg35 main_arg36 main_arg37 main_arg38 main_v83 main_v84 main_cst_32

def fn_part3 {F : FTy → Type} [FloatOps F] (main_arg3 : IVec S2x500000 32) (main_arg4 : IVec S2x300000 32) (main_arg5 : IVec S2x300000 32) (main_arg6 : IVec S2x200000 32) (main_arg7 : IVec S2x200000 32) (main_arg16 : FVec F S1 .f32) (main_arg17 : FVec F S259x128 .f32) (main_arg18 : FVec F S128 .f32) (main_arg19 : FVec F S128x1 .f32) (main_arg20 : FVec F S1 .f32) (main_arg21 : FVec F S259x128 .f32) (main_arg22 : FVec F S128 .f32) (main_arg23 : FVec F S128x1 .f32) (main_arg24 : FVec F S1 .f32) (main_arg25 : FVec F S259x128 .f32) (main_arg26 : FVec F S128 .f32) (main_arg27 : FVec F S128x1 .f32) (main_arg28 : FVec F S1 .f32) (main_arg29 : FVec F S259x128 .f32) (main_arg30 : FVec F S128 .f32) (main_arg31 : FVec F S128x1 .f32) (main_arg32 : FVec F S1 .f32) (main_arg33 : FVec F S256x128 .f32) (main_arg34 : FVec F S128 .f32) (main_arg35 : FVec F S384x128 .f32) (main_arg36 : FVec F S128 .f32) (main_arg37 : FVec F S384x128 .f32) (main_arg38 : FVec F S128 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg16
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S259x128 .f32 := Host.absf main_arg17
  let main_cst_22 : FVec F S_ .f32 := constant S_ .f32 0x7F800000#32
  let main_v60 : FVec F S259x128 .f32 := broadcastInDim S259x128 ![] bcast_S_S259x128 main_cst_22
  let main_v61 : IVec S259x128 1 := cmpf .olt main_v59 main_v60
  let main_c_23 : IVec S_ 1 := constantI S_ 1 1#1
  let main_v62 : IVec S_ 1 := (fun x v => Host.reduce IntOp.andi x v reducesTo_S259x128_S_d0_1 h_S_) main_v61 main_c_23
  let main_v63 : IVec S_ 1 := andi main_v58 main_v62
  let main_v64 : FVec F S128 .f32 := Host.absf main_arg18
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg3 main_arg4 main_arg5 main_arg6 main_arg7 main_arg19 main_arg20 main_arg21 main_arg22 main_arg23 main_arg24 main_arg25 main_arg26 main_arg27 main_arg28 main_arg29 main_arg30 main_arg31 main_arg32 main_arg33 main_arg34 main_arg35 main_arg36 main_arg37 main_arg38 main_v63 main_v67

def fn_part2 {F : FTy → Type} [FloatOps F] (main_arg3 : IVec S2x500000 32) (main_arg4 : IVec S2x300000 32) (main_arg5 : IVec S2x300000 32) (main_arg6 : IVec S2x200000 32) (main_arg7 : IVec S2x200000 32) (main_arg12 : FVec F S200000x3 .f32) (main_arg13 : FVec F S259x128 .f32) (main_arg14 : FVec F S128 .f32) (main_arg15 : FVec F S128x1 .f32) (main_arg16 : FVec F S1 .f32) (main_arg17 : FVec F S259x128 .f32) (main_arg18 : FVec F S128 .f32) (main_arg19 : FVec F S128x1 .f32) (main_arg20 : FVec F S1 .f32) (main_arg21 : FVec F S259x128 .f32) (main_arg22 : FVec F S128 .f32) (main_arg23 : FVec F S128x1 .f32) (main_arg24 : FVec F S1 .f32) (main_arg25 : FVec F S259x128 .f32) (main_arg26 : FVec F S128 .f32) (main_arg27 : FVec F S128x1 .f32) (main_arg28 : FVec F S1 .f32) (main_arg29 : FVec F S259x128 .f32) (main_arg30 : FVec F S128 .f32) (main_arg31 : FVec F S128x1 .f32) (main_arg32 : FVec F S1 .f32) (main_arg33 : FVec F S256x128 .f32) (main_arg34 : FVec F S128 .f32) (main_arg35 : FVec F S384x128 .f32) (main_arg36 : FVec F S128 .f32) (main_arg37 : FVec F S384x128 .f32) (main_arg38 : FVec F S128 .f32) (main_v33 : IVec S_ 1) : IVec S_ 1 :=
  let main_v34 : FVec F S200000x3 .f32 := Host.absf main_arg12
  let main_cst_12 : FVec F S_ .f32 := constant S_ .f32 0x7F800000#32
  let main_v35 : FVec F S200000x3 .f32 := broadcastInDim S200000x3 ![] bcast_S_S200000x3 main_cst_12
  let main_v36 : IVec S200000x3 1 := cmpf .olt main_v34 main_v35
  let main_c_13 : IVec S_ 1 := constantI S_ 1 1#1
  let main_v37 : IVec S_ 1 := (fun x v => Host.reduce IntOp.andi x v reducesTo_S200000x3_S_d0_1 h_S_) main_v36 main_c_13
  let main_v38 : IVec S_ 1 := andi main_v33 main_v37
  let main_v39 : FVec F S259x128 .f32 := Host.absf main_arg13
  let main_cst_14 : FVec F S_ .f32 := constant S_ .f32 0x7F800000#32
  let main_v40 : FVec F S259x128 .f32 := broadcastInDim S259x128 ![] bcast_S_S259x128 main_cst_14
  let main_v41 : IVec S259x128 1 := cmpf .olt main_v39 main_v40
  let main_c_15 : IVec S_ 1 := constantI S_ 1 1#1
  let main_v42 : IVec S_ 1 := (fun x v => Host.reduce IntOp.andi x v reducesTo_S259x128_S_d0_1 h_S_) main_v41 main_c_15
  let main_v43 : IVec S_ 1 := andi main_v38 main_v42
  let main_v44 : FVec F S128 .f32 := Host.absf main_arg14
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg15
  let main_cst_18 : FVec F S_ .f32 := constant S_ .f32 0x7F800000#32
  let main_v50 : FVec F S128x1 .f32 := broadcastInDim S128x1 ![] bcast_S_S128x1 main_cst_18
  fn_part3 (F := F) main_arg3 main_arg4 main_arg5 main_arg6 main_arg7 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_v48 main_v49 main_v50

def fn_part1 {F : FTy → Type} [FloatOps F] (main_arg3 : IVec S2x500000 32) (main_arg4 : IVec S2x300000 32) (main_arg5 : IVec S2x300000 32) (main_arg6 : IVec S2x200000 32) (main_arg7 : IVec S2x200000 32) (main_arg9 : FVec F S300000x3 .f32) (main_arg10 : FVec F S300000x3 .f32) (main_arg11 : FVec F S200000x3 .f32) (main_arg12 : FVec F S200000x3 .f32) (main_arg13 : FVec F S259x128 .f32) (main_arg14 : FVec F S128 .f32) (main_arg15 : FVec F S128x1 .f32) (main_arg16 : FVec F S1 .f32) (main_arg17 : FVec F S259x128 .f32) (main_arg18 : FVec F S128 .f32) (main_arg19 : FVec F S128x1 .f32) (main_arg20 : FVec F S1 .f32) (main_arg21 : FVec F S259x128 .f32) (main_arg22 : FVec F S128 .f32) (main_arg23 : FVec F S128x1 .f32) (main_arg24 : FVec F S1 .f32) (main_arg25 : FVec F S259x128 .f32) (main_arg26 : FVec F S128 .f32) (main_arg27 : FVec F S128x1 .f32) (main_arg28 : FVec F S1 .f32) (main_arg29 : FVec F S259x128 .f32) (main_arg30 : FVec F S128 .f32) (main_arg31 : FVec F S128x1 .f32) (main_arg32 : FVec F S1 .f32) (main_arg33 : FVec F S256x128 .f32) (main_arg34 : FVec F S128 .f32) (main_arg35 : FVec F S384x128 .f32) (main_arg36 : FVec F S128 .f32) (main_arg37 : FVec F S384x128 .f32) (main_arg38 : FVec F S128 .f32) (main_v13 : IVec S_ 1) (main_v16 : IVec S500000x3 1) : IVec S_ 1 :=
  let main_c_5 : IVec S_ 1 := constantI S_ 1 1#1
  let main_v17 : IVec S_ 1 := (fun x v => Host.reduce IntOp.andi x v reducesTo_S500000x3_S_d0_1 h_S_) main_v16 main_c_5
  let main_v18 : IVec S_ 1 := andi main_v13 main_v17
  let main_v19 : FVec F S300000x3 .f32 := Host.absf main_arg9
  let main_cst_6 : FVec F S_ .f32 := constant S_ .f32 0x7F800000#32
  let main_v20 : FVec F S300000x3 .f32 := broadcastInDim S300000x3 ![] bcast_S_S300000x3 main_cst_6
  let main_v21 : IVec S300000x3 1 := cmpf .olt main_v19 main_v20
  let main_c_7 : IVec S_ 1 := constantI S_ 1 1#1
  let main_v22 : IVec S_ 1 := (fun x v => Host.reduce IntOp.andi x v reducesTo_S300000x3_S_d0_1 h_S_) main_v21 main_c_7
  let main_v23 : IVec S_ 1 := andi main_v18 main_v22
  let main_v24 : FVec F S300000x3 .f32 := Host.absf main_arg10
  let main_cst_8 : FVec F S_ .f32 := constant S_ .f32 0x7F800000#32
  let main_v25 : FVec F S300000x3 .f32 := broadcastInDim S300000x3 ![] bcast_S_S300000x3 main_cst_8
  let main_v26 : IVec S300000x3 1 := cmpf .olt main_v24 main_v25
  let main_c_9 : IVec S_ 1 := constantI S_ 1 1#1
  let main_v27 : IVec S_ 1 := (fun x v => Host.reduce IntOp.andi x v reducesTo_S300000x3_S_d0_1 h_S_) main_v26 main_c_9
  let main_v28 : IVec S_ 1 := andi main_v23 main_v27
  let main_v29 : FVec F S200000x3 .f32 := Host.absf main_arg11
  let main_cst_10 : FVec F S_ .f32 := constant S_ .f32 0x7F800000#32
  let main_v30 : FVec F S200000x3 .f32 := broadcastInDim S200000x3 ![] bcast_S_S200000x3 main_cst_10
  let main_v31 : IVec S200000x3 1 := cmpf .olt main_v29 main_v30
  let main_c_11 : IVec S_ 1 := constantI S_ 1 1#1
  let main_v32 : IVec S_ 1 := (fun x v => Host.reduce IntOp.andi x v reducesTo_S200000x3_S_d0_1 h_S_) main_v31 main_c_11
  let main_v33 : IVec S_ 1 := andi main_v28 main_v32
  fn_part2 (F := F) main_arg3 main_arg4 main_arg5 main_arg6 main_arg7 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_v33

def fn {F : FTy → Type} [FloatOps F] (main_arg0 : FVec F S100000x128 .f32) (main_arg1 : FVec F S150000x128 .f32) (main_arg2 : FVec F S80000x128 .f32) (main_arg3 : IVec S2x500000 32) (main_arg4 : IVec S2x300000 32) (main_arg5 : IVec S2x300000 32) (main_arg6 : IVec S2x200000 32) (main_arg7 : IVec S2x200000 32) (main_arg8 : FVec F S500000x3 .f32) (main_arg9 : FVec F S300000x3 .f32) (main_arg10 : FVec F S300000x3 .f32) (main_arg11 : FVec F S200000x3 .f32) (main_arg12 : FVec F S200000x3 .f32) (main_arg13 : FVec F S259x128 .f32) (main_arg14 : FVec F S128 .f32) (main_arg15 : FVec F S128x1 .f32) (main_arg16 : FVec F S1 .f32) (main_arg17 : FVec F S259x128 .f32) (main_arg18 : FVec F S128 .f32) (main_arg19 : FVec F S128x1 .f32) (main_arg20 : FVec F S1 .f32) (main_arg21 : FVec F S259x128 .f32) (main_arg22 : FVec F S128 .f32) (main_arg23 : FVec F S128x1 .f32) (main_arg24 : FVec F S1 .f32) (main_arg25 : FVec F S259x128 .f32) (main_arg26 : FVec F S128 .f32) (main_arg27 : FVec F S128x1 .f32) (main_arg28 : FVec F S1 .f32) (main_arg29 : FVec F S259x128 .f32) (main_arg30 : FVec F S128 .f32) (main_arg31 : FVec F S128x1 .f32) (main_arg32 : FVec F S1 .f32) (main_arg33 : FVec F S256x128 .f32) (main_arg34 : FVec F S128 .f32) (main_arg35 : FVec F S384x128 .f32) (main_arg36 : FVec F S128 .f32) (main_arg37 : FVec F S384x128 .f32) (main_arg38 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S150000x128 .f32 := Host.absf main_arg1
  let main_cst_0 : FVec F S_ .f32 := constant S_ .f32 0x7F800000#32
  let main_v5 : FVec F S150000x128 .f32 := broadcastInDim S150000x128 ![] bcast_S_S150000x128 main_cst_0
  let main_v6 : IVec S150000x128 1 := cmpf .olt main_v4 main_v5
  let main_c_1 : IVec S_ 1 := constantI S_ 1 1#1
  let main_v7 : IVec S_ 1 := (fun x v => Host.reduce IntOp.andi x v reducesTo_S150000x128_S_d0_1 h_S_) main_v6 main_c_1
  let main_v8 : IVec S_ 1 := andi main_v3 main_v7
  let main_v9 : FVec F S80000x128 .f32 := Host.absf main_arg2
  let main_cst_2 : FVec F S_ .f32 := constant S_ .f32 0x7F800000#32
  let main_v10 : FVec F S80000x128 .f32 := broadcastInDim S80000x128 ![] bcast_S_S80000x128 main_cst_2
  let main_v11 : IVec S80000x128 1 := cmpf .olt main_v9 main_v10
  let main_c_3 : IVec S_ 1 := constantI S_ 1 1#1
  let main_v12 : IVec S_ 1 := (fun x v => Host.reduce IntOp.andi x v reducesTo_S80000x128_S_d0_1 h_S_) main_v11 main_c_3
  let main_v13 : IVec S_ 1 := andi main_v8 main_v12
  let main_v14 : FVec F S500000x3 .f32 := Host.absf main_arg8
  let main_cst_4 : FVec F S_ .f32 := constant S_ .f32 0x7F800000#32
  let main_v15 : FVec F S500000x3 .f32 := broadcastInDim S500000x3 ![] bcast_S_S500000x3 main_cst_4
  let main_v16 : IVec S500000x3 1 := cmpf .olt main_v14 main_v15
  fn_part1 (F := F) main_arg3 main_arg4 main_arg5 main_arg6 main_arg7 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_v13 main_v16
-- ==== Kernel.lean ====
abbrev S100000x128 : Shape := ⟨2, ![100000, 128]⟩
abbrev S150000x128 : Shape := ⟨2, ![150000, 128]⟩
abbrev S80000x128 : Shape := ⟨2, ![80000, 128]⟩
abbrev S2x500000 : Shape := ⟨2, ![2, 500000]⟩
abbrev S2x300000 : Shape := ⟨2, ![2, 300000]⟩
abbrev S2x200000 : Shape := ⟨2, ![2, 200000]⟩
abbrev S500000x3 : Shape := ⟨2, ![500000, 3]⟩
abbrev S300000x3 : Shape := ⟨2, ![300000, 3]⟩
abbrev S200000x3 : Shape := ⟨2, ![200000, 3]⟩
abbrev S259x128 : Shape := ⟨2, ![259, 128]⟩
abbrev S128 : Shape := ⟨1, ![128]⟩
abbrev S128x1 : Shape := ⟨2, ![128, 1]⟩
abbrev S1 : Shape := ⟨1, ![1]⟩
abbrev S256x128 : Shape := ⟨2, ![256, 128]⟩
abbrev S384x128 : Shape := ⟨2, ![384, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1x1 : Shape := ⟨2, ![1, 1]⟩
abbrev S500000x128 : Shape := ⟨2, ![500000, 128]⟩
abbrev S128x128 : Shape := ⟨2, ![128, 128]⟩
abbrev S3x128 : Shape := ⟨2, ![3, 128]⟩
abbrev S5000x128 : Shape := ⟨2, ![5000, 128]⟩
abbrev S5000x3 : Shape := ⟨2, ![5000, 3]⟩
abbrev S1x128 : Shape := ⟨2, ![1, 128]⟩
abbrev S5000 : Shape := ⟨1, ![5000]⟩
abbrev S5000x1 : Shape := ⟨2, ![5000, 1]⟩
abbrev S1x300000 : Shape := ⟨2, ![1, 300000]⟩
abbrev S300000 : Shape := ⟨1, ![300000]⟩
abbrev S300000x1 : Shape := ⟨2, ![300000, 1]⟩
abbrev S300000x128 : Shape := ⟨2, ![300000, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩

abbrev nBuf : Space → Nat
  | .hbm => 345
  | .vmem => 103
  | .smem => 0
  | _ => 0

abbrev hbmTy0_0 (i : Nat) : BufTy := match i % 128 with
  | 0 => ⟨S100000x128, .f32⟩
  | 1 => ⟨S150000x128, .f32⟩
  | 2 => ⟨S80000x128, .f32⟩
  | 3 => ⟨S2x500000, .i32⟩
  | 4 => ⟨S2x300000, .i32⟩
  | 5 => ⟨S2x300000, .i32⟩
  | 6 => ⟨S2x200000, .i32⟩
  | 7 => ⟨S2x200000, .i32⟩
  | 8 => ⟨S500000x3, .f32⟩
  | 9 => ⟨S300000x3, .f32⟩
  | 10 => ⟨S300000x3, .f32⟩
  | 11 => ⟨S200000x3, .f32⟩
  | 12 => ⟨S200000x3, .f32⟩
  | 13 => ⟨S259x128, .f32⟩
  | 14 => ⟨S128, .f32⟩
  | 15 => ⟨S128x1, .f32⟩
  | 16 => ⟨S1, .f32⟩
  | 17 => ⟨S259x128, .f32⟩
  | 18 => ⟨S128, .f32⟩
  | 19 => ⟨S128x1, .f32⟩
  | 20 => ⟨S1, .f32⟩
  | 21 => ⟨S259x128, .f32⟩
  | 22 => ⟨S128, .f32⟩
  | 23 => ⟨S128x1, .f32⟩
  | 24 => ⟨S1, .f32⟩
  | 25 => ⟨S259x128, .f32⟩
  | 26 => ⟨S128, .f32⟩
  | 27 => ⟨S128x1, .f32⟩
  | 28 => ⟨S1, .f32⟩
  | 29 => ⟨S259x128, .f32⟩
  | 30 => ⟨S128, .f32⟩
  | 31 => ⟨S128x1, .f32⟩
  | 32 => ⟨S1, .f32⟩
  | 33 => ⟨S256x128, .f32⟩
  | 34 => ⟨S128, .f32⟩
  | 35 => ⟨S384x128, .f32⟩
  | 36 => ⟨S128, .f32⟩
  | 37 => ⟨S384x128, .f32⟩
  | 38 => ⟨S128, .f32⟩
  | 39 => ⟨S1x500000, .i32⟩
  | 40 => ⟨S500000, .i32⟩
  | 41 => ⟨S1x500000, .i32⟩
  | 42 => ⟨S500000, .i32⟩
  | 43 => ⟨S_, .i32⟩
  | 44 => ⟨S500000, .i32⟩
  | 45 => ⟨S500000, .i1⟩
  | 46 => ⟨S_, .i32⟩
  | 47 => ⟨S500000, .i32⟩
  | 48 => ⟨S500000, .i32⟩
  | 49 => ⟨S500000, .i32⟩
  | 50 => ⟨S500000x1, .i32⟩
  | 51 => ⟨S1, .i32⟩
  | 52 => ⟨S_, .i32⟩
  | 53 => ⟨S500000x1, .i32⟩
  | 54 => ⟨S500000x1, .i1⟩
  | 55 => ⟨S1x1, .i32⟩
  | 56 => ⟨S500000x1, .i32⟩
  | 57 => ⟨S500000x1, .i1⟩
  | 58 => ⟨S500000x1, .i1⟩
  | 59 => ⟨S_, .i1⟩
  | 60 => ⟨S500000, .i1⟩
  | 61 => ⟨S500000x128, .f32⟩
  | 62 => ⟨S500000x128, .i1⟩
  | 63 => ⟨S_, .f32⟩
  | 64 => ⟨S500000x128, .f32⟩
  | 65 => ⟨S500000x128, .f32⟩
  | 66 => ⟨S_, .i32⟩
  | 67 => ⟨S500000, .i32⟩
  | 68 => ⟨S500000, .i1⟩
  | 69 => ⟨S_, .i32⟩
  | 70 => ⟨S500000, .i32⟩
  | 71 => ⟨S500000, .i32⟩
  | 72 => ⟨S500000, .i32⟩
  | 73 => ⟨S500000x1, .i32⟩
  | 74 => ⟨S1, .i32⟩
  | 75 => ⟨S_, .i32⟩
  | 76 => ⟨S500000x1, .i32⟩
  | 77 => ⟨S500000x1, .i1⟩
  | 78 => ⟨S1x1, .i32⟩
  | 79 => ⟨S500000x1, .i32⟩
  | 80 => ⟨S500000x1, .i1⟩
  | 81 => ⟨S500000x1, .i1⟩
  | 82 => ⟨S_, .i1⟩
  | 83 => ⟨S500000, .i1⟩
  | 84 => ⟨S500000x128, .f32⟩
  | 85 => ⟨S500000x128, .i1⟩
  | 86 => ⟨S_, .f32⟩
  | 87 => ⟨S500000x128, .f32⟩
  | 88 => ⟨S500000x128, .f32⟩
  | 89 => ⟨S128x128, .f32⟩
  | 90 => ⟨S128x128, .f32⟩
  | 91 => ⟨S3x128, .f32⟩
  | 92 => ⟨S128, .f32⟩
  | 93 => ⟨S500000x128, .f32⟩
  | 94 => ⟨S_, .f32⟩
  | 95 => ⟨S100000x128, .f32⟩
  | 96 => ⟨S500000x1, .i32⟩
  | 97 => ⟨S100000x128, .f32⟩
  | 98 => ⟨S1x300000, .i32⟩
  | 99 => ⟨S300000, .i32⟩
  | 100 => ⟨S1x300000, .i32⟩
  | 101 => ⟨S300000, .i32⟩
  | 102 => ⟨S_, .i32⟩
  | 103 => ⟨S300000, .i32⟩
  | 104 => ⟨S300000, .i1⟩
  | 105 => ⟨S_, .i32⟩
  | 106 => ⟨S300000, .i32⟩
  | 107 => ⟨S300000, .i32⟩
  | 108 => ⟨S300000, .i32⟩
  | 109 => ⟨S300000x1, .i32⟩
  | 110 => ⟨S1, .i32⟩
  | 111 => ⟨S_, .i32⟩
  | 112 => ⟨S300000x1, .i32⟩
  | 113 => ⟨S300000x1, .i1⟩
  | 114 => ⟨S1x1, .i32⟩
  | 115 => ⟨S300000x1, .i32⟩
  | 116 => ⟨S300000x1, .i1⟩
  | 117 => ⟨S300000x1, .i1⟩
  | 118 => ⟨S_, .i1⟩
  | 119 => ⟨S300000, .i1⟩
  | 120 => ⟨S300000x128, .f32⟩
  | 121 => ⟨S300000x128, .i1⟩
  | 122 => ⟨S_, .f32⟩
  | 123 => ⟨S300000x128, .f32⟩
  | 124 => ⟨S300000x128, .f32⟩
  | 125 => ⟨S_, .i32⟩
  | 126 => ⟨S300000, .i32⟩
  | 127 => ⟨S300000, .i1⟩
  | _ => ⟨S100000x128, .f32⟩

abbrev hbmTy0_1 (i : Nat) : BufTy := match i % 128 with
  | 0 => ⟨S_, .i32⟩
  | 1 => ⟨S300000, .i32⟩
  | 2 => ⟨S300000, .i32⟩
  | 3 => ⟨S300000, .i32⟩
  | 4 => ⟨S300000x1, .i32⟩
  | 5 => ⟨S1, .i32⟩
  | 6 => ⟨S_, .i32⟩
  | 7 => ⟨S300000x1, .i32⟩
  | 8 => ⟨S300000x1, .i1⟩
  | 9 => ⟨S1x1, .i32⟩
  | 10 => ⟨S300000x1, .i32⟩
  | 11 => ⟨S300000x1, .i1⟩
  | 12 => ⟨S300000x1, .i1⟩
  | 13 => ⟨S_, .i1⟩
  | 14 => ⟨S300000, .i1⟩
  | 15 => ⟨S300000x128, .f32⟩
  | 16 => ⟨S300000x128, .i1⟩
  | 17 => ⟨S_, .f32⟩
  | 18 => ⟨S300000x128, .f32⟩
  | 19 => ⟨S300000x128, .f32⟩
  | 20 => ⟨S128x128, .f32⟩
  | 21 => ⟨S128x128, .f32⟩
  | 22 => ⟨S3x128, .f32⟩
  | 23 => ⟨S128, .f32⟩
  | 24 => ⟨S300000x128, .f32⟩
  | 25 => ⟨S_, .f32⟩
  | 26 => ⟨S150000x128, .f32⟩
  | 27 => ⟨S300000x1, .i32⟩
  | 28 => ⟨S150000x128, .f32⟩
  | 29 => ⟨S1x300000, .i32⟩
  | 30 => ⟨S300000, .i32⟩
  | 31 => ⟨S1x300000, .i32⟩
  | 32 => ⟨S300000, .i32⟩
  | 33 => ⟨S_, .i32⟩
  | 34 => ⟨S300000, .i32⟩
  | 35 => ⟨S300000, .i1⟩
  | 36 => ⟨S_, .i32⟩
  | 37 => ⟨S300000, .i32⟩
  | 38 => ⟨S300000, .i32⟩
  | 39 => ⟨S300000, .i32⟩
  | 40 => ⟨S300000x1, .i32⟩
  | 41 => ⟨S1, .i32⟩
  | 42 => ⟨S_, .i32⟩
  | 43 => ⟨S300000x1, .i32⟩
  | 44 => ⟨S300000x1, .i1⟩
  | 45 => ⟨S1x1, .i32⟩
  | 46 => ⟨S300000x1, .i32⟩
  | 47 => ⟨S300000x1, .i1⟩
  | 48 => ⟨S300000x1, .i1⟩
  | 49 => ⟨S_, .i1⟩
  | 50 => ⟨S300000, .i1⟩
  | 51 => ⟨S300000x128, .f32⟩
  | 52 => ⟨S300000x128, .i1⟩
  | 53 => ⟨S_, .f32⟩
  | 54 => ⟨S300000x128, .f32⟩
  | 55 => ⟨S300000x128, .f32⟩
  | 56 => ⟨S_, .i32⟩
  | 57 => ⟨S300000, .i32⟩
  | 58 => ⟨S300000, .i1⟩
  | 59 => ⟨S_, .i32⟩
  | 60 => ⟨S300000, .i32⟩
  | 61 => ⟨S300000, .i32⟩
  | 62 => ⟨S300000, .i32⟩
  | 63 => ⟨S300000x1, .i32⟩
  | 64 => ⟨S1, .i32⟩
  | 65 => ⟨S_, .i32⟩
  | 66 => ⟨S300000x1, .i32⟩
  | 67 => ⟨S300000x1, .i1⟩
  | 68 => ⟨S1x1, .i32⟩
  | 69 => ⟨S300000x1, .i32⟩
  | 70 => ⟨S300000x1, .i1⟩
  | 71 => ⟨S300000x1, .i1⟩
  | 72 => ⟨S_, .i1⟩
  | 73 => ⟨S300000, .i1⟩
  | 74 => ⟨S300000x128, .f32⟩
  | 75 => ⟨S300000x128, .i1⟩
  | 76 => ⟨S_, .f32⟩
  | 77 => ⟨S300000x128, .f32⟩
  | 78 => ⟨S300000x128, .f32⟩
  | 79 => ⟨S128x128, .f32⟩
  | 80 => ⟨S128x128, .f32⟩
  | 81 => ⟨S3x128, .f32⟩
  | 82 => ⟨S128, .f32⟩
  | 83 => ⟨S300000x128, .f32⟩
  | 84 => ⟨S_, .f32⟩
  | 85 => ⟨S150000x128, .f32⟩
  | 86 => ⟨S300000x1, .i32⟩
  | 87 => ⟨S150000x128, .f32⟩
  | 88 => ⟨S1x200000, .i32⟩
  | 89 => ⟨S200000, .i32⟩
  | 90 => ⟨S1x200000, .i32⟩
  | 91 => ⟨S200000, .i32⟩
  | 92 => ⟨S_, .i32⟩
  | 93 => ⟨S200000, .i32⟩
  | 94 => ⟨S200000, .i1⟩
  | 95 => ⟨S_, .i32⟩
  | 96 => ⟨S200000, .i32⟩
  | 97 => ⟨S200000, .i32⟩
  | 98 => ⟨S200000, .i32⟩
  | 99 => ⟨S200000x1, .i32⟩
  | 100 => ⟨S1, .i32⟩
  | 101 => ⟨S_, .i32⟩
  | 102 => ⟨S200000x1, .i32⟩
  | 103 => ⟨S200000x1, .i1⟩
  | 104 => ⟨S1x1, .i32⟩
  | 105 => ⟨S200000x1, .i32⟩
  | 106 => ⟨S200000x1, .i1⟩
  | 107 => ⟨S200000x1, .i1⟩
  | 108 => ⟨S_, .i1⟩
  | 109 => ⟨S200000, .i1⟩
  | 110 => ⟨S200000x128, .f32⟩
  | 111 => ⟨S200000x128, .i1⟩
  | 112 => ⟨S_, .f32⟩
  | 113 => ⟨S200000x128, .f32⟩
  | 114 => ⟨S200000x128, .f32⟩
  | 115 => ⟨S_, .i32⟩
  | 116 => ⟨S200000, .i32⟩
  | 117 => ⟨S200000, .i1⟩
  | 118 => ⟨S_, .i32⟩
  | 119 => ⟨S200000, .i32⟩
  | 120 => ⟨S200000, .i32⟩
  | 121 => ⟨S200000, .i32⟩
  | 122 => ⟨S200000x1, .i32⟩
  | 123 => ⟨S1, .i32⟩
  | 124 => ⟨S_, .i32⟩
  | 125 => ⟨S200000x1, .i32⟩
  | 126 => ⟨S200000x1, .i1⟩
  | 127 => ⟨S1x1, .i32⟩
  | _ => ⟨S100000x128, .f32⟩

abbrev hbmTy0_2 (i : Nat) : BufTy := match i % 128 with
  | 0 => ⟨S200000x1, .i32⟩
  | 1 => ⟨S200000x1, .i1⟩
  | 2 => ⟨S200000x1, .i1⟩
  | 3 => ⟨S_, .i1⟩
  | 4 => ⟨S200000, .i1⟩
  | 5 => ⟨S200000x128, .f32⟩
  | 6 => ⟨S200000x128, .i1⟩
  | 7 => ⟨S_, .f32⟩
  | 8 => ⟨S200000x128, .f32⟩
  | 9 => ⟨S200000x128, .f32⟩
  | 10 => ⟨S128x128, .f32⟩
  | 11 => ⟨S128x128, .f32⟩
  | 12 => ⟨S3x128, .f32⟩
  | 13 => ⟨S128, .f32⟩
  | 14 => ⟨S200000x128, .f32⟩
  | 15 => ⟨S_, .f32⟩
  | 16 => ⟨S80000x128, .f32⟩
  | 17 => ⟨S200000x1, .i32⟩
  | 18 => ⟨S80000x128, .f32⟩
  | 19 => ⟨S1x200000, .i32⟩
  | 20 => ⟨S200000, .i32⟩
  | 21 => ⟨S1x200000, .i32⟩
  | 22 => ⟨S200000, .i32⟩
  | 23 => ⟨S_, .i32⟩
  | 24 => ⟨S200000, .i32⟩
  | 25 => ⟨S200000, .i1⟩
  | 26 => ⟨S_, .i32⟩
  | 27 => ⟨S200000, .i32⟩
  | 28 => ⟨S200000, .i32⟩
  | 29 => ⟨S200000, .i32⟩
  | 30 => ⟨S200000x1, .i32⟩
  | 31 => ⟨S1, .i32⟩
  | 32 => ⟨S_, .i32⟩
  | 33 => ⟨S200000x1, .i32⟩
  | 34 => ⟨S200000x1, .i1⟩
  | 35 => ⟨S1x1, .i32⟩
  | 36 => ⟨S200000x1, .i32⟩
  | 37 => ⟨S200000x1, .i1⟩
  | 38 => ⟨S200000x1, .i1⟩
  | 39 => ⟨S_, .i1⟩
  | 40 => ⟨S200000, .i1⟩
  | 41 => ⟨S200000x128, .f32⟩
  | 42 => ⟨S200000x128, .i1⟩
  | 43 => ⟨S_, .f32⟩
  | 44 => ⟨S200000x128, .f32⟩
  | 45 => ⟨S200000x128, .f32⟩
  | 46 => ⟨S_, .i32⟩
  | 47 => ⟨S200000, .i32⟩
  | 48 => ⟨S200000, .i1⟩
  | 49 => ⟨S_, .i32⟩
  | 50 => ⟨S200000, .i32⟩
  | 51 => ⟨S200000, .i32⟩
  | 52 => ⟨S200000, .i32⟩
  | 53 => ⟨S200000x1, .i32⟩
  | 54 => ⟨S1, .i32⟩
  | 55 => ⟨S_, .i32⟩
  | 56 => ⟨S200000x1, .i32⟩
  | 57 => ⟨S200000x1, .i1⟩
  | 58 => ⟨S1x1, .i32⟩
  | 59 => ⟨S200000x1, .i32⟩
  | 60 => ⟨S200000x1, .i1⟩
  | 61 => ⟨S200000x1, .i1⟩
  | 62 => ⟨S_, .i1⟩
  | 63 => ⟨S200000, .i1⟩
  | 64 => ⟨S200000x128, .f32⟩
  | 65 => ⟨S200000x128, .i1⟩
  | 66 => ⟨S_, .f32⟩
  | 67 => ⟨S200000x128, .f32⟩
  | 68 => ⟨S200000x128, .f32⟩
  | 69 => ⟨S128x128, .f32⟩
  | 70 => ⟨S128x128, .f32⟩
  | 71 => ⟨S3x128, .f32⟩
  | 72 => ⟨S128, .f32⟩
  | 73 => ⟨S200000x128, .f32⟩
  | 74 => ⟨S_, .f32⟩
  | 75 => ⟨S80000x128, .f32⟩
  | 76 => ⟨S200000x1, .i32⟩
  | 77 => ⟨S80000x128, .f32⟩
  | 78 => ⟨S128x128, .f32⟩
  | 79 => ⟨S128x128, .f32⟩
  | 80 => ⟨S100000x128, .f32⟩
  | 81 => ⟨S128x128, .f32⟩
  | 82 => ⟨S128x128, .f32⟩
  | 83 => ⟨S128x128, .f32⟩
  | 84 => ⟨S150000x128, .f32⟩
  | 85 => ⟨S128x128, .f32⟩
  | 86 => ⟨S128x128, .f32⟩
  | 87 => ⟨S128x128, .f32⟩
  | 88 => ⟨S80000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x3, .f32⟩
  | .local _ .vmem, ⟨5, _⟩ => ⟨S5000x3, .f32⟩
  | .local _ .vmem, ⟨6, _⟩ => ⟨S128x128, .f32⟩
  | .local _ .vmem, ⟨7, _⟩ => ⟨S128x128, .f32⟩
  | .local _ .vmem, ⟨8, _⟩ => ⟨S3x128, .f32⟩
  | .local _ .vmem, ⟨9, _⟩ => ⟨S128, .f32⟩
  | .local _ .vmem, ⟨10, _⟩ => ⟨S128, .f32⟩
  | .local _ .vmem, ⟨11, _⟩ => ⟨S1, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x3, .f32⟩
  | .local _ .vmem, ⟨19, _⟩ => ⟨S5000x3, .f32⟩
  | .local _ .vmem, ⟨20, _⟩ => ⟨S128x128, .f32⟩
  | .local _ .vmem, ⟨21, _⟩ => ⟨S128x128, .f32⟩
  | .local _ .vmem, ⟨22, _⟩ => ⟨S3x128, .f32⟩
  | .local _ .vmem, ⟨23, _⟩ => ⟨S128, .f32⟩
  | .local _ .vmem, ⟨24, _⟩ => ⟨S128, .f32⟩
  | .local _ .vmem, ⟨25, _⟩ => ⟨S1, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x3, .f32⟩
  | .local _ .vmem, ⟨33, _⟩ => ⟨S5000x3, .f32⟩
  | .local _ .vmem, ⟨34, _⟩ => ⟨S128x128, .f32⟩
  | .local _ .vmem, ⟨35, _⟩ => ⟨S128x128, .f32⟩
  | .local _ .vmem, ⟨36, _⟩ => ⟨S3x128, .f32⟩
  | .local _ .vmem, ⟨37, _⟩ => ⟨S128, .f32⟩
  | .local _ .vmem, ⟨38, _⟩ => ⟨S128, .f32⟩
  | .local _ .vmem, ⟨39, _⟩ => ⟨S1, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x3, .f32⟩
  | .local _ .vmem, ⟨47, _⟩ => ⟨S5000x3, .f32⟩
  | .local _ .vmem, ⟨48, _⟩ => ⟨S128x128, .f32⟩
  | .local _ .vmem, ⟨49, _⟩ => ⟨S128x128, .f32⟩
  | .local _ .vmem, ⟨50, _⟩ => ⟨S3x128, .f32⟩
  | .local _ .vmem, ⟨51, _⟩ => ⟨S128, .f32⟩
  | .local _ .vmem, ⟨52, _⟩ => ⟨S128, .f32⟩
  | .local _ .vmem, ⟨53, _⟩ => ⟨S1, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S5000x3, .f32⟩
  | .local _ .vmem, ⟨61, _⟩ => ⟨S5000x3, .f32⟩
  | .local _ .vmem, ⟨62, _⟩ => ⟨S128x128, .f32⟩
  | .local _ .vmem, ⟨63, _⟩ => ⟨S128x128, .f32⟩
  | .local _ .vmem, ⟨64, _⟩ => ⟨S3x128, .f32⟩
  | .local _ .vmem, ⟨65, _⟩ => ⟨S128, .f32⟩
  | .local _ .vmem, ⟨66, _⟩ => ⟨S128, .f32⟩
  | .local _ .vmem, ⟨67, _⟩ => ⟨S1, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x128, .f32⟩
  | .local _ .vmem, ⟨74, _⟩ => ⟨S128x128, .f32⟩
  | .local _ .vmem, ⟨75, _⟩ => ⟨S128x128, .f32⟩
  | .local _ .vmem, ⟨76, _⟩ => ⟨S128, .f32⟩
  | .local _ .vmem, ⟨77, _⟩ => ⟨S5000x128, .f32⟩
  | .local _ .vmem, ⟨78, _⟩ => ⟨S5000x128, .f32⟩
  | .local _ .vmem, ⟨79, _⟩ => ⟨S5000x128, .f32⟩
  | .local _ .vmem, ⟨80, _⟩ => ⟨S5000x128, .f32⟩
  | .local _ .vmem, ⟨81, _⟩ => ⟨S5000x128, .f32⟩
  | .local _ .vmem, ⟨82, _⟩ => ⟨S5000x128, .f32⟩
  | .local _ .vmem, ⟨83, _⟩ => ⟨S5000x128, .f32⟩
  | .local _ .vmem, ⟨84, _⟩ => ⟨S5000x128, .f32⟩
  | .local _ .vmem, ⟨85, _⟩ => ⟨S128x128, .f32⟩
  | .local _ .vmem, ⟨86, _⟩ => ⟨S128x128, .f32⟩
  | .local _ .vmem, ⟨87, _⟩ => ⟨S128x128, .f32⟩
  | .local _ .vmem, ⟨88, _⟩ => ⟨S128, .f32⟩
  | .local _ .vmem, ⟨89, _⟩ => ⟨S5000x128, .f32⟩
  | .local _ .vmem, ⟨90, _⟩ => ⟨S5000x128, .f32⟩
  | .local _ .vmem, ⟨91, _⟩ => ⟨S5000x128, .f32⟩
  | .local _ .vmem, ⟨92, _⟩ => ⟨S5000x128, .f32⟩
  | .local _ .vmem, ⟨93, _⟩ => ⟨S5000x128, .f32⟩
  | .local _ .vmem, ⟨94, _⟩ => ⟨S5000x128, .f32⟩
  | .local _ .vmem, ⟨95, _⟩ => ⟨S5000x128, .f32⟩
  | .local _ .vmem, ⟨96, _⟩ => ⟨S5000x128, .f32⟩
  | .local _ .vmem, ⟨97, _⟩ => ⟨S128x128, .f32⟩
  | .local _ .vmem, ⟨98, _⟩ => ⟨S128x128, .f32⟩
  | .local _ .vmem, ⟨99, _⟩ => ⟨S128x128, .f32⟩
  | .local _ .vmem, ⟨100, _⟩ => ⟨S128, .f32⟩
  | .local _ .vmem, ⟨101, _⟩ => ⟨S5000x128, .f32⟩
  | .local _ .vmem, ⟨102, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | _, _ => false

abbrev semScoped : Fin 0 → Bool
  | ⟨_, h⟩ => absurd h (Nat.not_lt_zero _)

abbrev dmaSemScoped : Fin 103 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | _ => false

abbrev sig : RefSig :=
  ofTc nBuf bufTy 0 103 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_v0 : Ref sig .tc := ⟨.hbm, 39, rfl⟩
abbrev main_v1 : Ref sig .tc := ⟨.hbm, 40, rfl⟩
abbrev main_v2 : Ref sig .tc := ⟨.hbm, 41, rfl⟩
abbrev main_v3 : Ref sig .tc := ⟨.hbm, 42, rfl⟩
abbrev main_call0_c : Ref sig .tc := ⟨.hbm, 43, rfl⟩
abbrev main_call0_v0 : Ref sig .tc := ⟨.hbm, 44, rfl⟩
abbrev main_call0_v1 : Ref sig .tc := ⟨.hbm, 45, rfl⟩
abbrev main_call0_c_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_c_1 : Ref sig .tc := ⟨.hbm, 51, rfl⟩
abbrev main_call0_c_2 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_c_3 : Ref sig .tc := ⟨.hbm, 59, rfl⟩
abbrev main_call0_v12 : Ref sig .tc := ⟨.hbm, 60, rfl⟩
abbrev main_call0_v13 : Ref sig .tc := ⟨.hbm, 61, rfl⟩
abbrev main_call0_v14 : Ref sig .tc := ⟨.hbm, 62, rfl⟩
abbrev main_call0_cst : Ref sig .tc := ⟨.hbm, 63, rfl⟩
abbrev main_call0_v15 : Ref sig .tc := ⟨.hbm, 64, rfl⟩
abbrev main_v4 : Ref sig .tc := ⟨.hbm, 65, rfl⟩
abbrev main_call1_c : Ref sig .tc := ⟨.hbm, 66, rfl⟩
abbrev main_call1_v0 : Ref sig .tc := ⟨.hbm, 67, rfl⟩
abbrev main_call1_v1 : Ref sig .tc := ⟨.hbm, 68, rfl⟩
abbrev main_call1_c_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_c_1 : Ref sig .tc := ⟨.hbm, 74, rfl⟩
abbrev main_call1_c_2 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_c_3 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_call1_cst : Ref sig .tc := ⟨.hbm, 86, rfl⟩
abbrev main_call1_v15 : Ref sig .tc := ⟨.hbm, 87, rfl⟩
abbrev main_v5 : Ref sig .tc := ⟨.hbm, 88, rfl⟩
abbrev main_v6 : Ref sig .tc := ⟨.hbm, 89, rfl⟩
abbrev main_v7 : Ref sig .tc := ⟨.hbm, 90, rfl⟩
abbrev main_v8 : Ref sig .tc := ⟨.hbm, 91, rfl⟩
abbrev main_v9 : Ref sig .tc := ⟨.hbm, 92, rfl⟩
abbrev main_v10 : Ref sig .tc := ⟨.hbm, 93, rfl⟩
abbrev main_cst : Ref sig .tc := ⟨.hbm, 94, rfl⟩
abbrev main_v11 : Ref sig .tc := ⟨.hbm, 95, rfl⟩
abbrev main_v12 : Ref sig .tc := ⟨.hbm, 96, rfl⟩
abbrev main_v13 : Ref sig .tc := ⟨.hbm, 97, rfl⟩
abbrev main_v14 : Ref sig .tc := ⟨.hbm, 98, rfl⟩
abbrev main_v15 : Ref sig .tc := ⟨.hbm, 99, rfl⟩
abbrev main_v16 : Ref sig .tc := ⟨.hbm, 100, rfl⟩
abbrev main_v17 : Ref sig .tc := ⟨.hbm, 101, rfl⟩
abbrev main_call2_c : Ref sig .tc := ⟨.hbm, 102, rfl⟩
abbrev main_call2_v0 : Ref sig .tc := ⟨.hbm, 103, rfl⟩
abbrev main_call2_v1 : Ref sig .tc := ⟨.hbm, 104, rfl⟩
abbrev main_call2_c_0 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_call2_v5 : Ref sig .tc := ⟨.hbm, 109, rfl⟩
abbrev main_call2_c_1 : Ref sig .tc := ⟨.hbm, 110, rfl⟩
abbrev main_call2_c_2 : Ref sig .tc := ⟨.hbm, 111, rfl⟩
abbrev main_call2_v6 : Ref sig .tc := ⟨.hbm, 112, rfl⟩
abbrev main_call2_v7 : Ref sig .tc := ⟨.hbm, 113, rfl⟩
abbrev main_call2_v8 : Ref sig .tc := ⟨.hbm, 114, rfl⟩
abbrev main_call2_v9 : Ref sig .tc := ⟨.hbm, 115, rfl⟩
abbrev main_call2_v10 : Ref sig .tc := ⟨.hbm, 116, rfl⟩
abbrev main_call2_v11 : Ref sig .tc := ⟨.hbm, 117, rfl⟩
abbrev main_call2_c_3 : Ref sig .tc := ⟨.hbm, 118, rfl⟩
abbrev main_call2_v12 : Ref sig .tc := ⟨.hbm, 119, rfl⟩
abbrev main_call2_v13 : Ref sig .tc := ⟨.hbm, 120, rfl⟩
abbrev main_call2_v14 : Ref sig .tc := ⟨.hbm, 121, rfl⟩
abbrev main_call2_cst : Ref sig .tc := ⟨.hbm, 122, rfl⟩
abbrev main_call2_v15 : Ref sig .tc := ⟨.hbm, 123, rfl⟩
abbrev main_v18 : Ref sig .tc := ⟨.hbm, 124, rfl⟩
abbrev main_call3_c : Ref sig .tc := ⟨.hbm, 125, rfl⟩
abbrev main_call3_v0 : Ref sig .tc := ⟨.hbm, 126, rfl⟩
abbrev main_call3_v1 : Ref sig .tc := ⟨.hbm, 127, rfl⟩
abbrev main_call3_c_0 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_c_1 : Ref sig .tc := ⟨.hbm, 133, rfl⟩
abbrev main_call3_c_2 : Ref sig .tc := ⟨.hbm, 134, rfl⟩
abbrev main_call3_v6 : Ref sig .tc := ⟨.hbm, 135, rfl⟩
abbrev main_call3_v7 : Ref sig .tc := ⟨.hbm, 136, rfl⟩
abbrev main_call3_v8 : Ref sig .tc := ⟨.hbm, 137, rfl⟩
abbrev main_call3_v9 : Ref sig .tc := ⟨.hbm, 138, rfl⟩
abbrev main_call3_v10 : Ref sig .tc := ⟨.hbm, 139, rfl⟩
abbrev main_call3_v11 : Ref sig .tc := ⟨.hbm, 140, rfl⟩
abbrev main_call3_c_3 : Ref sig .tc := ⟨.hbm, 141, rfl⟩
abbrev main_call3_v12 : Ref sig .tc := ⟨.hbm, 142, rfl⟩
abbrev main_call3_v13 : Ref sig .tc := ⟨.hbm, 143, rfl⟩
abbrev main_call3_v14 : Ref sig .tc := ⟨.hbm, 144, rfl⟩
abbrev main_call3_cst : Ref sig .tc := ⟨.hbm, 145, rfl⟩
abbrev main_call3_v15 : Ref sig .tc := ⟨.hbm, 146, rfl⟩
abbrev main_v19 : Ref sig .tc := ⟨.hbm, 147, rfl⟩
abbrev main_v20 : Ref sig .tc := ⟨.hbm, 148, rfl⟩
abbrev main_v21 : Ref sig .tc := ⟨.hbm, 149, rfl⟩
abbrev main_v22 : Ref sig .tc := ⟨.hbm, 150, rfl⟩
abbrev main_v23 : Ref sig .tc := ⟨.hbm, 151, rfl⟩
abbrev main_v24 : Ref sig .tc := ⟨.hbm, 152, rfl⟩
abbrev main_cst_0 : Ref sig .tc := ⟨.hbm, 153, rfl⟩
abbrev main_v25 : Ref sig .tc := ⟨.hbm, 154, rfl⟩
abbrev main_v26 : Ref sig .tc := ⟨.hbm, 155, rfl⟩
abbrev main_v27 : Ref sig .tc := ⟨.hbm, 156, rfl⟩
abbrev main_v28 : Ref sig .tc := ⟨.hbm, 157, rfl⟩
abbrev main_v29 : Ref sig .tc := ⟨.hbm, 158, rfl⟩
abbrev main_v30 : Ref sig .tc := ⟨.hbm, 159, rfl⟩
abbrev main_v31 : Ref sig .tc := ⟨.hbm, 160, rfl⟩
abbrev main_call4_c : Ref sig .tc := ⟨.hbm, 161, rfl⟩
abbrev main_call4_v0 : Ref sig .tc := ⟨.hbm, 162, rfl⟩
abbrev main_call4_v1 : Ref sig .tc := ⟨.hbm, 163, rfl⟩
abbrev main_call4_c_0 : Ref sig .tc := ⟨.hbm, 164, rfl⟩
abbrev main_call4_v2 : Ref sig .tc := ⟨.hbm, 165, rfl⟩
abbrev main_call4_v3 : Ref sig .tc := ⟨.hbm, 166, rfl⟩
abbrev main_call4_v4 : Ref sig .tc := ⟨.hbm, 167, rfl⟩
abbrev main_call4_v5 : Ref sig .tc := ⟨.hbm, 168, rfl⟩
abbrev main_call4_c_1 : Ref sig .tc := ⟨.hbm, 169, rfl⟩
abbrev main_call4_c_2 : Ref sig .tc := ⟨.hbm, 170, rfl⟩
abbrev main_call4_v6 : Ref sig .tc := ⟨.hbm, 171, rfl⟩
abbrev main_call4_v7 : Ref sig .tc := ⟨.hbm, 172, rfl⟩
abbrev main_call4_v8 : Ref sig .tc := ⟨.hbm, 173, rfl⟩
abbrev main_call4_v9 : Ref sig .tc := ⟨.hbm, 174, rfl⟩
abbrev main_call4_v10 : Ref sig .tc := ⟨.hbm, 175, rfl⟩
abbrev main_call4_v11 : Ref sig .tc := ⟨.hbm, 176, rfl⟩
abbrev main_call4_c_3 : Ref sig .tc := ⟨.hbm, 177, rfl⟩
abbrev main_call4_v12 : Ref sig .tc := ⟨.hbm, 178, rfl⟩
abbrev main_call4_v13 : Ref sig .tc := ⟨.hbm, 179, rfl⟩
abbrev main_call4_v14 : Ref sig .tc := ⟨.hbm, 180, rfl⟩
abbrev main_call4_cst : Ref sig .tc := ⟨.hbm, 181, rfl⟩
abbrev main_call4_v15 : Ref sig .tc := ⟨.hbm, 182, rfl⟩
abbrev main_v32 : Ref sig .tc := ⟨.hbm, 183, rfl⟩
abbrev main_call5_c : Ref sig .tc := ⟨.hbm, 184, rfl⟩
abbrev main_call5_v0 : Ref sig .tc := ⟨.hbm, 185, rfl⟩
abbrev main_call5_v1 : Ref sig .tc := ⟨.hbm, 186, rfl⟩
abbrev main_call5_c_0 : Ref sig .tc := ⟨.hbm, 187, rfl⟩
abbrev main_call5_v2 : Ref sig .tc := ⟨.hbm, 188, rfl⟩
abbrev main_call5_v3 : Ref sig .tc := ⟨.hbm, 189, rfl⟩
abbrev main_call5_v4 : Ref sig .tc := ⟨.hbm, 190, rfl⟩
abbrev main_call5_v5 : Ref sig .tc := ⟨.hbm, 191, rfl⟩
abbrev main_call5_c_1 : Ref sig .tc := ⟨.hbm, 192, rfl⟩
abbrev main_call5_c_2 : Ref sig .tc := ⟨.hbm, 193, rfl⟩
abbrev main_call5_v6 : Ref sig .tc := ⟨.hbm, 194, rfl⟩
abbrev main_call5_v7 : Ref sig .tc := ⟨.hbm, 195, rfl⟩
abbrev main_call5_v8 : Ref sig .tc := ⟨.hbm, 196, rfl⟩
abbrev main_call5_v9 : Ref sig .tc := ⟨.hbm, 197, rfl⟩
abbrev main_call5_v10 : Ref sig .tc := ⟨.hbm, 198, rfl⟩
abbrev main_call5_v11 : Ref sig .tc := ⟨.hbm, 199, rfl⟩
abbrev main_call5_c_3 : Ref sig .tc := ⟨.hbm, 200, rfl⟩
abbrev main_call5_v12 : Ref sig .tc := ⟨.hbm, 201, rfl⟩
abbrev main_call5_v13 : Ref sig .tc := ⟨.hbm, 202, rfl⟩
abbrev main_call5_v14 : Ref sig .tc := ⟨.hbm, 203, rfl⟩
abbrev main_call5_cst : Ref sig .tc := ⟨.hbm, 204, rfl⟩
abbrev main_call5_v15 : Ref sig .tc := ⟨.hbm, 205, rfl⟩
abbrev main_v33 : Ref sig .tc := ⟨.hbm, 206, rfl⟩
abbrev main_v34 : Ref sig .tc := ⟨.hbm, 207, rfl⟩
abbrev main_v35 : Ref sig .tc := ⟨.hbm, 208, rfl⟩
abbrev main_v36 : Ref sig .tc := ⟨.hbm, 209, rfl⟩
abbrev main_v37 : Ref sig .tc := ⟨.hbm, 210, rfl⟩
abbrev main_v38 : Ref sig .tc := ⟨.hbm, 211, rfl⟩
abbrev main_cst_1 : Ref sig .tc := ⟨.hbm, 212, rfl⟩
abbrev main_v39 : Ref sig .tc := ⟨.hbm, 213, rfl⟩
abbrev main_v40 : Ref sig .tc := ⟨.hbm, 214, rfl⟩
abbrev main_v41 : Ref sig .tc := ⟨.hbm, 215, rfl⟩
abbrev main_v42 : Ref sig .tc := ⟨.hbm, 216, rfl⟩
abbrev main_v43 : Ref sig .tc := ⟨.hbm, 217, rfl⟩
abbrev main_v44 : Ref sig .tc := ⟨.hbm, 218, rfl⟩
abbrev main_v45 : Ref sig .tc := ⟨.hbm, 219, rfl⟩
abbrev main_call6_c : Ref sig .tc := ⟨.hbm, 220, rfl⟩
abbrev main_call6_v0 : Ref sig .tc := ⟨.hbm, 221, rfl⟩
abbrev main_call6_v1 : Ref sig .tc := ⟨.hbm, 222, rfl⟩
abbrev main_call6_c_0 : Ref sig .tc := ⟨.hbm, 223, rfl⟩
abbrev main_call6_v2 : Ref sig .tc := ⟨.hbm, 224, rfl⟩
abbrev main_call6_v3 : Ref sig .tc := ⟨.hbm, 225, rfl⟩
abbrev main_call6_v4 : Ref sig .tc := ⟨.hbm, 226, rfl⟩
abbrev main_call6_v5 : Ref sig .tc := ⟨.hbm, 227, rfl⟩
abbrev main_call6_c_1 : Ref sig .tc := ⟨.hbm, 228, rfl⟩
abbrev main_call6_c_2 : Ref sig .tc := ⟨.hbm, 229, rfl⟩
abbrev main_call6_v6 : Ref sig .tc := ⟨.hbm, 230, rfl⟩
abbrev main_call6_v7 : Ref sig .tc := ⟨.hbm, 231, rfl⟩
abbrev main_call6_v8 : Ref sig .tc := ⟨.hbm, 232, rfl⟩
abbrev main_call6_v9 : Ref sig .tc := ⟨.hbm, 233, rfl⟩
abbrev main_call6_v10 : Ref sig .tc := ⟨.hbm, 234, rfl⟩
abbrev main_call6_v11 : Ref sig .tc := ⟨.hbm, 235, rfl⟩
abbrev main_call6_c_3 : Ref sig .tc := ⟨.hbm, 236, rfl⟩
abbrev main_call6_v12 : Ref sig .tc := ⟨.hbm, 237, rfl⟩
abbrev main_call6_v13 : Ref sig .tc := ⟨.hbm, 238, rfl⟩
abbrev main_call6_v14 : Ref sig .tc := ⟨.hbm, 239, rfl⟩
abbrev main_call6_cst : Ref sig .tc := ⟨.hbm, 240, rfl⟩
abbrev main_call6_v15 : Ref sig .tc := ⟨.hbm, 241, rfl⟩
abbrev main_v46 : Ref sig .tc := ⟨.hbm, 242, rfl⟩
abbrev main_call7_c : Ref sig .tc := ⟨.hbm, 243, rfl⟩
abbrev main_call7_v0 : Ref sig .tc := ⟨.hbm, 244, rfl⟩
abbrev main_call7_v1 : Ref sig .tc := ⟨.hbm, 245, rfl⟩
abbrev main_call7_c_0 : Ref sig .tc := ⟨.hbm, 246, rfl⟩
abbrev main_call7_v2 : Ref sig .tc := ⟨.hbm, 247, rfl⟩
abbrev main_call7_v3 : Ref sig .tc := ⟨.hbm, 248, rfl⟩
abbrev main_call7_v4 : Ref sig .tc := ⟨.hbm, 249, rfl⟩
abbrev main_call7_v5 : Ref sig .tc := ⟨.hbm, 250, rfl⟩
abbrev main_call7_c_1 : Ref sig .tc := ⟨.hbm, 251, rfl⟩
abbrev main_call7_c_2 : Ref sig .tc := ⟨.hbm, 252, rfl⟩
abbrev main_call7_v6 : Ref sig .tc := ⟨.hbm, 253, rfl⟩
abbrev main_call7_v7 : Ref sig .tc := ⟨.hbm, 254, rfl⟩
abbrev main_call7_v8 : Ref sig .tc := ⟨.hbm, 255, rfl⟩
abbrev main_call7_v9 : Ref sig .tc := ⟨.hbm, 256, rfl⟩
abbrev main_call7_v10 : Ref sig .tc := ⟨.hbm, 257, rfl⟩
abbrev main_call7_v11 : Ref sig .tc := ⟨.hbm, 258, rfl⟩
abbrev main_call7_c_3 : Ref sig .tc := ⟨.hbm, 259, rfl⟩
abbrev main_call7_v12 : Ref sig .tc := ⟨.hbm, 260, rfl⟩
abbrev main_call7_v13 : Ref sig .tc := ⟨.hbm, 261, rfl⟩
abbrev main_call7_v14 : Ref sig .tc := ⟨.hbm, 262, rfl⟩
abbrev main_call7_cst : Ref sig .tc := ⟨.hbm, 263, rfl⟩
abbrev main_call7_v15 : Ref sig .tc := ⟨.hbm, 264, rfl⟩
abbrev main_v47 : Ref sig .tc := ⟨.hbm, 265, rfl⟩
abbrev main_v48 : Ref sig .tc := ⟨.hbm, 266, rfl⟩
abbrev main_v49 : Ref sig .tc := ⟨.hbm, 267, rfl⟩
abbrev main_v50 : Ref sig .tc := ⟨.hbm, 268, rfl⟩
abbrev main_v51 : Ref sig .tc := ⟨.hbm, 269, rfl⟩
abbrev main_v52 : Ref sig .tc := ⟨.hbm, 270, rfl⟩
abbrev main_cst_2 : Ref sig .tc := ⟨.hbm, 271, rfl⟩
abbrev main_v53 : Ref sig .tc := ⟨.hbm, 272, rfl⟩
abbrev main_v54 : Ref sig .tc := ⟨.hbm, 273, rfl⟩
abbrev main_v55 : Ref sig .tc := ⟨.hbm, 274, rfl⟩
abbrev main_v56 : Ref sig .tc := ⟨.hbm, 275, rfl⟩
abbrev main_v57 : Ref sig .tc := ⟨.hbm, 276, rfl⟩
abbrev main_v58 : Ref sig .tc := ⟨.hbm, 277, rfl⟩
abbrev main_v59 : Ref sig .tc := ⟨.hbm, 278, rfl⟩
abbrev main_call8_c : Ref sig .tc := ⟨.hbm, 279, rfl⟩
abbrev main_call8_v0 : Ref sig .tc := ⟨.hbm, 280, rfl⟩
abbrev main_call8_v1 : Ref sig .tc := ⟨.hbm, 281, rfl⟩
abbrev main_call8_c_0 : Ref sig .tc := ⟨.hbm, 282, rfl⟩
abbrev main_call8_v2 : Ref sig .tc := ⟨.hbm, 283, rfl⟩
abbrev main_call8_v3 : Ref sig .tc := ⟨.hbm, 284, rfl⟩
abbrev main_call8_v4 : Ref sig .tc := ⟨.hbm, 285, rfl⟩
abbrev main_call8_v5 : Ref sig .tc := ⟨.hbm, 286, rfl⟩
abbrev main_call8_c_1 : Ref sig .tc := ⟨.hbm, 287, rfl⟩
abbrev main_call8_c_2 : Ref sig .tc := ⟨.hbm, 288, rfl⟩
abbrev main_call8_v6 : Ref sig .tc := ⟨.hbm, 289, rfl⟩
abbrev main_call8_v7 : Ref sig .tc := ⟨.hbm, 290, rfl⟩
abbrev main_call8_v8 : Ref sig .tc := ⟨.hbm, 291, rfl⟩
abbrev main_call8_v9 : Ref sig .tc := ⟨.hbm, 292, rfl⟩
abbrev main_call8_v10 : Ref sig .tc := ⟨.hbm, 293, rfl⟩
abbrev main_call8_v11 : Ref sig .tc := ⟨.hbm, 294, rfl⟩
abbrev main_call8_c_3 : Ref sig .tc := ⟨.hbm, 295, rfl⟩
abbrev main_call8_v12 : Ref sig .tc := ⟨.hbm, 296, rfl⟩
abbrev main_call8_v13 : Ref sig .tc := ⟨.hbm, 297, rfl⟩
abbrev main_call8_v14 : Ref sig .tc := ⟨.hbm, 298, rfl⟩
abbrev main_call8_cst : Ref sig .tc := ⟨.hbm, 299, rfl⟩
abbrev main_call8_v15 : Ref sig .tc := ⟨.hbm, 300, rfl⟩
abbrev main_v60 : Ref sig .tc := ⟨.hbm, 301, rfl⟩
abbrev main_call9_c : Ref sig .tc := ⟨.hbm, 302, rfl⟩
abbrev main_call9_v0 : Ref sig .tc := ⟨.hbm, 303, rfl⟩
abbrev main_call9_v1 : Ref sig .tc := ⟨.hbm, 304, rfl⟩
abbrev main_call9_c_0 : Ref sig .tc := ⟨.hbm, 305, rfl⟩
abbrev main_call9_v2 : Ref sig .tc := ⟨.hbm, 306, rfl⟩
abbrev main_call9_v3 : Ref sig .tc := ⟨.hbm, 307, rfl⟩
abbrev main_call9_v4 : Ref sig .tc := ⟨.hbm, 308, rfl⟩
abbrev main_call9_v5 : Ref sig .tc := ⟨.hbm, 309, rfl⟩
abbrev main_call9_c_1 : Ref sig .tc := ⟨.hbm, 310, rfl⟩
abbrev main_call9_c_2 : Ref sig .tc := ⟨.hbm, 311, rfl⟩
abbrev main_call9_v6 : Ref sig .tc := ⟨.hbm, 312, rfl⟩
abbrev main_call9_v7 : Ref sig .tc := ⟨.hbm, 313, rfl⟩
abbrev main_call9_v8 : Ref sig .tc := ⟨.hbm, 314, rfl⟩
abbrev main_call9_v9 : Ref sig .tc := ⟨.hbm, 315, rfl⟩
abbrev main_call9_v10 : Ref sig .tc := ⟨.hbm, 316, rfl⟩
abbrev main_call9_v11 : Ref sig .tc := ⟨.hbm, 317, rfl⟩
abbrev main_call9_c_3 : Ref sig .tc := ⟨.hbm, 318, rfl⟩
abbrev main_call9_v12 : Ref sig .tc := ⟨.hbm, 319, rfl⟩
abbrev main_call9_v13 : Ref sig .tc := ⟨.hbm, 320, rfl⟩
abbrev main_call9_v14 : Ref sig .tc := ⟨.hbm, 321, rfl⟩
abbrev main_call9_cst : Ref sig .tc := ⟨.hbm, 322, rfl⟩
abbrev main_call9_v15 : Ref sig .tc := ⟨.hbm, 323, rfl⟩
abbrev main_v61 : Ref sig .tc := ⟨.hbm, 324, rfl⟩
abbrev main_v62 : Ref sig .tc := ⟨.hbm, 325, rfl⟩
abbrev main_v63 : Ref sig .tc := ⟨.hbm, 326, rfl⟩
abbrev main_v64 : Ref sig .tc := ⟨.hbm, 327, rfl⟩
abbrev main_v65 : Ref sig .tc := ⟨.hbm, 328, rfl⟩
abbrev main_v66 : Ref sig .tc := ⟨.hbm, 329, rfl⟩
abbrev main_cst_3 : Ref sig .tc := ⟨.hbm, 330, rfl⟩
abbrev main_v67 : Ref sig .tc := ⟨.hbm, 331, rfl⟩
abbrev main_v68 : Ref sig .tc := ⟨.hbm, 332, rfl⟩
abbrev main_v69 : Ref sig .tc := ⟨.hbm, 333, rfl⟩
abbrev main_v70 : Ref sig .tc := ⟨.hbm, 334, rfl⟩
abbrev main_v71 : Ref sig .tc := ⟨.hbm, 335, rfl⟩
abbrev main_v72 : Ref sig .tc := ⟨.hbm, 336, rfl⟩
abbrev main_v73 : Ref sig .tc := ⟨.hbm, 337, rfl⟩
abbrev main_v74 : Ref sig .tc := ⟨.hbm, 338, rfl⟩
abbrev main_v75 : Ref sig .tc := ⟨.hbm, 339, rfl⟩
abbrev main_v76 : Ref sig .tc := ⟨.hbm, 340, rfl⟩
abbrev main_v77 : Ref sig .tc := ⟨.hbm, 341, rfl⟩
abbrev main_v78 : Ref sig .tc := ⟨.hbm, 342, rfl⟩
abbrev main_v79 : Ref sig .tc := ⟨.hbm, 343, rfl⟩
abbrev main_v80 : Ref sig .tc := ⟨.hbm, 344, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg9_0 : Ref sig .tc := ⟨.vmem, 40, rfl⟩
abbrev cc2_stg9_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg2_1 : Ref sig .tc := ⟨.vmem, 47, rfl⟩
abbrev cc3_stg3_0 : Ref sig .tc := ⟨.vmem, 48, rfl⟩
abbrev cc3_stg4_0 : Ref sig .tc := ⟨.vmem, 49, rfl⟩
abbrev cc3_stg5_0 : Ref sig .tc := ⟨.vmem, 50, rfl⟩
abbrev cc3_stg6_0 : Ref sig .tc := ⟨.vmem, 51, rfl⟩
abbrev cc3_stg7_0 : Ref sig .tc := ⟨.vmem, 52, rfl⟩
abbrev cc3_stg8_0 : Ref sig .tc := ⟨.vmem, 53, rfl⟩
abbrev cc3_stg9_0 : Ref sig .tc := ⟨.vmem, 54, rfl⟩
abbrev cc3_stg9_1 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg1_1 : Ref sig .tc := ⟨.vmem, 59, rfl⟩
abbrev cc4_stg2_0 : Ref sig .tc := ⟨.vmem, 60, rfl⟩
abbrev cc4_stg2_1 : Ref sig .tc := ⟨.vmem, 61, rfl⟩
abbrev cc4_stg3_0 : Ref sig .tc := ⟨.vmem, 62, rfl⟩
abbrev cc4_stg4_0 : Ref sig .tc := ⟨.vmem, 63, rfl⟩
abbrev cc4_stg5_0 : Ref sig .tc := ⟨.vmem, 64, rfl⟩
abbrev cc4_stg6_0 : Ref sig .tc := ⟨.vmem, 65, rfl⟩
abbrev cc4_stg7_0 : Ref sig .tc := ⟨.vmem, 66, rfl⟩
abbrev cc4_stg8_0 : Ref sig .tc := ⟨.vmem, 67, rfl⟩
abbrev cc4_stg9_0 : Ref sig .tc := ⟨.vmem, 68, rfl⟩
abbrev cc4_stg9_1 : Ref sig .tc := ⟨.vmem, 69, rfl⟩
abbrev cc5_stg0_0 : Ref sig .tc := ⟨.vmem, 70, rfl⟩
abbrev cc5_stg0_1 : Ref sig .tc := ⟨.vmem, 71, rfl⟩
abbrev cc5_stg1_0 : Ref sig .tc := ⟨.vmem, 72, rfl⟩
abbrev cc5_stg1_1 : Ref sig .tc := ⟨.vmem, 73, rfl⟩
abbrev cc5_stg2_0 : Ref sig .tc := ⟨.vmem, 74, rfl⟩
abbrev cc5_stg3_0 : Ref sig .tc := ⟨.vmem, 75, rfl⟩
abbrev cc5_stg4_0 : Ref sig .tc := ⟨.vmem, 76, rfl⟩
abbrev cc5_stg5_0 : Ref sig .tc := ⟨.vmem, 77, rfl⟩
abbrev cc5_stg5_1 : Ref sig .tc := ⟨.vmem, 78, rfl⟩
abbrev cc6_stg0_0 : Ref sig .tc := ⟨.vmem, 79, rfl⟩
abbrev cc6_stg0_1 : Ref sig .tc := ⟨.vmem, 80, rfl⟩
abbrev cc6_stg1_0 : Ref sig .tc := ⟨.vmem, 81, rfl⟩
abbrev cc6_stg1_1 : Ref sig .tc := ⟨.vmem, 82, rfl⟩
abbrev cc6_stg2_0 : Ref sig .tc := ⟨.vmem, 83, rfl⟩
abbrev cc6_stg2_1 : Ref sig .tc := ⟨.vmem, 84, rfl⟩
abbrev cc6_stg3_0 : Ref sig .tc := ⟨.vmem, 85, rfl⟩
abbrev cc6_stg4_0 : Ref sig .tc := ⟨.vmem, 86, rfl⟩
abbrev cc6_stg5_0 : Ref sig .tc := ⟨.vmem, 87, rfl⟩
abbrev cc6_stg6_0 : Ref sig .tc := ⟨.vmem, 88, rfl⟩
abbrev cc6_stg7_0 : Ref sig .tc := ⟨.vmem, 89, rfl⟩
abbrev cc6_stg7_1 : Ref sig .tc := ⟨.vmem, 90, rfl⟩
abbrev cc7_stg0_0 : Ref sig .tc := ⟨.vmem, 91, rfl⟩
abbrev cc7_stg0_1 : Ref sig .tc := ⟨.vmem, 92, rfl⟩
abbrev cc7_stg1_0 : Ref sig .tc := ⟨.vmem, 93, rfl⟩
abbrev cc7_stg1_1 : Ref sig .tc := ⟨.vmem, 94, rfl⟩
abbrev cc7_stg2_0 : Ref sig .tc := ⟨.vmem, 95, rfl⟩
abbrev cc7_stg2_1 : Ref sig .tc := ⟨.vmem, 96, rfl⟩
abbrev cc7_stg3_0 : Ref sig .tc := ⟨.vmem, 97, rfl⟩
abbrev cc7_stg4_0 : Ref sig .tc := ⟨.vmem, 98, rfl⟩
abbrev cc7_stg5_0 : Ref sig .tc := ⟨.vmem, 99, rfl⟩
abbrev cc7_stg6_0 : Ref sig .tc := ⟨.vmem, 100, rfl⟩
abbrev cc7_stg7_0 : Ref sig .tc := ⟨.vmem, 101, rfl⟩
abbrev cc7_stg7_1 : Ref sig .tc := ⟨.vmem, 102, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem9_0 : DmaSem sig := 40
abbrev cc2_sem9_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem4_0 : DmaSem sig := 49
abbrev cc3_sem5_0 : DmaSem sig := 50
abbrev cc3_sem6_0 : DmaSem sig := 51
abbrev cc3_sem7_0 : DmaSem sig := 52
abbrev cc3_sem8_0 : DmaSem sig := 53
abbrev cc3_sem9_0 : DmaSem sig := 54
abbrev cc3_sem9_1 : DmaSem sig := 55
abbrev cc4_sem0_0 : DmaSem sig := 56
abbrev cc4_sem0_1 : DmaSem sig := 57
abbrev cc4_sem1_0 : DmaSem sig := 58
abbrev cc4_sem1_1 : DmaSem sig := 59
abbrev cc4_sem2_0 : DmaSem sig := 60
abbrev cc4_sem2_1 : DmaSem sig := 61
abbrev cc4_sem3_0 : DmaSem sig := 62
abbrev cc4_sem4_0 : DmaSem sig := 63
abbrev cc4_sem5_0 : DmaSem sig := 64
abbrev cc4_sem6_0 : DmaSem sig := 65
abbrev cc4_sem7_0 : DmaSem sig := 66
abbrev cc4_sem8_0 : DmaSem sig := 67
abbrev cc4_sem9_0 : DmaSem sig := 68
abbrev cc4_sem9_1 : DmaSem sig := 69
abbrev cc5_sem0_0 : DmaSem sig := 70
abbrev cc5_sem0_1 : DmaSem sig := 71
abbrev cc5_sem1_0 : DmaSem sig := 72
abbrev cc5_sem1_1 : DmaSem sig := 73
abbrev cc5_sem2_0 : DmaSem sig := 74
abbrev cc5_sem3_0 : DmaSem sig := 75
abbrev cc5_sem4_0 : DmaSem sig := 76
abbrev cc5_sem5_0 : DmaSem sig := 77
abbrev cc5_sem5_1 : DmaSem sig := 78
abbrev cc6_sem0_0 : DmaSem sig := 79
abbrev cc6_sem0_1 : DmaSem sig := 80
abbrev cc6_sem1_0 : DmaSem sig := 81
abbrev cc6_sem1_1 : DmaSem sig := 82
abbrev cc6_sem2_0 : DmaSem sig := 83
abbrev cc6_sem2_1 : DmaSem sig := 84
abbrev cc6_sem3_0 : DmaSem sig := 85
abbrev cc6_sem4_0 : DmaSem sig := 86
abbrev cc6_sem5_0 : DmaSem sig := 87
abbrev cc6_sem6_0 : DmaSem sig := 88
abbrev cc6_sem7_0 : DmaSem sig := 89
abbrev cc6_sem7_1 : DmaSem sig := 90
abbrev cc7_sem0_0 : DmaSem sig := 91
abbrev cc7_sem0_1 : DmaSem sig := 92
abbrev cc7_sem1_0 : DmaSem sig := 93
abbrev cc7_sem1_1 : DmaSem sig := 94
abbrev cc7_sem2_0 : DmaSem sig := 95
abbrev cc7_sem2_1 : DmaSem sig := 96
abbrev cc7_sem3_0 : DmaSem sig := 97
abbrev cc7_sem4_0 : DmaSem sig := 98
abbrev cc7_sem5_0 : DmaSem sig := 99
abbrev cc7_sem6_0 : DmaSem sig := 100
abbrev cc7_sem7_0 : DmaSem sig := 101
abbrev cc7_sem7_1 : DmaSem sig := 102

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![60], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![60], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x3 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S3x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x3 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S3x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x3 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S3x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S5000x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![30], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![16], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  slices_S259x128_S128x128_0_0 : S259x128.Slices ![0, 0] S128x128
  slices_S259x128_S128x128_128_0 : S259x128.Slices ![128, 0] S128x128
  slices_S259x128_S3x128_256_0 : S259x128.Slices ![256, 0] S3x128
  shapeCasts_S128x1_S128 : S128x1.ShapeCasts S128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S5000x3_S5000x3_0_0 : ∀ a, (![0, 0] : Fin 2 → Nat) a + S5000x3.size a ≤ S5000x3.size a
  h_S5000x3 : 0 < S5000x3.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S128_S128 : S128.ShapeCasts S128
  reduces_S5000x128_S5000 : S5000x128.Reduces [1] S5000
  shapeCasts_S5000_S5000x1 : S5000.ShapeCasts S5000x1
  inb_S1_S1_0 : ∀ a, (![0] : Fin 1 → Nat) a + S1.size a ≤ S1.size a
  h_S1 : 0 < S1.numel
  inpos_S1_p0 : ∀ a, (![0] : Fin 1 → Nat) a < S1.size a
  broadcasts_S5000x1_S5000x128 : S5000x1.Broadcasts S5000x128
  bcast_S_S100000x128 : S_.BroadcastsInDim S100000x128 (![] : Fin 0 → Fin S100000x128.rank)
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S1x1_S300000x1_0_1 : S1x1.BroadcastsInDim S300000x1 (![0, 1] : Fin 2 → Fin S300000x1.rank)
  reducesTo_S300000x1_S300000_d1 : S300000x1.ReducesTo [1] S300000
  bcast_S300000_S300000x128_0 : S300000.BroadcastsInDim S300000x128 (![0] : Fin 1 → Fin S300000x128.rank)
  bcast_S_S300000x128 : S_.BroadcastsInDim S300000x128 (![] : Fin 0 → Fin S300000x128.rank)
  bcast_S_S150000x128 : S_.BroadcastsInDim S150000x128 (![] : Fin 0 → Fin S150000x128.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1x1_S200000x1_0_1 : S1x1.BroadcastsInDim S200000x1 (![0, 1] : Fin 2 → Fin S200000x1.rank)
  reducesTo_S200000x1_S200000_d1 : S200000x1.ReducesTo [1] S200000
  bcast_S200000_S200000x128_0 : S200000.BroadcastsInDim S200000x128 (![0] : Fin 1 → Fin S200000x128.rank)
  bcast_S_S200000x128 : S_.BroadcastsInDim S200000x128 (![] : Fin 0 → Fin S200000x128.rank)
  bcast_S_S80000x128 : S_.BroadcastsInDim S80000x128 (![] : Fin 0 → Fin S80000x128.rank)
  slices_S256x128_S128x128_0_0 : S256x128.Slices ![0, 0] S128x128
  slices_S256x128_S128x128_128_0 : S256x128.Slices ![128, 0] S128x128
  slices_S384x128_S128x128_0_0 : S384x128.Slices ![0, 0] S128x128
  slices_S384x128_S128x128_128_0 : S384x128.Slices ![128, 0] S128x128
  slices_S384x128_S128x128_256_0 : S384x128.Slices ![256, 0] S128x128
  gather_S100000x128_S500000x1_S500000x128_1_0_n_n_0_1_1128_wf : GatherDims.WF S100000x128 S500000x1 S500000x128 [1] [0] [] [0] [] 1 ![1, 128]
  dot_S5000x128_S128x128_S5000x128_1_0_0_1_n_n_wf : DotDims.WF S5000x128 S128x128 S5000x128 [1] [0] [0] [1] [] []
  dot_S5000x3_S3x128_S5000x128_1_0_0_1_n_n_wf : DotDims.WF S5000x3 S3x128 S5000x128 [1] [0] [0] [1] [] []
  scatter_S100000x128_S500000x1_S500000x128_1_0_0_1_wf : ScatterDims.WF S100000x128 S500000x1 S500000x128 [1] [0] [0] 1
  gather_S100000x128_S300000x1_S300000x128_1_0_n_n_0_1_1128_wf : GatherDims.WF S100000x128 S300000x1 S300000x128 [1] [0] [] [0] [] 1 ![1, 128]
  gather_S150000x128_S300000x1_S300000x128_1_0_n_n_0_1_1128_wf : GatherDims.WF S150000x128 S300000x1 S300000x128 [1] [0] [] [0] [] 1 ![1, 128]
  scatter_S150000x128_S300000x1_S300000x128_1_0_0_1_wf : ScatterDims.WF S150000x128 S300000x1 S300000x128 [1] [0] [0] 1
  gather_S150000x128_S200000x1_S200000x128_1_0_n_n_0_1_1128_wf : GatherDims.WF S150000x128 S200000x1 S200000x128 [1] [0] [] [0] [] 1 ![1, 128]
  gather_S80000x128_S200000x1_S200000x128_1_0_n_n_0_1_1128_wf : GatherDims.WF S80000x128 S200000x1 S200000x128 [1] [0] [] [0] [] 1 ![1, 128]
  scatter_S80000x128_S200000x1_S200000x128_1_0_0_1_wf : ScatterDims.WF S80000x128 S200000x1 S200000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x3.size a ≤ S500000x3.size a
  hwx0_2 : ∀ i : grid0.Coords, EltTy.bits .f32 = 32 ∨ (Rect.block (s := S500000x3) S5000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x128.size a ≤ S3x128.size a
  hwx0_5 : ∀ i : grid0.Coords, EltTy.bits .f32 = 32 ∨ (Rect.block (s := S3x128) S3x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S500000x128.size a
  hwx0_9 : ∀ i : grid0.Coords, EltTy.bits .f32 = 32 ∨ (Rect.block (s := S500000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S300000x128.size a
  hwx1_0 : ∀ i : grid1.Coords, EltTy.bits .f32 = 32 ∨ (Rect.block (s := S300000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S300000x128.size a
  hwx1_1 : ∀ i : grid1.Coords, EltTy.bits .f32 = 32 ∨ (Rect.block (s := S300000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x3.size a ≤ S300000x3.size a
  hwx1_2 : ∀ i : grid1.Coords, EltTy.bits .f32 = 32 ∨ (Rect.block (s := S300000x3) S5000x3.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x128.size a ≤ S3x128.size a
  hwx1_5 : ∀ i : grid1.Coords, EltTy.bits .f32 = 32 ∨ (Rect.block (s := S3x128) S3x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1.size a ≤ S1.size a
  hwx1_8 : ∀ i : grid1.Coords, EltTy.bits .f32 = 32 ∨ (Rect.block (s := S1) S1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S300000x128.size a
  hwx1_9 : ∀ i : grid1.Coords, EltTy.bits .f32 = 32 ∨ (Rect.block (s := S300000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S300000x128.size a
  hwx2_0 : ∀ i : grid2.Coords, EltTy.bits .f32 = 32 ∨ (Rect.block (s := S300000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S300000x128.size a
  hwx2_1 : ∀ i : grid2.Coords, EltTy.bits .f32 = 32 ∨ (Rect.block (s := S300000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x3.size a ≤ S300000x3.size a
  hwx2_2 : ∀ i : grid2.Coords, EltTy.bits .f32 = 32 ∨ (Rect.block (s := S300000x3) S5000x3.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S3x128.size a ≤ S3x128.size a
  hwx2_5 : ∀ i : grid2.Coords, EltTy.bits .f32 = 32 ∨ (Rect.block (s := S3x128) S3x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1.size a ≤ S1.size a
  hwx2_8 : ∀ i : grid2.Coords, EltTy.bits .f32 = 32 ∨ (Rect.block (s := S1) S1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S300000x128.size a
  hwx2_9 : ∀ i : grid2.Coords, EltTy.bits .f32 = 32 ∨ (Rect.block (s := S300000x128) S5000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S200000x128.size a
  hwx3_0 : ∀ i : grid3.Coords, EltTy.bits .f32 = 32 ∨ (Rect.block (s := S200000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S200000x128.size a
  hwx3_1 : ∀ i : grid3.Coords, EltTy.bits .f32 = 32 ∨ (Rect.block (s := S200000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x3.size a ≤ S200000x3.size a
  hwx3_2 : ∀ i : grid3.Coords, EltTy.bits .f32 = 32 ∨ (Rect.block (s := S200000x3) S5000x3.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S3x128.size a ≤ S3x128.size a
  hwx3_5 : ∀ i : grid3.Coords, EltTy.bits .f32 = 32 ∨ (Rect.block (s := S3x128) S3x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128.size a ≤ S128.size a
  hwx3_7 : ∀ i : grid3.Coords, EltTy.bits .f32 = 32 ∨ (Rect.block (s := S128) S128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1.size a ≤ S1.size a
  hwx3_8 : ∀ i : grid3.Coords, EltTy.bits .f32 = 32 ∨ (Rect.block (s := S1) S1.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x128.size a ≤ S200000x128.size a
  hwx3_9 : ∀ i : grid3.Coords, EltTy.bits .f32 = 32 ∨ (Rect.block (s := S200000x128) S5000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S200000x128.size a
  hwx4_0 : ∀ i : grid4.Coords, EltTy.bits .f32 = 32 ∨ (Rect.block (s := S200000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S200000x128.size a
  hwx4_1 : ∀ i : grid4.Coords, EltTy.bits .f32 = 32 ∨ (Rect.block (s := S200000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x3.size a ≤ S200000x3.size a
  hwx4_2 : ∀ i : grid4.Coords, EltTy.bits .f32 = 32 ∨ (Rect.block (s := S200000x3) S5000x3.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S3x128.size a ≤ S3x128.size a
  hwx4_5 : ∀ i : grid4.Coords, EltTy.bits .f32 = 32 ∨ (Rect.block (s := S3x128) S3x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128.size a ≤ S128.size a
  hwx4_6 : ∀ i : grid4.Coords, EltTy.bits .f32 = 32 ∨ (Rect.block (s := S128) S128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128.size a ≤ S128.size a
  hwx4_7 : ∀ i : grid4.Coords, EltTy.bits .f32 = 32 ∨ (Rect.block (s := S128) S128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1.size a ≤ S1.size a
  hwx4_8 : ∀ i : grid4.Coords, EltTy.bits .f32 = 32 ∨ (Rect.block (s := S1) S1.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S5000x128.size a ≤ S200000x128.size a
  hwx4_9 : ∀ i : grid4.Coords, EltTy.bits .f32 = 32 ∨ (Rect.block (s := S200000x128) S5000x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S150000x128.size a
  hwx6_0 : ∀ i : grid6.Coords, EltTy.bits .f32 = 32 ∨ (Rect.block (s := S150000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S150000x128.size a
  hwx6_1 : ∀ i : grid6.Coords, EltTy.bits .f32 = 32 ∨ (Rect.block (s := S150000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S150000x128.size a
  hwx6_2 : ∀ i : grid6.Coords, EltTy.bits .f32 = 32 ∨ (Rect.block (s := S150000x128) S5000x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S128.size a ≤ S128.size a
  hwx6_6 : ∀ i : grid6.Coords, EltTy.bits .f32 = 32 ∨ (Rect.block (s := S128) S128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x128.size a ≤ S150000x128.size a
  hwx6_7 : ∀ i : grid6.Coords, EltTy.bits .f32 = 32 ∨ (Rect.block (s := S150000x128) S5000x128.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S80000x128.size a
  hwx7_0 : ∀ i : grid7.Coords, EltTy.bits .f32 = 32 ∨ (Rect.block (s := S80000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S80000x128.size a
  hwx7_1 : ∀ i : grid7.Coords, EltTy.bits .f32 = 32 ∨ (Rect.block (s := S80000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S80000x128.size a
  hwx7_2 : ∀ i : grid7.Coords, EltTy.bits .f32 = 32 ∨ (Rect.block (s := S80000x128) S5000x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x128.size a ≤ S128x128.size a
  hwx7_5 : ∀ i : grid7.Coords, EltTy.bits .f32 = 32 ∨ (Rect.block (s := S128x128) S128x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S128.size a ≤ S128.size a
  hwx7_6 : ∀ i : grid7.Coords, EltTy.bits .f32 = 32 ∨ (Rect.block (s := S128) S128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x128.size a ≤ S80000x128.size a
  hwx7_7 : ∀ i : grid7.Coords, EltTy.bits .f32 = 32 ∨ (Rect.block (s := S80000x128) S5000x128.size (cc7_transform_7 i) (hinb7_7 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x3_S3x128_S5000x128_1_0_0_1_n_n : DotDims S5000x3 S3x128 S5000x128 where
  lhsContracting := [1]
  rhsContracting := [0]
  lhsNonContracting := [0]
  rhsNonContracting := [1]
  lhsBatch := []
  rhsBatch := []
  wf := dot_S5000x3_S3x128_S5000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def gather_S150000x128_S300000x1_S300000x128_1_0_n_n_0_1_1128 : GatherDims S150000x128 S300000x1 S300000x128 where
  offsetDims := [1]
  collapsedSliceDims := [0]
  operandBatchingDims := []
  startIndicesBatchingDims := []
  startIndexMap := [0]
  indexVectorDim := 1
  sliceSizes := ![1, 128]
  wf := gather_S150000x128_S300000x1_S300000x128_1_0_n_n_0_1_1128_wf
def scatter_S150000x128_S300000x1_S300000x128_1_0_0_1 : ScatterDims S150000x128 S300000x1 S300000x128 where
  updateWindowDims := [1]
  insertedWindowDims := [0]
  scatterDimsToOperandDims := [0]
  indexVectorDim := 1
  wf := scatter_S150000x128_S300000x1_S300000x128_1_0_0_1_wf
def gather_S150000x128_S200000x1_S200000x128_1_0_n_n_0_1_1128 : GatherDims S150000x128 S200000x1 S200000x128 where
  offsetDims := [1]
  collapsedSliceDims := [0]
  operandBatchingDims := []
  startIndicesBatchingDims := []
  startIndexMap := [0]
  indexVectorDim := 1
  sliceSizes := ![1, 128]
  wf := gather_S150000x128_S200000x1_S200000x128_1_0_n_n_0_1_1128_wf
def gather_S80000x128_S200000x1_S200000x128_1_0_n_n_0_1_1128 : GatherDims S80000x128 S200000x1 S200000x128 where
  offsetDims := [1]
  collapsedSliceDims := [0]
  operandBatchingDims := []
  startIndicesBatchingDims := []
  startIndexMap := [0]
  indexVectorDim := 1
  sliceSizes := ![1, 128]
  wf := gather_S80000x128_S200000x1_S200000x128_1_0_n_n_0_1_1128_wf
def scatter_S80000x128_S200000x1_S200000x128_1_0_0_1 : ScatterDims S80000x128 S200000x1 S200000x128 where
  updateWindowDims := [1]
  insertedWindowDims := [0]
  scatterDimsToOperandDims := [0]
  indexVectorDim := 1
  wf := scatter_S80000x128_S200000x1_S200000x128_1_0_0_1_wf

abbrev win0_0 : Pipeline.Window sig grid0 :=
  Pipeline.Window.ofSpec (Memref.whole main_v4) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S5000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S3x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg14) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg16) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S5000x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S3x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg18) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg20) S1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v24) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v32) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S5000x3.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v34) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S3x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg22) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v37) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg24) S1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v38) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v46) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S5000x3.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v48) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v49) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v50) S3x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg26) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v51) S128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg28) S1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v52) S5000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v60) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S5000x3.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v62) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v63) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v64) S3x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg30) S128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v65) S128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg32) S1.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v66) S5000x128.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_arg0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v13) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v70) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v71) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg34) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v72) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_arg1) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v27) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v41) S5000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v73) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v74) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v75) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_arg36) S128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v76) S5000x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_arg2) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v55) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v69) S5000x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v77) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v78) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v79) S128x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_arg38) S128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v80) S5000x128.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S100000x128 : Shape := ⟨2, ![100000, 128]⟩
abbrev S150000x128 : Shape := ⟨2, ![150000, 128]⟩
abbrev S80000x128 : Shape := ⟨2, ![80000, 128]⟩
abbrev S2x500000 : Shape := ⟨2, ![2, 500000]⟩
abbrev S2x300000 : Shape := ⟨2, ![2, 300000]⟩
abbrev S2x200000 : Shape := ⟨2, ![2, 200000]⟩
abbrev S500000x3 : Shape := ⟨2, ![500000, 3]⟩
abbrev S300000x3 : Shape := ⟨2, ![300000, 3]⟩
abbrev S200000x3 : Shape := ⟨2, ![200000, 3]⟩
abbrev S259x128 : Shape := ⟨2, ![259, 128]⟩
abbrev S128 : Shape := ⟨1, ![128]⟩
abbrev S128x1 : Shape := ⟨2, ![128, 1]⟩
abbrev S1 : Shape := ⟨1, ![1]⟩
abbrev S256x128 : Shape := ⟨2, ![256, 128]⟩
abbrev S384x128 : Shape := ⟨2, ![384, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S500000x259 : Shape := ⟨2, ![500000, 259]⟩
abbrev S1x128 : Shape := ⟨2, ![1, 128]⟩
abbrev S1x1 : Shape := ⟨2, ![1, 1]⟩
abbrev S1x300000 : Shape := ⟨2, ![1, 300000]⟩
abbrev S300000 : Shape := ⟨1, ![300000]⟩
abbrev S300000x1 : Shape := ⟨2, ![300000, 1]⟩
abbrev S300000x128 : Shape := ⟨2, ![300000, 128]⟩
abbrev S300000x259 : Shape := ⟨2, ![300000, 259]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S200000x259 : Shape := ⟨2, ![200000, 259]⟩
abbrev S100000x256 : Shape := ⟨2, ![100000, 256]⟩
abbrev S150000x384 : Shape := ⟨2, ![150000, 384]⟩
abbrev S80000x384 : Shape := ⟨2, ![80000, 384]⟩

abbrev nBuf : Space → Nat
  | .hbm => 337
  | .vmem => 0
  | .smem => 0
  | _ => 0

abbrev hbmTy0_0 (i : Nat) : BufTy := match i % 128 with
  | 0 => ⟨S100000x128, .f32⟩
  | 1 => ⟨S150000x128, .f32⟩
  | 2 => ⟨S80000x128, .f32⟩
  | 3 => ⟨S2x500000, .i32⟩
  | 4 => ⟨S2x300000, .i32⟩
  | 5 => ⟨S2x300000, .i32⟩
  | 6 => ⟨S2x200000, .i32⟩
  | 7 => ⟨S2x200000, .i32⟩
  | 8 => ⟨S500000x3, .f32⟩
  | 9 => ⟨S300000x3, .f32⟩
  | 10 => ⟨S300000x3, .f32⟩
  | 11 => ⟨S200000x3, .f32⟩
  | 12 => ⟨S200000x3, .f32⟩
  | 13 => ⟨S259x128, .f32⟩
  | 14 => ⟨S128, .f32⟩
  | 15 => ⟨S128x1, .f32⟩
  | 16 => ⟨S1, .f32⟩
  | 17 => ⟨S259x128, .f32⟩
  | 18 => ⟨S128, .f32⟩
  | 19 => ⟨S128x1, .f32⟩
  | 20 => ⟨S1, .f32⟩
  | 21 => ⟨S259x128, .f32⟩
  | 22 => ⟨S128, .f32⟩
  | 23 => ⟨S128x1, .f32⟩
  | 24 => ⟨S1, .f32⟩
  | 25 => ⟨S259x128, .f32⟩
  | 26 => ⟨S128, .f32⟩
  | 27 => ⟨S128x1, .f32⟩
  | 28 => ⟨S1, .f32⟩
  | 29 => ⟨S259x128, .f32⟩
  | 30 => ⟨S128, .f32⟩
  | 31 => ⟨S128x1, .f32⟩
  | 32 => ⟨S1, .f32⟩
  | 33 => ⟨S256x128, .f32⟩
  | 34 => ⟨S128, .f32⟩
  | 35 => ⟨S384x128, .f32⟩
  | 36 => ⟨S128, .f32⟩
  | 37 => ⟨S384x128, .f32⟩
  | 38 => ⟨S128, .f32⟩
  | 39 => ⟨S1x500000, .i32⟩
  | 40 => ⟨S500000, .i32⟩
  | 41 => ⟨S_, .i32⟩
  | 42 => ⟨S500000, .i32⟩
  | 43 => ⟨S500000, .i1⟩
  | 44 => ⟨S_, .i32⟩
  | 45 => ⟨S500000, .i32⟩
  | 46 => ⟨S500000, .i32⟩
  | 47 => ⟨S500000, .i32⟩
  | 48 => ⟨S500000x1, .i32⟩
  | 49 => ⟨S500000x128, .f32⟩
  | 50 => ⟨S1x500000, .i32⟩
  | 51 => ⟨S500000, .i32⟩
  | 52 => ⟨S_, .i32⟩
  | 53 => ⟨S500000, .i32⟩
  | 54 => ⟨S500000, .i1⟩
  | 55 => ⟨S_, .i32⟩
  | 56 => ⟨S500000, .i32⟩
  | 57 => ⟨S500000, .i32⟩
  | 58 => ⟨S500000, .i32⟩
  | 59 => ⟨S500000x1, .i32⟩
  | 60 => ⟨S500000x128, .f32⟩
  | 61 => ⟨S500000x259, .f32⟩
  | 62 => ⟨S500000x128, .f32⟩
  | 63 => ⟨S1x128, .f32⟩
  | 64 => ⟨S500000x128, .f32⟩
  | 65 => ⟨S500000x128, .f32⟩
  | 66 => ⟨S500000x128, .f32⟩
  | 67 => ⟨S500000x128, .f32⟩
  | 68 => ⟨S_, .f32⟩
  | 69 => ⟨S500000x128, .f32⟩
  | 70 => ⟨S500000x128, .f32⟩
  | 71 => ⟨S_, .f32⟩
  | 72 => ⟨S500000x128, .f32⟩
  | 73 => ⟨S500000x128, .f32⟩
  | 74 => ⟨S500000x128, .f32⟩
  | 75 => ⟨S500000x1, .f32⟩
  | 76 => ⟨S1x1, .f32⟩
  | 77 => ⟨S500000x1, .f32⟩
  | 78 => ⟨S500000x1, .f32⟩
  | 79 => ⟨S500000x1, .f32⟩
  | 80 => ⟨S500000x1, .f32⟩
  | 81 => ⟨S_, .f32⟩
  | 82 => ⟨S500000x1, .f32⟩
  | 83 => ⟨S500000x1, .f32⟩
  | 84 => ⟨S_, .f32⟩
  | 85 => ⟨S500000x1, .f32⟩
  | 86 => ⟨S500000x1, .f32⟩
  | 87 => ⟨S500000x128, .f32⟩
  | 88 => ⟨S500000x128, .f32⟩
  | 89 => ⟨S1x500000, .i32⟩
  | 90 => ⟨S500000, .i32⟩
  | 91 => ⟨S_, .f32⟩
  | 92 => ⟨S100000x128, .f32⟩
  | 93 => ⟨S500000x1, .i32⟩
  | 94 => ⟨S100000x128, .f32⟩
  | 95 => ⟨S1x300000, .i32⟩
  | 96 => ⟨S300000, .i32⟩
  | 97 => ⟨S_, .i32⟩
  | 98 => ⟨S300000, .i32⟩
  | 99 => ⟨S300000, .i1⟩
  | 100 => ⟨S_, .i32⟩
  | 101 => ⟨S300000, .i32⟩
  | 102 => ⟨S300000, .i32⟩
  | 103 => ⟨S300000, .i32⟩
  | 104 => ⟨S300000x1, .i32⟩
  | 105 => ⟨S300000x128, .f32⟩
  | 106 => ⟨S1x300000, .i32⟩
  | 107 => ⟨S300000, .i32⟩
  | 108 => ⟨S_, .i32⟩
  | 109 => ⟨S300000, .i32⟩
  | 110 => ⟨S300000, .i1⟩
  | 111 => ⟨S_, .i32⟩
  | 112 => ⟨S300000, .i32⟩
  | 113 => ⟨S300000, .i32⟩
  | 114 => ⟨S300000, .i32⟩
  | 115 => ⟨S300000x1, .i32⟩
  | 116 => ⟨S300000x128, .f32⟩
  | 117 => ⟨S300000x259, .f32⟩
  | 118 => ⟨S300000x128, .f32⟩
  | 119 => ⟨S1x128, .f32⟩
  | 120 => ⟨S300000x128, .f32⟩
  | 121 => ⟨S300000x128, .f32⟩
  | 122 => ⟨S300000x128, .f32⟩
  | 123 => ⟨S300000x128, .f32⟩
  | 124 => ⟨S_, .f32⟩
  | 125 => ⟨S300000x128, .f32⟩
  | 126 => ⟨S300000x128, .f32⟩
  | 127 => ⟨S_, .f32⟩
  | _ => ⟨S100000x128, .f32⟩

abbrev hbmTy0_1 (i : Nat) : BufTy := match i % 128 with
  | 0 => ⟨S300000x128, .f32⟩
  | 1 => ⟨S300000x128, .f32⟩
  | 2 => ⟨S300000x128, .f32⟩
  | 3 => ⟨S300000x1, .f32⟩
  | 4 => ⟨S1x1, .f32⟩
  | 5 => ⟨S300000x1, .f32⟩
  | 6 => ⟨S300000x1, .f32⟩
  | 7 => ⟨S300000x1, .f32⟩
  | 8 => ⟨S300000x1, .f32⟩
  | 9 => ⟨S_, .f32⟩
  | 10 => ⟨S300000x1, .f32⟩
  | 11 => ⟨S300000x1, .f32⟩
  | 12 => ⟨S_, .f32⟩
  | 13 => ⟨S300000x1, .f32⟩
  | 14 => ⟨S300000x1, .f32⟩
  | 15 => ⟨S300000x128, .f32⟩
  | 16 => ⟨S300000x128, .f32⟩
  | 17 => ⟨S1x300000, .i32⟩
  | 18 => ⟨S300000, .i32⟩
  | 19 => ⟨S_, .f32⟩
  | 20 => ⟨S150000x128, .f32⟩
  | 21 => ⟨S300000x1, .i32⟩
  | 22 => ⟨S150000x128, .f32⟩
  | 23 => ⟨S1x300000, .i32⟩
  | 24 => ⟨S300000, .i32⟩
  | 25 => ⟨S_, .i32⟩
  | 26 => ⟨S300000, .i32⟩
  | 27 => ⟨S300000, .i1⟩
  | 28 => ⟨S_, .i32⟩
  | 29 => ⟨S300000, .i32⟩
  | 30 => ⟨S300000, .i32⟩
  | 31 => ⟨S300000, .i32⟩
  | 32 => ⟨S300000x1, .i32⟩
  | 33 => ⟨S300000x128, .f32⟩
  | 34 => ⟨S1x300000, .i32⟩
  | 35 => ⟨S300000, .i32⟩
  | 36 => ⟨S_, .i32⟩
  | 37 => ⟨S300000, .i32⟩
  | 38 => ⟨S300000, .i1⟩
  | 39 => ⟨S_, .i32⟩
  | 40 => ⟨S300000, .i32⟩
  | 41 => ⟨S300000, .i32⟩
  | 42 => ⟨S300000, .i32⟩
  | 43 => ⟨S300000x1, .i32⟩
  | 44 => ⟨S300000x128, .f32⟩
  | 45 => ⟨S300000x259, .f32⟩
  | 46 => ⟨S300000x128, .f32⟩
  | 47 => ⟨S1x128, .f32⟩
  | 48 => ⟨S300000x128, .f32⟩
  | 49 => ⟨S300000x128, .f32⟩
  | 50 => ⟨S300000x128, .f32⟩
  | 51 => ⟨S300000x128, .f32⟩
  | 52 => ⟨S_, .f32⟩
  | 53 => ⟨S300000x128, .f32⟩
  | 54 => ⟨S300000x128, .f32⟩
  | 55 => ⟨S_, .f32⟩
  | 56 => ⟨S300000x128, .f32⟩
  | 57 => ⟨S300000x128, .f32⟩
  | 58 => ⟨S300000x128, .f32⟩
  | 59 => ⟨S300000x1, .f32⟩
  | 60 => ⟨S1x1, .f32⟩
  | 61 => ⟨S300000x1, .f32⟩
  | 62 => ⟨S300000x1, .f32⟩
  | 63 => ⟨S300000x1, .f32⟩
  | 64 => ⟨S300000x1, .f32⟩
  | 65 => ⟨S_, .f32⟩
  | 66 => ⟨S300000x1, .f32⟩
  | 67 => ⟨S300000x1, .f32⟩
  | 68 => ⟨S_, .f32⟩
  | 69 => ⟨S300000x1, .f32⟩
  | 70 => ⟨S300000x1, .f32⟩
  | 71 => ⟨S300000x128, .f32⟩
  | 72 => ⟨S300000x128, .f32⟩
  | 73 => ⟨S1x300000, .i32⟩
  | 74 => ⟨S300000, .i32⟩
  | 75 => ⟨S_, .f32⟩
  | 76 => ⟨S150000x128, .f32⟩
  | 77 => ⟨S300000x1, .i32⟩
  | 78 => ⟨S150000x128, .f32⟩
  | 79 => ⟨S1x200000, .i32⟩
  | 80 => ⟨S200000, .i32⟩
  | 81 => ⟨S_, .i32⟩
  | 82 => ⟨S200000, .i32⟩
  | 83 => ⟨S200000, .i1⟩
  | 84 => ⟨S_, .i32⟩
  | 85 => ⟨S200000, .i32⟩
  | 86 => ⟨S200000, .i32⟩
  | 87 => ⟨S200000, .i32⟩
  | 88 => ⟨S200000x1, .i32⟩
  | 89 => ⟨S200000x128, .f32⟩
  | 90 => ⟨S1x200000, .i32⟩
  | 91 => ⟨S200000, .i32⟩
  | 92 => ⟨S_, .i32⟩
  | 93 => ⟨S200000, .i32⟩
  | 94 => ⟨S200000, .i1⟩
  | 95 => ⟨S_, .i32⟩
  | 96 => ⟨S200000, .i32⟩
  | 97 => ⟨S200000, .i32⟩
  | 98 => ⟨S200000, .i32⟩
  | 99 => ⟨S200000x1, .i32⟩
  | 100 => ⟨S200000x128, .f32⟩
  | 101 => ⟨S200000x259, .f32⟩
  | 102 => ⟨S200000x128, .f32⟩
  | 103 => ⟨S1x128, .f32⟩
  | 104 => ⟨S200000x128, .f32⟩
  | 105 => ⟨S200000x128, .f32⟩
  | 106 => ⟨S200000x128, .f32⟩
  | 107 => ⟨S200000x128, .f32⟩
  | 108 => ⟨S_, .f32⟩
  | 109 => ⟨S200000x128, .f32⟩
  | 110 => ⟨S200000x128, .f32⟩
  | 111 => ⟨S_, .f32⟩
  | 112 => ⟨S200000x128, .f32⟩
  | 113 => ⟨S200000x128, .f32⟩
  | 114 => ⟨S200000x128, .f32⟩
  | 115 => ⟨S200000x1, .f32⟩
  | 116 => ⟨S1x1, .f32⟩
  | 117 => ⟨S200000x1, .f32⟩
  | 118 => ⟨S200000x1, .f32⟩
  | 119 => ⟨S200000x1, .f32⟩
  | 120 => ⟨S200000x1, .f32⟩
  | 121 => ⟨S_, .f32⟩
  | 122 => ⟨S200000x1, .f32⟩
  | 123 => ⟨S200000x1, .f32⟩
  | 124 => ⟨S_, .f32⟩
  | 125 => ⟨S200000x1, .f32⟩
  | 126 => ⟨S200000x1, .f32⟩
  | 127 => ⟨S200000x128, .f32⟩
  | _ => ⟨S100000x128, .f32⟩

abbrev hbmTy0_2 (i : Nat) : BufTy := match i % 128 with
  | 0 => ⟨S200000x128, .f32⟩
  | 1 => ⟨S1x200000, .i32⟩
  | 2 => ⟨S200000, .i32⟩
  | 3 => ⟨S_, .f32⟩
  | 4 => ⟨S80000x128, .f32⟩
  | 5 => ⟨S200000x1, .i32⟩
  | 6 => ⟨S80000x128, .f32⟩
  | 7 => ⟨S1x200000, .i32⟩
  | 8 => ⟨S200000, .i32⟩
  | 9 => ⟨S_, .i32⟩
  | 10 => ⟨S200000, .i32⟩
  | 11 => ⟨S200000, .i1⟩
  | 12 => ⟨S_, .i32⟩
  | 13 => ⟨S200000, .i32⟩
  | 14 => ⟨S200000, .i32⟩
  | 15 => ⟨S200000, .i32⟩
  | 16 => ⟨S200000x1, .i32⟩
  | 17 => ⟨S200000x128, .f32⟩
  | 18 => ⟨S1x200000, .i32⟩
  | 19 => ⟨S200000, .i32⟩
  | 20 => ⟨S_, .i32⟩
  | 21 => ⟨S200000, .i32⟩
  | 22 => ⟨S200000, .i1⟩
  | 23 => ⟨S_, .i32⟩
  | 24 => ⟨S200000, .i32⟩
  | 25 => ⟨S200000, .i32⟩
  | 26 => ⟨S200000, .i32⟩
  | 27 => ⟨S200000x1, .i32⟩
  | 28 => ⟨S200000x128, .f32⟩
  | 29 => ⟨S200000x259, .f32⟩
  | 30 => ⟨S200000x128, .f32⟩
  | 31 => ⟨S1x128, .f32⟩
  | 32 => ⟨S200000x128, .f32⟩
  | 33 => ⟨S200000x128, .f32⟩
  | 34 => ⟨S200000x128, .f32⟩
  | 35 => ⟨S200000x128, .f32⟩
  | 36 => ⟨S_, .f32⟩
  | 37 => ⟨S200000x128, .f32⟩
  | 38 => ⟨S200000x128, .f32⟩
  | 39 => ⟨S_, .f32⟩
  | 40 => ⟨S200000x128, .f32⟩
  | 41 => ⟨S200000x128, .f32⟩
  | 42 => ⟨S200000x128, .f32⟩
  | 43 => ⟨S200000x1, .f32⟩
  | 44 => ⟨S1x1, .f32⟩
  | 45 => ⟨S200000x1, .f32⟩
  | 46 => ⟨S200000x1, .f32⟩
  | 47 => ⟨S200000x1, .f32⟩
  | 48 => ⟨S200000x1, .f32⟩
  | 49 => ⟨S_, .f32⟩
  | 50 => ⟨S200000x1, .f32⟩
  | 51 => ⟨S200000x1, .f32⟩
  | 52 => ⟨S_, .f32⟩
  | 53 => ⟨S200000x1, .f32⟩
  | 54 => ⟨S200000x1, .f32⟩
  | 55 => ⟨S200000x128, .f32⟩
  | 56 => ⟨S200000x128, .f32⟩
  | 57 => ⟨S1x200000, .i32⟩
  | 58 => ⟨S200000, .i32⟩
  | 59 => ⟨S_, .f32⟩
  | 60 => ⟨S80000x128, .f32⟩
  | 61 => ⟨S200000x1, .i32⟩
  | 62 => ⟨S80000x128, .f32⟩
  | 63 => ⟨S100000x256, .f32⟩
  | 64 => ⟨S100000x128, .f32⟩
  | 65 => ⟨S1x128, .f32⟩
  | 66 => ⟨S100000x128, .f32⟩
  | 67 => ⟨S100000x128, .f32⟩
  | 68 => ⟨S150000x384, .f32⟩
  | 69 => ⟨S150000x128, .f32⟩
  | 70 => ⟨S1x128, .f32⟩
  | 71 => ⟨S150000x128, .f32⟩
  | 72 => ⟨S150000x128, .f32⟩
  | 73 => ⟨S80000x384, .f32⟩
  | 74 => ⟨S80000x128, .f32⟩
  | 75 => ⟨S1x128, .f32⟩
  | 76 => ⟨S80000x128, .f32⟩
  | 77 => ⟨S80000x128, .f32⟩
  | 78 => ⟨S100000x128, .f32⟩
  | 79 => ⟨S150000x128, .f32⟩
  | 80 => ⟨S80000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_v0 : Ref sig .tc := ⟨.hbm, 39, rfl⟩
abbrev main_v1 : Ref sig .tc := ⟨.hbm, 40, rfl⟩
abbrev main_c : Ref sig .tc := ⟨.hbm, 41, rfl⟩
abbrev main_v2 : Ref sig .tc := ⟨.hbm, 42, rfl⟩
abbrev main_v3 : Ref sig .tc := ⟨.hbm, 43, rfl⟩
abbrev main_c_0 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_c_1 : Ref sig .tc := ⟨.hbm, 52, rfl⟩
abbrev main_v11 : Ref sig .tc := ⟨.hbm, 53, rfl⟩
abbrev main_v12 : Ref sig .tc := ⟨.hbm, 54, rfl⟩
abbrev main_c_2 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_call0_v5 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_cst : Ref sig .tc := ⟨.hbm, 81, rfl⟩
abbrev main_v30 : Ref sig .tc := ⟨.hbm, 82, rfl⟩
abbrev main_v31 : Ref sig .tc := ⟨.hbm, 83, rfl⟩
abbrev main_cst_3 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_cst_4 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_c_5 : Ref sig .tc := ⟨.hbm, 97, rfl⟩
abbrev main_v43 : Ref sig .tc := ⟨.hbm, 98, rfl⟩
abbrev main_v44 : Ref sig .tc := ⟨.hbm, 99, rfl⟩
abbrev main_c_6 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_c_7 : Ref sig .tc := ⟨.hbm, 108, rfl⟩
abbrev main_v52 : Ref sig .tc := ⟨.hbm, 109, rfl⟩
abbrev main_v53 : Ref sig .tc := ⟨.hbm, 110, rfl⟩
abbrev main_c_8 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_call1_v0 : Ref sig .tc := ⟨.hbm, 122, rfl⟩
abbrev main_call1_v1 : Ref sig .tc := ⟨.hbm, 123, rfl⟩
abbrev main_call1_cst : Ref sig .tc := ⟨.hbm, 124, rfl⟩
abbrev main_call1_v2 : Ref sig .tc := ⟨.hbm, 125, rfl⟩
abbrev main_call1_v3 : Ref sig .tc := ⟨.hbm, 126, rfl⟩
abbrev main_call1_cst_0 : Ref sig .tc := ⟨.hbm, 127, rfl⟩
abbrev main_call1_v4 : Ref sig .tc := ⟨.hbm, 128, rfl⟩
abbrev main_call1_v5 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_cst_9 : Ref sig .tc := ⟨.hbm, 137, rfl⟩
abbrev main_v71 : Ref sig .tc := ⟨.hbm, 138, rfl⟩
abbrev main_v72 : Ref sig .tc := ⟨.hbm, 139, rfl⟩
abbrev main_cst_10 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_cst_11 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_c_12 : Ref sig .tc := ⟨.hbm, 153, rfl⟩
abbrev main_v84 : Ref sig .tc := ⟨.hbm, 154, rfl⟩
abbrev main_v85 : Ref sig .tc := ⟨.hbm, 155, rfl⟩
abbrev main_c_13 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_c_14 : Ref sig .tc := ⟨.hbm, 164, rfl⟩
abbrev main_v93 : Ref sig .tc := ⟨.hbm, 165, rfl⟩
abbrev main_v94 : Ref sig .tc := ⟨.hbm, 166, rfl⟩
abbrev main_c_15 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_call2_v0 : Ref sig .tc := ⟨.hbm, 178, rfl⟩
abbrev main_call2_v1 : Ref sig .tc := ⟨.hbm, 179, rfl⟩
abbrev main_call2_cst : Ref sig .tc := ⟨.hbm, 180, rfl⟩
abbrev main_call2_v2 : Ref sig .tc := ⟨.hbm, 181, rfl⟩
abbrev main_call2_v3 : Ref sig .tc := ⟨.hbm, 182, rfl⟩
abbrev main_call2_cst_0 : Ref sig .tc := ⟨.hbm, 183, rfl⟩
abbrev main_call2_v4 : Ref sig .tc := ⟨.hbm, 184, rfl⟩
abbrev main_call2_v5 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_cst_16 : Ref sig .tc := ⟨.hbm, 193, rfl⟩
abbrev main_v112 : Ref sig .tc := ⟨.hbm, 194, rfl⟩
abbrev main_v113 : Ref sig .tc := ⟨.hbm, 195, rfl⟩
abbrev main_cst_17 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_cst_18 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_c_19 : Ref sig .tc := ⟨.hbm, 209, rfl⟩
abbrev main_v125 : Ref sig .tc := ⟨.hbm, 210, rfl⟩
abbrev main_v126 : Ref sig .tc := ⟨.hbm, 211, rfl⟩
abbrev main_c_20 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_c_21 : Ref sig .tc := ⟨.hbm, 220, rfl⟩
abbrev main_v134 : Ref sig .tc := ⟨.hbm, 221, rfl⟩
abbrev main_v135 : Ref sig .tc := ⟨.hbm, 222, rfl⟩
abbrev main_c_22 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_call3_v0 : Ref sig .tc := ⟨.hbm, 234, rfl⟩
abbrev main_call3_v1 : Ref sig .tc := ⟨.hbm, 235, rfl⟩
abbrev main_call3_cst : Ref sig .tc := ⟨.hbm, 236, rfl⟩
abbrev main_call3_v2 : Ref sig .tc := ⟨.hbm, 237, rfl⟩
abbrev main_call3_v3 : Ref sig .tc := ⟨.hbm, 238, rfl⟩
abbrev main_call3_cst_0 : Ref sig .tc := ⟨.hbm, 239, rfl⟩
abbrev main_call3_v4 : Ref sig .tc := ⟨.hbm, 240, rfl⟩
abbrev main_call3_v5 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩
abbrev main_cst_23 : Ref sig .tc := ⟨.hbm, 249, rfl⟩
abbrev main_v153 : Ref sig .tc := ⟨.hbm, 250, rfl⟩
abbrev main_v154 : Ref sig .tc := ⟨.hbm, 251, rfl⟩
abbrev main_cst_24 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_cst_25 : Ref sig .tc := ⟨.hbm, 259, rfl⟩
abbrev main_v161 : Ref sig .tc := ⟨.hbm, 260, rfl⟩
abbrev main_v162 : Ref sig .tc := ⟨.hbm, 261, rfl⟩
abbrev main_v163 : Ref sig .tc := ⟨.hbm, 262, rfl⟩
abbrev main_v164 : Ref sig .tc := ⟨.hbm, 263, rfl⟩
abbrev main_v165 : Ref sig .tc := ⟨.hbm, 264, rfl⟩
abbrev main_c_26 : Ref sig .tc := ⟨.hbm, 265, rfl⟩
abbrev main_v166 : Ref sig .tc := ⟨.hbm, 266, rfl⟩
abbrev main_v167 : Ref sig .tc := ⟨.hbm, 267, rfl⟩
abbrev main_c_27 : Ref sig .tc := ⟨.hbm, 268, rfl⟩
abbrev main_v168 : Ref sig .tc := ⟨.hbm, 269, rfl⟩
abbrev main_v169 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_v173 : Ref sig .tc := ⟨.hbm, 274, rfl⟩
abbrev main_v174 : Ref sig .tc := ⟨.hbm, 275, rfl⟩
abbrev main_c_28 : Ref sig .tc := ⟨.hbm, 276, rfl⟩
abbrev main_v175 : Ref sig .tc := ⟨.hbm, 277, rfl⟩
abbrev main_v176 : Ref sig .tc := ⟨.hbm, 278, rfl⟩
abbrev main_c_29 : Ref sig .tc := ⟨.hbm, 279, rfl⟩
abbrev main_v177 : Ref sig .tc := ⟨.hbm, 280, rfl⟩
abbrev main_v178 : Ref sig .tc := ⟨.hbm, 281, rfl⟩
abbrev main_v179 : Ref sig .tc := ⟨.hbm, 282, rfl⟩
abbrev main_v180 : Ref sig .tc := ⟨.hbm, 283, rfl⟩
abbrev main_v181 : Ref sig .tc := ⟨.hbm, 284, rfl⟩
abbrev main_v182 : Ref sig .tc := ⟨.hbm, 285, rfl⟩
abbrev main_v183 : Ref sig .tc := ⟨.hbm, 286, rfl⟩
abbrev main_v184 : Ref sig .tc := ⟨.hbm, 287, rfl⟩
abbrev main_v185 : Ref sig .tc := ⟨.hbm, 288, rfl⟩
abbrev main_v186 : Ref sig .tc := ⟨.hbm, 289, rfl⟩
abbrev main_call4_v0 : Ref sig .tc := ⟨.hbm, 290, rfl⟩
abbrev main_call4_v1 : Ref sig .tc := ⟨.hbm, 291, rfl⟩
abbrev main_call4_cst : Ref sig .tc := ⟨.hbm, 292, rfl⟩
abbrev main_call4_v2 : Ref sig .tc := ⟨.hbm, 293, rfl⟩
abbrev main_call4_v3 : Ref sig .tc := ⟨.hbm, 294, rfl⟩
abbrev main_call4_cst_0 : Ref sig .tc := ⟨.hbm, 295, rfl⟩
abbrev main_call4_v4 : Ref sig .tc := ⟨.hbm, 296, rfl⟩
abbrev main_call4_v5 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_v190 : Ref sig .tc := ⟨.hbm, 301, rfl⟩
abbrev main_v191 : Ref sig .tc := ⟨.hbm, 302, rfl⟩
abbrev main_v192 : Ref sig .tc := ⟨.hbm, 303, rfl⟩
abbrev main_v193 : Ref sig .tc := ⟨.hbm, 304, rfl⟩
abbrev main_cst_30 : Ref sig .tc := ⟨.hbm, 305, rfl⟩
abbrev main_v194 : Ref sig .tc := ⟨.hbm, 306, rfl⟩
abbrev main_v195 : Ref sig .tc := ⟨.hbm, 307, rfl⟩
abbrev main_cst_31 : Ref sig .tc := ⟨.hbm, 308, rfl⟩
abbrev main_v196 : Ref sig .tc := ⟨.hbm, 309, rfl⟩
abbrev main_v197 : Ref sig .tc := ⟨.hbm, 310, rfl⟩
abbrev main_v198 : Ref sig .tc := ⟨.hbm, 311, rfl⟩
abbrev main_v199 : Ref sig .tc := ⟨.hbm, 312, rfl⟩
abbrev main_v200 : Ref sig .tc := ⟨.hbm, 313, rfl⟩
abbrev main_v201 : Ref sig .tc := ⟨.hbm, 314, rfl⟩
abbrev main_cst_32 : Ref sig .tc := ⟨.hbm, 315, rfl⟩
abbrev main_v202 : Ref sig .tc := ⟨.hbm, 316, rfl⟩
abbrev main_v203 : Ref sig .tc := ⟨.hbm, 317, rfl⟩
abbrev main_v204 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_v208 : Ref sig .tc := ⟨.hbm, 322, rfl⟩
abbrev main_v209 : Ref sig .tc := ⟨.hbm, 323, rfl⟩
abbrev main_v210 : Ref sig .tc := ⟨.hbm, 324, rfl⟩
abbrev main_v211 : Ref sig .tc := ⟨.hbm, 325, rfl⟩
abbrev main_v212 : Ref sig .tc := ⟨.hbm, 326, rfl⟩
abbrev main_v213 : Ref sig .tc := ⟨.hbm, 327, rfl⟩
abbrev main_v214 : Ref sig .tc := ⟨.hbm, 328, rfl⟩
abbrev main_v215 : Ref sig .tc := ⟨.hbm, 329, rfl⟩
abbrev main_v216 : Ref sig .tc := ⟨.hbm, 330, rfl⟩
abbrev main_v217 : Ref sig .tc := ⟨.hbm, 331, rfl⟩
abbrev main_v218 : Ref sig .tc := ⟨.hbm, 332, rfl⟩
abbrev main_v219 : Ref sig .tc := ⟨.hbm, 333, rfl⟩
abbrev main_v220 : Ref sig .tc := ⟨.hbm, 334, rfl⟩
abbrev main_v221 : Ref sig .tc := ⟨.hbm, 335, rfl⟩
abbrev main_v222 : Ref sig .tc := ⟨.hbm, 336, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  concatenates_S500000x128_S500000x128_S500000x3_S500000x259_d1 : Shape.Concatenates [S500000x128, S500000x128, S500000x3] S500000x259 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  bcast_S500000x1_S500000x128_0_1 : S500000x1.BroadcastsInDim S500000x128 (![0, 1] : Fin 2 → Fin S500000x128.rank)
  bcast_S_S100000x128 : S_.BroadcastsInDim S100000x128 (![] : Fin 0 → Fin S100000x128.rank)
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  slices_S2x300000_S1x300000_1_0 : S2x300000.Slices ![1, 0] S1x300000
  concatenates_S300000x128_S300000x128_S300000x3_S300000x259_d1 : Shape.Concatenates [S300000x128, S300000x128, S300000x3] S300000x259 1
  bcast_S1x128_S300000x128_0_1 : S1x128.BroadcastsInDim S300000x128 (![0, 1] : Fin 2 → Fin S300000x128.rank)
  bcast_S_S300000x128 : S_.BroadcastsInDim S300000x128 (![] : Fin 0 → Fin S300000x128.rank)
  bcast_S1x1_S300000x1_0_1 : S1x1.BroadcastsInDim S300000x1 (![0, 1] : Fin 2 → Fin S300000x1.rank)
  bcast_S_S300000x1 : S_.BroadcastsInDim S300000x1 (![] : Fin 0 → Fin S300000x1.rank)
  bcast_S300000x1_S300000x128_0_1 : S300000x1.BroadcastsInDim S300000x128 (![0, 1] : Fin 2 → Fin S300000x128.rank)
  bcast_S_S150000x128 : S_.BroadcastsInDim S150000x128 (![] : Fin 0 → Fin S150000x128.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  concatenates_S200000x128_S200000x128_S200000x3_S200000x259_d1 : Shape.Concatenates [S200000x128, S200000x128, S200000x3] S200000x259 1
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S1x1_S200000x1_0_1 : S1x1.BroadcastsInDim S200000x1 (![0, 1] : Fin 2 → Fin S200000x1.rank)
  bcast_S_S200000x1 : S_.BroadcastsInDim S200000x1 (![] : Fin 0 → Fin S200000x1.rank)
  bcast_S200000x1_S200000x128_0_1 : S200000x1.BroadcastsInDim S200000x128 (![0, 1] : Fin 2 → Fin S200000x128.rank)
  bcast_S_S80000x128 : S_.BroadcastsInDim S80000x128 (![] : Fin 0 → Fin S80000x128.rank)
  concatenates_S100000x128_S100000x128_S100000x256_d1 : Shape.Concatenates [S100000x128, S100000x128] S100000x256 1
  bcast_S1x128_S100000x128_0_1 : S1x128.BroadcastsInDim S100000x128 (![0, 1] : Fin 2 → Fin S100000x128.rank)
  concatenates_S150000x128_S150000x128_S150000x128_S150000x384_d1 : Shape.Concatenates [S150000x128, S150000x128, S150000x128] S150000x384 1
  bcast_S1x128_S150000x128_0_1 : S1x128.BroadcastsInDim S150000x128 (![0, 1] : Fin 2 → Fin S150000x128.rank)
  concatenates_S80000x128_S80000x128_S80000x128_S80000x384_d1 : Shape.Concatenates [S80000x128, S80000x128, S80000x128] S80000x384 1
  bcast_S1x128_S80000x128_0_1 : S1x128.BroadcastsInDim S80000x128 (![0, 1] : Fin 2 → Fin S80000x128.rank)
  gather_S100000x128_S500000x1_S500000x128_1_0_n_n_0_1_1128_wf : GatherDims.WF S100000x128 S500000x1 S500000x128 [1] [0] [] [0] [] 1 ![1, 128]
  dot_S500000x259_S259x128_S500000x128_1_0_0_1_n_n_wf : DotDims.WF S500000x259 S259x128 S500000x128 [1] [0] [0] [1] [] []
  dot_S500000x128_S128x1_S500000x1_1_0_0_1_n_n_wf : DotDims.WF S500000x128 S128x1 S500000x1 [1] [0] [0] [1] [] []
  scatter_S100000x128_S500000x1_S500000x128_1_0_0_1_wf : ScatterDims.WF S100000x128 S500000x1 S500000x128 [1] [0] [0] 1
  gather_S100000x128_S300000x1_S300000x128_1_0_n_n_0_1_1128_wf : GatherDims.WF S100000x128 S300000x1 S300000x128 [1] [0] [] [0] [] 1 ![1, 128]
  gather_S150000x128_S300000x1_S300000x128_1_0_n_n_0_1_1128_wf : GatherDims.WF S150000x128 S300000x1 S300000x128 [1] [0] [] [0] [] 1 ![1, 128]
  dot_S300000x259_S259x128_S300000x128_1_0_0_1_n_n_wf : DotDims.WF S300000x259 S259x128 S300000x128 [1] [0] [0] [1] [] []
  dot_S300000x128_S128x1_S300000x1_1_0_0_1_n_n_wf : DotDims.WF S300000x128 S128x1 S300000x1 [1] [0] [0] [1] [] []
  scatter_S150000x128_S300000x1_S300000x128_1_0_0_1_wf : ScatterDims.WF S150000x128 S300000x1 S300000x128 [1] [0] [0] 1
  gather_S150000x128_S200000x1_S200000x128_1_0_n_n_0_1_1128_wf : GatherDims.WF S150000x128 S200000x1 S200000x128 [1] [0] [] [0] [] 1 ![1, 128]
  gather_S80000x128_S200000x1_S200000x128_1_0_n_n_0_1_1128_wf : GatherDims.WF S80000x128 S200000x1 S200000x128 [1] [0] [] [0] [] 1 ![1, 128]
  dot_S200000x259_S259x128_S200000x128_1_0_0_1_n_n_wf : DotDims.WF S200000x259 S259x128 S200000x128 [1] [0] [0] [1] [] []
  dot_S200000x128_S128x1_S200000x1_1_0_0_1_n_n_wf : DotDims.WF S200000x128 S128x1 S200000x1 [1] [0] [0] [1] [] []
  scatter_S80000x128_S200000x1_S200000x128_1_0_0_1_wf : ScatterDims.WF S80000x128 S200000x1 S200000x128 [1] [0] [0] 1
  dot_S100000x256_S256x128_S100000x128_1_0_0_1_n_n_wf : DotDims.WF S100000x256 S256x128 S100000x128 [1] [0] [0] [1] [] []
  dot_S150000x384_S384x128_S150000x128_1_0_0_1_n_n_wf : DotDims.WF S150000x384 S384x128 S150000x128 [1] [0] [0] [1] [] []
  dot_S80000x384_S384x128_S80000x128_1_0_0_1_n_n_wf : DotDims.WF S80000x384 S384x128 S80000x128 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x259_S259x128_S500000x128_1_0_0_1_n_n : DotDims S500000x259 S259x128 S500000x128 where
  lhsContracting := [1]
  rhsContracting := [0]
  lhsNonContracting := [0]
  rhsNonContracting := [1]
  lhsBatch := []
  rhsBatch := []
  wf := dot_S500000x259_S259x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def gather_S150000x128_S300000x1_S300000x128_1_0_n_n_0_1_1128 : GatherDims S150000x128 S300000x1 S300000x128 where
  offsetDims := [1]
  collapsedSliceDims := [0]
  operandBatchingDims := []
  startIndicesBatchingDims := []
  startIndexMap := [0]
  indexVectorDim := 1
  sliceSizes := ![1, 128]
  wf := gather_S150000x128_S300000x1_S300000x128_1_0_n_n_0_1_1128_wf
def dot_S300000x259_S259x128_S300000x128_1_0_0_1_n_n : DotDims S300000x259 S259x128 S300000x128 where
  lhsContracting := [1]
  rhsContracting := [0]
  lhsNonContracting := [0]
  rhsNonContracting := [1]
  lhsBatch := []
  rhsBatch := []
  wf := dot_S300000x259_S259x128_S300000x128_1_0_0_1_n_n_wf
def dot_S300000x128_S128x1_S300000x1_1_0_0_1_n_n : DotDims S300000x128 S128x1 S300000x1 where
  lhsContracting := [1]
  rhsContracting := [0]
  lhsNonContracting := [0]
  rhsNonContracting := [1]
  lhsBatch := []
  rhsBatch := []
  wf := dot_S300000x128_S128x1_S300000x1_1_0_0_1_n_n_wf
def scatter_S150000x128_S300000x1_S300000x128_1_0_0_1 : ScatterDims S150000x128 S300000x1 S300000x128 where
  updateWindowDims := [1]
  insertedWindowDims := [0]
  scatterDimsToOperandDims := [0]
  indexVectorDim := 1
  wf := scatter_S150000x128_S300000x1_S300000x128_1_0_0_1_wf
def gather_S150000x128_S200000x1_S200000x128_1_0_n_n_0_1_1128 : GatherDims S150000x128 S200000x1 S200000x128 where
  offsetDims := [1]
  collapsedSliceDims := [0]
  operandBatchingDims := []
  startIndicesBatchingDims := []
  startIndexMap := [0]
  indexVectorDim := 1
  sliceSizes := ![1, 128]
  wf := gather_S150000x128_S200000x1_S200000x128_1_0_n_n_0_1_1128_wf
def gather_S80000x128_S200000x1_S200000x128_1_0_n_n_0_1_1128 : GatherDims S80000x128 S200000x1 S200000x128 where
  offsetDims := [1]
  collapsedSliceDims := [0]
  operandBatchingDims := []
  startIndicesBatchingDims := []
  startIndexMap := [0]
  indexVectorDim := 1
  sliceSizes := ![1, 128]
  wf := gather_S80000x128_S200000x1_S200000x128_1_0_n_n_0_1_1128_wf
def dot_S200000x259_S259x128_S200000x128_1_0_0_1_n_n : DotDims S200000x259 S259x128 S200000x128 where
  lhsContracting := [1]
  rhsContracting := [0]
  lhsNonContracting := [0]
  rhsNonContracting := [1]
  lhsBatch := []
  rhsBatch := []
  wf := dot_S200000x259_S259x128_S200000x128_1_0_0_1_n_n_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf
def scatter_S80000x128_S200000x1_S200000x128_1_0_0_1 : ScatterDims S80000x128 S200000x1 S200000x128 where
  updateWindowDims := [1]
  insertedWindowDims := [0]
  scatterDimsToOperandDims := [0]
  indexVectorDim := 1
  wf := scatter_S80000x128_S200000x1_S200000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S150000x384_S384x128_S150000x128_1_0_0_1_n_n : DotDims S150000x384 S384x128 S150000x128 where
  lhsContracting := [1]
  rhsContracting := [0]
  lhsNonContracting := [0]
  rhsNonContracting := [1]
  lhsBatch := []
  rhsBatch := []
  wf := dot_S150000x384_S384x128_S150000x128_1_0_0_1_n_n_wf
def dot_S80000x384_S384x128_S80000x128_1_0_0_1_n_n : DotDims S80000x384 S384x128 S80000x128 where
  lhsContracting := [1]
  rhsContracting := [0]
  lhsNonContracting := [0]
  rhsNonContracting := [1]
  lhsBatch := []
  rhsBatch := []
  wf := dot_S80000x384_S384x128_S80000x128_1_0_0_1_n_n_wf

class Facts : Prop extends Facts₀ where

variable [Facts]
-- ==== Proof.Spec.lean ====
/- One layer of message passing as functions of whole arrays over the extended reals. -/
import Idealize.ShloMosaic.PureOps.Ideal
import Idealize.ShloMosaic.Lib.ValueIdx

noncomputable section

namespace Cert.Spec

open Idealize.ShloMosaic Idealize.ShloMosaic.ValueIdx

abbrev Mat (n m : ℕ) : Type := (⟨2, ![n, m]⟩ : Shape).Idx → EReal

abbrev Row (n : ℕ) : Type := (⟨1, ![n]⟩ : Shape).Idx → EReal

def swish (x : EReal) : EReal := x * Ideal.logistic x

def pre {n : ℕ} (a b : Mat n 128) (v : Mat n 3) (Ws Wr : Mat 128 128) (Wv : Mat 3 128) (bm : Row 128)
    (e : Fin n) (j : Fin 128) : EReal :=
  (((∑ k : Fin 128, a (ix2 e k) * Ws (ix2 k j)) + ∑ k : Fin 128, b (ix2 e k) * Wr (ix2 k j))
      + ∑ k : Fin 3, v (ix2 e k) * Wv (ix2 k j)) + bm (ix1 j)

def act {n : ℕ} (a b : Mat n 128) (v : Mat n 3) (Ws Wr : Mat 128 128) (Wv : Mat 3 128) (bm : Row 128)
    (e : Fin n) (j : Fin 128) : EReal :=
  swish (pre a b v Ws Wr Wv bm e j)

def gate {n : ℕ} (a b : Mat n 128) (v : Mat n 3) (Ws Wr : Mat 128 128) (Wv : Mat 3 128) (bm : Row 128)
    (wi : Row 128) (bi : Row 1) (e : Fin n) : EReal :=
  Ideal.logistic ((∑ k : Fin 128, act a b v Ws Wr Wv bm e k * wi (ix1 k)) + bi (ix1 0))

def msgArr {n : ℕ} (a b : Mat n 128) (v : Mat n 3) (Ws Wr : Mat 128 128) (Wv : Mat 3 128) (bm : Row 128)
    (wi : Row 128) (bi : Row 1) : Mat n 128 :=
  fun i => act a b v Ws Wr Wv bm (i 0) (i 1) * gate a b v Ws Wr Wv bm wi bi (i 0)

def upd2Arr {n : ℕ} (x g : Mat n 128) (U0 U1 : Mat 128 128) (bu : Row 128) : Mat n 128 :=
  fun i => x i + (((∑ k : Fin 128, x (ix2 (i 0) k) * U0 (ix2 k (i 1)))
      + ∑ k : Fin 128, g (ix2 (i 0) k) * U1 (ix2 k (i 1))) + bu (ix1 (i 1)))

def upd3Arr {n : ℕ} (x g h : Mat n 128) (U0 U1 U2 : Mat 128 128) (bu : Row 128) : Mat n 128 :=
  fun i => x i + ((((∑ k : Fin 128, x (ix2 (i 0) k) * U0 (ix2 k (i 1)))
      + ∑ k : Fin 128, g (ix2 (i 0) k) * U1 (ix2 k (i 1)))
      + ∑ k : Fin 128, h (ix2 (i 0) k) * U2 (ix2 k (i 1))) + bu (ix1 (i 1)))

end Cert.Spec

end
-- ==== Proof.KTerms.lean ====
/- The kernel side's arrays as functions of the argument arrays, operation by operation. -/
import proofs.«412327_j14886356648020_1_alg».proof.KernelIdeal
import proofs.«412327_j14886356648020_1_alg».proof.Proof.Gen.KernelIdeal
import proofs.«412327_j14886356648020_1_alg».proof.Proof.Spec

noncomputable section

namespace Cert.KernelIdeal.KT

open Idealize.ShloMosaic Cert.KernelIdeal Cert.KernelIdeal.Facts₀ Cert.KernelIdeal.Facts

def take_100000_500000 (x : FVec Ideal S100000x128 .f32) (idx : IVec S500000 32) : FVec Ideal S500000x128 .f32 :=
  let wrapped : IVec S500000 32 :=
    select (cmpi .slt idx (broadcastInDim S500000 ![] bcast_S_S500000 (constantI S_ 32 0#32)))
      (addi idx (broadcastInDim S500000 ![] bcast_S_S500000 (constantI S_ 32 100000#32))) idx
  let col : IVec S500000x1 32 := broadcastInDim S500000x1 ![0] bcast_S500000_S500000x1_0 wrapped
  let inside : IVec S500000 1 :=
    Host.reduce IntOp.andi
      (andi (cmpi .sge col (broadcastInDim S500000x1 ![] bcast_S_S500000x1 (constantI S_ 32 0#32)))
        (cmpi .sle col (broadcastInDim S500000x1 ![0, 1] bcast_S1x1_S500000x1_0_1
          (broadcastInDim S1x1 ![1] bcast_S1_S1x1_1 (constantI S1 32 99999#32)))))
      (constantI S_ 1 1#1) reducesTo_S500000x1_S500000_d1 h_S_
  select (broadcastInDim S500000x128 ![0] bcast_S500000_S500000x128_0 inside)
    (Host.gather gather_S100000x128_S500000x1_S500000x128_1_0_n_n_0_1_1128 x col)
    (broadcastInDim S500000x128 ![] bcast_S_S500000x128 (constant S_ .f32 0x7FC00000#32))

def take_100000_300000 (x : FVec Ideal S100000x128 .f32) (idx : IVec S300000 32) : FVec Ideal S300000x128 .f32 :=
  let wrapped : IVec S300000 32 :=
    select (cmpi .slt idx (broadcastInDim S300000 ![] bcast_S_S300000 (constantI S_ 32 0#32)))
      (addi idx (broadcastInDim S300000 ![] bcast_S_S300000 (constantI S_ 32 100000#32))) idx
  let col : IVec S300000x1 32 := broadcastInDim S300000x1 ![0] bcast_S300000_S300000x1_0 wrapped
  let inside : IVec S300000 1 :=
    Host.reduce IntOp.andi
      (andi (cmpi .sge col (broadcastInDim S300000x1 ![] bcast_S_S300000x1 (constantI S_ 32 0#32)))
        (cmpi .sle col (broadcastInDim S300000x1 ![0, 1] bcast_S1x1_S300000x1_0_1
          (broadcastInDim S1x1 ![1] bcast_S1_S1x1_1 (constantI S1 32 99999#32)))))
      (constantI S_ 1 1#1) reducesTo_S300000x1_S300000_d1 h_S_
  select (broadcastInDim S300000x128 ![0] bcast_S300000_S300000x128_0 inside)
    (Host.gather gather_S100000x128_S300000x1_S300000x128_1_0_n_n_0_1_1128 x col)
    (broadcastInDim S300000x128 ![] bcast_S_S300000x128 (constant S_ .f32 0x7FC00000#32))

def take_150000_300000 (x : FVec Ideal S150000x128 .f32) (idx : IVec S300000 32) : FVec Ideal S300000x128 .f32 :=
  let wrapped : IVec S300000 32 :=
    select (cmpi .slt idx (broadcastInDim S300000 ![] bcast_S_S300000 (constantI S_ 32 0#32)))
      (addi idx (broadcastInDim S300000 ![] bcast_S_S300000 (constantI S_ 32 150000#32))) idx
  let col : IVec S300000x1 32 := broadcastInDim S300000x1 ![0] bcast_S300000_S300000x1_0 wrapped
  let inside : IVec S300000 1 :=
    Host.reduce IntOp.andi
      (andi (cmpi .sge col (broadcastInDim S300000x1 ![] bcast_S_S300000x1 (constantI S_ 32 0#32)))
        (cmpi .sle col (broadcastInDim S300000x1 ![0, 1] bcast_S1x1_S300000x1_0_1
          (broadcastInDim S1x1 ![1] bcast_S1_S1x1_1 (constantI S1 32 149999#32)))))
      (constantI S_ 1 1#1) reducesTo_S300000x1_S300000_d1 h_S_
  select (broadcastInDim S300000x128 ![0] bcast_S300000_S300000x128_0 inside)
    (Host.gather gather_S150000x128_S300000x1_S300000x128_1_0_n_n_0_1_1128 x col)
    (broadcastInDim S300000x128 ![] bcast_S_S300000x128 (constant S_ .f32 0x7FC00000#32))

def take_150000_200000 (x : FVec Ideal S150000x128 .f32) (idx : IVec S200000 32) : FVec Ideal S200000x128 .f32 :=
  let wrapped : IVec S200000 32 :=
    select (cmpi .slt idx (broadcastInDim S200000 ![] bcast_S_S200000 (constantI S_ 32 0#32)))
      (addi idx (broadcastInDim S200000 ![] bcast_S_S200000 (constantI S_ 32 150000#32))) idx
  let col : IVec S200000x1 32 := broadcastInDim S200000x1 ![0] bcast_S200000_S200000x1_0 wrapped
  let inside : IVec S200000 1 :=
    Host.reduce IntOp.andi
      (andi (cmpi .sge col (broadcastInDim S200000x1 ![] bcast_S_S200000x1 (constantI S_ 32 0#32)))
        (cmpi .sle col (broadcastInDim S200000x1 ![0, 1] bcast_S1x1_S200000x1_0_1
          (broadcastInDim S1x1 ![1] bcast_S1_S1x1_1 (constantI S1 32 149999#32)))))
      (constantI S_ 1 1#1) reducesTo_S200000x1_S200000_d1 h_S_
  select (broadcastInDim S200000x128 ![0] bcast_S200000_S200000x128_0 inside)
    (Host.gather gather_S150000x128_S200000x1_S200000x128_1_0_n_n_0_1_1128 x col)
    (broadcastInDim S200000x128 ![] bcast_S_S200000x128 (constant S_ .f32 0x7FC00000#32))

def take_80000_200000 (x : FVec Ideal S80000x128 .f32) (idx : IVec S200000 32) : FVec Ideal S200000x128 .f32 :=
  let wrapped : IVec S200000 32 :=
    select (cmpi .slt idx (broadcastInDim S200000 ![] bcast_S_S200000 (constantI S_ 32 0#32)))
      (addi idx (broadcastInDim S200000 ![] bcast_S_S200000 (constantI S_ 32 80000#32))) idx
  let col : IVec S200000x1 32 := broadcastInDim S200000x1 ![0] bcast_S200000_S200000x1_0 wrapped
  let inside : IVec S200000 1 :=
    Host.reduce IntOp.andi
      (andi (cmpi .sge col (broadcastInDim S200000x1 ![] bcast_S_S200000x1 (constantI S_ 32 0#32)))
        (cmpi .sle col (broadcastInDim S200000x1 ![0, 1] bcast_S1x1_S200000x1_0_1
          (broadcastInDim S1x1 ![1] bcast_S1_S1x1_1 (constantI S1 32 79999#32)))))
      (constantI S_ 1 1#1) reducesTo_S200000x1_S200000_d1 h_S_
  select (broadcastInDim S200000x128 ![0] bcast_S200000_S200000x128_0 inside)
    (Host.gather gather_S80000x128_S200000x1_S200000x128_1_0_n_n_0_1_1128 x col)
    (broadcastInDim S200000x128 ![] bcast_S_S200000x128 (constant S_ .f32 0x7FC00000#32))

def idx0_00 (adj : IVec S2x500000 32) : IVec S500000 32 :=
  shapeCast S500000 (extractStridedSlice S1x500000 ![0, 0] adj slices_S2x500000_S1x500000_0_0) shapeCasts_S1x500000_S500000

def idx1_00 (adj : IVec S2x500000 32) : IVec S500000 32 :=
  shapeCast S500000 (extractStridedSlice S1x500000 ![1, 0] adj slices_S2x500000_S1x500000_1_0) shapeCasts_S1x500000_S500000

def msg_00 (xs : FVec Ideal S100000x128 .f32) (xr : FVec Ideal S100000x128 .f32) (adj : IVec S2x500000 32)
    (inv : FVec Ideal S500000x3 .f32) (Wm : FVec Ideal S259x128 .f32) (bm : FVec Ideal S128 .f32)
    (Wi : FVec Ideal S128x1 .f32) (bi : FVec Ideal S1 .f32) : FVec Ideal S500000x128 .f32 :=
  Cert.Spec.msgArr (n := 500000) (take_100000_500000 xs (idx0_00 adj)) (take_100000_500000 xr (idx1_00 adj)) inv
    (extractStridedSlice S128x128 ![0, 0] Wm slices_S259x128_S128x128_0_0)
    (extractStridedSlice S128x128 ![128, 0] Wm slices_S259x128_S128x128_128_0)
    (extractStridedSlice S3x128 ![256, 0] Wm slices_S259x128_S3x128_256_0)
    bm (shapeCast S128 Wi shapeCasts_S128x1_S128) bi

def agg_00 (xs : FVec Ideal S100000x128 .f32) (xr : FVec Ideal S100000x128 .f32) (adj : IVec S2x500000 32)
    (inv : FVec Ideal S500000x3 .f32) (Wm : FVec Ideal S259x128 .f32) (bm : FVec Ideal S128 .f32)
    (Wi : FVec Ideal S128x1 .f32) (bi : FVec Ideal S1 .f32) : FVec Ideal S100000x128 .f32 :=
  Host.scatterAdd scatter_S100000x128_S500000x1_S500000x128_1_0_0_1
    (broadcastInDim S100000x128 ![] bcast_S_S100000x128 (constant S_ .f32 0x00000000#32))
    (broadcastInDim S500000x1 ![0] bcast_S500000_S500000x1_0 (idx1_00 adj))
    (msg_00 xs xr adj inv Wm bm Wi bi)

def idx0_01 (adj : IVec S2x300000 32) : IVec S300000 32 :=
  shapeCast S300000 (extractStridedSlice S1x300000 ![0, 0] adj slices_S2x300000_S1x300000_0_0) shapeCasts_S1x300000_S300000

def idx1_01 (adj : IVec S2x300000 32) : IVec S300000 32 :=
  shapeCast S300000 (extractStridedSlice S1x300000 ![1, 0] adj slices_S2x300000_S1x300000_1_0) shapeCasts_S1x300000_S300000

def msg_01 (xs : FVec Ideal S100000x128 .f32) (xr : FVec Ideal S150000x128 .f32) (adj : IVec S2x300000 32)
    (inv : FVec Ideal S300000x3 .f32) (Wm : FVec Ideal S259x128 .f32) (bm : FVec Ideal S128 .f32)
    (Wi : FVec Ideal S128x1 .f32) (bi : FVec Ideal S1 .f32) : FVec Ideal S300000x128 .f32 :=
  Cert.Spec.msgArr (n := 300000) (take_100000_300000 xs (idx0_01 adj)) (take_150000_300000 xr (idx1_01 adj)) inv
    (extractStridedSlice S128x128 ![0, 0] Wm slices_S259x128_S128x128_0_0)
    (extractStridedSlice S128x128 ![128, 0] Wm slices_S259x128_S128x128_128_0)
    (extractStridedSlice S3x128 ![256, 0] Wm slices_S259x128_S3x128_256_0)
    bm (shapeCast S128 Wi shapeCasts_S128x1_S128) bi

def agg_01 (xs : FVec Ideal S100000x128 .f32) (xr : FVec Ideal S150000x128 .f32) (adj : IVec S2x300000 32)
    (inv : FVec Ideal S300000x3 .f32) (Wm : FVec Ideal S259x128 .f32) (bm : FVec Ideal S128 .f32)
    (Wi : FVec Ideal S128x1 .f32) (bi : FVec Ideal S1 .f32) : FVec Ideal S150000x128 .f32 :=
  Host.scatterAdd scatter_S150000x128_S300000x1_S300000x128_1_0_0_1
    (broadcastInDim S150000x128 ![] bcast_S_S150000x128 (constant S_ .f32 0x00000000#32))
    (broadcastInDim S300000x1 ![0] bcast_S300000_S300000x1_0 (idx1_01 adj))
    (msg_01 xs xr adj inv Wm bm Wi bi)

def idx0_11 (adj : IVec S2x300000 32) : IVec S300000 32 :=
  shapeCast S300000 (extractStridedSlice S1x300000 ![0, 0] adj slices_S2x300000_S1x300000_0_0) shapeCasts_S1x300000_S300000

def idx1_11 (adj : IVec S2x300000 32) : IVec S300000 32 :=
  shapeCast S300000 (extractStridedSlice S1x300000 ![1, 0] adj slices_S2x300000_S1x300000_1_0) shapeCasts_S1x300000_S300000

def msg_11 (xs : FVec Ideal S150000x128 .f32) (xr : FVec Ideal S150000x128 .f32) (adj : IVec S2x300000 32)
    (inv : FVec Ideal S300000x3 .f32) (Wm : FVec Ideal S259x128 .f32) (bm : FVec Ideal S128 .f32)
    (Wi : FVec Ideal S128x1 .f32) (bi : FVec Ideal S1 .f32) : FVec Ideal S300000x128 .f32 :=
  Cert.Spec.msgArr (n := 300000) (take_150000_300000 xs (idx0_11 adj)) (take_150000_300000 xr (idx1_11 adj)) inv
    (extractStridedSlice S128x128 ![0, 0] Wm slices_S259x128_S128x128_0_0)
    (extractStridedSlice S128x128 ![128, 0] Wm slices_S259x128_S128x128_128_0)
    (extractStridedSlice S3x128 ![256, 0] Wm slices_S259x128_S3x128_256_0)
    bm (shapeCast S128 Wi shapeCasts_S128x1_S128) bi

def agg_11 (xs : FVec Ideal S150000x128 .f32) (xr : FVec Ideal S150000x128 .f32) (adj : IVec S2x300000 32)
    (inv : FVec Ideal S300000x3 .f32) (Wm : FVec Ideal S259x128 .f32) (bm : FVec Ideal S128 .f32)
    (Wi : FVec Ideal S128x1 .f32) (bi : FVec Ideal S1 .f32) : FVec Ideal S150000x128 .f32 :=
  Host.scatterAdd scatter_S150000x128_S300000x1_S300000x128_1_0_0_1
    (broadcastInDim S150000x128 ![] bcast_S_S150000x128 (constant S_ .f32 0x00000000#32))
    (broadcastInDim S300000x1 ![0] bcast_S300000_S300000x1_0 (idx1_11 adj))
    (msg_11 xs xr adj inv Wm bm Wi bi)

def idx0_12 (adj : IVec S2x200000 32) : IVec S200000 32 :=
  shapeCast S200000 (extractStridedSlice S1x200000 ![0, 0] adj slices_S2x200000_S1x200000_0_0) shapeCasts_S1x200000_S200000

def idx1_12 (adj : IVec S2x200000 32) : IVec S200000 32 :=
  shapeCast S200000 (extractStridedSlice S1x200000 ![1, 0] adj slices_S2x200000_S1x200000_1_0) shapeCasts_S1x200000_S200000

def msg_12 (xs : FVec Ideal S150000x128 .f32) (xr : FVec Ideal S80000x128 .f32) (adj : IVec S2x200000 32)
    (inv : FVec Ideal S200000x3 .f32) (Wm : FVec Ideal S259x128 .f32) (bm : FVec Ideal S128 .f32)
    (Wi : FVec Ideal S128x1 .f32) (bi : FVec Ideal S1 .f32) : FVec Ideal S200000x128 .f32 :=
  Cert.Spec.msgArr (n := 200000) (take_150000_200000 xs (idx0_12 adj)) (take_80000_200000 xr (idx1_12 adj)) inv
    (extractStridedSlice S128x128 ![0, 0] Wm slices_S259x128_S128x128_0_0)
    (extractStridedSlice S128x128 ![128, 0] Wm slices_S259x128_S128x128_128_0)
    (extractStridedSlice S3x128 ![256, 0] Wm slices_S259x128_S3x128_256_0)
    bm (shapeCast S128 Wi shapeCasts_S128x1_S128) bi

def agg_12 (xs : FVec Ideal S150000x128 .f32) (xr : FVec Ideal S80000x128 .f32) (adj : IVec S2x200000 32)
    (inv : FVec Ideal S200000x3 .f32) (Wm : FVec Ideal S259x128 .f32) (bm : FVec Ideal S128 .f32)
    (Wi : FVec Ideal S128x1 .f32) (bi : FVec Ideal S1 .f32) : FVec Ideal S80000x128 .f32 :=
  Host.scatterAdd scatter_S80000x128_S200000x1_S200000x128_1_0_0_1
    (broadcastInDim S80000x128 ![] bcast_S_S80000x128 (constant S_ .f32 0x00000000#32))
    (broadcastInDim S200000x1 ![0] bcast_S200000_S200000x1_0 (idx1_12 adj))
    (msg_12 xs xr adj inv Wm bm Wi bi)

def idx0_22 (adj : IVec S2x200000 32) : IVec S200000 32 :=
  shapeCast S200000 (extractStridedSlice S1x200000 ![0, 0] adj slices_S2x200000_S1x200000_0_0) shapeCasts_S1x200000_S200000

def idx1_22 (adj : IVec S2x200000 32) : IVec S200000 32 :=
  shapeCast S200000 (extractStridedSlice S1x200000 ![1, 0] adj slices_S2x200000_S1x200000_1_0) shapeCasts_S1x200000_S200000

def msg_22 (xs : FVec Ideal S80000x128 .f32) (xr : FVec Ideal S80000x128 .f32) (adj : IVec S2x200000 32)
    (inv : FVec Ideal S200000x3 .f32) (Wm : FVec Ideal S259x128 .f32) (bm : FVec Ideal S128 .f32)
    (Wi : FVec Ideal S128x1 .f32) (bi : FVec Ideal S1 .f32) : FVec Ideal S200000x128 .f32 :=
  Cert.Spec.msgArr (n := 200000) (take_80000_200000 xs (idx0_22 adj)) (take_80000_200000 xr (idx1_22 adj)) inv
    (extractStridedSlice S128x128 ![0, 0] Wm slices_S259x128_S128x128_0_0)
    (extractStridedSlice S128x128 ![128, 0] Wm slices_S259x128_S128x128_128_0)
    (extractStridedSlice S3x128 ![256, 0] Wm slices_S259x128_S3x128_256_0)
    bm (shapeCast S128 Wi shapeCasts_S128x1_S128) bi

def agg_22 (xs : FVec Ideal S80000x128 .f32) (xr : FVec Ideal S80000x128 .f32) (adj : IVec S2x200000 32)
    (inv : FVec Ideal S200000x3 .f32) (Wm : FVec Ideal S259x128 .f32) (bm : FVec Ideal S128 .f32)
    (Wi : FVec Ideal S128x1 .f32) (bi : FVec Ideal S1 .f32) : FVec Ideal S80000x128 .f32 :=
  Host.scatterAdd scatter_S80000x128_S200000x1_S200000x128_1_0_0_1
    (broadcastInDim S80000x128 ![] bcast_S_S80000x128 (constant S_ .f32 0x00000000#32))
    (broadcastInDim S200000x1 ![0] bcast_S200000_S200000x1_0 (idx1_22 adj))
    (msg_22 xs xr adj inv Wm bm Wi bi)

def out0 (x : FVec Ideal S100000x128 .f32) (g : FVec Ideal S100000x128 .f32) (Wu : FVec Ideal S256x128 .f32)
    (bu : FVec Ideal S128 .f32) : FVec Ideal S100000x128 .f32 :=
  Cert.Spec.upd2Arr (n := 100000) x g (extractStridedSlice S128x128 ![0, 0] Wu slices_S256x128_S128x128_0_0)
    (extractStridedSlice S128x128 ![128, 0] Wu slices_S256x128_S128x128_128_0) bu

def out1 (x : FVec Ideal S150000x128 .f32) (g h : FVec Ideal S150000x128 .f32) (Wu : FVec Ideal S384x128 .f32)
    (bu : FVec Ideal S128 .f32) : FVec Ideal S150000x128 .f32 :=
  Cert.Spec.upd3Arr (n := 150000) x g h (extractStridedSlice S128x128 ![0, 0] Wu slices_S384x128_S128x128_0_0)
    (extractStridedSlice S128x128 ![128, 0] Wu slices_S384x128_S128x128_128_0)
    (extractStridedSlice S128x128 ![256, 0] Wu slices_S384x128_S128x128_256_0) bu

def out2 (x : FVec Ideal S80000x128 .f32) (g h : FVec Ideal S80000x128 .f32) (Wu : FVec Ideal S384x128 .f32)
    (bu : FVec Ideal S128 .f32) : FVec Ideal S80000x128 .f32 :=
  Cert.Spec.upd3Arr (n := 80000) x g h (extractStridedSlice S128x128 ![0, 0] Wu slices_S384x128_S128x128_0_0)
    (extractStridedSlice S128x128 ![128, 0] Wu slices_S384x128_S128x128_128_0)
    (extractStridedSlice S128x128 ![256, 0] Wu slices_S384x128_S128x128_256_0) bu

end Cert.KernelIdeal.KT

end
-- ==== Proof.KPass.lean ====
import proofs.«412327_j14886356648020_1_alg».proof.Proof.Gen.KernelIdeal.Frame

set_option maxRecDepth 16384

noncomputable section

namespace Cert.KernelIdeal.KPass

open Idealize.ShloMosaic Idealize.ShloMosaic.TcCoe Idealize.SL.Sem Cert.KernelIdeal Cert.KernelIdeal.Gen

variable {F : FTy → Type} [FloatOps F]

abbrev L0 : List (Ref sig .tc) := [main_v0, main_v1, main_v2, main_v3]
abbrev L1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
abbrev L2 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v5]
abbrev L3 : List (Ref sig .tc) := [main_v6, main_v7, main_v8, main_v9]
abbrev L4 : List (Ref sig .tc) := [main_v4, main_v5, main_arg8, main_v6, main_v7, main_v8, main_arg14, main_v9, main_arg16, main_v10]
abbrev L5 : List (Ref sig .tc) := [main_cst, main_v11, main_v12, main_v13, main_v14, main_v15, main_v16, main_v17]
abbrev L6 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v18]
abbrev L7 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v19]
abbrev L8 : List (Ref sig .tc) := [main_v20, main_v21, main_v22, main_v23]
abbrev L9 : List (Ref sig .tc) := [main_v18, main_v19, main_arg9, main_v20, main_v21, main_v22, main_arg18, main_v23, main_arg20, main_v24]
abbrev L10 : List (Ref sig .tc) := [main_cst_0, main_v25, main_v26, main_v27, main_v28, main_v29, main_v30, main_v31]
abbrev L11 : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v32]
abbrev L12 : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v33]
abbrev L13 : List (Ref sig .tc) := [main_v34, main_v35, main_v36, main_v37]
abbrev L14 : List (Ref sig .tc) := [main_v32, main_v33, main_arg10, main_v34, main_v35, main_v36, main_arg22, main_v37, main_arg24, main_v38]
abbrev L15 : List (Ref sig .tc) := [main_cst_1, main_v39, main_v40, main_v41, main_v42, main_v43, main_v44, main_v45]
abbrev L16 : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v46]
abbrev L17 : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v47]
abbrev L18 : List (Ref sig .tc) := [main_v48, main_v49, main_v50, main_v51]
abbrev L19 : List (Ref sig .tc) := [main_v46, main_v47, main_arg11, main_v48, main_v49, main_v50, main_arg26, main_v51, main_arg28, main_v52]
abbrev L20 : List (Ref sig .tc) := [main_cst_2, main_v53, main_v54, main_v55, main_v56, main_v57, main_v58, main_v59]
abbrev L21 : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v60]
abbrev L22 : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v61]
abbrev L23 : List (Ref sig .tc) := [main_v62, main_v63, main_v64, main_v65]
abbrev L24 : List (Ref sig .tc) := [main_v60, main_v61, main_arg12, main_v62, main_v63, main_v64, main_arg30, main_v65, main_arg32, main_v66]
abbrev L25 : List (Ref sig .tc) := [main_cst_3, main_v67, main_v68, main_v69, main_v70, main_v71]
abbrev L26 : List (Ref sig .tc) := [main_arg0, main_v13, main_v70, main_v71, main_arg34, main_v72]
abbrev L27 : List (Ref sig .tc) := [main_v73, main_v74, main_v75]
abbrev L28 : List (Ref sig .tc) := [main_arg1, main_v27, main_v41, main_v73, main_v74, main_v75, main_arg36, main_v76]
abbrev L29 : List (Ref sig .tc) := [main_v77, main_v78, main_v79]
abbrev L30 : List (Ref sig .tc) := [main_arg2, main_v55, main_v69, main_v77, main_v78, main_v79, main_arg38, main_v80]

/-- The buffers segment k of @main writes: a host stretch's results, a region's arrays. -/
def Lof : ℕ → List (Ref sig .tc)
  | 0 => L0
  | 1 => L1
  | 2 => L2
  | 3 => L3
  | 4 => L4
  | 5 => L5
  | 6 => L6
  | 7 => L7
  | 8 => L8
  | 9 => L9
  | 10 => L10
  | 11 => L11
  | 12 => L12
  | 13 => L13
  | 14 => L14
  | 15 => L15
  | 16 => L16
  | 17 => L17
  | 18 => L18
  | 19 => L19
  | 20 => L20
  | 21 => L21
  | 22 => L22
  | 23 => L23
  | 24 => L24
  | 25 => L25
  | 26 => L26
  | 27 => L27
  | 28 => L28
  | 29 => L29
  | 30 => L30
  | _ => []

theorem arrays : (∀ w, Pipeline.arrRef spec0 w ∈ L4) ∧ (∀ w, Pipeline.arrRef spec1 w ∈ L9) ∧ (∀ w, Pipeline.arrRef spec2 w ∈ L14) ∧ (∀ w, Pipeline.arrRef spec3 w ∈ L19) ∧ (∀ w, Pipeline.arrRef spec4 w ∈ L24) ∧ (∀ w, Pipeline.arrRef spec5 w ∈ L26) ∧ (∀ w, Pipeline.arrRef spec6 w ∈ L28) ∧ (∀ w, Pipeline.arrRef spec7 w ∈ L30) := by decide

/-- Every host operation of a stretch writes a buffer of the stretch's list. -/
theorem writes :
    (hostOps0 : List (HloOp τ sig (Elt F))).Forall (fun op => op.writes ⊆ (L0.map (Proc.devRef (τ := τ) .tc)).toFinset) ∧
    (hostOps0_1 : List (HloOp τ sig (Elt F))).Forall (fun op => op.writes ⊆ (L1.map (Proc.devRef (τ := τ) .tc)).toFinset) ∧
    (hostOps0_2 : List (HloOp τ sig (Elt F))).Forall (fun op => op.writes ⊆ (L2.map (Proc.devRef (τ := τ) .tc)).toFinset) ∧
    (hostOps0_3 : List (HloOp τ sig (Elt F))).Forall (fun op => op.writes ⊆ (L3.map (Proc.devRef (τ := τ) .tc)).toFinset) ∧
    (hostOps1 : List (HloOp τ sig (Elt F))).Forall (fun op => op.writes ⊆ (L5.map (Proc.devRef (τ := τ) .tc)).toFinset) ∧
    (hostOps1_1 : List (HloOp τ sig (Elt F))).Forall (fun op => op.writes ⊆ (L6.map (Proc.devRef (τ := τ) .tc)).toFinset) ∧
    (hostOps1_2 : List (HloOp τ sig (Elt F))).Forall (fun op => op.writes ⊆ (L7.map (Proc.devRef (τ := τ) .tc)).toFinset) ∧
    (hostOps1_3 : List (HloOp τ sig (Elt F))).Forall (fun op => op.writes ⊆ (L8.map (Proc.devRef (τ := τ) .tc)).toFinset) ∧
    (hostOps2 : List (HloOp τ sig (Elt F))).Forall (fun op => op.writes ⊆ (L10.map (Proc.devRef (τ := τ) .tc)).toFinset) ∧
    (hostOps2_1 : List (HloOp τ sig (Elt F))).Forall (fun op => op.writes ⊆ (L11.map (Proc.devRef (τ := τ) .tc)).toFinset) ∧
    (hostOps2_2 : List (HloOp τ sig (Elt F))).Forall (fun op => op.writes ⊆ (L12.map (Proc.devRef (τ := τ) .tc)).toFinset) ∧
    (hostOps2_3 : List (HloOp τ sig (Elt F))).Forall (fun op => op.writes ⊆ (L13.map (Proc.devRef (τ := τ) .tc)).toFinset) ∧
    (hostOps3 : List (HloOp τ sig (Elt F))).Forall (fun op => op.writes ⊆ (L15.map (Proc.devRef (τ := τ) .tc)).toFinset) ∧
    (hostOps3_1 : List (HloOp τ sig (Elt F))).Forall (fun op => op.writes ⊆ (L16.map (Proc.devRef (τ := τ) .tc)).toFinset) ∧
    (hostOps3_2 : List (HloOp τ sig (Elt F))).Forall (fun op => op.writes ⊆ (L17.map (Proc.devRef (τ := τ) .tc)).toFinset) ∧
    (hostOps3_3 : List (HloOp τ sig (Elt F))).Forall (fun op => op.writes ⊆ (L18.map (Proc.devRef (τ := τ) .tc)).toFinset) ∧
    (hostOps4 : List (HloOp τ sig (Elt F))).Forall (fun op => op.writes ⊆ (L20.map (Proc.devRef (τ := τ) .tc)).toFinset) ∧
    (hostOps4_1 : List (HloOp τ sig (Elt F))).Forall (fun op => op.writes ⊆ (L21.map (Proc.devRef (τ := τ) .tc)).toFinset) ∧
    (hostOps4_2 : List (HloOp τ sig (Elt F))).Forall (fun op => op.writes ⊆ (L22.map (Proc.devRef (τ := τ) .tc)).toFinset) ∧
    (hostOps4_3 : List (HloOp τ sig (Elt F))).Forall (fun op => op.writes ⊆ (L23.map (Proc.devRef (τ := τ) .tc)).toFinset) ∧
    (hostOps5 : List (HloOp τ sig (Elt F))).Forall (fun op => op.writes ⊆ (L25.map (Proc.devRef (τ := τ) .tc)).toFinset) ∧
    (hostOps6 : List (HloOp τ sig (Elt F))).Forall (fun op => op.writes ⊆ (L27.map (Proc.devRef (τ := τ) .tc)).toFinset) ∧
    (hostOps7 : List (HloOp τ sig (Elt F))).Forall (fun op => op.writes ⊆ (L29.map (Proc.devRef (τ := τ) .tc)).toFinset) := by
  refine ⟨?_, ?_, ?_, ?_, ?_, ?_, ?_, ?_, ?_, ?_, ?_, ?_, ?_, ?_, ?_, ?_, ?_, ?_, ?_, ?_, ?_, ?_, ?_⟩ <;>
    (simp only [hostOps0, hostOps0_1, hostOps0_2, hostOps0_3, hostOps1, hostOps1_1, hostOps1_2, hostOps1_3, hostOps2, hostOps2_1, hostOps2_2, hostOps2_3, hostOps3, hostOps3_1, hostOps3_2, hostOps3_3, hostOps4, hostOps4_1, hostOps4_2, hostOps4_3, hostOps5, hostOps6, hostOps7, List.Forall, StableHlo.nullary_writes, StableHlo.unary_writes,
      StableHlo.binary_writes, StableHlo.ternary_writes, StableHlo.reshape_writes, Finset.singleton_subset_iff, List.mem_toFinset]
     repeat' apply And.intro
     all_goals exact List.mem_map_of_mem (by decide))

/-- None of the first j segments of @main writes the buffer. -/
abbrev KeptTo (j : ℕ) (b : Ref sig .tc) : Prop := ∀ k < j, b ∉ Lof k

variable (m : (ℓ : Loc nD τ sig) → Buf (Elt F) ℓ) (ρ : Dev nD → PrngReg) (c : Dev nD) {b : Ref sig .tc}

theorem s0 (hb : b ∉ L0) : W1 m ρ c (Proc.devRef .tc b) = W0 m ρ c (Proc.devRef .tc b) :=
  StableHlo.after_of_writes_sub hostOps0 _ (writes (F := F)).1 hb
theorem s1 (hb : b ∉ L1) : W2 m ρ c (Proc.devRef .tc b) = W1 m ρ c (Proc.devRef .tc b) :=
  StableHlo.after_of_writes_sub hostOps0_1 _ (writes (F := F)).2.1 hb
theorem s2 (hb : b ∉ L2) : W3 m ρ c (Proc.devRef .tc b) = W2 m ρ c (Proc.devRef .tc b) :=
  StableHlo.after_of_writes_sub hostOps0_2 _ (writes (F := F)).2.2.1 hb
theorem s3 (hb : b ∉ L3) : W4 m ρ c (Proc.devRef .tc b) = W3 m ρ c (Proc.devRef .tc b) :=
  StableHlo.after_of_writes_sub hostOps0_3 _ (writes (F := F)).2.2.2.1 hb
theorem s4 (hb : b ∉ L4) : W5 m ρ c (Proc.devRef .tc b) = W4 m ρ c (Proc.devRef .tc b) :=
  W5_of_ne m ρ c b fun w e => hb (e ▸ arrays.1 w)
theorem s5 (hb : b ∉ L5) : W6 m ρ c (Proc.devRef .tc b) = W5 m ρ c (Proc.devRef .tc b) :=
  StableHlo.after_of_writes_sub hostOps1 _ (writes (F := F)).2.2.2.2.1 hb
theorem s6 (hb : b ∉ L6) : W7 m ρ c (Proc.devRef .tc b) = W6 m ρ c (Proc.devRef .tc b) :=
  StableHlo.after_of_writes_sub hostOps1_1 _ (writes (F := F)).2.2.2.2.2.1 hb
theorem s7 (hb : b ∉ L7) : W8 m ρ c (Proc.devRef .tc b) = W7 m ρ c (Proc.devRef .tc b) :=
  StableHlo.after_of_writes_sub hostOps1_2 _ (writes (F := F)).2.2.2.2.2.2.1 hb
theorem s8 (hb : b ∉ L8) : W9 m ρ c (Proc.devRef .tc b) = W8 m ρ c (Proc.devRef .tc b) :=
  StableHlo.after_of_writes_sub hostOps1_3 _ (writes (F := F)).2.2.2.2.2.2.2.1 hb
theorem s9 (hb : b ∉ L9) : W10 m ρ c (Proc.devRef .tc b) = W9 m ρ c (Proc.devRef .tc b) :=
  W10_of_ne m ρ c b fun w e => hb (e ▸ arrays.2.1 w)
theorem s10 (hb : b ∉ L10) : W11 m ρ c (Proc.devRef .tc b) = W10 m ρ c (Proc.devRef .tc b) :=
  StableHlo.after_of_writes_sub hostOps2 _ (writes (F := F)).2.2.2.2.2.2.2.2.1 hb
theorem s11 (hb : b ∉ L11) : W12 m ρ c (Proc.devRef .tc b) = W11 m ρ c (Proc.devRef .tc b) :=
  StableHlo.after_of_writes_sub hostOps2_1 _ (writes (F := F)).2.2.2.2.2.2.2.2.2.1 hb
theorem s12 (hb : b ∉ L12) : W13 m ρ c (Proc.devRef .tc b) = W12 m ρ c (Proc.devRef .tc b) :=
  StableHlo.after_of_writes_sub hostOps2_2 _ (writes (F := F)).2.2.2.2.2.2.2.2.2.2.1 hb
theorem s13 (hb : b ∉ L13) : W14 m ρ c (Proc.devRef .tc b) = W13 m ρ c (Proc.devRef .tc b) :=
  StableHlo.after_of_writes_sub hostOps2_3 _ (writes (F := F)).2.2.2.2.2.2.2.2.2.2.2.1 hb
theorem s14 (hb : b ∉ L14) : W15 m ρ c (Proc.devRef .tc b) = W14 m ρ c (Proc.devRef .tc b) :=
  W15_of_ne m ρ c b fun w e => hb (e ▸ arrays.2.2.1 w)
theorem s15 (hb : b ∉ L15) : W16 m ρ c (Proc.devRef .tc b) = W15 m ρ c (Proc.devRef .tc b) :=
  StableHlo.after_of_writes_sub hostOps3 _ (writes (F := F)).2.2.2.2.2.2.2.2.2.2.2.2.1 hb
theorem s16 (hb : b ∉ L16) : W17 m ρ c (Proc.devRef .tc b) = W16 m ρ c (Proc.devRef .tc b) :=
  StableHlo.after_of_writes_sub hostOps3_1 _ (writes (F := F)).2.2.2.2.2.2.2.2.2.2.2.2.2.1 hb
theorem s17 (hb : b ∉ L17) : W18 m ρ c (Proc.devRef .tc b) = W17 m ρ c (Proc.devRef .tc b) :=
  StableHlo.after_of_writes_sub hostOps3_2 _ (writes (F := F)).2.2.2.2.2.2.2.2.2.2.2.2.2.2.1 hb
theorem s18 (hb : b ∉ L18) : W19 m ρ c (Proc.devRef .tc b) = W18 m ρ c (Proc.devRef .tc b) :=
  StableHlo.after_of_writes_sub hostOps3_3 _ (writes (F := F)).2.2.2.2.2.2.2.2.2.2.2.2.2.2.2.1 hb
theorem s19 (hb : b ∉ L19) : W20 m ρ c (Proc.devRef .tc b) = W19 m ρ c (Proc.devRef .tc b) :=
  W20_of_ne m ρ c b fun w e => hb (e ▸ arrays.2.2.2.1 w)
theorem s20 (hb : b ∉ L20) : W21 m ρ c (Proc.devRef .tc b) = W20 m ρ c (Proc.devRef .tc b) :=
  StableHlo.after_of_writes_sub hostOps4 _ (writes (F := F)).2.2.2.2.2.2.2.2.2.2.2.2.2.2.2.2.1 hb
theorem s21 (hb : b ∉ L21) : W22 m ρ c (Proc.devRef .tc b) = W21 m ρ c (Proc.devRef .tc b) :=
  StableHlo.after_of_writes_sub hostOps4_1 _ (writes (F := F)).2.2.2.2.2.2.2.2.2.2.2.2.2.2.2.2.2.1 hb
theorem s22 (hb : b ∉ L22) : W23 m ρ c (Proc.devRef .tc b) = W22 m ρ c (Proc.devRef .tc b) :=
  StableHlo.after_of_writes_sub hostOps4_2 _ (writes (F := F)).2.2.2.2.2.2.2.2.2.2.2.2.2.2.2.2.2.2.1 hb
theorem s23 (hb : b ∉ L23) : W24 m ρ c (Proc.devRef .tc b) = W23 m ρ c (Proc.devRef .tc b) :=
  StableHlo.after_of_writes_sub hostOps4_3 _ (writes (F := F)).2.2.2.2.2.2.2.2.2.2.2.2.2.2.2.2.2.2.2.1 hb
theorem s24 (hb : b ∉ L24) : W25 m ρ c (Proc.devRef .tc b) = W24 m ρ c (Proc.devRef .tc b) :=
  W25_of_ne m ρ c b fun w e => hb (e ▸ arrays.2.2.2.2.1 w)
theorem s25 (hb : b ∉ L25) : W26 m ρ c (Proc.devRef .tc b) = W25 m ρ c (Proc.devRef .tc b) :=
  StableHlo.after_of_writes_sub hostOps5 _ (writes (F := F)).2.2.2.2.2.2.2.2.2.2.2.2.2.2.2.2.2.2.2.2.1 hb
theorem s26 (hb : b ∉ L26) : W27 m ρ c (Proc.devRef .tc b) = W26 m ρ c (Proc.devRef .tc b) :=
  W27_of_ne m ρ c b fun w e => hb (e ▸ arrays.2.2.2.2.2.1 w)
theorem s27 (hb : b ∉ L27) : W28 m ρ c (Proc.devRef .tc b) = W27 m ρ c (Proc.devRef .tc b) :=
  StableHlo.after_of_writes_sub hostOps6 _ (writes (F := F)).2.2.2.2.2.2.2.2.2.2.2.2.2.2.2.2.2.2.2.2.2.1 hb
theorem s28 (hb : b ∉ L28) : W29 m ρ c (Proc.devRef .tc b) = W28 m ρ c (Proc.devRef .tc b) :=
  W29_of_ne m ρ c b fun w e => hb (e ▸ arrays.2.2.2.2.2.2.1 w)
theorem s29 (hb : b ∉ L29) : W30 m ρ c (Proc.devRef .tc b) = W29 m ρ c (Proc.devRef .tc b) :=
  StableHlo.after_of_writes_sub hostOps7 _ (writes (F := F)).2.2.2.2.2.2.2.2.2.2.2.2.2.2.2.2.2.2.2.2.2.2 hb
theorem s30 (hb : b ∉ L30) : W31 m ρ c (Proc.devRef .tc b) = W30 m ρ c (Proc.devRef .tc b) :=
  W31_of_ne m ρ c b fun w e => hb (e ▸ arrays.2.2.2.2.2.2.2 w)

theorem k1 (h : KeptTo 1 b) : W1 m ρ c (Proc.devRef .tc b) = W0 m ρ c (Proc.devRef .tc b) := s0 m ρ c (h 0 (by decide))
theorem k2 (h : KeptTo 2 b) : W2 m ρ c (Proc.devRef .tc b) = W0 m ρ c (Proc.devRef .tc b) := (s1 m ρ c (h 1 (by decide))).trans (k1 m ρ c fun k hk => h k (by omega))
theorem k3 (h : KeptTo 3 b) : W3 m ρ c (Proc.devRef .tc b) = W0 m ρ c (Proc.devRef .tc b) := (s2 m ρ c (h 2 (by decide))).trans (k2 m ρ c fun k hk => h k (by omega))
theorem k4 (h : KeptTo 4 b) : W4 m ρ c (Proc.devRef .tc b) = W0 m ρ c (Proc.devRef .tc b) := (s3 m ρ c (h 3 (by decide))).trans (k3 m ρ c fun k hk => h k (by omega))
theorem k5 (h : KeptTo 5 b) : W5 m ρ c (Proc.devRef .tc b) = W0 m ρ c (Proc.devRef .tc b) := (s4 m ρ c (h 4 (by decide))).trans (k4 m ρ c fun k hk => h k (by omega))
theorem k6 (h : KeptTo 6 b) : W6 m ρ c (Proc.devRef .tc b) = W0 m ρ c (Proc.devRef .tc b) := (s5 m ρ c (h 5 (by decide))).trans (k5 m ρ c fun k hk => h k (by omega))
theorem k7 (h : KeptTo 7 b) : W7 m ρ c (Proc.devRef .tc b) = W0 m ρ c (Proc.devRef .tc b) := (s6 m ρ c (h 6 (by decide))).trans (k6 m ρ c fun k hk => h k (by omega))
theorem k8 (h : KeptTo 8 b) : W8 m ρ c (Proc.devRef .tc b) = W0 m ρ c (Proc.devRef .tc b) := (s7 m ρ c (h 7 (by decide))).trans (k7 m ρ c fun k hk => h k (by omega))
theorem k9 (h : KeptTo 9 b) : W9 m ρ c (Proc.devRef .tc b) = W0 m ρ c (Proc.devRef .tc b) := (s8 m ρ c (h 8 (by decide))).trans (k8 m ρ c fun k hk => h k (by omega))
theorem k10 (h : KeptTo 10 b) : W10 m ρ c (Proc.devRef .tc b) = W0 m ρ c (Proc.devRef .tc b) := (s9 m ρ c (h 9 (by decide))).trans (k9 m ρ c fun k hk => h k (by omega))
theorem k11 (h : KeptTo 11 b) : W11 m ρ c (Proc.devRef .tc b) = W0 m ρ c (Proc.devRef .tc b) := (s10 m ρ c (h 10 (by decide))).trans (k10 m ρ c fun k hk => h k (by omega))
theorem k12 (h : KeptTo 12 b) : W12 m ρ c (Proc.devRef .tc b) = W0 m ρ c (Proc.devRef .tc b) := (s11 m ρ c (h 11 (by decide))).trans (k11 m ρ c fun k hk => h k (by omega))
theorem k13 (h : KeptTo 13 b) : W13 m ρ c (Proc.devRef .tc b) = W0 m ρ c (Proc.devRef .tc b) := (s12 m ρ c (h 12 (by decide))).trans (k12 m ρ c fun k hk => h k (by omega))
theorem k14 (h : KeptTo 14 b) : W14 m ρ c (Proc.devRef .tc b) = W0 m ρ c (Proc.devRef .tc b) := (s13 m ρ c (h 13 (by decide))).trans (k13 m ρ c fun k hk => h k (by omega))
theorem k15 (h : KeptTo 15 b) : W15 m ρ c (Proc.devRef .tc b) = W0 m ρ c (Proc.devRef .tc b) := (s14 m ρ c (h 14 (by decide))).trans (k14 m ρ c fun k hk => h k (by omega))
theorem k16 (h : KeptTo 16 b) : W16 m ρ c (Proc.devRef .tc b) = W0 m ρ c (Proc.devRef .tc b) := (s15 m ρ c (h 15 (by decide))).trans (k15 m ρ c fun k hk => h k (by omega))
theorem k17 (h : KeptTo 17 b) : W17 m ρ c (Proc.devRef .tc b) = W0 m ρ c (Proc.devRef .tc b) := (s16 m ρ c (h 16 (by decide))).trans (k16 m ρ c fun k hk => h k (by omega))
theorem k18 (h : KeptTo 18 b) : W18 m ρ c (Proc.devRef .tc b) = W0 m ρ c (Proc.devRef .tc b) := (s17 m ρ c (h 17 (by decide))).trans (k17 m ρ c fun k hk => h k (by omega))
theorem k19 (h : KeptTo 19 b) : W19 m ρ c (Proc.devRef .tc b) = W0 m ρ c (Proc.devRef .tc b) := (s18 m ρ c (h 18 (by decide))).trans (k18 m ρ c fun k hk => h k (by omega))
theorem k20 (h : KeptTo 20 b) : W20 m ρ c (Proc.devRef .tc b) = W0 m ρ c (Proc.devRef .tc b) := (s19 m ρ c (h 19 (by decide))).trans (k19 m ρ c fun k hk => h k (by omega))
theorem k21 (h : KeptTo 21 b) : W21 m ρ c (Proc.devRef .tc b) = W0 m ρ c (Proc.devRef .tc b) := (s20 m ρ c (h 20 (by decide))).trans (k20 m ρ c fun k hk => h k (by omega))
theorem k22 (h : KeptTo 22 b) : W22 m ρ c (Proc.devRef .tc b) = W0 m ρ c (Proc.devRef .tc b) := (s21 m ρ c (h 21 (by decide))).trans (k21 m ρ c fun k hk => h k (by omega))
theorem k23 (h : KeptTo 23 b) : W23 m ρ c (Proc.devRef .tc b) = W0 m ρ c (Proc.devRef .tc b) := (s22 m ρ c (h 22 (by decide))).trans (k22 m ρ c fun k hk => h k (by omega))
theorem k24 (h : KeptTo 24 b) : W24 m ρ c (Proc.devRef .tc b) = W0 m ρ c (Proc.devRef .tc b) := (s23 m ρ c (h 23 (by decide))).trans (k23 m ρ c fun k hk => h k (by omega))
theorem k25 (h : KeptTo 25 b) : W25 m ρ c (Proc.devRef .tc b) = W0 m ρ c (Proc.devRef .tc b) := (s24 m ρ c (h 24 (by decide))).trans (k24 m ρ c fun k hk => h k (by omega))
theorem k26 (h : KeptTo 26 b) : W26 m ρ c (Proc.devRef .tc b) = W0 m ρ c (Proc.devRef .tc b) := (s25 m ρ c (h 25 (by decide))).trans (k25 m ρ c fun k hk => h k (by omega))
theorem k27 (h : KeptTo 27 b) : W27 m ρ c (Proc.devRef .tc b) = W0 m ρ c (Proc.devRef .tc b) := (s26 m ρ c (h 26 (by decide))).trans (k26 m ρ c fun k hk => h k (by omega))
theorem k28 (h : KeptTo 28 b) : W28 m ρ c (Proc.devRef .tc b) = W0 m ρ c (Proc.devRef .tc b) := (s27 m ρ c (h 27 (by decide))).trans (k27 m ρ c fun k hk => h k (by omega))
theorem k29 (h : KeptTo 29 b) : W29 m ρ c (Proc.devRef .tc b) = W0 m ρ c (Proc.devRef .tc b) := (s28 m ρ c (h 28 (by decide))).trans (k28 m ρ c fun k hk => h k (by omega))
theorem k30 (h : KeptTo 30 b) : W30 m ρ c (Proc.devRef .tc b) = W0 m ρ c (Proc.devRef .tc b) := (s29 m ρ c (h 29 (by decide))).trans (k29 m ρ c fun k hk => h k (by omega))
theorem k31 (h : KeptTo 31 b) : W31 m ρ c (Proc.devRef .tc b) = W0 m ρ c (Proc.devRef .tc b) := (s30 m ρ c (h 30 (by decide))).trans (k30 m ρ c fun k hk => h k (by omega))

theorem v3_1_5 : W5 m ρ c (Proc.devRef .tc main_v3) = W1 m ρ c (Proc.devRef .tc main_v3) :=
  (s4 m ρ c (by decide)).trans ((s3 m ρ c (by decide)).trans ((s2 m ρ c (by decide)).trans (s1 m ρ c (by decide))))
theorem v5_3_4 : W4 m ρ c (Proc.devRef .tc main_v5) = W3 m ρ c (Proc.devRef .tc main_v5) :=
  s3 m ρ c (by decide)
theorem arg1_0_7 : W7 m ρ c (Proc.devRef .tc main_arg1) = W0 m ρ c (Proc.devRef .tc main_arg1) := k7 m ρ c (by decide)
theorem arg9_0_9 : W9 m ρ c (Proc.devRef .tc main_arg9) = W0 m ρ c (Proc.devRef .tc main_arg9) := k9 m ρ c (by decide)
theorem arg21_0_13 : W13 m ρ c (Proc.devRef .tc main_arg21) = W0 m ρ c (Proc.devRef .tc main_arg21) := k13 m ρ c (by decide)
theorem v32_12_14 : W14 m ρ c (Proc.devRef .tc main_v32) = W12 m ρ c (Proc.devRef .tc main_v32) :=
  (s13 m ρ c (by decide)).trans (s12 m ρ c (by decide))
theorem arg11_0_19 : W19 m ρ c (Proc.devRef .tc main_arg11) = W0 m ρ c (Proc.devRef .tc main_arg11) := k19 m ρ c (by decide)
theorem v47_18_19 : W19 m ρ c (Proc.devRef .tc main_v47) = W18 m ρ c (Proc.devRef .tc main_v47) :=
  s18 m ρ c (by decide)
theorem arg29_0_23 : W23 m ρ c (Proc.devRef .tc main_arg29) = W0 m ρ c (Proc.devRef .tc main_arg29) := k23 m ρ c (by decide)
theorem v27_11_28 : W28 m ρ c (Proc.devRef .tc main_v27) = W11 m ρ c (Proc.devRef .tc main_v27) :=
  (s27 m ρ c (by decide)).trans ((s26 m ρ c (by decide)).trans ((s25 m ρ c (by decide)).trans ((s24 m ρ c (by decide)).trans ((s23 m ρ c (by decide)).trans ((s22 m ρ c (by decide)).trans ((s21 m ρ c (by decide)).trans ((s20 m ρ c (by decide)).trans ((s19 m ρ c (by decide)).trans ((s18 m ρ c (by decide)).trans ((s17 m ρ c (by decide)).trans ((s16 m ρ c (by decide)).trans ((s15 m ρ c (by decide)).trans ((s14 m ρ c (by decide)).trans ((s13 m ρ c (by decide)).trans ((s12 m ρ c (by decide)).trans (s11 m ρ c (by decide)))))))))))))))))
theorem arg0_0_26 : W26 m ρ c (Proc.devRef .tc main_arg0) = W0 m ρ c (Proc.devRef .tc main_arg0) := k26 m ρ c (by decide)
theorem arg2_0_30 : W30 m ρ c (Proc.devRef .tc main_arg2) = W0 m ρ c (Proc.devRef .tc main_arg2) := k30 m ρ c (by decide)
theorem v72_27_31 : W31 m ρ c (Proc.devRef .tc main_v72) = W27 m ρ c (Proc.devRef .tc main_v72) :=
  (s30 m ρ c (by decide)).trans ((s29 m ρ c (by decide)).trans ((s28 m ρ c (by decide)).trans (s27 m ρ c (by decide))))
theorem arg13_0_3 : W3 m ρ c (Proc.devRef .tc main_arg13) = W0 m ρ c (Proc.devRef .tc main_arg13) := k3 m ρ c (by decide)
theorem arg0_0_6 : W6 m ρ c (Proc.devRef .tc main_arg0) = W0 m ρ c (Proc.devRef .tc main_arg0) := k6 m ρ c (by decide)
theorem arg18_0_9 : W9 m ρ c (Proc.devRef .tc main_arg18) = W0 m ρ c (Proc.devRef .tc main_arg18) := k9 m ρ c (by decide)
theorem v17_6_7 : W7 m ρ c (Proc.devRef .tc main_v17) = W6 m ρ c (Proc.devRef .tc main_v17) :=
  s6 m ρ c (by decide)
theorem v17_6_10 : W10 m ρ c (Proc.devRef .tc main_v17) = W6 m ρ c (Proc.devRef .tc main_v17) :=
  (s9 m ρ c (by decide)).trans ((s8 m ρ c (by decide)).trans ((s7 m ρ c (by decide)).trans (s6 m ρ c (by decide))))
theorem arg23_0_13 : W13 m ρ c (Proc.devRef .tc main_arg23) = W0 m ρ c (Proc.devRef .tc main_arg23) := k13 m ρ c (by decide)
theorem arg1_0_16 : W16 m ρ c (Proc.devRef .tc main_arg1) = W0 m ρ c (Proc.devRef .tc main_arg1) := k16 m ρ c (by decide)
theorem arg26_0_19 : W19 m ρ c (Proc.devRef .tc main_arg26) = W0 m ρ c (Proc.devRef .tc main_arg26) := k19 m ρ c (by decide)
theorem v46_17_19 : W19 m ρ c (Proc.devRef .tc main_v46) = W17 m ρ c (Proc.devRef .tc main_v46) :=
  (s18 m ρ c (by decide)).trans (s17 m ρ c (by decide))
theorem arg31_0_23 : W23 m ρ c (Proc.devRef .tc main_arg31) = W0 m ρ c (Proc.devRef .tc main_arg31) := k23 m ρ c (by decide)
theorem v59_21_22 : W22 m ρ c (Proc.devRef .tc main_v59) = W21 m ρ c (Proc.devRef .tc main_v59) :=
  s21 m ρ c (by decide)
theorem arg34_0_26 : W26 m ρ c (Proc.devRef .tc main_arg34) = W0 m ρ c (Proc.devRef .tc main_arg34) := k26 m ρ c (by decide)
theorem arg38_0_30 : W30 m ρ c (Proc.devRef .tc main_arg38) = W0 m ρ c (Proc.devRef .tc main_arg38) := k30 m ρ c (by decide)
theorem arg15_0_3 : W3 m ρ c (Proc.devRef .tc main_arg15) = W0 m ρ c (Proc.devRef .tc main_arg15) := k3 m ρ c (by decide)
theorem arg4_0_5 : W5 m ρ c (Proc.devRef .tc main_arg4) = W0 m ρ c (Proc.devRef .tc main_arg4) := k5 m ρ c (by decide)
theorem arg20_0_9 : W9 m ρ c (Proc.devRef .tc main_arg20) = W0 m ρ c (Proc.devRef .tc main_arg20) := k9 m ρ c (by decide)
theorem v19_8_9 : W9 m ρ c (Proc.devRef .tc main_v19) = W8 m ρ c (Proc.devRef .tc main_v19) :=
  s8 m ρ c (by decide)
theorem arg1_0_12 : W12 m ρ c (Proc.devRef .tc main_arg1) = W0 m ρ c (Proc.devRef .tc main_arg1) := k12 m ρ c (by decide)
theorem v31_11_15 : W15 m ρ c (Proc.devRef .tc main_v31) = W11 m ρ c (Proc.devRef .tc main_v31) :=
  (s14 m ρ c (by decide)).trans ((s13 m ρ c (by decide)).trans ((s12 m ρ c (by decide)).trans (s11 m ρ c (by decide))))
theorem arg6_0_15 : W15 m ρ c (Proc.devRef .tc main_arg6) = W0 m ρ c (Proc.devRef .tc main_arg6) := k15 m ρ c (by decide)
theorem arg28_0_19 : W19 m ρ c (Proc.devRef .tc main_arg28) = W0 m ρ c (Proc.devRef .tc main_arg28) := k19 m ρ c (by decide)
theorem arg2_0_22 : W22 m ρ c (Proc.devRef .tc main_arg2) = W0 m ρ c (Proc.devRef .tc main_arg2) := k22 m ρ c (by decide)
theorem v60_22_24 : W24 m ρ c (Proc.devRef .tc main_v60) = W22 m ρ c (Proc.devRef .tc main_v60) :=
  (s23 m ρ c (by decide)).trans (s22 m ρ c (by decide))
theorem v61_23_24 : W24 m ρ c (Proc.devRef .tc main_v61) = W23 m ρ c (Proc.devRef .tc main_v61) :=
  s23 m ρ c (by decide)
theorem arg33_0_25 : W25 m ρ c (Proc.devRef .tc main_arg33) = W0 m ρ c (Proc.devRef .tc main_arg33) := k25 m ρ c (by decide)
theorem arg37_0_29 : W29 m ρ c (Proc.devRef .tc main_arg37) = W0 m ρ c (Proc.devRef .tc main_arg37) := k29 m ρ c (by decide)
theorem arg0_0_2 : W2 m ρ c (Proc.devRef .tc main_arg0) = W0 m ρ c (Proc.devRef .tc main_arg0) := k2 m ρ c (by decide)
theorem arg8_0_4 : W4 m ρ c (Proc.devRef .tc main_arg8) = W0 m ρ c (Proc.devRef .tc main_arg8) := k4 m ρ c (by decide)
theorem arg10_0_14 : W14 m ρ c (Proc.devRef .tc main_arg10) = W0 m ρ c (Proc.devRef .tc main_arg10) := k14 m ρ c (by decide)
theorem v31_11_12 : W12 m ρ c (Proc.devRef .tc main_v31) = W11 m ρ c (Proc.devRef .tc main_v31) :=
  s11 m ρ c (by decide)
theorem arg25_0_18 : W18 m ρ c (Proc.devRef .tc main_arg25) = W0 m ρ c (Proc.devRef .tc main_arg25) := k18 m ρ c (by decide)
theorem v45_16_20 : W20 m ρ c (Proc.devRef .tc main_v45) = W16 m ρ c (Proc.devRef .tc main_v45) :=
  (s19 m ρ c (by decide)).trans ((s18 m ρ c (by decide)).trans ((s17 m ρ c (by decide)).trans (s16 m ρ c (by decide))))
theorem arg2_0_21 : W21 m ρ c (Proc.devRef .tc main_arg2) = W0 m ρ c (Proc.devRef .tc main_arg2) := k21 m ρ c (by decide)
theorem arg12_0_24 : W24 m ρ c (Proc.devRef .tc main_arg12) = W0 m ρ c (Proc.devRef .tc main_arg12) := k24 m ρ c (by decide)
theorem v41_16_28 : W28 m ρ c (Proc.devRef .tc main_v41) = W16 m ρ c (Proc.devRef .tc main_v41) :=
  (s27 m ρ c (by decide)).trans ((s26 m ρ c (by decide)).trans ((s25 m ρ c (by decide)).trans ((s24 m ρ c (by decide)).trans ((s23 m ρ c (by decide)).trans ((s22 m ρ c (by decide)).trans ((s21 m ρ c (by decide)).trans ((s20 m ρ c (by decide)).trans ((s19 m ρ c (by decide)).trans ((s18 m ρ c (by decide)).trans ((s17 m ρ c (by decide)).trans (s16 m ρ c (by decide))))))))))))
theorem v55_21_30 : W30 m ρ c (Proc.devRef .tc main_v55) = W21 m ρ c (Proc.devRef .tc main_v55) :=
  (s29 m ρ c (by decide)).trans ((s28 m ρ c (by decide)).trans ((s27 m ρ c (by decide)).trans ((s26 m ρ c (by decide)).trans ((s25 m ρ c (by decide)).trans ((s24 m ρ c (by decide)).trans ((s23 m ρ c (by decide)).trans ((s22 m ρ c (by decide)).trans (s21 m ρ c (by decide)))))))))
theorem arg1_0_28 : W28 m ρ c (Proc.devRef .tc main_arg1) = W0 m ρ c (Proc.devRef .tc main_arg1) := k28 m ρ c (by decide)
theorem v76_29_31 : W31 m ρ c (Proc.devRef .tc main_v76) = W29 m ρ c (Proc.devRef .tc main_v76) :=
  (s30 m ρ c (by decide)).trans (s29 m ρ c (by decide))
theorem arg0_0_1 : W1 m ρ c (Proc.devRef .tc main_arg0) = W0 m ρ c (Proc.devRef .tc main_arg0) := k1 m ρ c (by decide)
theorem arg14_0_4 : W4 m ρ c (Proc.devRef .tc main_arg14) = W0 m ρ c (Proc.devRef .tc main_arg14) := k4 m ρ c (by decide)
theorem v4_2_4 : W4 m ρ c (Proc.devRef .tc main_v4) = W2 m ρ c (Proc.devRef .tc main_v4) :=
  (s3 m ρ c (by decide)).trans (s2 m ρ c (by decide))
theorem arg17_0_8 : W8 m ρ c (Proc.devRef .tc main_arg17) = W0 m ρ c (Proc.devRef .tc main_arg17) := k8 m ρ c (by decide)
theorem arg1_0_11 : W11 m ρ c (Proc.devRef .tc main_arg1) = W0 m ρ c (Proc.devRef .tc main_arg1) := k11 m ρ c (by decide)
theorem arg22_0_14 : W14 m ρ c (Proc.devRef .tc main_arg22) = W0 m ρ c (Proc.devRef .tc main_arg22) := k14 m ρ c (by decide)
theorem v33_13_14 : W14 m ρ c (Proc.devRef .tc main_v33) = W13 m ρ c (Proc.devRef .tc main_v33) :=
  s13 m ρ c (by decide)
theorem arg27_0_18 : W18 m ρ c (Proc.devRef .tc main_arg27) = W0 m ρ c (Proc.devRef .tc main_arg27) := k18 m ρ c (by decide)
theorem arg7_0_20 : W20 m ρ c (Proc.devRef .tc main_arg7) = W0 m ρ c (Proc.devRef .tc main_arg7) := k20 m ρ c (by decide)
theorem arg30_0_24 : W24 m ρ c (Proc.devRef .tc main_arg30) = W0 m ρ c (Proc.devRef .tc main_arg30) := k24 m ρ c (by decide)
theorem v59_21_25 : W25 m ρ c (Proc.devRef .tc main_v59) = W21 m ρ c (Proc.devRef .tc main_v59) :=
  (s24 m ρ c (by decide)).trans ((s23 m ρ c (by decide)).trans ((s22 m ρ c (by decide)).trans (s21 m ρ c (by decide))))
theorem arg36_0_28 : W28 m ρ c (Proc.devRef .tc main_arg36) = W0 m ρ c (Proc.devRef .tc main_arg36) := k28 m ρ c (by decide)
theorem arg16_0_4 : W4 m ρ c (Proc.devRef .tc main_arg16) = W0 m ρ c (Proc.devRef .tc main_arg16) := k4 m ρ c (by decide)
theorem v3_1_2 : W2 m ρ c (Proc.devRef .tc main_v3) = W1 m ρ c (Proc.devRef .tc main_v3) :=
  s1 m ρ c (by decide)
theorem arg19_0_8 : W8 m ρ c (Proc.devRef .tc main_arg19) = W0 m ρ c (Proc.devRef .tc main_arg19) := k8 m ρ c (by decide)
theorem v18_7_9 : W9 m ρ c (Proc.devRef .tc main_v18) = W7 m ρ c (Proc.devRef .tc main_v18) :=
  (s8 m ρ c (by decide)).trans (s7 m ρ c (by decide))
theorem arg5_0_10 : W10 m ρ c (Proc.devRef .tc main_arg5) = W0 m ρ c (Proc.devRef .tc main_arg5) := k10 m ρ c (by decide)
theorem arg24_0_14 : W14 m ρ c (Proc.devRef .tc main_arg24) = W0 m ρ c (Proc.devRef .tc main_arg24) := k14 m ρ c (by decide)
theorem arg2_0_17 : W17 m ρ c (Proc.devRef .tc main_arg2) = W0 m ρ c (Proc.devRef .tc main_arg2) := k17 m ρ c (by decide)
theorem v45_16_17 : W17 m ρ c (Proc.devRef .tc main_v45) = W16 m ρ c (Proc.devRef .tc main_v45) :=
  s16 m ρ c (by decide)
theorem arg32_0_24 : W24 m ρ c (Proc.devRef .tc main_arg32) = W0 m ρ c (Proc.devRef .tc main_arg32) := k24 m ρ c (by decide)
theorem v13_6_26 : W26 m ρ c (Proc.devRef .tc main_v13) = W6 m ρ c (Proc.devRef .tc main_v13) :=
  (s25 m ρ c (by decide)).trans ((s24 m ρ c (by decide)).trans ((s23 m ρ c (by decide)).trans ((s22 m ρ c (by decide)).trans ((s21 m ρ c (by decide)).trans ((s20 m ρ c (by decide)).trans ((s19 m ρ c (by decide)).trans ((s18 m ρ c (by decide)).trans ((s17 m ρ c (by decide)).trans ((s16 m ρ c (by decide)).trans ((s15 m ρ c (by decide)).trans ((s14 m ρ c (by decide)).trans ((s13 m ρ c (by decide)).trans ((s12 m ρ c (by decide)).trans ((s11 m ρ c (by decide)).trans ((s10 m ρ c (by decide)).trans ((s9 m ρ c (by decide)).trans ((s8 m ρ c (by decide)).trans ((s7 m ρ c (by decide)).trans (s6 m ρ c (by decide))))))))))))))))))))
theorem v69_26_30 : W30 m ρ c (Proc.devRef .tc main_v69) = W26 m ρ c (Proc.devRef .tc main_v69) :=
  (s29 m ρ c (by decide)).trans ((s28 m ρ c (by decide)).trans ((s27 m ρ c (by decide)).trans (s26 m ρ c (by decide))))
theorem arg35_0_27 : W27 m ρ c (Proc.devRef .tc main_arg35) = W0 m ρ c (Proc.devRef .tc main_arg35) := k27 m ρ c (by decide)

end Cert.KernelIdeal.KPass

end
-- ==== Proof.MsgBody.lean ====
/- One grid point of the message kernel leaves the message layer of its 5000 edges; the layer is row-local. -/
import proofs.«412327_j14886356648020_1_alg».proof.Proof.Gen.KernelIdeal.Frame
import proofs.«412327_j14886356648020_1_alg».proof.Proof.Spec
import Idealize.ShloMosaic.PureOps.Ideal.Laws
import Idealize.ShloMosaic.Lib.Pipeline.Value
import Idealize.ShloMosaic.Lib.ValueLayout

set_option maxRecDepth 16384

noncomputable section

namespace Cert.KernelIdeal.MsgBody

open Idealize.ShloMosaic Idealize.ShloMosaic.ValueIdx Cert.KernelIdeal Cert.KernelIdeal.Gen
open Cert.KernelIdeal.Facts₀ Cert.KernelIdeal.Facts

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

theorem lhs128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem matmul128_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

theorem lhs3_0 (i : S5000x128.Idx) (q : dot_S5000x3_S3x128_S5000x128_1_0_0_1_n_n.contr.Idx) :
    (dot_S5000x3_S3x128_S5000x128_1_0_0_1_n_n.lhsIdx i q 0).val = (i 0).val := by
  unfold DotDims.lhsIdx
  rw [dif_neg (show ¬(0 : Fin S5000x3.rank) ∈ dot_S5000x3_S3x128_S5000x128_1_0_0_1_n_n.lhsBatch by decide), dif_pos (show (0 : Fin S5000x3.rank) ∈ dot_S5000x3_S3x128_S5000x128_1_0_0_1_n_n.lhsNonContracting by decide)]
  rfl
theorem lhs3_1 (i : S5000x128.Idx) (q : dot_S5000x3_S3x128_S5000x128_1_0_0_1_n_n.contr.Idx) :
    (dot_S5000x3_S3x128_S5000x128_1_0_0_1_n_n.lhsIdx i q 1).val = (q ⟨0, by decide⟩).val :=
  dot_S5000x3_S3x128_S5000x128_1_0_0_1_n_n.lhsIdx_val_of_single rfl i q
theorem rhs3_0 (i : S5000x128.Idx) (q : dot_S5000x3_S3x128_S5000x128_1_0_0_1_n_n.contr.Idx) :
    (dot_S5000x3_S3x128_S5000x128_1_0_0_1_n_n.rhsIdx i q 0).val = (q ⟨0, by decide⟩).val :=
  dot_S5000x3_S3x128_S5000x128_1_0_0_1_n_n.rhsIdx_val_of_single rfl i q
theorem rhs3_1 (i : S5000x128.Idx) (q : dot_S5000x3_S3x128_S5000x128_1_0_0_1_n_n.contr.Idx) :
    (dot_S5000x3_S3x128_S5000x128_1_0_0_1_n_n.rhsIdx i q 1).val = (i 1).val := by
  unfold DotDims.rhsIdx
  rw [dif_neg (show ¬(1 : Fin S3x128.rank) ∈ dot_S5000x3_S3x128_S5000x128_1_0_0_1_n_n.rhsBatch by decide), dif_pos (show (1 : Fin S3x128.rank) ∈ dot_S5000x3_S3x128_S5000x128_1_0_0_1_n_n.rhsNonContracting by decide)]
  rfl

theorem matmul3_apply (l : FVec Ideal S5000x3 .bf16) (r : FVec Ideal S3x128 .bf16) (p : Fin 5000) (q : Fin 128) :
    matmul dot_S5000x3_S3x128_S5000x128_1_0_0_1_n_n none l r (constant (F := Ideal) S5000x128 .f32 0x00000000#32) (ix2 p q)
      = ∑ k : Fin 3, l (ix2 p k) * r (ix2 k q) := by
  simp only [matmul]
  rw [Ideal.matmul_constant_zero_apply, ← Equiv.sum_comp (ValueIdx.contrEquiv1 dot_S5000x3_S3x128_S5000x128_1_0_0_1_n_n 3 rfl rfl).symm]
  refine Finset.sum_congr rfl fun k _ => ?_
  have hk := ValueIdx.contrEquiv1_symm_val dot_S5000x3_S3x128_S5000x128_1_0_0_1_n_n 3 rfl rfl k
  have el : dot_S5000x3_S3x128_S5000x128_1_0_0_1_n_n.lhsIdx (ix2 p q) ((ValueIdx.contrEquiv1 dot_S5000x3_S3x128_S5000x128_1_0_0_1_n_n 3 rfl rfl).symm k) = ix2 p k := funext fun a => Fin.ext (by
    match a with
    | ⟨0, _⟩ => exact lhs3_0 _ _
    | ⟨1, _⟩ => exact (lhs3_1 _ _).trans hk)
  have er : dot_S5000x3_S3x128_S5000x128_1_0_0_1_n_n.rhsIdx (ix2 p q) ((ValueIdx.contrEquiv1 dot_S5000x3_S3x128_S5000x128_1_0_0_1_n_n 3 rfl rfl).symm k) = ix2 k q := funext fun a => Fin.ext (by
    match a with
    | ⟨0, _⟩ => exact (rhs3_0 _ _).trans hk
    | ⟨1, _⟩ => exact rhs3_1 _ _)
  rw [el, er]

theorem laneSum_apply (src : FVec Ideal S5000x128 .f32) (h : S5000x128.Reduces [1] S5000) (hφ : FKind.Formats .f32)
    (hacc : (0x00000000#32 : BitVec 32) = 0x00000000#32) (r : Fin 5000) :
    multiReduction (F := Ideal) .add [1] S5000 src 0x00000000#32 h hφ hacc (ix1 r) = ∑ k : Fin 128, src (ix2 r k) := by
  refine (Ideal.multiReduction_add_single src 0x00000000#32 h hφ hacc (ix1 r)).trans ?_
  refine Finset.sum_congr rfl fun k _ => congrArg src ?_
  funext c
  match c with
  | ⟨0, _⟩ => rfl
  | ⟨1, _⟩ => rfl

theorem logistic_apply {s : Shape} {φ : FTy} (x : FVec Ideal s φ) (i : s.Idx) : logistic x i = Ideal.logistic (x i) := rfl

theorem extractAt_one (v : Vec Ideal S1 .f32) (h : ∀ a, (![0] : Fin 1 → Nat) a < S1.size a) :
    extractAt ![0] v h = v (ix1 (0 : Fin 1)) :=
  congrArg v (funext fun a => match a with | ⟨0, _⟩ => rfl)

theorem zeros2 : (![0, 0] : Fin 2 → Nat) = fun _ => 0 := funext fun a => match a with | ⟨0, _⟩ => rfl | ⟨1, _⟩ => rfl
theorem zeros1 : (![0] : Fin 1 → Nat) = fun _ => 0 := funext fun a => match a with | ⟨0, _⟩ => rfl

theorem pay2_apply (v0 v3 : Vec Ideal S5000x128 .f32) (v6 : Vec Ideal S5000x3 .f32) (v8 v11 : Vec Ideal S128x128 .f32)
    (v14 : Vec Ideal S3x128 .f32) (v22 : Vec Ideal S128 .f32) (p : Fin 5000) (q : Fin 128) :
    k0_pay2 (F := Ideal) v0 v3 v6 v8 v11 v14 v22 (ix2 p q) = Cert.Spec.act (n := 5000) v0 v3 v6 v8 v11 v14 v22 p q := by
  unfold k0_pay2
  simp only [mulf_apply, addf_apply, logistic_apply, matmul128_apply, matmul3_apply, truncf_apply, shapeCast_self,
    broadcastTo_1b_ab_apply, shapeCast_a_1a_apply]
  rfl

theorem pay3_apply (v0 v3 : Vec Ideal S5000x128 .f32) (v6 : Vec Ideal S5000x3 .f32) (v8 v11 : Vec Ideal S128x128 .f32)
    (v14 : Vec Ideal S3x128 .f32) (v22 v28 : Vec Ideal S128 .f32) (v35 : Vec Ideal S1 .f32) (p : Fin 5000) (u : Fin 1) :
    k0_pay3 (F := Ideal) v0 v3 v6 v8 v11 v14 v22 v28 v35 (ix2 p u) = Cert.Spec.gate (n := 5000) v0 v3 v6 v8 v11 v14 v22 v28 v35 p := by
  unfold k0_pay3
  simp only [logistic_apply, addf_apply, broadcast_apply, shapeCast_a_a1_apply]
  rw [laneSum_apply, extractAt_one]
  simp only [mulf_apply, pay2_apply, broadcastTo_1b_ab_apply, shapeCast_a_1a_apply, shapeCast_self]
  rfl

theorem pay1_apply (v27 : FVec Ideal S5000x128 .f32) (v39 : FVec Ideal S5000x1 .f32) (p : Fin 5000) (q : Fin 128) :
    k0_pay1 (F := Ideal) v27 v39 (ix2 p q) = v27 (ix2 p q) * v39 (ix2 p (0 : Fin 1)) := by
  unfold k0_pay1
  simp only [mulf_apply, broadcastTo_a1_ab_apply]

theorem out0_9_eq (x0 x1 : Vec Ideal S5000x128 .f32) (x2 : Vec Ideal S5000x3 .f32) (x3 x4 : Vec Ideal S128x128 .f32)
    (x5 : Vec Ideal S3x128 .f32) (x6 x7 : Vec Ideal S128 .f32) (x8 : Vec Ideal S1 .f32) :
    out0_9 (F := Ideal) x0 x1 x2 x3 x4 x5 x6 x7 x8 = Cert.Spec.msgArr (n := 5000) x0 x1 x2 x3 x4 x5 x6 x7 x8 := by
  funext j
  obtain ⟨p, q, rfl⟩ : ∃ (p : Fin 5000) (q : Fin 128), j = ix2 p q := ⟨j 0, j 1, eq_ix2 j⟩
  unfold out0_9
  rw [View.canon_unit_zero zeros2]
  simp only [View.ld_unit_zero (S := S5000x128) zeros2, View.ld_unit_zero (S := S5000x3) zeros2,
    View.ld_unit_zero (S := S128x128) zeros2, View.ld_unit_zero (S := S3x128) zeros2,
    View.ld_unit_zero (S := S128) zeros1, View.ld_unit_zero (S := S1) zeros1]
  rw [pay1_apply, pay2_apply, pay3_apply]
  rfl

theorem out1_9_eq (x0 x1 : Vec Ideal S5000x128 .f32) (x2 : Vec Ideal S5000x3 .f32) (x3 x4 : Vec Ideal S128x128 .f32)
    (x5 : Vec Ideal S3x128 .f32) (x6 x7 : Vec Ideal S128 .f32) (x8 : Vec Ideal S1 .f32) :
    out1_9 (F := Ideal) x0 x1 x2 x3 x4 x5 x6 x7 x8 = Cert.Spec.msgArr (n := 5000) x0 x1 x2 x3 x4 x5 x6 x7 x8 :=
  (show out1_9 (F := Ideal) x0 x1 x2 x3 x4 x5 x6 x7 x8 = out0_9 (F := Ideal) x0 x1 x2 x3 x4 x5 x6 x7 x8 from rfl).trans (out0_9_eq x0 x1 x2 x3 x4 x5 x6 x7 x8)

theorem out2_9_eq (x0 x1 : Vec Ideal S5000x128 .f32) (x2 : Vec Ideal S5000x3 .f32) (x3 x4 : Vec Ideal S128x128 .f32)
    (x5 : Vec Ideal S3x128 .f32) (x6 x7 : Vec Ideal S128 .f32) (x8 : Vec Ideal S1 .f32) :
    out2_9 (F := Ideal) x0 x1 x2 x3 x4 x5 x6 x7 x8 = Cert.Spec.msgArr (n := 5000) x0 x1 x2 x3 x4 x5 x6 x7 x8 :=
  (show out2_9 (F := Ideal) x0 x1 x2 x3 x4 x5 x6 x7 x8 = out0_9 (F := Ideal) x0 x1 x2 x3 x4 x5 x6 x7 x8 from rfl).trans (out0_9_eq x0 x1 x2 x3 x4 x5 x6 x7 x8)

theorem out3_9_eq (x0 x1 : Vec Ideal S5000x128 .f32) (x2 : Vec Ideal S5000x3 .f32) (x3 x4 : Vec Ideal S128x128 .f32)
    (x5 : Vec Ideal S3x128 .f32) (x6 x7 : Vec Ideal S128 .f32) (x8 : Vec Ideal S1 .f32) :
    out3_9 (F := Ideal) x0 x1 x2 x3 x4 x5 x6 x7 x8 = Cert.Spec.msgArr (n := 5000) x0 x1 x2 x3 x4 x5 x6 x7 x8 :=
  (show out3_9 (F := Ideal) x0 x1 x2 x3 x4 x5 x6 x7 x8 = out0_9 (F := Ideal) x0 x1 x2 x3 x4 x5 x6 x7 x8 from rfl).trans (out0_9_eq x0 x1 x2 x3 x4 x5 x6 x7 x8)

theorem out4_9_eq (x0 x1 : Vec Ideal S5000x128 .f32) (x2 : Vec Ideal S5000x3 .f32) (x3 x4 : Vec Ideal S128x128 .f32)
    (x5 : Vec Ideal S3x128 .f32) (x6 x7 : Vec Ideal S128 .f32) (x8 : Vec Ideal S1 .f32) :
    out4_9 (F := Ideal) x0 x1 x2 x3 x4 x5 x6 x7 x8 = Cert.Spec.msgArr (n := 5000) x0 x1 x2 x3 x4 x5 x6 x7 x8 :=
  (show out4_9 (F := Ideal) x0 x1 x2 x3 x4 x5 x6 x7 x8 = out0_9 (F := Ideal) x0 x1 x2 x3 x4 x5 x6 x7 x8 from rfl).trans (out0_9_eq x0 x1 x2 x3 x4 x5 x6 x7 x8)

section RowLocal

variable {n n' : ℕ} (a b : Spec.Mat n 128) (v : Spec.Mat n 3) (a' b' : Spec.Mat n' 128) (v' : Spec.Mat n' 3)
  (Ws Wr : Spec.Mat 128 128) (Wv : Spec.Mat 3 128) (bm wi : Spec.Row 128) (bi : Spec.Row 1)
  (e : Fin n) (e' : Fin n')

theorem pre_rows (ha : ∀ k : Fin 128, a' (ix2 e' k) = a (ix2 e k)) (hb : ∀ k : Fin 128, b' (ix2 e' k) = b (ix2 e k))
    (hv : ∀ k : Fin 3, v' (ix2 e' k) = v (ix2 e k)) (j : Fin 128) :
    Spec.pre a' b' v' Ws Wr Wv bm e' j = Spec.pre a b v Ws Wr Wv bm e j := by
  unfold Spec.pre
  simp only [ha, hb, hv]

theorem act_rows (ha : ∀ k : Fin 128, a' (ix2 e' k) = a (ix2 e k)) (hb : ∀ k : Fin 128, b' (ix2 e' k) = b (ix2 e k))
    (hv : ∀ k : Fin 3, v' (ix2 e' k) = v (ix2 e k)) (j : Fin 128) :
    Spec.act a' b' v' Ws Wr Wv bm e' j = Spec.act a b v Ws Wr Wv bm e j := by
  unfold Spec.act
  rw [pre_rows a b v a' b' v' Ws Wr Wv bm e e' ha hb hv j]

theorem gate_rows (ha : ∀ k : Fin 128, a' (ix2 e' k) = a (ix2 e k)) (hb : ∀ k : Fin 128, b' (ix2 e' k) = b (ix2 e k))
    (hv : ∀ k : Fin 3, v' (ix2 e' k) = v (ix2 e k)) :
    Spec.gate a' b' v' Ws Wr Wv bm wi bi e' = Spec.gate a b v Ws Wr Wv bm wi bi e := by
  unfold Spec.gate
  simp only [act_rows a b v a' b' v' Ws Wr Wv bm e e' ha hb hv]

theorem msgArr_rows (ha : ∀ k : Fin 128, a' (ix2 e' k) = a (ix2 e k)) (hb : ∀ k : Fin 128, b' (ix2 e' k) = b (ix2 e k))
    (hv : ∀ k : Fin 3, v' (ix2 e' k) = v (ix2 e k)) (j : Fin 128) :
    Spec.msgArr a' b' v' Ws Wr Wv bm wi bi (ix2 e' j) = Spec.msgArr a b v Ws Wr Wv bm wi bi (ix2 e j) := by
  show Spec.act a' b' v' Ws Wr Wv bm e' j * Spec.gate a' b' v' Ws Wr Wv bm wi bi e'
    = Spec.act a b v Ws Wr Wv bm e j * Spec.gate a b v Ws Wr Wv bm wi bi e
  rw [act_rows a b v a' b' v' Ws Wr Wv bm e e' ha hb hv j, gate_rows a b v a' b' v' Ws Wr Wv bm wi bi e e' ha hb hv]

end RowLocal

theorem msgArr_block {n : ℕ} (A0 A1 : Spec.Mat n 128) (A2 : Spec.Mat n 3) (x0 x1 : Spec.Mat 5000 128) (x2 : Spec.Mat 5000 3)
    (Ws Wr : Spec.Mat 128 128) (Wv : Spec.Mat 3 128) (bm wi : Spec.Row 128) (bi : Spec.Row 1) (r : ℕ)
    (h0 : ∀ (z : (⟨2, ![5000, 128]⟩ : Shape).Idx) (k : (⟨2, ![n, 128]⟩ : Shape).Idx), (k 0).val = r + (z 0).val → (k 1).val = (z 1).val → x0 z = A0 k)
    (h1 : ∀ (z : (⟨2, ![5000, 128]⟩ : Shape).Idx) (k : (⟨2, ![n, 128]⟩ : Shape).Idx), (k 0).val = r + (z 0).val → (k 1).val = (z 1).val → x1 z = A1 k)
    (h2 : ∀ (z : (⟨2, ![5000, 3]⟩ : Shape).Idx) (k : (⟨2, ![n, 3]⟩ : Shape).Idx), (k 0).val = r + (z 0).val → (k 1).val = (z 1).val → x2 z = A2 k)
    (y : (⟨2, ![5000, 128]⟩ : Shape).Idx) (i : (⟨2, ![n, 128]⟩ : Shape).Idx) (hi0 : (i 0).val = r + (y 0).val) (hi1 : (i 1).val = (y 1).val) :
    Spec.msgArr x0 x1 x2 Ws Wr Wv bm wi bi y = Spec.msgArr A0 A1 A2 Ws Wr Wv bm wi bi i := by
  obtain ⟨p, q, rfl⟩ : ∃ (p : Fin 5000) (q : Fin 128), y = ix2 p q := ⟨y 0, y 1, eq_ix2 y⟩
  obtain ⟨p', q', rfl⟩ : ∃ (p' : Fin n) (q' : Fin 128), i = ix2 p' q' := ⟨i 0, i 1, eq_ix2 i⟩
  have hq : q' = q := Fin.ext hi1
  subst hq
  exact msgArr_rows A0 A1 A2 x0 x1 x2 Ws Wr Wv bm wi bi p' p
    (fun k => h0 (ix2 p k) (ix2 p' k) hi0 rfl) (fun k => h1 (ix2 p k) (ix2 p' k) hi0 rfl)
    (fun k => h2 (ix2 p k) (ix2 p' k) hi0 rfl) q'

end Cert.KernelIdeal.MsgBody

end
-- ==== Proof.Region0.lean ====
/- Region 0's output array is the layer's function of its input arrays: the blocks its grid points write tile the array. -/
import proofs.«412327_j14886356648020_1_alg».proof.Proof.Gen.KernelIdeal.Frame
import proofs.«412327_j14886356648020_1_alg».proof.Proof.MsgBody
import Idealize.ShloMosaic.Lib.Pipeline.Value

set_option maxRecDepth 16384

noncomputable section

namespace Cert.KernelIdeal.Region0

open Idealize.ShloMosaic Idealize.ShloMosaic.TcCoe Idealize.ShloMosaic.ValueIdx Cert.KernelIdeal Cert.KernelIdeal.Gen

theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0 :=
  (by decide +kernel : ∀ t : Fin grid0.N, _)

theorem whole_facts : ∀ t : Fin cfg0.N, (∀ a, win0_3.index t a = 0) ∧ (∀ a, win0_4.index t a = 0) ∧ (∀ a, win0_5.index t a = 0) ∧ (∀ a, win0_6.index t a = 0) ∧ (∀ a, win0_7.index t a = 0) ∧ (∀ a, win0_8.index t a = 0) :=
  (by decide +kernel : ∀ t : Fin grid0.N, _)

section Blocks

variable (V : (c : Dev nD) → (b : Ref sig .tc) → Buf (Elt Ideal) ((c : Thread nD τ).loc b))

theorem blk0_apply (c : Dev nD) (t : Fin cfg0.N) (z : S5000x128.Idx) (k : S500000x128.Idx)
    (hk0 : (k 0).val = 5000 * t.val + (z 0).val) (hk1 : (k 1).val = (z 1).val) :
    (iblk0 (F := Ideal) V c 0 t : Vec Ideal S5000x128 .f32) z = (V c main_v4 : S500000x128.Idx → Elt Ideal .f32) k := by
  obtain ⟨e00, e01, e10, e11, e20, e21, e90, e91⟩ := idx_facts t
  unfold iblk0
  rw [View.read_apply]
  show V c main_v4 _ = V c main_v4 _
  congr 1
  funext a
  apply Fin.ext
  match a with
  | ⟨0, _⟩ => show win0_0.index t 0 * 5000 + 1 * (z 0).val = (k 0).val; rw [e00, hk0]; omega
  | ⟨1, _⟩ => show win0_0.index t 1 * 128 + 1 * (z 1).val = (k 1).val; rw [e01, hk1]; omega

theorem blk1_apply (c : Dev nD) (t : Fin cfg0.N) (z : S5000x128.Idx) (k : S500000x128.Idx)
    (hk0 : (k 0).val = 5000 * t.val + (z 0).val) (hk1 : (k 1).val = (z 1).val) :
    (iblk0 (F := Ideal) V c 1 t : Vec Ideal S5000x128 .f32) z = (V c main_v5 : S500000x128.Idx → Elt Ideal .f32) k := by
  obtain ⟨e00, e01, e10, e11, e20, e21, e90, e91⟩ := idx_facts t
  unfold iblk0
  rw [View.read_apply]
  show V c main_v5 _ = V c main_v5 _
  congr 1
  funext a
  apply Fin.ext
  match a with
  | ⟨0, _⟩ => show win0_1.index t 0 * 5000 + 1 * (z 0).val = (k 0).val; rw [e10, hk0]; omega
  | ⟨1, _⟩ => show win0_1.index t 1 * 128 + 1 * (z 1).val = (k 1).val; rw [e11, hk1]; omega

theorem blk2_apply (c : Dev nD) (t : Fin cfg0.N) (z : S5000x3.Idx) (k : S500000x3.Idx)
    (hk0 : (k 0).val = 5000 * t.val + (z 0).val) (hk1 : (k 1).val = (z 1).val) :
    (iblk0 (F := Ideal) V c 2 t : Vec Ideal S5000x3 .f32) z = (V c main_arg8 : S500000x3.Idx → Elt Ideal .f32) k := by
  obtain ⟨e00, e01, e10, e11, e20, e21, e90, e91⟩ := idx_facts t
  unfold iblk0
  rw [View.read_apply]
  show V c main_arg8 _ = V c main_arg8 _
  congr 1
  funext a
  apply Fin.ext
  match a with
  | ⟨0, _⟩ => show win0_2.index t 0 * 5000 + 1 * (z 0).val = (k 0).val; rw [e20, hk0]; omega
  | ⟨1, _⟩ => show win0_2.index t 1 * 3 + 1 * (z 1).val = (k 1).val; rw [e21, hk1]; omega

theorem blk3_eq (c : Dev nD) (t : Fin cfg0.N) :
    (iblk0 (F := Ideal) V c 3 t : Vec Ideal S128x128 .f32) = (V c main_v6 : S128x128.Idx → Elt Ideal .f32) :=
  funext fun z => congrArg (V c main_v6) (funext fun a => Fin.ext (win0_3.rect_emb_val_of_index_zero t a ((whole_facts t).1 a) z))

theorem blk4_eq (c : Dev nD) (t : Fin cfg0.N) :
    (iblk0 (F := Ideal) V c 4 t : Vec Ideal S128x128 .f32) = (V c main_v7 : S128x128.Idx → Elt Ideal .f32) :=
  funext fun z => congrArg (V c main_v7) (funext fun a => Fin.ext (win0_4.rect_emb_val_of_index_zero t a ((whole_facts t).2.1 a) z))

theorem blk5_eq (c : Dev nD) (t : Fin cfg0.N) :
    (iblk0 (F := Ideal) V c 5 t : Vec Ideal S3x128 .f32) = (V c main_v8 : S3x128.Idx → Elt Ideal .f32) :=
  funext fun z => congrArg (V c main_v8) (funext fun a => Fin.ext (win0_5.rect_emb_val_of_index_zero t a ((whole_facts t).2.2.1 a) z))

theorem blk6_eq (c : Dev nD) (t : Fin cfg0.N) :
    (iblk0 (F := Ideal) V c 6 t : Vec Ideal S128 .f32) = (V c main_arg14 : S128.Idx → Elt Ideal .f32) :=
  funext fun z => congrArg (V c main_arg14) (funext fun a => Fin.ext (win0_6.rect_emb_val_of_index_zero t a ((whole_facts t).2.2.2.1 a) z))

theorem blk7_eq (c : Dev nD) (t : Fin cfg0.N) :
    (iblk0 (F := Ideal) V c 7 t : Vec Ideal S128 .f32) = (V c main_v9 : S128.Idx → Elt Ideal .f32) :=
  funext fun z => congrArg (V c main_v9) (funext fun a => Fin.ext (win0_7.rect_emb_val_of_index_zero t a ((whole_facts t).2.2.2.2.1 a) z))

theorem blk8_eq (c : Dev nD) (t : Fin cfg0.N) :
    (iblk0 (F := Ideal) V c 8 t : Vec Ideal S1 .f32) = (V c main_arg16 : S1.Idx → Elt Ideal .f32) :=
  funext fun z => congrArg (V c main_arg16) (funext fun a => Fin.ext (win0_8.rect_emb_val_of_index_zero t a ((whole_facts t).2.2.2.2.2 a) z))

theorem flushed_eq (c : Dev nD) (t : Fin cfg0.N) :
    (dat0 (F := Ideal) V c).flushed 9 t = ((cfg0.win 9).blk t).view.read (Elt Ideal)
      (Cert.Spec.msgArr (n := 500000) (V c main_v4) (V c main_v5) (V c main_arg8) (V c main_v6) (V c main_v7) (V c main_v8) (V c main_arg14) (V c main_v9) (V c main_arg16)) := by
  show (cfg0.win 9).cut (grid0.coords t) ((dat0 (F := Ideal) V c).after 9 t) = _
  rw [after0_9, MsgBody.out0_9_eq, blk3_eq, blk4_eq, blk5_eq, blk6_eq, blk7_eq, blk8_eq]
  obtain ⟨e00, e01, e10, e11, e20, e21, e90, e91⟩ := idx_facts t
  funext y
  have hi0 : ((((cfg0.win 9).blk t).view.emb y : S500000x128.Idx) 0).val = 5000 * t.val + (y 0).val := by
    show win0_9.index t 0 * 5000 + 1 * (y 0).val = 5000 * t.val + (y 0).val
    rw [e90]; omega
  have hi1 : ((((cfg0.win 9).blk t).view.emb y : S500000x128.Idx) 1).val = (y 1).val := by
    show win0_9.index t 1 * 128 + 1 * (y 1).val = (y 1).val
    rw [e91]; omega
  exact MsgBody.msgArr_block (V c main_v4) (V c main_v5) (V c main_arg8) (iblk0 (F := Ideal) V c 0 t) (iblk0 (F := Ideal) V c 1 t) (iblk0 (F := Ideal) V c 2 t)
    (V c main_v6) (V c main_v7) (V c main_v8) (V c main_arg14) (V c main_v9) (V c main_arg16) (5000 * t.val)
    (blk0_apply V c t) (blk1_apply V c t) (blk2_apply V c t) y (((cfg0.win 9).blk t).view.emb y) hi0 hi1

theorem mem_blk (t : Fin cfg0.N) (i : S500000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v10).slice (win0_9.rect t)).set ↔ _
  rw [View.set_slice_whole, Rect.mem_set_unit]
  exact Iff.rfl

theorem cover (i : S500000x128.Idx) :
    ∃ t : Fin cfg0.N, (cfg0.win 9).flush t = true ∧ i ∈ ((cfg0.win 9).blk t).view.set := by
  have hi0 : (i 0).val < 500000 := (i 0).isLt
  have hi1 : (i 1).val < 128 := (i 1).isLt
  have hN : grid0.N = 100 := N_0
  obtain ⟨t, ht⟩ : ∃ t : Fin cfg0.N, t.val = (i 0).val / 5000 :=
    ⟨⟨(i 0).val / 5000, by show (i 0).val / 5000 < grid0.N; rw [hN]; omega⟩, rfl⟩
  obtain ⟨e00, e01, e10, e11, e20, e21, e90, e91⟩ := idx_facts t
  refine ⟨t, flush0_9 t, ?_⟩
  rw [mem_blk]
  intro a
  match a with
  | ⟨0, _⟩ =>
    show win0_9.index t 0 * 5000 ≤ (i 0).val ∧ (i 0).val < win0_9.index t 0 * 5000 + 5000
    rw [e90, ht]; omega
  | ⟨1, _⟩ =>
    show win0_9.index t 1 * 128 ≤ (i 1).val ∧ (i 1).val < win0_9.index t 1 * 128 + 128
    rw [e91]; omega

end Blocks

theorem value (V : (c : Dev nD) → (b : Ref sig .tc) → Buf (Elt Ideal) ((c : Thread nD τ).loc b)) (c : Dev nD) :
    (dat0 (F := Ideal) V c).arrAt 9 cfg0.N
      = Cert.Spec.msgArr (n := 500000) (V c main_v4) (V c main_v5) (V c main_arg8) (V c main_v6) (V c main_v7) (V c main_v8) (V c main_arg14) (V c main_v9) (V c main_arg16) :=
  (dat0 (F := Ideal) V c).arrAt_eq_of_cover 9
    (Cert.Spec.msgArr (n := 500000) (V c main_v4) (V c main_v5) (V c main_arg8) (V c main_v6) (V c main_v7) (V c main_v8) (V c main_arg14) (V c main_v9) (V c main_arg16))
    (fun t _ => flushed_eq V c t) cover

end Cert.KernelIdeal.Region0

end
-- ==== Proof.UpdBody.lean ====
/- One grid point of an update kernel leaves the node update of its 5000 rows. -/
import proofs.«412327_j14886356648020_1_alg».proof.Proof.Gen.KernelIdeal.Frame
import proofs.«412327_j14886356648020_1_alg».proof.Proof.Spec
import Idealize.ShloMosaic.PureOps.Ideal.Laws
import Idealize.ShloMosaic.Lib.Pipeline.Value
import Idealize.ShloMosaic.Lib.ValueLayout

set_option maxRecDepth 16384

noncomputable section

namespace Cert.KernelIdeal.UpdBody

open Idealize.ShloMosaic Idealize.ShloMosaic.ValueIdx Cert.KernelIdeal Cert.KernelIdeal.Gen

theorem origin2 : (![0, 0] : Fin 2 → Nat) = fun _ => 0 := funext fun a => by fin_cases a <;> rfl

theorem origin1 : (![0] : Fin 1 → Nat) = fun _ => 0 := funext fun a => by fin_cases a <;> rfl

theorem lhs_row (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem lhs_col (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c

theorem rhs_row (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c

theorem rhs_col (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem product_at (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

theorem bias_at (b : Vec Ideal S128 .f32) (p : Fin 5000) (q : Fin 128) :
    broadcastTo S5000x128 (shapeCast S1x128 b shapeCasts_S128_S1x128) broadcasts_S1x128_S5000x128 (ix2 p q) = b (ix1 q) := by
  rw [broadcastTo_1b_ab_apply, shapeCast_a_1a_apply]

theorem start_zero : (FloatOps.ofBits (F := Ideal) .f32 0x00000000#32 : Ideal .f32) = 0 := Ideal.ofBits_zero_f32

theorem pay5_at (v1 : Vec Ideal S5000x128 .f32) (v3 : Vec Ideal S128x128 .f32) (v8 : Vec Ideal S5000x128 .f32)
    (v11 : Vec Ideal S128x128 .f32) (v16 : Vec Ideal S128 .f32) (v20 : Vec Ideal S5000x128 .f32) (p : Fin 5000) (q : Fin 128) :
    k5_pay1 (F := Ideal) v1 v3 v8 v11 v16 v20 (ix2 p q)
      = v20 (ix2 p q) + (((∑ k : Fin 128, v1 (ix2 p k) * v3 (ix2 k q)) + ∑ k : Fin 128, v8 (ix2 p k) * v11 (ix2 k q)) + v16 (ix1 q)) := by
  unfold k5_pay1
  simp only [addf_apply, broadcast_apply]
  rw [product_at, product_at, bias_at]
  simp only [truncf_apply, shapeCast_self]
  rw [start_zero, zero_add]

theorem pay6_at (v1 : Vec Ideal S5000x128 .f32) (v3 : Vec Ideal S128x128 .f32) (v8 : Vec Ideal S5000x128 .f32)
    (v11 : Vec Ideal S128x128 .f32) (v16 : Vec Ideal S5000x128 .f32) (v19 : Vec Ideal S128x128 .f32) (v24 : Vec Ideal S128 .f32)
    (v28 : Vec Ideal S5000x128 .f32) (p : Fin 5000) (q : Fin 128) :
    k6_pay1 (F := Ideal) v1 v3 v8 v11 v16 v19 v24 v28 (ix2 p q)
      = v28 (ix2 p q) + ((((∑ k : Fin 128, v1 (ix2 p k) * v3 (ix2 k q)) + ∑ k : Fin 128, v8 (ix2 p k) * v11 (ix2 k q))
          + ∑ k : Fin 128, v16 (ix2 p k) * v19 (ix2 k q)) + v24 (ix1 q)) := by
  unfold k6_pay1
  simp only [addf_apply, broadcast_apply]
  rw [product_at, product_at, product_at, bias_at]
  simp only [truncf_apply, shapeCast_self]
  rw [start_zero, zero_add]

theorem pay7_at (v1 : Vec Ideal S5000x128 .f32) (v3 : Vec Ideal S128x128 .f32) (v8 : Vec Ideal S5000x128 .f32)
    (v11 : Vec Ideal S128x128 .f32) (v16 : Vec Ideal S5000x128 .f32) (v19 : Vec Ideal S128x128 .f32) (v24 : Vec Ideal S128 .f32)
    (v28 : Vec Ideal S5000x128 .f32) (p : Fin 5000) (q : Fin 128) :
    k7_pay1 (F := Ideal) v1 v3 v8 v11 v16 v19 v24 v28 (ix2 p q)
      = v28 (ix2 p q) + ((((∑ k : Fin 128, v1 (ix2 p k) * v3 (ix2 k q)) + ∑ k : Fin 128, v8 (ix2 p k) * v11 (ix2 k q))
          + ∑ k : Fin 128, v16 (ix2 p k) * v19 (ix2 k q)) + v24 (ix1 q)) := by
  unfold k7_pay1
  simp only [addf_apply, broadcast_apply]
  rw [product_at, product_at, product_at, bias_at]
  simp only [truncf_apply, shapeCast_self]
  rw [start_zero, zero_add]

theorem out5_5_eq (x0 x1 : Vec Ideal S5000x128 .f32) (x2 x3 : Vec Ideal S128x128 .f32) (x4 : Vec Ideal S128 .f32) :
    out5_5 (F := Ideal) x0 x1 x2 x3 x4 = Cert.Spec.upd2Arr (n := 5000) x0 x1 x2 x3 x4 := by
  funext j
  obtain ⟨p, q, rfl⟩ : ∃ (p : Fin 5000) (q : Fin 128), j = ix2 p q := ⟨j 0, j 1, eq_ix2 j⟩
  unfold out5_5
  rw [View.canon_unit_zero origin2]
  simp only [View.ld_unit_zero (S := S5000x128) origin2, View.ld_unit_zero (S := S128x128) origin2,
    View.ld_unit_zero (S := S128) origin1]
  exact pay5_at x0 x2 x1 x3 x4 x0 p q

theorem out6_7_eq (x0 x1 x2 : Vec Ideal S5000x128 .f32) (x3 x4 x5 : Vec Ideal S128x128 .f32) (x6 : Vec Ideal S128 .f32) :
    out6_7 (F := Ideal) x0 x1 x2 x3 x4 x5 x6 = Cert.Spec.upd3Arr (n := 5000) x0 x1 x2 x3 x4 x5 x6 := by
  funext j
  obtain ⟨p, q, rfl⟩ : ∃ (p : Fin 5000) (q : Fin 128), j = ix2 p q := ⟨j 0, j 1, eq_ix2 j⟩
  unfold out6_7
  rw [View.canon_unit_zero origin2]
  simp only [View.ld_unit_zero (S := S5000x128) origin2, View.ld_unit_zero (S := S128x128) origin2,
    View.ld_unit_zero (S := S128) origin1]
  exact pay6_at x0 x3 x1 x4 x2 x5 x6 x0 p q

theorem out7_7_eq (x0 x1 x2 : Vec Ideal S5000x128 .f32) (x3 x4 x5 : Vec Ideal S128x128 .f32) (x6 : Vec Ideal S128 .f32) :
    out7_7 (F := Ideal) x0 x1 x2 x3 x4 x5 x6 = Cert.Spec.upd3Arr (n := 5000) x0 x1 x2 x3 x4 x5 x6 := by
  funext j
  obtain ⟨p, q, rfl⟩ : ∃ (p : Fin 5000) (q : Fin 128), j = ix2 p q := ⟨j 0, j 1, eq_ix2 j⟩
  unfold out7_7
  rw [View.canon_unit_zero origin2]
  simp only [View.ld_unit_zero (S := S5000x128) origin2, View.ld_unit_zero (S := S128x128) origin2,
    View.ld_unit_zero (S := S128) origin1]
  exact pay7_at x0 x3 x1 x4 x2 x5 x6 x0 p q

end Cert.KernelIdeal.UpdBody

end
-- ==== Proof.Region5.lean ====
/- Region 5's output array is the layer's function of its input arrays: the blocks its grid points write tile the array. -/
import proofs.«412327_j14886356648020_1_alg».proof.Proof.Gen.KernelIdeal.Frame
import proofs.«412327_j14886356648020_1_alg».proof.Proof.UpdBody
import Idealize.ShloMosaic.Lib.Pipeline.Value

set_option maxRecDepth 16384

noncomputable section

namespace Cert.KernelIdeal.Region5

open Idealize.ShloMosaic Idealize.ShloMosaic.TcCoe Idealize.ShloMosaic.ValueIdx Cert.KernelIdeal Cert.KernelIdeal.Gen

theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 1) = 0
    ∧ win5_5.index t (0 : Fin 2) = t.val ∧ win5_5.index t (1 : Fin 2) = 0 :=
  (by decide +kernel : ∀ t : Fin grid5.N, _)

theorem whole_facts : ∀ t : Fin cfg5.N, (∀ a, win5_2.index t a = 0) ∧ (∀ a, win5_3.index t a = 0) ∧ (∀ a, win5_4.index t a = 0) :=
  (by decide +kernel : ∀ t : Fin grid5.N, _)

theorem upd2_rows (x g : Cert.Spec.Mat 100000 128) (xb gb : Cert.Spec.Mat 5000 128) (U0 U1 : Cert.Spec.Mat 128 128)
    (bu : Cert.Spec.Row 128) (t : ℕ)
    (hx : ∀ (r : Fin 5000) (r' : Fin 100000) (q : Fin 128), r'.val = 5000 * t + r.val → xb (ix2 r q) = x (ix2 r' q))
    (hg : ∀ (r : Fin 5000) (r' : Fin 100000) (q : Fin 128), r'.val = 5000 * t + r.val → gb (ix2 r q) = g (ix2 r' q))
    (r : Fin 5000) (r' : Fin 100000) (q : Fin 128) (hr : r'.val = 5000 * t + r.val) :
    Cert.Spec.upd2Arr (n := 5000) xb gb U0 U1 bu (ix2 r q) = Cert.Spec.upd2Arr (n := 100000) x g U0 U1 bu (ix2 r' q) := by
  show xb (ix2 r q) + (((∑ k : Fin 128, xb (ix2 r k) * U0 (ix2 k q)) + ∑ k : Fin 128, gb (ix2 r k) * U1 (ix2 k q)) + bu (ix1 q))
    = x (ix2 r' q) + (((∑ k : Fin 128, x (ix2 r' k) * U0 (ix2 k q)) + ∑ k : Fin 128, g (ix2 r' k) * U1 (ix2 k q)) + bu (ix1 q))
  simp only [hx r r' _ hr, hg r r' _ hr]

theorem out_block_eq (G : S100000x128.Idx → EReal) (B : S5000x128.Idx → EReal) (t : Fin cfg5.N)
    (h : ∀ (r : Fin 5000) (r' : Fin 100000) (q : Fin 128), r'.val = 5000 * t.val + r.val → B (ix2 r q) = G (ix2 r' q)) :
    (cfg5.win 5).cut (grid5.coords t) B = ((cfg5.win 5).blk t).view.read (Elt Ideal) G := by
  obtain ⟨-, -, -, -, -, -, -, -, -, e0, e1⟩ := idx_facts t
  have hN : t.val < 20 := lt_of_lt_of_eq t.isLt N_5
  funext j
  have h0 : (j 0).val < 5000 := (j 0).isLt
  have h1 : (j 1).val < 128 := (j 1).isLt
  have ej : (cfg5.win 5).xinj (grid5.coords t) j = ix2 (⟨(j 0).val, h0⟩ : Fin 5000) (⟨(j 1).val, h1⟩ : Fin 128) := by
    funext a; match a with | ⟨0, _⟩ => rfl | ⟨1, _⟩ => rfl
  have ek : ((cfg5.win 5).blk t).view.emb j
      = ix2 (⟨5000 * t.val + (j 0).val, by omega⟩ : Fin 100000) (⟨(j 1).val, h1⟩ : Fin 128) := by
    funext a; apply Fin.ext
    match a with
    | ⟨0, _⟩ => show win5_5.index t 0 * 5000 + 1 * (j 0).val = 5000 * t.val + (j 0).val; rw [e0]; omega
    | ⟨1, _⟩ => show win5_5.index t 1 * 128 + 1 * (j 1).val = (j 1).val; rw [e1]; omega
  rw [View.read_apply]
  show B ((cfg5.win 5).xinj (grid5.coords t) j) = G (((cfg5.win 5).blk t).view.emb j)
  exact (congrArg B ej).trans ((h _ _ _ rfl).trans (congrArg G ek).symm)

section Blocks

variable (V : (c : Dev nD) → (b : Ref sig .tc) → Buf (Elt Ideal) ((c : Thread nD τ).loc b))

theorem own_block (c : Dev nD) (t : Fin cfg5.N) (r : Fin 5000) (r' : Fin 100000) (q : Fin 128)
    (hr : r'.val = 5000 * t.val + r.val) :
    (iblk5 V c 0 t : Vec Ideal S5000x128 .f32) (ix2 r q) = (V c main_arg0 : S100000x128.Idx → Elt Ideal .f32) (ix2 r' q) := by
  obtain ⟨e0, e1, -⟩ := idx_facts t
  unfold iblk5
  rw [View.read_apply]
  show V c main_arg0 _ = V c main_arg0 _
  congr 1
  funext a
  apply Fin.ext
  match a with
  | ⟨0, _⟩ => show win5_0.index t 0 * 5000 + 1 * r.val = r'.val; rw [e0, hr]; omega
  | ⟨1, _⟩ => show win5_0.index t 1 * 128 + 1 * q.val = q.val; rw [e1]; omega

theorem agg_block (c : Dev nD) (t : Fin cfg5.N) (r : Fin 5000) (r' : Fin 100000) (q : Fin 128)
    (hr : r'.val = 5000 * t.val + r.val) :
    (iblk5 V c 1 t : Vec Ideal S5000x128 .f32) (ix2 r q) = (V c main_v13 : S100000x128.Idx → Elt Ideal .f32) (ix2 r' q) := by
  obtain ⟨-, -, e0, e1, -⟩ := idx_facts t
  unfold iblk5
  rw [View.read_apply]
  show V c main_v13 _ = V c main_v13 _
  congr 1
  funext a
  apply Fin.ext
  match a with
  | ⟨0, _⟩ => show win5_1.index t 0 * 5000 + 1 * r.val = r'.val; rw [e0, hr]; omega
  | ⟨1, _⟩ => show win5_1.index t 1 * 128 + 1 * q.val = q.val; rw [e1]; omega

theorem w0_block (c : Dev nD) (t : Fin cfg5.N) :
    (iblk5 V c 2 t : Vec Ideal S128x128 .f32) = (V c main_v70 : S128x128.Idx → Elt Ideal .f32) :=
  funext fun z => congrArg (V c main_v70) (funext fun a => Fin.ext (win5_2.rect_emb_val_of_index_zero t a ((whole_facts t).1 a) z))

theorem w1_block (c : Dev nD) (t : Fin cfg5.N) :
    (iblk5 V c 3 t : Vec Ideal S128x128 .f32) = (V c main_v71 : S128x128.Idx → Elt Ideal .f32) :=
  funext fun z => congrArg (V c main_v71) (funext fun a => Fin.ext (win5_3.rect_emb_val_of_index_zero t a ((whole_facts t).2.1 a) z))

theorem bias_block (c : Dev nD) (t : Fin cfg5.N) :
    (iblk5 V c 4 t : Vec Ideal S128 .f32) = (V c main_arg34 : S128.Idx → Elt Ideal .f32) :=
  funext fun z => congrArg (V c main_arg34) (funext fun a => Fin.ext (win5_4.rect_emb_val_of_index_zero t a ((whole_facts t).2.2 a) z))

theorem flushed_eq (c : Dev nD) (t : Fin cfg5.N) :
    (dat5 V c).flushed 5 t = ((cfg5.win 5).blk t).view.read (Elt Ideal)
      (Cert.Spec.upd2Arr (n := 100000) (V c main_arg0) (V c main_v13) (V c main_v70) (V c main_v71) (V c main_arg34)) := by
  show (cfg5.win 5).cut (grid5.coords t) ((dat5 V c).after 5 t) = _
  rw [after5_5, UpdBody.out5_5_eq, w0_block V c t, w1_block V c t, bias_block V c t]
  refine out_block_eq _ _ t fun r r' q hr => ?_
  exact upd2_rows _ _ _ _ _ _ _ t.val (own_block V c t) (agg_block V c t) r r' q hr

theorem mem_blk (t : Fin cfg5.N) (i : S100000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v72).slice (win5_5.rect t)).set ↔ _
  rw [View.set_slice_whole, Rect.mem_set_unit]
  exact Iff.rfl

theorem cover (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have ht : (i 0).val / 5000 < cfg5.N := lt_of_lt_of_eq (by omega : (i 0).val / 5000 < 20) N_5.symm
  obtain ⟨-, -, -, -, -, -, -, -, -, e0, e1⟩ := idx_facts ⟨(i 0).val / 5000, ht⟩
  refine ⟨⟨(i 0).val / 5000, ht⟩, flush5_5 _, ?_⟩
  rw [mem_blk]
  intro a
  match a with
  | ⟨0, _⟩ =>
    show win5_5.index ⟨(i 0).val / 5000, ht⟩ 0 * 5000 ≤ (i 0).val
      ∧ (i 0).val < win5_5.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win5_5.index ⟨(i 0).val / 5000, ht⟩ 1 * 128 ≤ (i 1).val
      ∧ (i 1).val < win5_5.index ⟨(i 0).val / 5000, ht⟩ 1 * 128 + 128
    rw [e1]; omega
end Blocks

theorem value (V : (c : Dev nD) → (b : Ref sig .tc) → Buf (Elt Ideal) ((c : Thread nD τ).loc b)) (c : Dev nD) :
    (dat5 (F := Ideal) V c).arrAt 5 cfg5.N
      = Cert.Spec.upd2Arr (n := 100000) (V c main_arg0) (V c main_v13) (V c main_v70) (V c main_v71) (V c main_arg34) :=
  (dat5 V c).arrAt_eq_of_cover 5 _ (fun t _ => flushed_eq V c t) cover

end Cert.KernelIdeal.Region5

end
-- ==== Proof.KFold0.lean ====
/- Result 0 at the last boundary of @main, as a function of the argument arrays. -/
import proofs.«412327_j14886356648020_1_alg».proof.Proof.Gen.KernelIdeal.Frame
import proofs.«412327_j14886356648020_1_alg».proof.Proof.KTerms
import proofs.«412327_j14886356648020_1_alg».proof.Proof.KPass
import proofs.«412327_j14886356648020_1_alg».proof.Proof.Region0
import proofs.«412327_j14886356648020_1_alg».proof.Proof.Region5
import Idealize.ShloMosaic.Lib.StableHlo.Run

set_option maxRecDepth 16384

noncomputable section

namespace Cert.KernelIdeal.KFold

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

theorem at1_v1 (c : Dev nD) :
    W1 (F := Ideal) m ρ c (Proc.devRef .tc main_v1) = KT.idx0_00 (m ((c : Thread nD τ).loc main_arg3)) := by
  show StableHlo.after hostOps0 (W0 m ρ c) (Proc.devRef .tc main_v1) = _
  after_results <;> rfl

theorem at1_v3 (c : Dev nD) :
    W1 (F := Ideal) m ρ c (Proc.devRef .tc main_v3) = KT.idx1_00 (m ((c : Thread nD τ).loc main_arg3)) := by
  show StableHlo.after hostOps0 (W0 m ρ c) (Proc.devRef .tc main_v3) = _
  after_results <;> rfl

theorem host0_1_v4 (V : Valuation τ sig (Elt Ideal)) :
    StableHlo.after hostOps0_1 V (Proc.devRef .tc main_v4)
      = KT.take_100000_500000 (V (Proc.devRef .tc main_arg0)) (V (Proc.devRef .tc main_v1)) := by
  after_results_simp
  simp only [TRef.ofBuf, TRef.toBuf, cast_eq]
  rfl

theorem host0_2_v5 (V : Valuation τ sig (Elt Ideal)) :
    StableHlo.after hostOps0_2 V (Proc.devRef .tc main_v5)
      = KT.take_100000_500000 (V (Proc.devRef .tc main_arg0)) (V (Proc.devRef .tc main_v3)) := by
  after_results_simp
  simp only [TRef.ofBuf, TRef.toBuf, cast_eq]
  rfl

theorem at2_v4 (c : Dev nD) :
    W2 (F := Ideal) m ρ c (Proc.devRef .tc main_v4)
      = KT.take_100000_500000 (m ((c : Thread nD τ).loc main_arg0)) (KT.idx0_00 (m ((c : Thread nD τ).loc main_arg3))) := by
  refine (host0_1_v4 (W1 m ρ c)).trans ?_
  rw [at1_v1 m ρ c, KPass.arg0_0_1 m ρ c] <;> rfl

theorem at3_v5 (c : Dev nD) :
    W3 (F := Ideal) m ρ c (Proc.devRef .tc main_v5)
      = KT.take_100000_500000 (m ((c : Thread nD τ).loc main_arg0)) (KT.idx1_00 (m ((c : Thread nD τ).loc main_arg3))) := by
  refine (host0_2_v5 (W2 m ρ c)).trans ?_
  rw [KPass.v3_1_2 m ρ c, at1_v3 m ρ c, KPass.arg0_0_2 m ρ c] <;> rfl

theorem host0_3_v6 (V : Valuation τ sig (Elt Ideal)) :
    StableHlo.after hostOps0_3 V (Proc.devRef .tc main_v6)
      = extractStridedSlice S128x128 ![0, 0] (V (Proc.devRef .tc main_arg13)) slices_S259x128_S128x128_0_0 := by
  after_results <;> rfl

theorem host0_3_v7 (V : Valuation τ sig (Elt Ideal)) :
    StableHlo.after hostOps0_3 V (Proc.devRef .tc main_v7)
      = extractStridedSlice S128x128 ![128, 0] (V (Proc.devRef .tc main_arg13)) slices_S259x128_S128x128_128_0 := by
  after_results <;> rfl

theorem host0_3_v8 (V : Valuation τ sig (Elt Ideal)) :
    StableHlo.after hostOps0_3 V (Proc.devRef .tc main_v8)
      = extractStridedSlice S3x128 ![256, 0] (V (Proc.devRef .tc main_arg13)) slices_S259x128_S3x128_256_0 := by
  after_results <;> rfl

theorem host0_3_v9 (V : Valuation τ sig (Elt Ideal)) :
    StableHlo.after hostOps0_3 V (Proc.devRef .tc main_v9)
      = shapeCast S128 (V (Proc.devRef .tc main_arg15)) shapeCasts_S128x1_S128 := by
  after_results <;> rfl

theorem at4_v6 (c : Dev nD) :
    W4 (F := Ideal) m ρ c (Proc.devRef .tc main_v6)
      = extractStridedSlice S128x128 ![0, 0] (m ((c : Thread nD τ).loc main_arg13)) slices_S259x128_S128x128_0_0 := by
  refine (host0_3_v6 (W3 m ρ c)).trans ?_
  rw [KPass.arg13_0_3 m ρ c] <;> rfl

theorem at4_v7 (c : Dev nD) :
    W4 (F := Ideal) m ρ c (Proc.devRef .tc main_v7)
      = extractStridedSlice S128x128 ![128, 0] (m ((c : Thread nD τ).loc main_arg13)) slices_S259x128_S128x128_128_0 := by
  refine (host0_3_v7 (W3 m ρ c)).trans ?_
  rw [KPass.arg13_0_3 m ρ c] <;> rfl

theorem at4_v8 (c : Dev nD) :
    W4 (F := Ideal) m ρ c (Proc.devRef .tc main_v8)
      = extractStridedSlice S3x128 ![256, 0] (m ((c : Thread nD τ).loc main_arg13)) slices_S259x128_S3x128_256_0 := by
  refine (host0_3_v8 (W3 m ρ c)).trans ?_
  rw [KPass.arg13_0_3 m ρ c] <;> rfl

theorem at4_v9 (c : Dev nD) :
    W4 (F := Ideal) m ρ c (Proc.devRef .tc main_v9)
      = shapeCast S128 (m ((c : Thread nD τ).loc main_arg15)) shapeCasts_S128x1_S128 := by
  refine (host0_3_v9 (W3 m ρ c)).trans ?_
  rw [KPass.arg15_0_3 m ρ c] <;> rfl

theorem at5_v10 (c : Dev nD) :
    W5 (F := Ideal) m ρ c (Proc.devRef .tc main_v10)
      = KT.msg_00 (m ((c : Thread nD τ).loc main_arg0)) (m ((c : Thread nD τ).loc main_arg0)) (m ((c : Thread nD τ).loc main_arg3)) (m ((c : Thread nD τ).loc main_arg8)) (m ((c : Thread nD τ).loc main_arg13)) (m ((c : Thread nD τ).loc main_arg14)) (m ((c : Thread nD τ).loc main_arg15)) (m ((c : Thread nD τ).loc main_arg16)) := by
  refine (show W5 (F := Ideal) m ρ c (Proc.devRef .tc main_v10) = (dat0 (V4 m ρ) c).arrAt 9 cfg0.N from W5_arr m ρ c 9).trans
    ((Cert.KernelIdeal.Region0.value (V4 m ρ) c).trans ?_)
  show Cert.Spec.msgArr (n := 500000) (W4 m ρ c (Proc.devRef .tc main_v4)) (W4 m ρ c (Proc.devRef .tc main_v5))
      (W4 m ρ c (Proc.devRef .tc main_arg8)) (W4 m ρ c (Proc.devRef .tc main_v6)) (W4 m ρ c (Proc.devRef .tc main_v7))
      (W4 m ρ c (Proc.devRef .tc main_v8)) (W4 m ρ c (Proc.devRef .tc main_arg14)) (W4 m ρ c (Proc.devRef .tc main_v9))
      (W4 m ρ c (Proc.devRef .tc main_arg16)) = _
  rw [KPass.v4_2_4 m ρ c, at2_v4 m ρ c, KPass.v5_3_4 m ρ c, at3_v5 m ρ c, KPass.arg8_0_4 m ρ c, at4_v6 m ρ c, at4_v7 m ρ c,
    at4_v8 m ρ c, KPass.arg14_0_4 m ρ c, at4_v9 m ρ c, KPass.arg16_0_4 m ρ c] <;> rfl

theorem host1_v13 (V : Valuation τ sig (Elt Ideal)) :
    StableHlo.after hostOps1 V (Proc.devRef .tc main_v13)
      = Host.scatterAdd scatter_S100000x128_S500000x1_S500000x128_1_0_0_1
          (broadcastInDim S100000x128 ![] bcast_S_S100000x128 (constant (F := Ideal) S_ .f32 0x00000000#32))
          (broadcastInDim S500000x1 ![0] bcast_S500000_S500000x1_0 (V (Proc.devRef .tc main_v3)))
          (V (Proc.devRef .tc main_v10)) := by
  after_results <;> rfl

theorem at6_v13 (c : Dev nD) :
    W6 (F := Ideal) m ρ c (Proc.devRef .tc main_v13)
      = KT.agg_00 (m ((c : Thread nD τ).loc main_arg0)) (m ((c : Thread nD τ).loc main_arg0)) (m ((c : Thread nD τ).loc main_arg3)) (m ((c : Thread nD τ).loc main_arg8)) (m ((c : Thread nD τ).loc main_arg13)) (m ((c : Thread nD τ).loc main_arg14)) (m ((c : Thread nD τ).loc main_arg15)) (m ((c : Thread nD τ).loc main_arg16)) := by
  refine (host1_v13 (W5 m ρ c)).trans ?_
  rw [KPass.v3_1_5 m ρ c, at1_v3 m ρ c, at5_v10 m ρ c] <;> rfl

theorem host5_v70 (V : Valuation τ sig (Elt Ideal)) :
    StableHlo.after hostOps5 V (Proc.devRef .tc main_v70)
      = extractStridedSlice S128x128 ![0, 0] (V (Proc.devRef .tc main_arg33)) slices_S256x128_S128x128_0_0 := by
  after_results <;> rfl

theorem host5_v71 (V : Valuation τ sig (Elt Ideal)) :
    StableHlo.after hostOps5 V (Proc.devRef .tc main_v71)
      = extractStridedSlice S128x128 ![128, 0] (V (Proc.devRef .tc main_arg33)) slices_S256x128_S128x128_128_0 := by
  after_results <;> rfl

theorem at26_v70 (c : Dev nD) :
    W26 (F := Ideal) m ρ c (Proc.devRef .tc main_v70)
      = extractStridedSlice S128x128 ![0, 0] (m ((c : Thread nD τ).loc main_arg33)) slices_S256x128_S128x128_0_0 := by
  refine (host5_v70 (W25 m ρ c)).trans ?_
  rw [KPass.arg33_0_25 m ρ c] <;> rfl

theorem at26_v71 (c : Dev nD) :
    W26 (F := Ideal) m ρ c (Proc.devRef .tc main_v71)
      = extractStridedSlice S128x128 ![128, 0] (m ((c : Thread nD τ).loc main_arg33)) slices_S256x128_S128x128_128_0 := by
  refine (host5_v71 (W25 m ρ c)).trans ?_
  rw [KPass.arg33_0_25 m ρ c] <;> rfl

theorem at27_v72 (c : Dev nD) :
    W27 (F := Ideal) m ρ c (Proc.devRef .tc main_v72)
      = KT.out0 (m ((c : Thread nD τ).loc main_arg0)) (KT.agg_00 (m ((c : Thread nD τ).loc main_arg0)) (m ((c : Thread nD τ).loc main_arg0)) (m ((c : Thread nD τ).loc main_arg3)) (m ((c : Thread nD τ).loc main_arg8)) (m ((c : Thread nD τ).loc main_arg13)) (m ((c : Thread nD τ).loc main_arg14)) (m ((c : Thread nD τ).loc main_arg15)) (m ((c : Thread nD τ).loc main_arg16))) (m ((c : Thread nD τ).loc main_arg33)) (m ((c : Thread nD τ).loc main_arg34)) := by
  refine (show W27 (F := Ideal) m ρ c (Proc.devRef .tc main_v72) = (dat5 (V26 m ρ) c).arrAt 5 cfg5.N from W27_arr m ρ c 5).trans
    ((Cert.KernelIdeal.Region5.value (V26 m ρ) c).trans ?_)
  show Cert.Spec.upd2Arr (n := 100000) (W26 m ρ c (Proc.devRef .tc main_arg0)) (W26 m ρ c (Proc.devRef .tc main_v13))
      (W26 m ρ c (Proc.devRef .tc main_v70)) (W26 m ρ c (Proc.devRef .tc main_v71)) (W26 m ρ c (Proc.devRef .tc main_arg34)) = _
  rw [KPass.arg0_0_26 m ρ c, KPass.v13_6_26 m ρ c, at6_v13 m ρ c, at26_v70 m ρ c, at26_v71 m ρ c, KPass.arg34_0_26 m ρ c] <;> rfl

theorem out0_eq (c : Dev nD) :
    W31 (F := Ideal) m ρ c (Proc.devRef .tc main_v72)
      = KT.out0 (m ((c : Thread nD τ).loc main_arg0)) (KT.agg_00 (m ((c : Thread nD τ).loc main_arg0)) (m ((c : Thread nD τ).loc main_arg0)) (m ((c : Thread nD τ).loc main_arg3)) (m ((c : Thread nD τ).loc main_arg8)) (m ((c : Thread nD τ).loc main_arg13)) (m ((c : Thread nD τ).loc main_arg14)) (m ((c : Thread nD τ).loc main_arg15)) (m ((c : Thread nD τ).loc main_arg16))) (m ((c : Thread nD τ).loc main_arg33)) (m ((c : Thread nD τ).loc main_arg34)) :=
  (KPass.v72_27_31 m ρ c).trans (at27_v72 m ρ c)

end Cert.KernelIdeal.KFold

end
-- ==== Proof.Region1.lean ====
/- Region 1's output array is the layer's function of its input arrays: the blocks its grid points write tile the array. -/
import proofs.«412327_j14886356648020_1_alg».proof.Proof.Gen.KernelIdeal.Frame
import proofs.«412327_j14886356648020_1_alg».proof.Proof.MsgBody
import Idealize.ShloMosaic.Lib.Pipeline.Value

set_option maxRecDepth 16384

noncomputable section

namespace Cert.KernelIdeal.Region1

open Idealize.ShloMosaic Idealize.ShloMosaic.TcCoe Idealize.ShloMosaic.ValueIdx Cert.KernelIdeal Cert.KernelIdeal.Gen

theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_9.index t (0 : Fin 2) = t.val ∧ win1_9.index t (1 : Fin 2) = 0 :=
  (by decide +kernel : ∀ t : Fin grid1.N, _)

theorem whole_facts : ∀ t : Fin cfg1.N, (∀ a, win1_3.index t a = 0) ∧ (∀ a, win1_4.index t a = 0) ∧ (∀ a, win1_5.index t a = 0) ∧ (∀ a, win1_6.index t a = 0) ∧ (∀ a, win1_7.index t a = 0) ∧ (∀ a, win1_8.index t a = 0) :=
  (by decide +kernel : ∀ t : Fin grid1.N, _)

section Blocks

variable (V : (c : Dev nD) → (b : Ref sig .tc) → Buf (Elt Ideal) ((c : Thread nD τ).loc b))

theorem blk0_apply (c : Dev nD) (t : Fin cfg1.N) (z : S5000x128.Idx) (k : S300000x128.Idx)
    (hk0 : (k 0).val = 5000 * t.val + (z 0).val) (hk1 : (k 1).val = (z 1).val) :
    (iblk1 (F := Ideal) V c 0 t : Vec Ideal S5000x128 .f32) z = (V c main_v18 : S300000x128.Idx → Elt Ideal .f32) k := by
  obtain ⟨e00, e01, e10, e11, e20, e21, e90, e91⟩ := idx_facts t
  unfold iblk1
  rw [View.read_apply]
  show V c main_v18 _ = V c main_v18 _
  congr 1
  funext a
  apply Fin.ext
  match a with
  | ⟨0, _⟩ => show win1_0.index t 0 * 5000 + 1 * (z 0).val = (k 0).val; rw [e00, hk0]; omega
  | ⟨1, _⟩ => show win1_0.index t 1 * 128 + 1 * (z 1).val = (k 1).val; rw [e01, hk1]; omega

theorem blk1_apply (c : Dev nD) (t : Fin cfg1.N) (z : S5000x128.Idx) (k : S300000x128.Idx)
    (hk0 : (k 0).val = 5000 * t.val + (z 0).val) (hk1 : (k 1).val = (z 1).val) :
    (iblk1 (F := Ideal) V c 1 t : Vec Ideal S5000x128 .f32) z = (V c main_v19 : S300000x128.Idx → Elt Ideal .f32) k := by
  obtain ⟨e00, e01, e10, e11, e20, e21, e90, e91⟩ := idx_facts t
  unfold iblk1
  rw [View.read_apply]
  show V c main_v19 _ = V c main_v19 _
  congr 1
  funext a
  apply Fin.ext
  match a with
  | ⟨0, _⟩ => show win1_1.index t 0 * 5000 + 1 * (z 0).val = (k 0).val; rw [e10, hk0]; omega
  | ⟨1, _⟩ => show win1_1.index t 1 * 128 + 1 * (z 1).val = (k 1).val; rw [e11, hk1]; omega

theorem blk2_apply (c : Dev nD) (t : Fin cfg1.N) (z : S5000x3.Idx) (k : S300000x3.Idx)
    (hk0 : (k 0).val = 5000 * t.val + (z 0).val) (hk1 : (k 1).val = (z 1).val) :
    (iblk1 (F := Ideal) V c 2 t : Vec Ideal S5000x3 .f32) z = (V c main_arg9 : S300000x3.Idx → Elt Ideal .f32) k := by
  obtain ⟨e00, e01, e10, e11, e20, e21, e90, e91⟩ := idx_facts t
  unfold iblk1
  rw [View.read_apply]
  show V c main_arg9 _ = V c main_arg9 _
  congr 1
  funext a
  apply Fin.ext
  match a with
  | ⟨0, _⟩ => show win1_2.index t 0 * 5000 + 1 * (z 0).val = (k 0).val; rw [e20, hk0]; omega
  | ⟨1, _⟩ => show win1_2.index t 1 * 3 + 1 * (z 1).val = (k 1).val; rw [e21, hk1]; omega

theorem blk3_eq (c : Dev nD) (t : Fin cfg1.N) :
    (iblk1 (F := Ideal) V c 3 t : Vec Ideal S128x128 .f32) = (V c main_v20 : S128x128.Idx → Elt Ideal .f32) :=
  funext fun z => congrArg (V c main_v20) (funext fun a => Fin.ext (win1_3.rect_emb_val_of_index_zero t a ((whole_facts t).1 a) z))

theorem blk4_eq (c : Dev nD) (t : Fin cfg1.N) :
    (iblk1 (F := Ideal) V c 4 t : Vec Ideal S128x128 .f32) = (V c main_v21 : S128x128.Idx → Elt Ideal .f32) :=
  funext fun z => congrArg (V c main_v21) (funext fun a => Fin.ext (win1_4.rect_emb_val_of_index_zero t a ((whole_facts t).2.1 a) z))

theorem blk5_eq (c : Dev nD) (t : Fin cfg1.N) :
    (iblk1 (F := Ideal) V c 5 t : Vec Ideal S3x128 .f32) = (V c main_v22 : S3x128.Idx → Elt Ideal .f32) :=
  funext fun z => congrArg (V c main_v22) (funext fun a => Fin.ext (win1_5.rect_emb_val_of_index_zero t a ((whole_facts t).2.2.1 a) z))

theorem blk6_eq (c : Dev nD) (t : Fin cfg1.N) :
    (iblk1 (F := Ideal) V c 6 t : Vec Ideal S128 .f32) = (V c main_arg18 : S128.Idx → Elt Ideal .f32) :=
  funext fun z => congrArg (V c main_arg18) (funext fun a => Fin.ext (win1_6.rect_emb_val_of_index_zero t a ((whole_facts t).2.2.2.1 a) z))

theorem blk7_eq (c : Dev nD) (t : Fin cfg1.N) :
    (iblk1 (F := Ideal) V c 7 t : Vec Ideal S128 .f32) = (V c main_v23 : S128.Idx → Elt Ideal .f32) :=
  funext fun z => congrArg (V c main_v23) (funext fun a => Fin.ext (win1_7.rect_emb_val_of_index_zero t a ((whole_facts t).2.2.2.2.1 a) z))

theorem blk8_eq (c : Dev nD) (t : Fin cfg1.N) :
    (iblk1 (F := Ideal) V c 8 t : Vec Ideal S1 .f32) = (V c main_arg20 : S1.Idx → Elt Ideal .f32) :=
  funext fun z => congrArg (V c main_arg20) (funext fun a => Fin.ext (win1_8.rect_emb_val_of_index_zero t a ((whole_facts t).2.2.2.2.2 a) z))

theorem flushed_eq (c : Dev nD) (t : Fin cfg1.N) :
    (dat1 (F := Ideal) V c).flushed 9 t = ((cfg1.win 9).blk t).view.read (Elt Ideal)
      (Cert.Spec.msgArr (n := 300000) (V c main_v18) (V c main_v19) (V c main_arg9) (V c main_v20) (V c main_v21) (V c main_v22) (V c main_arg18) (V c main_v23) (V c main_arg20)) := by
  show (cfg1.win 9).cut (grid1.coords t) ((dat1 (F := Ideal) V c).after 9 t) = _
  rw [after1_9, MsgBody.out1_9_eq, blk3_eq, blk4_eq, blk5_eq, blk6_eq, blk7_eq, blk8_eq]
  obtain ⟨e00, e01, e10, e11, e20, e21, e90, e91⟩ := idx_facts t
  funext y
  have hi0 : ((((cfg1.win 9).blk t).view.emb y : S300000x128.Idx) 0).val = 5000 * t.val + (y 0).val := by
    show win1_9.index t 0 * 5000 + 1 * (y 0).val = 5000 * t.val + (y 0).val
    rw [e90]; omega
  have hi1 : ((((cfg1.win 9).blk t).view.emb y : S300000x128.Idx) 1).val = (y 1).val := by
    show win1_9.index t 1 * 128 + 1 * (y 1).val = (y 1).val
    rw [e91]; omega
  exact MsgBody.msgArr_block (V c main_v18) (V c main_v19) (V c main_arg9) (iblk1 (F := Ideal) V c 0 t) (iblk1 (F := Ideal) V c 1 t) (iblk1 (F := Ideal) V c 2 t)
    (V c main_v20) (V c main_v21) (V c main_v22) (V c main_arg18) (V c main_v23) (V c main_arg20) (5000 * t.val)
    (blk0_apply V c t) (blk1_apply V c t) (blk2_apply V c t) y (((cfg1.win 9).blk t).view.emb y) hi0 hi1

theorem mem_blk (t : Fin cfg1.N) (i : S300000x128.Idx) :
    i ∈ ((cfg1.win 9).blk t).view.set ↔ ∀ a : Fin 2, win1_9.index t a * S5000x128.size a ≤ (i a).val ∧ (i a).val < win1_9.index t a * S5000x128.size a + S5000x128.size a := by
  show i ∈ ((View.whole main_v24).slice (win1_9.rect t)).set ↔ _
  rw [View.set_slice_whole, Rect.mem_set_unit]
  exact Iff.rfl

theorem cover (i : S300000x128.Idx) :
    ∃ t : Fin cfg1.N, (cfg1.win 9).flush t = true ∧ i ∈ ((cfg1.win 9).blk t).view.set := by
  have hi0 : (i 0).val < 300000 := (i 0).isLt
  have hi1 : (i 1).val < 128 := (i 1).isLt
  have hN : grid1.N = 60 := N_1
  obtain ⟨t, ht⟩ : ∃ t : Fin cfg1.N, t.val = (i 0).val / 5000 :=
    ⟨⟨(i 0).val / 5000, by show (i 0).val / 5000 < grid1.N; rw [hN]; omega⟩, rfl⟩
  obtain ⟨e00, e01, e10, e11, e20, e21, e90, e91⟩ := idx_facts t
  refine ⟨t, flush1_9 t, ?_⟩
  rw [mem_blk]
  intro a
  match a with
  | ⟨0, _⟩ =>
    show win1_9.index t 0 * 5000 ≤ (i 0).val ∧ (i 0).val < win1_9.index t 0 * 5000 + 5000
    rw [e90, ht]; omega
  | ⟨1, _⟩ =>
    show win1_9.index t 1 * 128 ≤ (i 1).val ∧ (i 1).val < win1_9.index t 1 * 128 + 128
    rw [e91]; omega

end Blocks

theorem value (V : (c : Dev nD) → (b : Ref sig .tc) → Buf (Elt Ideal) ((c : Thread nD τ).loc b)) (c : Dev nD) :
    (dat1 (F := Ideal) V c).arrAt 9 cfg1.N
      = Cert.Spec.msgArr (n := 300000) (V c main_v18) (V c main_v19) (V c main_arg9) (V c main_v20) (V c main_v21) (V c main_v22) (V c main_arg18) (V c main_v23) (V c main_arg20) :=
  (dat1 (F := Ideal) V c).arrAt_eq_of_cover 9
    (Cert.Spec.msgArr (n := 300000) (V c main_v18) (V c main_v19) (V c main_arg9) (V c main_v20) (V c main_v21) (V c main_v22) (V c main_arg18) (V c main_v23) (V c main_arg20))
    (fun t _ => flushed_eq V c t) cover

end Cert.KernelIdeal.Region1

end
-- ==== Proof.Region2.lean ====
/- Region 2's output array is the layer's function of its input arrays: the blocks its grid points write tile the array. -/
import proofs.«412327_j14886356648020_1_alg».proof.Proof.Gen.KernelIdeal.Frame
import proofs.«412327_j14886356648020_1_alg».proof.Proof.MsgBody
import Idealize.ShloMosaic.Lib.Pipeline.Value

set_option maxRecDepth 16384

noncomputable section

namespace Cert.KernelIdeal.Region2

open Idealize.ShloMosaic Idealize.ShloMosaic.TcCoe Idealize.ShloMosaic.ValueIdx Cert.KernelIdeal Cert.KernelIdeal.Gen

theorem idx_facts : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_9.index t (0 : Fin 2) = t.val ∧ win2_9.index t (1 : Fin 2) = 0 :=
  (by decide +kernel : ∀ t : Fin grid2.N, _)

theorem whole_facts : ∀ t : Fin cfg2.N, (∀ a, win2_3.index t a = 0) ∧ (∀ a, win2_4.index t a = 0) ∧ (∀ a, win2_5.index t a = 0) ∧ (∀ a, win2_6.index t a = 0) ∧ (∀ a, win2_7.index t a = 0) ∧ (∀ a, win2_8.index t a = 0) :=
  (by decide +kernel : ∀ t : Fin grid2.N, _)

section Blocks

variable (V : (c : Dev nD) → (b : Ref sig .tc) → Buf (Elt Ideal) ((c : Thread nD τ).loc b))

theorem blk0_apply (c : Dev nD) (t : Fin cfg2.N) (z : S5000x128.Idx) (k : S300000x128.Idx)
    (hk0 : (k 0).val = 5000 * t.val + (z 0).val) (hk1 : (k 1).val = (z 1).val) :
    (iblk2 (F := Ideal) V c 0 t : Vec Ideal S5000x128 .f32) z = (V c main_v32 : S300000x128.Idx → Elt Ideal .f32) k := by
  obtain ⟨e00, e01, e10, e11, e20, e21, e90, e91⟩ := idx_facts t
  unfold iblk2
  rw [View.read_apply]
  show V c main_v32 _ = V c main_v32 _
  congr 1
  funext a
  apply Fin.ext
  match a with
  | ⟨0, _⟩ => show win2_0.index t 0 * 5000 + 1 * (z 0).val = (k 0).val; rw [e00, hk0]; omega
  | ⟨1, _⟩ => show win2_0.index t 1 * 128 + 1 * (z 1).val = (k 1).val; rw [e01, hk1]; omega

theorem blk1_apply (c : Dev nD) (t : Fin cfg2.N) (z : S5000x128.Idx) (k : S300000x128.Idx)
    (hk0 : (k 0).val = 5000 * t.val + (z 0).val) (hk1 : (k 1).val = (z 1).val) :
    (iblk2 (F := Ideal) V c 1 t : Vec Ideal S5000x128 .f32) z = (V c main_v33 : S300000x128.Idx → Elt Ideal .f32) k := by
  obtain ⟨e00, e01, e10, e11, e20, e21, e90, e91⟩ := idx_facts t
  unfold iblk2
  rw [View.read_apply]
  show V c main_v33 _ = V c main_v33 _
  congr 1
  funext a
  apply Fin.ext
  match a with
  | ⟨0, _⟩ => show win2_1.index t 0 * 5000 + 1 * (z 0).val = (k 0).val; rw [e10, hk0]; omega
  | ⟨1, _⟩ => show win2_1.index t 1 * 128 + 1 * (z 1).val = (k 1).val; rw [e11, hk1]; omega

theorem blk2_apply (c : Dev nD) (t : Fin cfg2.N) (z : S5000x3.Idx) (k : S300000x3.Idx)
    (hk0 : (k 0).val = 5000 * t.val + (z 0).val) (hk1 : (k 1).val = (z 1).val) :
    (iblk2 (F := Ideal) V c 2 t : Vec Ideal S5000x3 .f32) z = (V c main_arg10 : S300000x3.Idx → Elt Ideal .f32) k := by
  obtain ⟨e00, e01, e10, e11, e20, e21, e90, e91⟩ := idx_facts t
  unfold iblk2
  rw [View.read_apply]
  show V c main_arg10 _ = V c main_arg10 _
  congr 1
  funext a
  apply Fin.ext
  match a with
  | ⟨0, _⟩ => show win2_2.index t 0 * 5000 + 1 * (z 0).val = (k 0).val; rw [e20, hk0]; omega
  | ⟨1, _⟩ => show win2_2.index t 1 * 3 + 1 * (z 1).val = (k 1).val; rw [e21, hk1]; omega

theorem blk3_eq (c : Dev nD) (t : Fin cfg2.N) :
    (iblk2 (F := Ideal) V c 3 t : Vec Ideal S128x128 .f32) = (V c main_v34 : S128x128.Idx → Elt Ideal .f32) :=
  funext fun z => congrArg (V c main_v34) (funext fun a => Fin.ext (win2_3.rect_emb_val_of_index_zero t a ((whole_facts t).1 a) z))

theorem blk4_eq (c : Dev nD) (t : Fin cfg2.N) :
    (iblk2 (F := Ideal) V c 4 t : Vec Ideal S128x128 .f32) = (V c main_v35 : S128x128.Idx → Elt Ideal .f32) :=
  funext fun z => congrArg (V c main_v35) (funext fun a => Fin.ext (win2_4.rect_emb_val_of_index_zero t a ((whole_facts t).2.1 a) z))

theorem blk5_eq (c : Dev nD) (t : Fin cfg2.N) :
    (iblk2 (F := Ideal) V c 5 t : Vec Ideal S3x128 .f32) = (V c main_v36 : S3x128.Idx → Elt Ideal .f32) :=
  funext fun z => congrArg (V c main_v36) (funext fun a => Fin.ext (win2_5.rect_emb_val_of_index_zero t a ((whole_facts t).2.2.1 a) z))

theorem blk6_eq (c : Dev nD) (t : Fin cfg2.N) :
    (iblk2 (F := Ideal) V c 6 t : Vec Ideal S128 .f32) = (V c main_arg22 : S128.Idx → Elt Ideal .f32) :=
  funext fun z => congrArg (V c main_arg22) (funext fun a => Fin.ext (win2_6.rect_emb_val_of_index_zero t a ((whole_facts t).2.2.2.1 a) z))

theorem blk7_eq (c : Dev nD) (t : Fin cfg2.N) :
    (iblk2 (F := Ideal) V c 7 t : Vec Ideal S128 .f32) = (V c main_v37 : S128.Idx → Elt Ideal .f32) :=
  funext fun z => congrArg (V c main_v37) (funext fun a => Fin.ext (win2_7.rect_emb_val_of_index_zero t a ((whole_facts t).2.2.2.2.1 a) z))

theorem blk8_eq (c : Dev nD) (t : Fin cfg2.N) :
    (iblk2 (F := Ideal) V c 8 t : Vec Ideal S1 .f32) = (V c main_arg24 : S1.Idx → Elt Ideal .f32) :=
  funext fun z => congrArg (V c main_arg24) (funext fun a => Fin.ext (win2_8.rect_emb_val_of_index_zero t a ((whole_facts t).2.2.2.2.2 a) z))

theorem flushed_eq (c : Dev nD) (t : Fin cfg2.N) :
    (dat2 (F := Ideal) V c).flushed 9 t = ((cfg2.win 9).blk t).view.read (Elt Ideal)
      (Cert.Spec.msgArr (n := 300000) (V c main_v32) (V c main_v33) (V c main_arg10) (V c main_v34) (V c main_v35) (V c main_v36) (V c main_arg22) (V c main_v37) (V c main_arg24)) := by
  show (cfg2.win 9).cut (grid2.coords t) ((dat2 (F := Ideal) V c).after 9 t) = _
  rw [after2_9, MsgBody.out2_9_eq, blk3_eq, blk4_eq, blk5_eq, blk6_eq, blk7_eq, blk8_eq]
  obtain ⟨e00, e01, e10, e11, e20, e21, e90, e91⟩ := idx_facts t
  funext y
  have hi0 : ((((cfg2.win 9).blk t).view.emb y : S300000x128.Idx) 0).val = 5000 * t.val + (y 0).val := by
    show win2_9.index t 0 * 5000 + 1 * (y 0).val = 5000 * t.val + (y 0).val
    rw [e90]; omega
  have hi1 : ((((cfg2.win 9).blk t).view.emb y : S300000x128.Idx) 1).val = (y 1).val := by
    show win2_9.index t 1 * 128 + 1 * (y 1).val = (y 1).val
    rw [e91]; omega
  exact MsgBody.msgArr_block (V c main_v32) (V c main_v33) (V c main_arg10) (iblk2 (F := Ideal) V c 0 t) (iblk2 (F := Ideal) V c 1 t) (iblk2 (F := Ideal) V c 2 t)
    (V c main_v34) (V c main_v35) (V c main_v36) (V c main_arg22) (V c main_v37) (V c main_arg24) (5000 * t.val)
    (blk0_apply V c t) (blk1_apply V c t) (blk2_apply V c t) y (((cfg2.win 9).blk t).view.emb y) hi0 hi1

theorem mem_blk (t : Fin cfg2.N) (i : S300000x128.Idx) :
    i ∈ ((cfg2.win 9).blk t).view.set ↔ ∀ a : Fin 2, win2_9.index t a * S5000x128.size a ≤ (i a).val ∧ (i a).val < win2_9.index t a * S5000x128.size a + S5000x128.size a := by
  show i ∈ ((View.whole main_v38).slice (win2_9.rect t)).set ↔ _
  rw [View.set_slice_whole, Rect.mem_set_unit]
  exact Iff.rfl

theorem cover (i : S300000x128.Idx) :
    ∃ t : Fin cfg2.N, (cfg2.win 9).flush t = true ∧ i ∈ ((cfg2.win 9).blk t).view.set := by
  have hi0 : (i 0).val < 300000 := (i 0).isLt
  have hi1 : (i 1).val < 128 := (i 1).isLt
  have hN : grid2.N = 60 := N_2
  obtain ⟨t, ht⟩ : ∃ t : Fin cfg2.N, t.val = (i 0).val / 5000 :=
    ⟨⟨(i 0).val / 5000, by show (i 0).val / 5000 < grid2.N; rw [hN]; omega⟩, rfl⟩
  obtain ⟨e00, e01, e10, e11, e20, e21, e90, e91⟩ := idx_facts t
  refine ⟨t, flush2_9 t, ?_⟩
  rw [mem_blk]
  intro a
  match a with
  | ⟨0, _⟩ =>
    show win2_9.index t 0 * 5000 ≤ (i 0).val ∧ (i 0).val < win2_9.index t 0 * 5000 + 5000
    rw [e90, ht]; omega
  | ⟨1, _⟩ =>
    show win2_9.index t 1 * 128 ≤ (i 1).val ∧ (i 1).val < win2_9.index t 1 * 128 + 128
    rw [e91]; omega

end Blocks

theorem value (V : (c : Dev nD) → (b : Ref sig .tc) → Buf (Elt Ideal) ((c : Thread nD τ).loc b)) (c : Dev nD) :
    (dat2 (F := Ideal) V c).arrAt 9 cfg2.N
      = Cert.Spec.msgArr (n := 300000) (V c main_v32) (V c main_v33) (V c main_arg10) (V c main_v34) (V c main_v35) (V c main_v36) (V c main_arg22) (V c main_v37) (V c main_arg24) :=
  (dat2 (F := Ideal) V c).arrAt_eq_of_cover 9
    (Cert.Spec.msgArr (n := 300000) (V c main_v32) (V c main_v33) (V c main_arg10) (V c main_v34) (V c main_v35) (V c main_v36) (V c main_arg22) (V c main_v37) (V c main_arg24))
    (fun t _ => flushed_eq V c t) cover

end Cert.KernelIdeal.Region2

end
-- ==== Proof.Region6.lean ====
/- Region 6's output array is the layer's function of its input arrays: the blocks its grid points write tile the array. -/
import proofs.«412327_j14886356648020_1_alg».proof.Proof.Gen.KernelIdeal.Frame
import proofs.«412327_j14886356648020_1_alg».proof.Proof.UpdBody
import Idealize.ShloMosaic.Lib.Pipeline.Value

set_option maxRecDepth 16384

noncomputable section

namespace Cert.KernelIdeal.Region6

open Idealize.ShloMosaic Idealize.ShloMosaic.TcCoe Idealize.ShloMosaic.ValueIdx Cert.KernelIdeal Cert.KernelIdeal.Gen

theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 1) = 0
    ∧ win6_7.index t (0 : Fin 2) = t.val ∧ win6_7.index t (1 : Fin 2) = 0 :=
  (by decide +kernel : ∀ t : Fin grid6.N, _)

theorem whole_facts : ∀ t : Fin cfg6.N, (∀ a, win6_3.index t a = 0) ∧ (∀ a, win6_4.index t a = 0) ∧ (∀ a, win6_5.index t a = 0) ∧ (∀ a, win6_6.index t a = 0) :=
  (by decide +kernel : ∀ t : Fin grid6.N, _)

theorem upd3_rows (x g h : Cert.Spec.Mat 150000 128) (xb gb hb : Cert.Spec.Mat 5000 128) (U0 U1 U2 : Cert.Spec.Mat 128 128)
    (bu : Cert.Spec.Row 128) (t : ℕ)
    (hx : ∀ (r : Fin 5000) (r' : Fin 150000) (q : Fin 128), r'.val = 5000 * t + r.val → xb (ix2 r q) = x (ix2 r' q))
    (hg : ∀ (r : Fin 5000) (r' : Fin 150000) (q : Fin 128), r'.val = 5000 * t + r.val → gb (ix2 r q) = g (ix2 r' q))
    (hh : ∀ (r : Fin 5000) (r' : Fin 150000) (q : Fin 128), r'.val = 5000 * t + r.val → hb (ix2 r q) = h (ix2 r' q))
    (r : Fin 5000) (r' : Fin 150000) (q : Fin 128) (hr : r'.val = 5000 * t + r.val) :
    Cert.Spec.upd3Arr (n := 5000) xb gb hb U0 U1 U2 bu (ix2 r q)
      = Cert.Spec.upd3Arr (n := 150000) x g h U0 U1 U2 bu (ix2 r' q) := by
  show xb (ix2 r q) + ((((∑ k : Fin 128, xb (ix2 r k) * U0 (ix2 k q)) + ∑ k : Fin 128, gb (ix2 r k) * U1 (ix2 k q))
        + ∑ k : Fin 128, hb (ix2 r k) * U2 (ix2 k q)) + bu (ix1 q))
    = x (ix2 r' q) + ((((∑ k : Fin 128, x (ix2 r' k) * U0 (ix2 k q)) + ∑ k : Fin 128, g (ix2 r' k) * U1 (ix2 k q))
        + ∑ k : Fin 128, h (ix2 r' k) * U2 (ix2 k q)) + bu (ix1 q))
  simp only [hx r r' _ hr, hg r r' _ hr, hh r r' _ hr]

theorem out_block_eq (G : S150000x128.Idx → EReal) (B : S5000x128.Idx → EReal) (t : Fin cfg6.N)
    (h : ∀ (r : Fin 5000) (r' : Fin 150000) (q : Fin 128), r'.val = 5000 * t.val + r.val → B (ix2 r q) = G (ix2 r' q)) :
    (cfg6.win 7).cut (grid6.coords t) B = ((cfg6.win 7).blk t).view.read (Elt Ideal) G := by
  obtain ⟨-, -, -, -, -, -, -, -, -, -, -, -, -, e0, e1⟩ := idx_facts t
  have hN : t.val < 30 := lt_of_lt_of_eq t.isLt N_6
  funext j
  have h0 : (j 0).val < 5000 := (j 0).isLt
  have h1 : (j 1).val < 128 := (j 1).isLt
  have ej : (cfg6.win 7).xinj (grid6.coords t) j = ix2 (⟨(j 0).val, h0⟩ : Fin 5000) (⟨(j 1).val, h1⟩ : Fin 128) := by
    funext a; match a with | ⟨0, _⟩ => rfl | ⟨1, _⟩ => rfl
  have ek : ((cfg6.win 7).blk t).view.emb j
      = ix2 (⟨5000 * t.val + (j 0).val, by omega⟩ : Fin 150000) (⟨(j 1).val, h1⟩ : Fin 128) := by
    funext a; apply Fin.ext
    match a with
    | ⟨0, _⟩ => show win6_7.index t 0 * 5000 + 1 * (j 0).val = 5000 * t.val + (j 0).val; rw [e0]; omega
    | ⟨1, _⟩ => show win6_7.index t 1 * 128 + 1 * (j 1).val = (j 1).val; rw [e1]; omega
  rw [View.read_apply]
  show B ((cfg6.win 7).xinj (grid6.coords t) j) = G (((cfg6.win 7).blk t).view.emb j)
  exact (congrArg B ej).trans ((h _ _ _ rfl).trans (congrArg G ek).symm)

section Blocks

variable (V : (c : Dev nD) → (b : Ref sig .tc) → Buf (Elt Ideal) ((c : Thread nD τ).loc b))

theorem own_block (c : Dev nD) (t : Fin cfg6.N) (r : Fin 5000) (r' : Fin 150000) (q : Fin 128)
    (hr : r'.val = 5000 * t.val + r.val) :
    (iblk6 V c 0 t : Vec Ideal S5000x128 .f32) (ix2 r q) = (V c main_arg1 : S150000x128.Idx → Elt Ideal .f32) (ix2 r' q) := by
  obtain ⟨e0, e1, -⟩ := idx_facts t
  unfold iblk6
  rw [View.read_apply]
  show V c main_arg1 _ = V c main_arg1 _
  congr 1
  funext a
  apply Fin.ext
  match a with
  | ⟨0, _⟩ => show win6_0.index t 0 * 5000 + 1 * r.val = r'.val; rw [e0, hr]; omega
  | ⟨1, _⟩ => show win6_0.index t 1 * 128 + 1 * q.val = q.val; rw [e1]; omega

theorem agg0_block (c : Dev nD) (t : Fin cfg6.N) (r : Fin 5000) (r' : Fin 150000) (q : Fin 128)
    (hr : r'.val = 5000 * t.val + r.val) :
    (iblk6 V c 1 t : Vec Ideal S5000x128 .f32) (ix2 r q) = (V c main_v27 : S150000x128.Idx → Elt Ideal .f32) (ix2 r' q) := by
  obtain ⟨-, -, e0, e1, -⟩ := idx_facts t
  unfold iblk6
  rw [View.read_apply]
  show V c main_v27 _ = V c main_v27 _
  congr 1
  funext a
  apply Fin.ext
  match a with
  | ⟨0, _⟩ => show win6_1.index t 0 * 5000 + 1 * r.val = r'.val; rw [e0, hr]; omega
  | ⟨1, _⟩ => show win6_1.index t 1 * 128 + 1 * q.val = q.val; rw [e1]; omega

theorem agg1_block (c : Dev nD) (t : Fin cfg6.N) (r : Fin 5000) (r' : Fin 150000) (q : Fin 128)
    (hr : r'.val = 5000 * t.val + r.val) :
    (iblk6 V c 2 t : Vec Ideal S5000x128 .f32) (ix2 r q) = (V c main_v41 : S150000x128.Idx → Elt Ideal .f32) (ix2 r' q) := by
  obtain ⟨-, -, -, -, e0, e1, -⟩ := idx_facts t
  unfold iblk6
  rw [View.read_apply]
  show V c main_v41 _ = V c main_v41 _
  congr 1
  funext a
  apply Fin.ext
  match a with
  | ⟨0, _⟩ => show win6_2.index t 0 * 5000 + 1 * r.val = r'.val; rw [e0, hr]; omega
  | ⟨1, _⟩ => show win6_2.index t 1 * 128 + 1 * q.val = q.val; rw [e1]; omega

theorem w0_block (c : Dev nD) (t : Fin cfg6.N) :
    (iblk6 V c 3 t : Vec Ideal S128x128 .f32) = (V c main_v73 : S128x128.Idx → Elt Ideal .f32) :=
  funext fun z => congrArg (V c main_v73) (funext fun a => Fin.ext (win6_3.rect_emb_val_of_index_zero t a ((whole_facts t).1 a) z))

theorem w1_block (c : Dev nD) (t : Fin cfg6.N) :
    (iblk6 V c 4 t : Vec Ideal S128x128 .f32) = (V c main_v74 : S128x128.Idx → Elt Ideal .f32) :=
  funext fun z => congrArg (V c main_v74) (funext fun a => Fin.ext (win6_4.rect_emb_val_of_index_zero t a ((whole_facts t).2.1 a) z))

theorem w2_block (c : Dev nD) (t : Fin cfg6.N) :
    (iblk6 V c 5 t : Vec Ideal S128x128 .f32) = (V c main_v75 : S128x128.Idx → Elt Ideal .f32) :=
  funext fun z => congrArg (V c main_v75) (funext fun a => Fin.ext (win6_5.rect_emb_val_of_index_zero t a ((whole_facts t).2.2.1 a) z))

theorem bias_block (c : Dev nD) (t : Fin cfg6.N) :
    (iblk6 V c 6 t : Vec Ideal S128 .f32) = (V c main_arg36 : S128.Idx → Elt Ideal .f32) :=
  funext fun z => congrArg (V c main_arg36) (funext fun a => Fin.ext (win6_6.rect_emb_val_of_index_zero t a ((whole_facts t).2.2.2 a) z))

theorem flushed_eq (c : Dev nD) (t : Fin cfg6.N) :
    (dat6 V c).flushed 7 t = ((cfg6.win 7).blk t).view.read (Elt Ideal)
      (Cert.Spec.upd3Arr (n := 150000) (V c main_arg1) (V c main_v27) (V c main_v41) (V c main_v73) (V c main_v74)
        (V c main_v75) (V c main_arg36)) := by
  show (cfg6.win 7).cut (grid6.coords t) ((dat6 V c).after 7 t) = _
  rw [after6_7, UpdBody.out6_7_eq, w0_block V c t, w1_block V c t, w2_block V c t, bias_block V c t]
  refine out_block_eq _ _ t fun r r' q hr => ?_
  exact upd3_rows _ _ _ _ _ _ _ _ _ _ t.val (own_block V c t) (agg0_block V c t) (agg1_block V c t) r r' q hr

theorem mem_blk (t : Fin cfg6.N) (i : S150000x128.Idx) :
    i ∈ ((cfg6.win 7).blk t).view.set ↔ ∀ a : Fin 2, win6_7.index t a * S5000x128.size a ≤ (i a).val
      ∧ (i a).val < win6_7.index t a * S5000x128.size a + S5000x128.size a := by
  show i ∈ ((View.whole main_v76).slice (win6_7.rect t)).set ↔ _
  rw [View.set_slice_whole, Rect.mem_set_unit]
  exact Iff.rfl

theorem cover (i : S150000x128.Idx) :
    ∃ t : Fin cfg6.N, (cfg6.win 7).flush t = true ∧ i ∈ ((cfg6.win 7).blk t).view.set := by
  have hi0 : (i 0).val < 150000 := (i 0).isLt
  have hi1 : (i 1).val < 128 := (i 1).isLt
  have ht : (i 0).val / 5000 < cfg6.N := lt_of_lt_of_eq (by omega : (i 0).val / 5000 < 30) N_6.symm
  obtain ⟨-, -, -, -, -, -, -, -, -, -, -, -, -, e0, e1⟩ := idx_facts ⟨(i 0).val / 5000, ht⟩
  refine ⟨⟨(i 0).val / 5000, ht⟩, flush6_7 _, ?_⟩
  rw [mem_blk]
  intro a
  match a with
  | ⟨0, _⟩ =>
    show win6_7.index ⟨(i 0).val / 5000, ht⟩ 0 * 5000 ≤ (i 0).val
      ∧ (i 0).val < win6_7.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win6_7.index ⟨(i 0).val / 5000, ht⟩ 1 * 128 ≤ (i 1).val
      ∧ (i 1).val < win6_7.index ⟨(i 0).val / 5000, ht⟩ 1 * 128 + 128
    rw [e1]; omega

end Blocks

theorem value (V : (c : Dev nD) → (b : Ref sig .tc) → Buf (Elt Ideal) ((c : Thread nD τ).loc b)) (c : Dev nD) :
    (dat6 (F := Ideal) V c).arrAt 7 cfg6.N
      = Cert.Spec.upd3Arr (n := 150000) (V c main_arg1) (V c main_v27) (V c main_v41) (V c main_v73) (V c main_v74) (V c main_v75) (V c main_arg36) :=
  (dat6 V c).arrAt_eq_of_cover 7 _ (fun t _ => flushed_eq V c t) cover

end Cert.KernelIdeal.Region6

end
-- ==== Proof.KFold1.lean ====
/- Result 1 at the last boundary of @main, as a function of the argument arrays. -/
import proofs.«412327_j14886356648020_1_alg».proof.Proof.Gen.KernelIdeal.Frame
import proofs.«412327_j14886356648020_1_alg».proof.Proof.KTerms
import proofs.«412327_j14886356648020_1_alg».proof.Proof.KPass
import proofs.«412327_j14886356648020_1_alg».proof.Proof.Region1
import proofs.«412327_j14886356648020_1_alg».proof.Proof.Region2
import proofs.«412327_j14886356648020_1_alg».proof.Proof.Region6
import Idealize.ShloMosaic.Lib.StableHlo.Run

set_option maxRecDepth 16384

noncomputable section

namespace Cert.KernelIdeal.KFold

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

theorem at6_v15 (c : Dev nD) :
    W6 m ρ c (Proc.devRef .tc main_v15) = KT.idx0_01 (m ((c : Thread nD τ).loc main_arg4)) := by
  show StableHlo.after hostOps1 (W5 m ρ c) (Proc.devRef .tc main_v15) = _
  generalize hV : W5 m ρ c = V
  after_results
  subst hV
  rw [KPass.arg4_0_5]
  rfl

theorem at6_v17 (c : Dev nD) :
    W6 m ρ c (Proc.devRef .tc main_v17) = KT.idx1_01 (m ((c : Thread nD τ).loc main_arg4)) := by
  show StableHlo.after hostOps1 (W5 m ρ c) (Proc.devRef .tc main_v17) = _
  generalize hV : W5 m ρ c = V
  after_results
  subst hV
  rw [KPass.arg4_0_5]
  rfl

theorem at7_v18 (c : Dev nD) :
    W7 m ρ c (Proc.devRef .tc main_v18) = KT.take_100000_300000 (m ((c : Thread nD τ).loc main_arg0)) (KT.idx0_01 (m ((c : Thread nD τ).loc main_arg4))) := by
  show StableHlo.after hostOps1_1 (W6 m ρ c) (Proc.devRef .tc main_v18) = _
  generalize hV : W6 m ρ c = V
  after_results_simp
  subst hV
  rw [at6_v15, KPass.arg0_0_6]
  simp only [TRef.toBuf, TRef.ofBuf, cast_eq]
  rfl

theorem at8_v19 (c : Dev nD) :
    W8 m ρ c (Proc.devRef .tc main_v19) = KT.take_150000_300000 (m ((c : Thread nD τ).loc main_arg1)) (KT.idx1_01 (m ((c : Thread nD τ).loc main_arg4))) := by
  show StableHlo.after hostOps1_2 (W7 m ρ c) (Proc.devRef .tc main_v19) = _
  generalize hV : W7 m ρ c = V
  after_results_simp
  subst hV
  rw [KPass.v17_6_7, at6_v17, KPass.arg1_0_7]
  simp only [TRef.toBuf, TRef.ofBuf, cast_eq]
  rfl

theorem at9_v20 (c : Dev nD) :
    W9 m ρ c (Proc.devRef .tc main_v20) = extractStridedSlice S128x128 ![0, 0] (m ((c : Thread nD τ).loc main_arg17)) slices_S259x128_S128x128_0_0 := by
  show StableHlo.after hostOps1_3 (W8 m ρ c) (Proc.devRef .tc main_v20) = _
  generalize hV : W8 m ρ c = V
  after_results
  subst hV
  rw [KPass.arg17_0_8]

theorem at9_v21 (c : Dev nD) :
    W9 m ρ c (Proc.devRef .tc main_v21) = extractStridedSlice S128x128 ![128, 0] (m ((c : Thread nD τ).loc main_arg17)) slices_S259x128_S128x128_128_0 := by
  show StableHlo.after hostOps1_3 (W8 m ρ c) (Proc.devRef .tc main_v21) = _
  generalize hV : W8 m ρ c = V
  after_results
  subst hV
  rw [KPass.arg17_0_8]

theorem at9_v22 (c : Dev nD) :
    W9 m ρ c (Proc.devRef .tc main_v22) = extractStridedSlice S3x128 ![256, 0] (m ((c : Thread nD τ).loc main_arg17)) slices_S259x128_S3x128_256_0 := by
  show StableHlo.after hostOps1_3 (W8 m ρ c) (Proc.devRef .tc main_v22) = _
  generalize hV : W8 m ρ c = V
  after_results
  subst hV
  rw [KPass.arg17_0_8]

theorem at9_v23 (c : Dev nD) :
    W9 m ρ c (Proc.devRef .tc main_v23) = shapeCast S128 (m ((c : Thread nD τ).loc main_arg19)) shapeCasts_S128x1_S128 := by
  show StableHlo.after hostOps1_3 (W8 m ρ c) (Proc.devRef .tc main_v23) = _
  generalize hV : W8 m ρ c = V
  after_results
  subst hV
  rw [KPass.arg19_0_8]
  rfl

theorem at9_v18 (c : Dev nD) :
    W9 m ρ c (Proc.devRef .tc main_v18) = KT.take_100000_300000 (m ((c : Thread nD τ).loc main_arg0)) (KT.idx0_01 (m ((c : Thread nD τ).loc main_arg4))) :=
  (KPass.v18_7_9 m ρ c).trans (at7_v18 m ρ c)

theorem at9_v19 (c : Dev nD) :
    W9 m ρ c (Proc.devRef .tc main_v19) = KT.take_150000_300000 (m ((c : Thread nD τ).loc main_arg1)) (KT.idx1_01 (m ((c : Thread nD τ).loc main_arg4))) :=
  (KPass.v19_8_9 m ρ c).trans (at8_v19 m ρ c)

theorem at10_v24 (c : Dev nD) :
    W10 m ρ c (Proc.devRef .tc main_v24) = KT.msg_01 (m ((c : Thread nD τ).loc main_arg0)) (m ((c : Thread nD τ).loc main_arg1)) (m ((c : Thread nD τ).loc main_arg4)) (m ((c : Thread nD τ).loc main_arg9)) (m ((c : Thread nD τ).loc main_arg17)) (m ((c : Thread nD τ).loc main_arg18)) (m ((c : Thread nD τ).loc main_arg19)) (m ((c : Thread nD τ).loc main_arg20)) := by
  refine (W10_arr m ρ c 9).trans ?_
  rw [Region1.value (V9 m ρ) c]
  dsimp only [V9]
  rw [at9_v18, at9_v19, KPass.arg9_0_9, at9_v20, at9_v21, at9_v22, KPass.arg18_0_9, at9_v23, KPass.arg20_0_9]
  rfl

theorem at11_v27 (c : Dev nD) :
    W11 m ρ c (Proc.devRef .tc main_v27) = KT.agg_01 (m ((c : Thread nD τ).loc main_arg0)) (m ((c : Thread nD τ).loc main_arg1)) (m ((c : Thread nD τ).loc main_arg4)) (m ((c : Thread nD τ).loc main_arg9)) (m ((c : Thread nD τ).loc main_arg17)) (m ((c : Thread nD τ).loc main_arg18)) (m ((c : Thread nD τ).loc main_arg19)) (m ((c : Thread nD τ).loc main_arg20)) := by
  show StableHlo.after hostOps2 (W10 m ρ c) (Proc.devRef .tc main_v27) = _
  generalize hV : W10 m ρ c = V
  after_results
  subst hV
  rw [KPass.v17_6_10, at6_v17, at10_v24]
  rfl

theorem at11_v29 (c : Dev nD) :
    W11 m ρ c (Proc.devRef .tc main_v29) = KT.idx0_11 (m ((c : Thread nD τ).loc main_arg5)) := by
  show StableHlo.after hostOps2 (W10 m ρ c) (Proc.devRef .tc main_v29) = _
  generalize hV : W10 m ρ c = V
  after_results
  subst hV
  rw [KPass.arg5_0_10]
  rfl

theorem at11_v31 (c : Dev nD) :
    W11 m ρ c (Proc.devRef .tc main_v31) = KT.idx1_11 (m ((c : Thread nD τ).loc main_arg5)) := by
  show StableHlo.after hostOps2 (W10 m ρ c) (Proc.devRef .tc main_v31) = _
  generalize hV : W10 m ρ c = V
  after_results
  subst hV
  rw [KPass.arg5_0_10]
  rfl

theorem at12_v32 (c : Dev nD) :
    W12 m ρ c (Proc.devRef .tc main_v32) = KT.take_150000_300000 (m ((c : Thread nD τ).loc main_arg1)) (KT.idx0_11 (m ((c : Thread nD τ).loc main_arg5))) := by
  show StableHlo.after hostOps2_1 (W11 m ρ c) (Proc.devRef .tc main_v32) = _
  generalize hV : W11 m ρ c = V
  after_results_simp
  subst hV
  rw [at11_v29, KPass.arg1_0_11]
  simp only [TRef.toBuf, TRef.ofBuf, cast_eq]
  rfl

theorem at13_v33 (c : Dev nD) :
    W13 m ρ c (Proc.devRef .tc main_v33) = KT.take_150000_300000 (m ((c : Thread nD τ).loc main_arg1)) (KT.idx1_11 (m ((c : Thread nD τ).loc main_arg5))) := by
  show StableHlo.after hostOps2_2 (W12 m ρ c) (Proc.devRef .tc main_v33) = _
  generalize hV : W12 m ρ c = V
  after_results_simp
  subst hV
  rw [KPass.v31_11_12, at11_v31, KPass.arg1_0_12]
  simp only [TRef.toBuf, TRef.ofBuf, cast_eq]
  rfl

theorem at14_v34 (c : Dev nD) :
    W14 m ρ c (Proc.devRef .tc main_v34) = extractStridedSlice S128x128 ![0, 0] (m ((c : Thread nD τ).loc main_arg21)) slices_S259x128_S128x128_0_0 := by
  show StableHlo.after hostOps2_3 (W13 m ρ c) (Proc.devRef .tc main_v34) = _
  generalize hV : W13 m ρ c = V
  after_results
  subst hV
  rw [KPass.arg21_0_13]

theorem at14_v35 (c : Dev nD) :
    W14 m ρ c (Proc.devRef .tc main_v35) = extractStridedSlice S128x128 ![128, 0] (m ((c : Thread nD τ).loc main_arg21)) slices_S259x128_S128x128_128_0 := by
  show StableHlo.after hostOps2_3 (W13 m ρ c) (Proc.devRef .tc main_v35) = _
  generalize hV : W13 m ρ c = V
  after_results
  subst hV
  rw [KPass.arg21_0_13]

theorem at14_v36 (c : Dev nD) :
    W14 m ρ c (Proc.devRef .tc main_v36) = extractStridedSlice S3x128 ![256, 0] (m ((c : Thread nD τ).loc main_arg21)) slices_S259x128_S3x128_256_0 := by
  show StableHlo.after hostOps2_3 (W13 m ρ c) (Proc.devRef .tc main_v36) = _
  generalize hV : W13 m ρ c = V
  after_results
  subst hV
  rw [KPass.arg21_0_13]

theorem at14_v37 (c : Dev nD) :
    W14 m ρ c (Proc.devRef .tc main_v37) = shapeCast S128 (m ((c : Thread nD τ).loc main_arg23)) shapeCasts_S128x1_S128 := by
  show StableHlo.after hostOps2_3 (W13 m ρ c) (Proc.devRef .tc main_v37) = _
  generalize hV : W13 m ρ c = V
  after_results
  subst hV
  rw [KPass.arg23_0_13]
  rfl

theorem at14_v32 (c : Dev nD) :
    W14 m ρ c (Proc.devRef .tc main_v32) = KT.take_150000_300000 (m ((c : Thread nD τ).loc main_arg1)) (KT.idx0_11 (m ((c : Thread nD τ).loc main_arg5))) :=
  (KPass.v32_12_14 m ρ c).trans (at12_v32 m ρ c)

theorem at14_v33 (c : Dev nD) :
    W14 m ρ c (Proc.devRef .tc main_v33) = KT.take_150000_300000 (m ((c : Thread nD τ).loc main_arg1)) (KT.idx1_11 (m ((c : Thread nD τ).loc main_arg5))) :=
  (KPass.v33_13_14 m ρ c).trans (at13_v33 m ρ c)

theorem at15_v38 (c : Dev nD) :
    W15 m ρ c (Proc.devRef .tc main_v38) = KT.msg_11 (m ((c : Thread nD τ).loc main_arg1)) (m ((c : Thread nD τ).loc main_arg1)) (m ((c : Thread nD τ).loc main_arg5)) (m ((c : Thread nD τ).loc main_arg10)) (m ((c : Thread nD τ).loc main_arg21)) (m ((c : Thread nD τ).loc main_arg22)) (m ((c : Thread nD τ).loc main_arg23)) (m ((c : Thread nD τ).loc main_arg24)) := by
  refine (W15_arr m ρ c 9).trans ?_
  rw [Region2.value (V14 m ρ) c]
  dsimp only [V14]
  rw [at14_v32, at14_v33, KPass.arg10_0_14, at14_v34, at14_v35, at14_v36, KPass.arg22_0_14, at14_v37, KPass.arg24_0_14]
  rfl

theorem at16_v41 (c : Dev nD) :
    W16 m ρ c (Proc.devRef .tc main_v41) = KT.agg_11 (m ((c : Thread nD τ).loc main_arg1)) (m ((c : Thread nD τ).loc main_arg1)) (m ((c : Thread nD τ).loc main_arg5)) (m ((c : Thread nD τ).loc main_arg10)) (m ((c : Thread nD τ).loc main_arg21)) (m ((c : Thread nD τ).loc main_arg22)) (m ((c : Thread nD τ).loc main_arg23)) (m ((c : Thread nD τ).loc main_arg24)) := by
  show StableHlo.after hostOps3 (W15 m ρ c) (Proc.devRef .tc main_v41) = _
  generalize hV : W15 m ρ c = V
  after_results
  subst hV
  rw [KPass.v31_11_15, at11_v31, at15_v38]
  rfl

theorem at28_v73 (c : Dev nD) :
    W28 m ρ c (Proc.devRef .tc main_v73) = extractStridedSlice S128x128 ![0, 0] (m ((c : Thread nD τ).loc main_arg35)) slices_S384x128_S128x128_0_0 := by
  show StableHlo.after hostOps6 (W27 m ρ c) (Proc.devRef .tc main_v73) = _
  generalize hV : W27 m ρ c = V
  after_results
  subst hV
  rw [KPass.arg35_0_27]

theorem at28_v74 (c : Dev nD) :
    W28 m ρ c (Proc.devRef .tc main_v74) = extractStridedSlice S128x128 ![128, 0] (m ((c : Thread nD τ).loc main_arg35)) slices_S384x128_S128x128_128_0 := by
  show StableHlo.after hostOps6 (W27 m ρ c) (Proc.devRef .tc main_v74) = _
  generalize hV : W27 m ρ c = V
  after_results
  subst hV
  rw [KPass.arg35_0_27]

theorem at28_v75 (c : Dev nD) :
    W28 m ρ c (Proc.devRef .tc main_v75) = extractStridedSlice S128x128 ![256, 0] (m ((c : Thread nD τ).loc main_arg35)) slices_S384x128_S128x128_256_0 := by
  show StableHlo.after hostOps6 (W27 m ρ c) (Proc.devRef .tc main_v75) = _
  generalize hV : W27 m ρ c = V
  after_results
  subst hV
  rw [KPass.arg35_0_27]

theorem at29_v76 (c : Dev nD) :
    W29 m ρ c (Proc.devRef .tc main_v76) = KT.out1 (m ((c : Thread nD τ).loc main_arg1)) (KT.agg_01 (m ((c : Thread nD τ).loc main_arg0)) (m ((c : Thread nD τ).loc main_arg1)) (m ((c : Thread nD τ).loc main_arg4)) (m ((c : Thread nD τ).loc main_arg9)) (m ((c : Thread nD τ).loc main_arg17)) (m ((c : Thread nD τ).loc main_arg18)) (m ((c : Thread nD τ).loc main_arg19)) (m ((c : Thread nD τ).loc main_arg20))) (KT.agg_11 (m ((c : Thread nD τ).loc main_arg1)) (m ((c : Thread nD τ).loc main_arg1)) (m ((c : Thread nD τ).loc main_arg5)) (m ((c : Thread nD τ).loc main_arg10)) (m ((c : Thread nD τ).loc main_arg21)) (m ((c : Thread nD τ).loc main_arg22)) (m ((c : Thread nD τ).loc main_arg23)) (m ((c : Thread nD τ).loc main_arg24))) (m ((c : Thread nD τ).loc main_arg35)) (m ((c : Thread nD τ).loc main_arg36)) := by
  refine (W29_arr m ρ c 7).trans ?_
  rw [Region6.value (V28 m ρ) c]
  dsimp only [V28]
  rw [KPass.arg1_0_28, KPass.v27_11_28, at11_v27, KPass.v41_16_28, at16_v41, at28_v73, at28_v74, at28_v75, KPass.arg36_0_28]
  rfl

theorem out1_eq (c : Dev nD) :
    W31 (F := Ideal) m ρ c (Proc.devRef .tc main_v76)
      = KT.out1 (m ((c : Thread nD τ).loc main_arg1)) (KT.agg_01 (m ((c : Thread nD τ).loc main_arg0)) (m ((c : Thread nD τ).loc main_arg1)) (m ((c : Thread nD τ).loc main_arg4)) (m ((c : Thread nD τ).loc main_arg9)) (m ((c : Thread nD τ).loc main_arg17)) (m ((c : Thread nD τ).loc main_arg18)) (m ((c : Thread nD τ).loc main_arg19)) (m ((c : Thread nD τ).loc main_arg20))) (KT.agg_11 (m ((c : Thread nD τ).loc main_arg1)) (m ((c : Thread nD τ).loc main_arg1)) (m ((c : Thread nD τ).loc main_arg5)) (m ((c : Thread nD τ).loc main_arg10)) (m ((c : Thread nD τ).loc main_arg21)) (m ((c : Thread nD τ).loc main_arg22)) (m ((c : Thread nD τ).loc main_arg23)) (m ((c : Thread nD τ).loc main_arg24))) (m ((c : Thread nD τ).loc main_arg35)) (m ((c : Thread nD τ).loc main_arg36)) :=
  (KPass.v76_29_31 m ρ c).trans (at29_v76 m ρ c)

end Cert.KernelIdeal.KFold

end
-- ==== Proof.Region3.lean ====
/- Region 3's output array is the layer's function of its input arrays: the blocks its grid points write tile the array. -/
import proofs.«412327_j14886356648020_1_alg».proof.Proof.Gen.KernelIdeal.Frame
import proofs.«412327_j14886356648020_1_alg».proof.Proof.MsgBody
import Idealize.ShloMosaic.Lib.Pipeline.Value

set_option maxRecDepth 16384

noncomputable section

namespace Cert.KernelIdeal.Region3

open Idealize.ShloMosaic Idealize.ShloMosaic.TcCoe Idealize.ShloMosaic.ValueIdx Cert.KernelIdeal Cert.KernelIdeal.Gen

theorem idx_facts : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_9.index t (0 : Fin 2) = t.val ∧ win3_9.index t (1 : Fin 2) = 0 :=
  (by decide +kernel : ∀ t : Fin grid3.N, _)

theorem whole_facts : ∀ t : Fin cfg3.N, (∀ a, win3_3.index t a = 0) ∧ (∀ a, win3_4.index t a = 0) ∧ (∀ a, win3_5.index t a = 0) ∧ (∀ a, win3_6.index t a = 0) ∧ (∀ a, win3_7.index t a = 0) ∧ (∀ a, win3_8.index t a = 0) :=
  (by decide +kernel : ∀ t : Fin grid3.N, _)

section Blocks

variable (V : (c : Dev nD) → (b : Ref sig .tc) → Buf (Elt Ideal) ((c : Thread nD τ).loc b))

theorem blk0_apply (c : Dev nD) (t : Fin cfg3.N) (z : S5000x128.Idx) (k : S200000x128.Idx)
    (hk0 : (k 0).val = 5000 * t.val + (z 0).val) (hk1 : (k 1).val = (z 1).val) :
    (iblk3 (F := Ideal) V c 0 t : Vec Ideal S5000x128 .f32) z = (V c main_v46 : S200000x128.Idx → Elt Ideal .f32) k := by
  obtain ⟨e00, e01, e10, e11, e20, e21, e90, e91⟩ := idx_facts t
  unfold iblk3
  rw [View.read_apply]
  show V c main_v46 _ = V c main_v46 _
  congr 1
  funext a
  apply Fin.ext
  match a with
  | ⟨0, _⟩ => show win3_0.index t 0 * 5000 + 1 * (z 0).val = (k 0).val; rw [e00, hk0]; omega
  | ⟨1, _⟩ => show win3_0.index t 1 * 128 + 1 * (z 1).val = (k 1).val; rw [e01, hk1]; omega

theorem blk1_apply (c : Dev nD) (t : Fin cfg3.N) (z : S5000x128.Idx) (k : S200000x128.Idx)
    (hk0 : (k 0).val = 5000 * t.val + (z 0).val) (hk1 : (k 1).val = (z 1).val) :
    (iblk3 (F := Ideal) V c 1 t : Vec Ideal S5000x128 .f32) z = (V c main_v47 : S200000x128.Idx → Elt Ideal .f32) k := by
  obtain ⟨e00, e01, e10, e11, e20, e21, e90, e91⟩ := idx_facts t
  unfold iblk3
  rw [View.read_apply]
  show V c main_v47 _ = V c main_v47 _
  congr 1
  funext a
  apply Fin.ext
  match a with
  | ⟨0, _⟩ => show win3_1.index t 0 * 5000 + 1 * (z 0).val = (k 0).val; rw [e10, hk0]; omega
  | ⟨1, _⟩ => show win3_1.index t 1 * 128 + 1 * (z 1).val = (k 1).val; rw [e11, hk1]; omega

theorem blk2_apply (c : Dev nD) (t : Fin cfg3.N) (z : S5000x3.Idx) (k : S200000x3.Idx)
    (hk0 : (k 0).val = 5000 * t.val + (z 0).val) (hk1 : (k 1).val = (z 1).val) :
    (iblk3 (F := Ideal) V c 2 t : Vec Ideal S5000x3 .f32) z = (V c main_arg11 : S200000x3.Idx → Elt Ideal .f32) k := by
  obtain ⟨e00, e01, e10, e11, e20, e21, e90, e91⟩ := idx_facts t
  unfold iblk3
  rw [View.read_apply]
  show V c main_arg11 _ = V c main_arg11 _
  congr 1
  funext a
  apply Fin.ext
  match a with
  | ⟨0, _⟩ => show win3_2.index t 0 * 5000 + 1 * (z 0).val = (k 0).val; rw [e20, hk0]; omega
  | ⟨1, _⟩ => show win3_2.index t 1 * 3 + 1 * (z 1).val = (k 1).val; rw [e21, hk1]; omega

theorem blk3_eq (c : Dev nD) (t : Fin cfg3.N) :
    (iblk3 (F := Ideal) V c 3 t : Vec Ideal S128x128 .f32) = (V c main_v48 : S128x128.Idx → Elt Ideal .f32) :=
  funext fun z => congrArg (V c main_v48) (funext fun a => Fin.ext (win3_3.rect_emb_val_of_index_zero t a ((whole_facts t).1 a) z))

theorem blk4_eq (c : Dev nD) (t : Fin cfg3.N) :
    (iblk3 (F := Ideal) V c 4 t : Vec Ideal S128x128 .f32) = (V c main_v49 : S128x128.Idx → Elt Ideal .f32) :=
  funext fun z => congrArg (V c main_v49) (funext fun a => Fin.ext (win3_4.rect_emb_val_of_index_zero t a ((whole_facts t).2.1 a) z))

theorem blk5_eq (c : Dev nD) (t : Fin cfg3.N) :
    (iblk3 (F := Ideal) V c 5 t : Vec Ideal S3x128 .f32) = (V c main_v50 : S3x128.Idx → Elt Ideal .f32) :=
  funext fun z => congrArg (V c main_v50) (funext fun a => Fin.ext (win3_5.rect_emb_val_of_index_zero t a ((whole_facts t).2.2.1 a) z))

theorem blk6_eq (c : Dev nD) (t : Fin cfg3.N) :
    (iblk3 (F := Ideal) V c 6 t : Vec Ideal S128 .f32) = (V c main_arg26 : S128.Idx → Elt Ideal .f32) :=
  funext fun z => congrArg (V c main_arg26) (funext fun a => Fin.ext (win3_6.rect_emb_val_of_index_zero t a ((whole_facts t).2.2.2.1 a) z))

theorem blk7_eq (c : Dev nD) (t : Fin cfg3.N) :
    (iblk3 (F := Ideal) V c 7 t : Vec Ideal S128 .f32) = (V c main_v51 : S128.Idx → Elt Ideal .f32) :=
  funext fun z => congrArg (V c main_v51) (funext fun a => Fin.ext (win3_7.rect_emb_val_of_index_zero t a ((whole_facts t).2.2.2.2.1 a) z))

theorem blk8_eq (c : Dev nD) (t : Fin cfg3.N) :
    (iblk3 (F := Ideal) V c 8 t : Vec Ideal S1 .f32) = (V c main_arg28 : S1.Idx → Elt Ideal .f32) :=
  funext fun z => congrArg (V c main_arg28) (funext fun a => Fin.ext (win3_8.rect_emb_val_of_index_zero t a ((whole_facts t).2.2.2.2.2 a) z))

theorem flushed_eq (c : Dev nD) (t : Fin cfg3.N) :
    (dat3 (F := Ideal) V c).flushed 9 t = ((cfg3.win 9).blk t).view.read (Elt Ideal)
      (Cert.Spec.msgArr (n := 200000) (V c main_v46) (V c main_v47) (V c main_arg11) (V c main_v48) (V c main_v49) (V c main_v50) (V c main_arg26) (V c main_v51) (V c main_arg28)) := by
  show (cfg3.win 9).cut (grid3.coords t) ((dat3 (F := Ideal) V c).after 9 t) = _
  rw [after3_9, MsgBody.out3_9_eq, blk3_eq, blk4_eq, blk5_eq, blk6_eq, blk7_eq, blk8_eq]
  obtain ⟨e00, e01, e10, e11, e20, e21, e90, e91⟩ := idx_facts t
  funext y
  have hi0 : ((((cfg3.win 9).blk t).view.emb y : S200000x128.Idx) 0).val = 5000 * t.val + (y 0).val := by
    show win3_9.index t 0 * 5000 + 1 * (y 0).val = 5000 * t.val + (y 0).val
    rw [e90]; omega
  have hi1 : ((((cfg3.win 9).blk t).view.emb y : S200000x128.Idx) 1).val = (y 1).val := by
    show win3_9.index t 1 * 128 + 1 * (y 1).val = (y 1).val
    rw [e91]; omega
  exact MsgBody.msgArr_block (V c main_v46) (V c main_v47) (V c main_arg11) (iblk3 (F := Ideal) V c 0 t) (iblk3 (F := Ideal) V c 1 t) (iblk3 (F := Ideal) V c 2 t)
    (V c main_v48) (V c main_v49) (V c main_v50) (V c main_arg26) (V c main_v51) (V c main_arg28) (5000 * t.val)
    (blk0_apply V c t) (blk1_apply V c t) (blk2_apply V c t) y (((cfg3.win 9).blk t).view.emb y) hi0 hi1

theorem mem_blk (t : Fin cfg3.N) (i : S200000x128.Idx) :
    i ∈ ((cfg3.win 9).blk t).view.set ↔ ∀ a : Fin 2, win3_9.index t a * S5000x128.size a ≤ (i a).val ∧ (i a).val < win3_9.index t a * S5000x128.size a + S5000x128.size a := by
  show i ∈ ((View.whole main_v52).slice (win3_9.rect t)).set ↔ _
  rw [View.set_slice_whole, Rect.mem_set_unit]
  exact Iff.rfl

theorem cover (i : S200000x128.Idx) :
    ∃ t : Fin cfg3.N, (cfg3.win 9).flush t = true ∧ i ∈ ((cfg3.win 9).blk t).view.set := by
  have hi0 : (i 0).val < 200000 := (i 0).isLt
  have hi1 : (i 1).val < 128 := (i 1).isLt
  have hN : grid3.N = 40 := N_3
  obtain ⟨t, ht⟩ : ∃ t : Fin cfg3.N, t.val = (i 0).val / 5000 :=
    ⟨⟨(i 0).val / 5000, by show (i 0).val / 5000 < grid3.N; rw [hN]; omega⟩, rfl⟩
  obtain ⟨e00, e01, e10, e11, e20, e21, e90, e91⟩ := idx_facts t
  refine ⟨t, flush3_9 t, ?_⟩
  rw [mem_blk]
  intro a
  match a with
  | ⟨0, _⟩ =>
    show win3_9.index t 0 * 5000 ≤ (i 0).val ∧ (i 0).val < win3_9.index t 0 * 5000 + 5000
    rw [e90, ht]; omega
  | ⟨1, _⟩ =>
    show win3_9.index t 1 * 128 ≤ (i 1).val ∧ (i 1).val < win3_9.index t 1 * 128 + 128
    rw [e91]; omega

end Blocks

theorem value (V : (c : Dev nD) → (b : Ref sig .tc) → Buf (Elt Ideal) ((c : Thread nD τ).loc b)) (c : Dev nD) :
    (dat3 (F := Ideal) V c).arrAt 9 cfg3.N
      = Cert.Spec.msgArr (n := 200000) (V c main_v46) (V c main_v47) (V c main_arg11) (V c main_v48) (V c main_v49) (V c main_v50) (V c main_arg26) (V c main_v51) (V c main_arg28) :=
  (dat3 (F := Ideal) V c).arrAt_eq_of_cover 9
    (Cert.Spec.msgArr (n := 200000) (V c main_v46) (V c main_v47) (V c main_arg11) (V c main_v48) (V c main_v49) (V c main_v50) (V c main_arg26) (V c main_v51) (V c main_arg28))
    (fun t _ => flushed_eq V c t) cover

end Cert.KernelIdeal.Region3

end
-- ==== Proof.Region4.lean ====
/- Region 4's output array is the layer's function of its input arrays: the blocks its grid points write tile the array. -/
import proofs.«412327_j14886356648020_1_alg».proof.Proof.Gen.KernelIdeal.Frame
import proofs.«412327_j14886356648020_1_alg».proof.Proof.MsgBody
import Idealize.ShloMosaic.Lib.Pipeline.Value

set_option maxRecDepth 16384

noncomputable section

namespace Cert.KernelIdeal.Region4

open Idealize.ShloMosaic Idealize.ShloMosaic.TcCoe Idealize.ShloMosaic.ValueIdx Cert.KernelIdeal Cert.KernelIdeal.Gen

theorem idx_facts : ∀ t : Fin cfg4.N,
      win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_9.index t (0 : Fin 2) = t.val ∧ win4_9.index t (1 : Fin 2) = 0 :=
  (by decide +kernel : ∀ t : Fin grid4.N, _)

theorem whole_facts : ∀ t : Fin cfg4.N, (∀ a, win4_3.index t a = 0) ∧ (∀ a, win4_4.index t a = 0) ∧ (∀ a, win4_5.index t a = 0) ∧ (∀ a, win4_6.index t a = 0) ∧ (∀ a, win4_7.index t a = 0) ∧ (∀ a, win4_8.index t a = 0) :=
  (by decide +kernel : ∀ t : Fin grid4.N, _)

section Blocks

variable (V : (c : Dev nD) → (b : Ref sig .tc) → Buf (Elt Ideal) ((c : Thread nD τ).loc b))

theorem blk0_apply (c : Dev nD) (t : Fin cfg4.N) (z : S5000x128.Idx) (k : S200000x128.Idx)
    (hk0 : (k 0).val = 5000 * t.val + (z 0).val) (hk1 : (k 1).val = (z 1).val) :
    (iblk4 (F := Ideal) V c 0 t : Vec Ideal S5000x128 .f32) z = (V c main_v60 : S200000x128.Idx → Elt Ideal .f32) k := by
  obtain ⟨e00, e01, e10, e11, e20, e21, e90, e91⟩ := idx_facts t
  unfold iblk4
  rw [View.read_apply]
  show V c main_v60 _ = V c main_v60 _
  congr 1
  funext a
  apply Fin.ext
  match a with
  | ⟨0, _⟩ => show win4_0.index t 0 * 5000 + 1 * (z 0).val = (k 0).val; rw [e00, hk0]; omega
  | ⟨1, _⟩ => show win4_0.index t 1 * 128 + 1 * (z 1).val = (k 1).val; rw [e01, hk1]; omega

theorem blk1_apply (c : Dev nD) (t : Fin cfg4.N) (z : S5000x128.Idx) (k : S200000x128.Idx)
    (hk0 : (k 0).val = 5000 * t.val + (z 0).val) (hk1 : (k 1).val = (z 1).val) :
    (iblk4 (F := Ideal) V c 1 t : Vec Ideal S5000x128 .f32) z = (V c main_v61 : S200000x128.Idx → Elt Ideal .f32) k := by
  obtain ⟨e00, e01, e10, e11, e20, e21, e90, e91⟩ := idx_facts t
  unfold iblk4
  rw [View.read_apply]
  show V c main_v61 _ = V c main_v61 _
  congr 1
  funext a
  apply Fin.ext
  match a with
  | ⟨0, _⟩ => show win4_1.index t 0 * 5000 + 1 * (z 0).val = (k 0).val; rw [e10, hk0]; omega
  | ⟨1, _⟩ => show win4_1.index t 1 * 128 + 1 * (z 1).val = (k 1).val; rw [e11, hk1]; omega

theorem blk2_apply (c : Dev nD) (t : Fin cfg4.N) (z : S5000x3.Idx) (k : S200000x3.Idx)
    (hk0 : (k 0).val = 5000 * t.val + (z 0).val) (hk1 : (k 1).val = (z 1).val) :
    (iblk4 (F := Ideal) V c 2 t : Vec Ideal S5000x3 .f32) z = (V c main_arg12 : S200000x3.Idx → Elt Ideal .f32) k := by
  obtain ⟨e00, e01, e10, e11, e20, e21, e90, e91⟩ := idx_facts t
  unfold iblk4
  rw [View.read_apply]
  show V c main_arg12 _ = V c main_arg12 _
  congr 1
  funext a
  apply Fin.ext
  match a with
  | ⟨0, _⟩ => show win4_2.index t 0 * 5000 + 1 * (z 0).val = (k 0).val; rw [e20, hk0]; omega
  | ⟨1, _⟩ => show win4_2.index t 1 * 3 + 1 * (z 1).val = (k 1).val; rw [e21, hk1]; omega

theorem blk3_eq (c : Dev nD) (t : Fin cfg4.N) :
    (iblk4 (F := Ideal) V c 3 t : Vec Ideal S128x128 .f32) = (V c main_v62 : S128x128.Idx → Elt Ideal .f32) :=
  funext fun z => congrArg (V c main_v62) (funext fun a => Fin.ext (win4_3.rect_emb_val_of_index_zero t a ((whole_facts t).1 a) z))

theorem blk4_eq (c : Dev nD) (t : Fin cfg4.N) :
    (iblk4 (F := Ideal) V c 4 t : Vec Ideal S128x128 .f32) = (V c main_v63 : S128x128.Idx → Elt Ideal .f32) :=
  funext fun z => congrArg (V c main_v63) (funext fun a => Fin.ext (win4_4.rect_emb_val_of_index_zero t a ((whole_facts t).2.1 a) z))

theorem blk5_eq (c : Dev nD) (t : Fin cfg4.N) :
    (iblk4 (F := Ideal) V c 5 t : Vec Ideal S3x128 .f32) = (V c main_v64 : S3x128.Idx → Elt Ideal .f32) :=
  funext fun z => congrArg (V c main_v64) (funext fun a => Fin.ext (win4_5.rect_emb_val_of_index_zero t a ((whole_facts t).2.2.1 a) z))

theorem blk6_eq (c : Dev nD) (t : Fin cfg4.N) :
    (iblk4 (F := Ideal) V c 6 t : Vec Ideal S128 .f32) = (V c main_arg30 : S128.Idx → Elt Ideal .f32) :=
  funext fun z => congrArg (V c main_arg30) (funext fun a => Fin.ext (win4_6.rect_emb_val_of_index_zero t a ((whole_facts t).2.2.2.1 a) z))

theorem blk7_eq (c : Dev nD) (t : Fin cfg4.N) :
    (iblk4 (F := Ideal) V c 7 t : Vec Ideal S128 .f32) = (V c main_v65 : S128.Idx → Elt Ideal .f32) :=
  funext fun z => congrArg (V c main_v65) (funext fun a => Fin.ext (win4_7.rect_emb_val_of_index_zero t a ((whole_facts t).2.2.2.2.1 a) z))

theorem blk8_eq (c : Dev nD) (t : Fin cfg4.N) :
    (iblk4 (F := Ideal) V c 8 t : Vec Ideal S1 .f32) = (V c main_arg32 : S1.Idx → Elt Ideal .f32) :=
  funext fun z => congrArg (V c main_arg32) (funext fun a => Fin.ext (win4_8.rect_emb_val_of_index_zero t a ((whole_facts t).2.2.2.2.2 a) z))

theorem flushed_eq (c : Dev nD) (t : Fin cfg4.N) :
    (dat4 (F := Ideal) V c).flushed 9 t = ((cfg4.win 9).blk t).view.read (Elt Ideal)
      (Cert.Spec.msgArr (n := 200000) (V c main_v60) (V c main_v61) (V c main_arg12) (V c main_v62) (V c main_v63) (V c main_v64) (V c main_arg30) (V c main_v65) (V c main_arg32)) := by
  show (cfg4.win 9).cut (grid4.coords t) ((dat4 (F := Ideal) V c).after 9 t) = _
  rw [after4_9, MsgBody.out4_9_eq, blk3_eq, blk4_eq, blk5_eq, blk6_eq, blk7_eq, blk8_eq]
  obtain ⟨e00, e01, e10, e11, e20, e21, e90, e91⟩ := idx_facts t
  funext y
  have hi0 : ((((cfg4.win 9).blk t).view.emb y : S200000x128.Idx) 0).val = 5000 * t.val + (y 0).val := by
    show win4_9.index t 0 * 5000 + 1 * (y 0).val = 5000 * t.val + (y 0).val
    rw [e90]; omega
  have hi1 : ((((cfg4.win 9).blk t).view.emb y : S200000x128.Idx) 1).val = (y 1).val := by
    show win4_9.index t 1 * 128 + 1 * (y 1).val = (y 1).val
    rw [e91]; omega
  exact MsgBody.msgArr_block (V c main_v60) (V c main_v61) (V c main_arg12) (iblk4 (F := Ideal) V c 0 t) (iblk4 (F := Ideal) V c 1 t) (iblk4 (F := Ideal) V c 2 t)
    (V c main_v62) (V c main_v63) (V c main_v64) (V c main_arg30) (V c main_v65) (V c main_arg32) (5000 * t.val)
    (blk0_apply V c t) (blk1_apply V c t) (blk2_apply V c t) y (((cfg4.win 9).blk t).view.emb y) hi0 hi1

theorem mem_blk (t : Fin cfg4.N) (i : S200000x128.Idx) :
    i ∈ ((cfg4.win 9).blk t).view.set ↔ ∀ a : Fin 2, win4_9.index t a * S5000x128.size a ≤ (i a).val ∧ (i a).val < win4_9.index t a * S5000x128.size a + S5000x128.size a := by
  show i ∈ ((View.whole main_v66).slice (win4_9.rect t)).set ↔ _
  rw [View.set_slice_whole, Rect.mem_set_unit]
  exact Iff.rfl

theorem cover (i : S200000x128.Idx) :
    ∃ t : Fin cfg4.N, (cfg4.win 9).flush t = true ∧ i ∈ ((cfg4.win 9).blk t).view.set := by
  have hi0 : (i 0).val < 200000 := (i 0).isLt
  have hi1 : (i 1).val < 128 := (i 1).isLt
  have hN : grid4.N = 40 := N_4
  obtain ⟨t, ht⟩ : ∃ t : Fin cfg4.N, t.val = (i 0).val / 5000 :=
    ⟨⟨(i 0).val / 5000, by show (i 0).val / 5000 < grid4.N; rw [hN]; omega⟩, rfl⟩
  obtain ⟨e00, e01, e10, e11, e20, e21, e90, e91⟩ := idx_facts t
  refine ⟨t, flush4_9 t, ?_⟩
  rw [mem_blk]
  intro a
  match a with
  | ⟨0, _⟩ =>
    show win4_9.index t 0 * 5000 ≤ (i 0).val ∧ (i 0).val < win4_9.index t 0 * 5000 + 5000
    rw [e90, ht]; omega
  | ⟨1, _⟩ =>
    show win4_9.index t 1 * 128 ≤ (i 1).val ∧ (i 1).val < win4_9.index t 1 * 128 + 128
    rw [e91]; omega

end Blocks

theorem value (V : (c : Dev nD) → (b : Ref sig .tc) → Buf (Elt Ideal) ((c : Thread nD τ).loc b)) (c : Dev nD) :
    (dat4 (F := Ideal) V c).arrAt 9 cfg4.N
      = Cert.Spec.msgArr (n := 200000) (V c main_v60) (V c main_v61) (V c main_arg12) (V c main_v62) (V c main_v63) (V c main_v64) (V c main_arg30) (V c main_v65) (V c main_arg32) :=
  (dat4 (F := Ideal) V c).arrAt_eq_of_cover 9
    (Cert.Spec.msgArr (n := 200000) (V c main_v60) (V c main_v61) (V c main_arg12) (V c main_v62) (V c main_v63) (V c main_v64) (V c main_arg30) (V c main_v65) (V c main_arg32))
    (fun t _ => flushed_eq V c t) cover

end Cert.KernelIdeal.Region4

end
-- ==== Proof.Region7.lean ====
/- Region 7's output array is the layer's function of its input arrays: the blocks its grid points write tile the array. -/
import proofs.«412327_j14886356648020_1_alg».proof.Proof.Gen.KernelIdeal.Frame
import proofs.«412327_j14886356648020_1_alg».proof.Proof.UpdBody
import Idealize.ShloMosaic.Lib.Pipeline.Value

set_option maxRecDepth 16384

noncomputable section

namespace Cert.KernelIdeal.Region7

open Idealize.ShloMosaic Idealize.ShloMosaic.TcCoe Idealize.ShloMosaic.ValueIdx Cert.KernelIdeal Cert.KernelIdeal.Gen

theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 1) = 0
    ∧ win7_7.index t (0 : Fin 2) = t.val ∧ win7_7.index t (1 : Fin 2) = 0 :=
  (by decide +kernel : ∀ t : Fin grid7.N, _)

theorem whole_facts : ∀ t : Fin cfg7.N, (∀ a, win7_3.index t a = 0) ∧ (∀ a, win7_4.index t a = 0) ∧ (∀ a, win7_5.index t a = 0) ∧ (∀ a, win7_6.index t a = 0) :=
  (by decide +kernel : ∀ t : Fin grid7.N, _)

theorem upd3_rows (x g h : Cert.Spec.Mat 80000 128) (xb gb hb : Cert.Spec.Mat 5000 128) (U0 U1 U2 : Cert.Spec.Mat 128 128)
    (bu : Cert.Spec.Row 128) (t : ℕ)
    (hx : ∀ (r : Fin 5000) (r' : Fin 80000) (q : Fin 128), r'.val = 5000 * t + r.val → xb (ix2 r q) = x (ix2 r' q))
    (hg : ∀ (r : Fin 5000) (r' : Fin 80000) (q : Fin 128), r'.val = 5000 * t + r.val → gb (ix2 r q) = g (ix2 r' q))
    (hh : ∀ (r : Fin 5000) (r' : Fin 80000) (q : Fin 128), r'.val = 5000 * t + r.val → hb (ix2 r q) = h (ix2 r' q))
    (r : Fin 5000) (r' : Fin 80000) (q : Fin 128) (hr : r'.val = 5000 * t + r.val) :
    Cert.Spec.upd3Arr (n := 5000) xb gb hb U0 U1 U2 bu (ix2 r q)
      = Cert.Spec.upd3Arr (n := 80000) x g h U0 U1 U2 bu (ix2 r' q) := by
  show xb (ix2 r q) + ((((∑ k : Fin 128, xb (ix2 r k) * U0 (ix2 k q)) + ∑ k : Fin 128, gb (ix2 r k) * U1 (ix2 k q))
        + ∑ k : Fin 128, hb (ix2 r k) * U2 (ix2 k q)) + bu (ix1 q))
    = x (ix2 r' q) + ((((∑ k : Fin 128, x (ix2 r' k) * U0 (ix2 k q)) + ∑ k : Fin 128, g (ix2 r' k) * U1 (ix2 k q))
        + ∑ k : Fin 128, h (ix2 r' k) * U2 (ix2 k q)) + bu (ix1 q))
  simp only [hx r r' _ hr, hg r r' _ hr, hh r r' _ hr]

theorem out_block_eq (G : S80000x128.Idx → EReal) (B : S5000x128.Idx → EReal) (t : Fin cfg7.N)
    (h : ∀ (r : Fin 5000) (r' : Fin 80000) (q : Fin 128), r'.val = 5000 * t.val + r.val → B (ix2 r q) = G (ix2 r' q)) :
    (cfg7.win 7).cut (grid7.coords t) B = ((cfg7.win 7).blk t).view.read (Elt Ideal) G := by
  obtain ⟨-, -, -, -, -, -, -, -, -, -, -, -, -, e0, e1⟩ := idx_facts t
  have hN : t.val < 16 := lt_of_lt_of_eq t.isLt N_7
  funext j
  have h0 : (j 0).val < 5000 := (j 0).isLt
  have h1 : (j 1).val < 128 := (j 1).isLt
  have ej : (cfg7.win 7).xinj (grid7.coords t) j = ix2 (⟨(j 0).val, h0⟩ : Fin 5000) (⟨(j 1).val, h1⟩ : Fin 128) := by
    funext a; match a with | ⟨0, _⟩ => rfl | ⟨1, _⟩ => rfl
  have ek : ((cfg7.win 7).blk t).view.emb j
      = ix2 (⟨5000 * t.val + (j 0).val, by omega⟩ : Fin 80000) (⟨(j 1).val, h1⟩ : Fin 128) := by
    funext a; apply Fin.ext
    match a with
    | ⟨0, _⟩ => show win7_7.index t 0 * 5000 + 1 * (j 0).val = 5000 * t.val + (j 0).val; rw [e0]; omega
    | ⟨1, _⟩ => show win7_7.index t 1 * 128 + 1 * (j 1).val = (j 1).val; rw [e1]; omega
  rw [View.read_apply]
  show B ((cfg7.win 7).xinj (grid7.coords t) j) = G (((cfg7.win 7).blk t).view.emb j)
  exact (congrArg B ej).trans ((h _ _ _ rfl).trans (congrArg G ek).symm)

section Blocks

variable (V : (c : Dev nD) → (b : Ref sig .tc) → Buf (Elt Ideal) ((c : Thread nD τ).loc b))

theorem own_block (c : Dev nD) (t : Fin cfg7.N) (r : Fin 5000) (r' : Fin 80000) (q : Fin 128)
    (hr : r'.val = 5000 * t.val + r.val) :
    (iblk7 V c 0 t : Vec Ideal S5000x128 .f32) (ix2 r q) = (V c main_arg2 : S80000x128.Idx → Elt Ideal .f32) (ix2 r' q) := by
  obtain ⟨e0, e1, -⟩ := idx_facts t
  unfold iblk7
  rw [View.read_apply]
  show V c main_arg2 _ = V c main_arg2 _
  congr 1
  funext a
  apply Fin.ext
  match a with
  | ⟨0, _⟩ => show win7_0.index t 0 * 5000 + 1 * r.val = r'.val; rw [e0, hr]; omega
  | ⟨1, _⟩ => show win7_0.index t 1 * 128 + 1 * q.val = q.val; rw [e1]; omega

theorem agg0_block (c : Dev nD) (t : Fin cfg7.N) (r : Fin 5000) (r' : Fin 80000) (q : Fin 128)
    (hr : r'.val = 5000 * t.val + r.val) :
    (iblk7 V c 1 t : Vec Ideal S5000x128 .f32) (ix2 r q) = (V c main_v55 : S80000x128.Idx → Elt Ideal .f32) (ix2 r' q) := by
  obtain ⟨-, -, e0, e1, -⟩ := idx_facts t
  unfold iblk7
  rw [View.read_apply]
  show V c main_v55 _ = V c main_v55 _
  congr 1
  funext a
  apply Fin.ext
  match a with
  | ⟨0, _⟩ => show win7_1.index t 0 * 5000 + 1 * r.val = r'.val; rw [e0, hr]; omega
  | ⟨1, _⟩ => show win7_1.index t 1 * 128 + 1 * q.val = q.val; rw [e1]; omega

theorem agg1_block (c : Dev nD) (t : Fin cfg7.N) (r : Fin 5000) (r' : Fin 80000) (q : Fin 128)
    (hr : r'.val = 5000 * t.val + r.val) :
    (iblk7 V c 2 t : Vec Ideal S5000x128 .f32) (ix2 r q) = (V c main_v69 : S80000x128.Idx → Elt Ideal .f32) (ix2 r' q) := by
  obtain ⟨-, -, -, -, e0, e1, -⟩ := idx_facts t
  unfold iblk7
  rw [View.read_apply]
  show V c main_v69 _ = V c main_v69 _
  congr 1
  funext a
  apply Fin.ext
  match a with
  | ⟨0, _⟩ => show win7_2.index t 0 * 5000 + 1 * r.val = r'.val; rw [e0, hr]; omega
  | ⟨1, _⟩ => show win7_2.index t 1 * 128 + 1 * q.val = q.val; rw [e1]; omega

theorem w0_block (c : Dev nD) (t : Fin cfg7.N) :
    (iblk7 V c 3 t : Vec Ideal S128x128 .f32) = (V c main_v77 : S128x128.Idx → Elt Ideal .f32) :=
  funext fun z => congrArg (V c main_v77) (funext fun a => Fin.ext (win7_3.rect_emb_val_of_index_zero t a ((whole_facts t).1 a) z))

theorem w1_block (c : Dev nD) (t : Fin cfg7.N) :
    (iblk7 V c 4 t : Vec Ideal S128x128 .f32) = (V c main_v78 : S128x128.Idx → Elt Ideal .f32) :=
  funext fun z => congrArg (V c main_v78) (funext fun a => Fin.ext (win7_4.rect_emb_val_of_index_zero t a ((whole_facts t).2.1 a) z))

theorem w2_block (c : Dev nD) (t : Fin cfg7.N) :
    (iblk7 V c 5 t : Vec Ideal S128x128 .f32) = (V c main_v79 : S128x128.Idx → Elt Ideal .f32) :=
  funext fun z => congrArg (V c main_v79) (funext fun a => Fin.ext (win7_5.rect_emb_val_of_index_zero t a ((whole_facts t).2.2.1 a) z))

theorem bias_block (c : Dev nD) (t : Fin cfg7.N) :
    (iblk7 V c 6 t : Vec Ideal S128 .f32) = (V c main_arg38 : S128.Idx → Elt Ideal .f32) :=
  funext fun z => congrArg (V c main_arg38) (funext fun a => Fin.ext (win7_6.rect_emb_val_of_index_zero t a ((whole_facts t).2.2.2 a) z))

theorem flushed_eq (c : Dev nD) (t : Fin cfg7.N) :
    (dat7 V c).flushed 7 t = ((cfg7.win 7).blk t).view.read (Elt Ideal)
      (Cert.Spec.upd3Arr (n := 80000) (V c main_arg2) (V c main_v55) (V c main_v69) (V c main_v77) (V c main_v78)
        (V c main_v79) (V c main_arg38)) := by
  show (cfg7.win 7).cut (grid7.coords t) ((dat7 V c).after 7 t) = _
  rw [after7_7, UpdBody.out7_7_eq, w0_block V c t, w1_block V c t, w2_block V c t, bias_block V c t]
  refine out_block_eq _ _ t fun r r' q hr => ?_
  exact upd3_rows _ _ _ _ _ _ _ _ _ _ t.val (own_block V c t) (agg0_block V c t) (agg1_block V c t) r r' q hr

theorem mem_blk (t : Fin cfg7.N) (i : S80000x128.Idx) :
    i ∈ ((cfg7.win 7).blk t).view.set ↔ ∀ a : Fin 2, win7_7.index t a * S5000x128.size a ≤ (i a).val
      ∧ (i a).val < win7_7.index t a * S5000x128.size a + S5000x128.size a := by
  show i ∈ ((View.whole main_v80).slice (win7_7.rect t)).set ↔ _
  rw [View.set_slice_whole, Rect.mem_set_unit]
  exact Iff.rfl

theorem cover (i : S80000x128.Idx) :
    ∃ t : Fin cfg7.N, (cfg7.win 7).flush t = true ∧ i ∈ ((cfg7.win 7).blk t).view.set := by
  have hi0 : (i 0).val < 80000 := (i 0).isLt
  have hi1 : (i 1).val < 128 := (i 1).isLt
  have ht : (i 0).val / 5000 < cfg7.N := lt_of_lt_of_eq (by omega : (i 0).val / 5000 < 16) N_7.symm
  obtain ⟨-, -, -, -, -, -, -, -, -, -, -, -, -, e0, e1⟩ := idx_facts ⟨(i 0).val / 5000, ht⟩
  refine ⟨⟨(i 0).val / 5000, ht⟩, flush7_7 _, ?_⟩
  rw [mem_blk]
  intro a
  match a with
  | ⟨0, _⟩ =>
    show win7_7.index ⟨(i 0).val / 5000, ht⟩ 0 * 5000 ≤ (i 0).val
      ∧ (i 0).val < win7_7.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win7_7.index ⟨(i 0).val / 5000, ht⟩ 1 * 128 ≤ (i 1).val
      ∧ (i 1).val < win7_7.index ⟨(i 0).val / 5000, ht⟩ 1 * 128 + 128
    rw [e1]; omega

end Blocks

theorem value (V : (c : Dev nD) → (b : Ref sig .tc) → Buf (Elt Ideal) ((c : Thread nD τ).loc b)) (c : Dev nD) :
    (dat7 (F := Ideal) V c).arrAt 7 cfg7.N
      = Cert.Spec.upd3Arr (n := 80000) (V c main_arg2) (V c main_v55) (V c main_v69) (V c main_v77) (V c main_v78) (V c main_v79) (V c main_arg38) :=
  (dat7 V c).arrAt_eq_of_cover 7 _ (fun t _ => flushed_eq V c t) cover

end Cert.KernelIdeal.Region7

end
-- ==== Proof.KFold2.lean ====
/- Result 2 at the last boundary of @main, as a function of the argument arrays. -/
import proofs.«412327_j14886356648020_1_alg».proof.Proof.Gen.KernelIdeal.Frame
import proofs.«412327_j14886356648020_1_alg».proof.Proof.KTerms
import proofs.«412327_j14886356648020_1_alg».proof.Proof.KPass
import proofs.«412327_j14886356648020_1_alg».proof.Proof.Region3
import proofs.«412327_j14886356648020_1_alg».proof.Proof.Region4
import proofs.«412327_j14886356648020_1_alg».proof.Proof.Region7
import Idealize.ShloMosaic.Lib.StableHlo.Run

set_option maxRecDepth 16384

noncomputable section

namespace Cert.KernelIdeal.KFold

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

theorem ofBuf_toBuf {T : BufTy} (x : TRef sig T) (v : T.Contents (Elt Ideal)) : x.ofBuf (x.toBuf v) = v := by
  simp only [TRef.ofBuf, TRef.toBuf, cast_cast, cast_eq]

theorem msgArr_congr {n : ℕ} {a a' b b' : Cert.Spec.Mat n 128} {v v' : Cert.Spec.Mat n 3}
    {Ws Ws' Wr Wr' : Cert.Spec.Mat 128 128} {Wv Wv' : Cert.Spec.Mat 3 128} {bm bm' wi wi' : Cert.Spec.Row 128}
    {bi bi' : Cert.Spec.Row 1}
    (h1 : a = a') (h2 : b = b') (h3 : v = v') (h4 : Ws = Ws') (h5 : Wr = Wr') (h6 : Wv = Wv') (h7 : bm = bm')
    (h8 : wi = wi') (h9 : bi = bi') :
    Cert.Spec.msgArr a b v Ws Wr Wv bm wi bi = Cert.Spec.msgArr a' b' v' Ws' Wr' Wv' bm' wi' bi' := by
  subst h1 h2 h3 h4 h5 h6 h7 h8 h9; rfl

theorem upd3Arr_congr {n : ℕ} {x x' g g' h h' : Cert.Spec.Mat n 128} {U0 U0' U1 U1' U2 U2' : Cert.Spec.Mat 128 128}
    {bu bu' : Cert.Spec.Row 128}
    (h1 : x = x') (h2 : g = g') (h3 : h = h') (h4 : U0 = U0') (h5 : U1 = U1') (h6 : U2 = U2') (h7 : bu = bu') :
    Cert.Spec.upd3Arr x g h U0 U1 U2 bu = Cert.Spec.upd3Arr x' g' h' U0' U1' U2' bu' := by
  subst h1 h2 h3 h4 h5 h6 h7; rfl

theorem at16_v43_of (V : Valuation τ sig (Elt Ideal)) :
    StableHlo.after hostOps3 V (Proc.devRef .tc main_v43) = KT.idx0_12 (V (Proc.devRef .tc main_arg6)) := by
  after_results <;> rfl

theorem at16_v43 (c : Dev nD) :
    W16 (F := Ideal) m ρ c (Proc.devRef .tc main_v43) = KT.idx0_12 (m ((c : Thread nD τ).loc main_arg6)) :=
  (at16_v43_of (W15 m ρ c)).trans (congrArg KT.idx0_12 (KPass.arg6_0_15 m ρ c))

theorem at16_v45_of (V : Valuation τ sig (Elt Ideal)) :
    StableHlo.after hostOps3 V (Proc.devRef .tc main_v45) = KT.idx1_12 (V (Proc.devRef .tc main_arg6)) := by
  after_results <;> rfl

theorem at16_v45 (c : Dev nD) :
    W16 (F := Ideal) m ρ c (Proc.devRef .tc main_v45) = KT.idx1_12 (m ((c : Thread nD τ).loc main_arg6)) :=
  (at16_v45_of (W15 m ρ c)).trans (congrArg KT.idx1_12 (KPass.arg6_0_15 m ρ c))

set_option maxHeartbeats 1000000 in
theorem at17_v46_of (V : Valuation τ sig (Elt Ideal)) :
    StableHlo.after hostOps3_1 V (Proc.devRef .tc main_v46) = KT.take_150000_200000 (V (Proc.devRef .tc main_arg1)) (V (Proc.devRef .tc main_v43)) := by
  after_results_simp
  simp only [ofBuf_toBuf]
  simp only [TRef.ofBuf, TRef.toBuf, cast_eq]
  rfl

theorem at17_v46 (c : Dev nD) :
    W17 (F := Ideal) m ρ c (Proc.devRef .tc main_v46) = KT.take_150000_200000 (m ((c : Thread nD τ).loc main_arg1)) (KT.idx0_12 (m ((c : Thread nD τ).loc main_arg6))) :=
  (at17_v46_of (W16 m ρ c)).trans (congrArg₂ KT.take_150000_200000 (KPass.arg1_0_16 m ρ c) (at16_v43 m ρ c))

set_option maxHeartbeats 1000000 in
theorem at18_v47_of (V : Valuation τ sig (Elt Ideal)) :
    StableHlo.after hostOps3_2 V (Proc.devRef .tc main_v47) = KT.take_80000_200000 (V (Proc.devRef .tc main_arg2)) (V (Proc.devRef .tc main_v45)) := by
  after_results_simp
  simp only [ofBuf_toBuf]
  simp only [TRef.ofBuf, TRef.toBuf, cast_eq]
  rfl

theorem at18_v47 (c : Dev nD) :
    W18 (F := Ideal) m ρ c (Proc.devRef .tc main_v47) = KT.take_80000_200000 (m ((c : Thread nD τ).loc main_arg2)) (KT.idx1_12 (m ((c : Thread nD τ).loc main_arg6))) :=
  (at18_v47_of (W17 m ρ c)).trans (congrArg₂ KT.take_80000_200000 (KPass.arg2_0_17 m ρ c) ((KPass.v45_16_17 m ρ c).trans (at16_v45 m ρ c)))

theorem at19_v48_of (V : Valuation τ sig (Elt Ideal)) :
    StableHlo.after hostOps3_3 V (Proc.devRef .tc main_v48) = extractStridedSlice S128x128 ![0, 0] (V (Proc.devRef .tc main_arg25)) slices_S259x128_S128x128_0_0 := by
  after_results <;> rfl

theorem at19_v48 (c : Dev nD) :
    W19 (F := Ideal) m ρ c (Proc.devRef .tc main_v48) = extractStridedSlice S128x128 ![0, 0] (m ((c : Thread nD τ).loc main_arg25)) slices_S259x128_S128x128_0_0 := by
  refine (at19_v48_of (W18 m ρ c)).trans ?_
  rw [KPass.arg25_0_18 m ρ c] <;> rfl

theorem at19_v49_of (V : Valuation τ sig (Elt Ideal)) :
    StableHlo.after hostOps3_3 V (Proc.devRef .tc main_v49) = extractStridedSlice S128x128 ![128, 0] (V (Proc.devRef .tc main_arg25)) slices_S259x128_S128x128_128_0 := by
  after_results <;> rfl

theorem at19_v49 (c : Dev nD) :
    W19 (F := Ideal) m ρ c (Proc.devRef .tc main_v49) = extractStridedSlice S128x128 ![128, 0] (m ((c : Thread nD τ).loc main_arg25)) slices_S259x128_S128x128_128_0 := by
  refine (at19_v49_of (W18 m ρ c)).trans ?_
  rw [KPass.arg25_0_18 m ρ c] <;> rfl

theorem at19_v50_of (V : Valuation τ sig (Elt Ideal)) :
    StableHlo.after hostOps3_3 V (Proc.devRef .tc main_v50) = extractStridedSlice S3x128 ![256, 0] (V (Proc.devRef .tc main_arg25)) slices_S259x128_S3x128_256_0 := by
  after_results <;> rfl

theorem at19_v50 (c : Dev nD) :
    W19 (F := Ideal) m ρ c (Proc.devRef .tc main_v50) = extractStridedSlice S3x128 ![256, 0] (m ((c : Thread nD τ).loc main_arg25)) slices_S259x128_S3x128_256_0 := by
  refine (at19_v50_of (W18 m ρ c)).trans ?_
  rw [KPass.arg25_0_18 m ρ c] <;> rfl

theorem at19_v51_of (V : Valuation τ sig (Elt Ideal)) :
    StableHlo.after hostOps3_3 V (Proc.devRef .tc main_v51) = shapeCast S128 (V (Proc.devRef .tc main_arg27)) shapeCasts_S128x1_S128 := by
  after_results <;> rfl

theorem at19_v51 (c : Dev nD) :
    W19 (F := Ideal) m ρ c (Proc.devRef .tc main_v51) = shapeCast S128 (m ((c : Thread nD τ).loc main_arg27)) shapeCasts_S128x1_S128 := by
  refine (at19_v51_of (W18 m ρ c)).trans ?_
  rw [KPass.arg27_0_18 m ρ c] <;> rfl

theorem at20_v52 (c : Dev nD) :
    W20 (F := Ideal) m ρ c (Proc.devRef .tc main_v52)
      = KT.msg_12 (m ((c : Thread nD τ).loc main_arg1)) (m ((c : Thread nD τ).loc main_arg2)) (m ((c : Thread nD τ).loc main_arg6)) (m ((c : Thread nD τ).loc main_arg11)) (m ((c : Thread nD τ).loc main_arg25)) (m ((c : Thread nD τ).loc main_arg26)) (m ((c : Thread nD τ).loc main_arg27)) (m ((c : Thread nD τ).loc main_arg28)) :=
  (W20_arr m ρ c 9).trans ((Cert.KernelIdeal.Region3.value (V19 m ρ) c).trans
    (msgArr_congr (n := 200000)
      ((KPass.v46_17_19 m ρ c).trans (at17_v46 m ρ c))
      ((KPass.v47_18_19 m ρ c).trans (at18_v47 m ρ c))
      (KPass.arg11_0_19 m ρ c)
      (at19_v48 m ρ c) (at19_v49 m ρ c) (at19_v50 m ρ c)
      (KPass.arg26_0_19 m ρ c) (at19_v51 m ρ c) (KPass.arg28_0_19 m ρ c)))

theorem at21_v55_of (V : Valuation τ sig (Elt Ideal)) (idx : IVec S200000 32) (u : FVec Ideal S200000x128 .f32)
    (hidx : V (Proc.devRef .tc main_v45) = idx) (hu : V (Proc.devRef .tc main_v52) = u) :
    StableHlo.after hostOps4 V (Proc.devRef .tc main_v55)
      = Host.scatterAdd scatter_S80000x128_S200000x1_S200000x128_1_0_0_1
          (broadcastInDim S80000x128 ![] bcast_S_S80000x128 (constant (F := Ideal) S_ .f32 0x00000000#32))
          (broadcastInDim S200000x1 ![0] bcast_S200000_S200000x1_0 idx) u := by
  subst hidx hu
  after_results <;> rfl

theorem at21_v55 (c : Dev nD) :
    W21 (F := Ideal) m ρ c (Proc.devRef .tc main_v55) = KT.agg_12 (m ((c : Thread nD τ).loc main_arg1)) (m ((c : Thread nD τ).loc main_arg2)) (m ((c : Thread nD τ).loc main_arg6)) (m ((c : Thread nD τ).loc main_arg11)) (m ((c : Thread nD τ).loc main_arg25)) (m ((c : Thread nD τ).loc main_arg26)) (m ((c : Thread nD τ).loc main_arg27)) (m ((c : Thread nD τ).loc main_arg28)) :=
  at21_v55_of (W20 m ρ c) _ _ ((KPass.v45_16_20 m ρ c).trans (at16_v45 m ρ c)) (at20_v52 m ρ c)

theorem at21_v57_of (V : Valuation τ sig (Elt Ideal)) :
    StableHlo.after hostOps4 V (Proc.devRef .tc main_v57) = KT.idx0_22 (V (Proc.devRef .tc main_arg7)) := by
  after_results <;> rfl

theorem at21_v57 (c : Dev nD) :
    W21 (F := Ideal) m ρ c (Proc.devRef .tc main_v57) = KT.idx0_22 (m ((c : Thread nD τ).loc main_arg7)) :=
  (at21_v57_of (W20 m ρ c)).trans (congrArg KT.idx0_22 (KPass.arg7_0_20 m ρ c))

theorem at21_v59_of (V : Valuation τ sig (Elt Ideal)) :
    StableHlo.after hostOps4 V (Proc.devRef .tc main_v59) = KT.idx1_22 (V (Proc.devRef .tc main_arg7)) := by
  after_results <;> rfl

theorem at21_v59 (c : Dev nD) :
    W21 (F := Ideal) m ρ c (Proc.devRef .tc main_v59) = KT.idx1_22 (m ((c : Thread nD τ).loc main_arg7)) :=
  (at21_v59_of (W20 m ρ c)).trans (congrArg KT.idx1_22 (KPass.arg7_0_20 m ρ c))

set_option maxHeartbeats 1000000 in
theorem at22_v60_of (V : Valuation τ sig (Elt Ideal)) :
    StableHlo.after hostOps4_1 V (Proc.devRef .tc main_v60) = KT.take_80000_200000 (V (Proc.devRef .tc main_arg2)) (V (Proc.devRef .tc main_v57)) := by
  after_results_simp
  simp only [ofBuf_toBuf]
  simp only [TRef.ofBuf, TRef.toBuf, cast_eq]
  rfl

theorem at22_v60 (c : Dev nD) :
    W22 (F := Ideal) m ρ c (Proc.devRef .tc main_v60) = KT.take_80000_200000 (m ((c : Thread nD τ).loc main_arg2)) (KT.idx0_22 (m ((c : Thread nD τ).loc main_arg7))) :=
  (at22_v60_of (W21 m ρ c)).trans (congrArg₂ KT.take_80000_200000 (KPass.arg2_0_21 m ρ c) (at21_v57 m ρ c))

set_option maxHeartbeats 1000000 in
theorem at23_v61_of (V : Valuation τ sig (Elt Ideal)) :
    StableHlo.after hostOps4_2 V (Proc.devRef .tc main_v61) = KT.take_80000_200000 (V (Proc.devRef .tc main_arg2)) (V (Proc.devRef .tc main_v59)) := by
  after_results_simp
  simp only [ofBuf_toBuf]
  simp only [TRef.ofBuf, TRef.toBuf, cast_eq]
  rfl

theorem at23_v61 (c : Dev nD) :
    W23 (F := Ideal) m ρ c (Proc.devRef .tc main_v61) = KT.take_80000_200000 (m ((c : Thread nD τ).loc main_arg2)) (KT.idx1_22 (m ((c : Thread nD τ).loc main_arg7))) :=
  (at23_v61_of (W22 m ρ c)).trans (congrArg₂ KT.take_80000_200000 (KPass.arg2_0_22 m ρ c) ((KPass.v59_21_22 m ρ c).trans (at21_v59 m ρ c)))

theorem at24_v62_of (V : Valuation τ sig (Elt Ideal)) :
    StableHlo.after hostOps4_3 V (Proc.devRef .tc main_v62) = extractStridedSlice S128x128 ![0, 0] (V (Proc.devRef .tc main_arg29)) slices_S259x128_S128x128_0_0 := by
  after_results <;> rfl

theorem at24_v62 (c : Dev nD) :
    W24 (F := Ideal) m ρ c (Proc.devRef .tc main_v62) = extractStridedSlice S128x128 ![0, 0] (m ((c : Thread nD τ).loc main_arg29)) slices_S259x128_S128x128_0_0 := by
  refine (at24_v62_of (W23 m ρ c)).trans ?_
  rw [KPass.arg29_0_23 m ρ c] <;> rfl

theorem at24_v63_of (V : Valuation τ sig (Elt Ideal)) :
    StableHlo.after hostOps4_3 V (Proc.devRef .tc main_v63) = extractStridedSlice S128x128 ![128, 0] (V (Proc.devRef .tc main_arg29)) slices_S259x128_S128x128_128_0 := by
  after_results <;> rfl

theorem at24_v63 (c : Dev nD) :
    W24 (F := Ideal) m ρ c (Proc.devRef .tc main_v63) = extractStridedSlice S128x128 ![128, 0] (m ((c : Thread nD τ).loc main_arg29)) slices_S259x128_S128x128_128_0 := by
  refine (at24_v63_of (W23 m ρ c)).trans ?_
  rw [KPass.arg29_0_23 m ρ c] <;> rfl

theorem at24_v64_of (V : Valuation τ sig (Elt Ideal)) :
    StableHlo.after hostOps4_3 V (Proc.devRef .tc main_v64) = extractStridedSlice S3x128 ![256, 0] (V (Proc.devRef .tc main_arg29)) slices_S259x128_S3x128_256_0 := by
  after_results <;> rfl

theorem at24_v64 (c : Dev nD) :
    W24 (F := Ideal) m ρ c (Proc.devRef .tc main_v64) = extractStridedSlice S3x128 ![256, 0] (m ((c : Thread nD τ).loc main_arg29)) slices_S259x128_S3x128_256_0 := by
  refine (at24_v64_of (W23 m ρ c)).trans ?_
  rw [KPass.arg29_0_23 m ρ c] <;> rfl

theorem at24_v65_of (V : Valuation τ sig (Elt Ideal)) :
    StableHlo.after hostOps4_3 V (Proc.devRef .tc main_v65) = shapeCast S128 (V (Proc.devRef .tc main_arg31)) shapeCasts_S128x1_S128 := by
  after_results <;> rfl

theorem at24_v65 (c : Dev nD) :
    W24 (F := Ideal) m ρ c (Proc.devRef .tc main_v65) = shapeCast S128 (m ((c : Thread nD τ).loc main_arg31)) shapeCasts_S128x1_S128 := by
  refine (at24_v65_of (W23 m ρ c)).trans ?_
  rw [KPass.arg31_0_23 m ρ c] <;> rfl

theorem at25_v66 (c : Dev nD) :
    W25 (F := Ideal) m ρ c (Proc.devRef .tc main_v66)
      = KT.msg_22 (m ((c : Thread nD τ).loc main_arg2)) (m ((c : Thread nD τ).loc main_arg2)) (m ((c : Thread nD τ).loc main_arg7)) (m ((c : Thread nD τ).loc main_arg12)) (m ((c : Thread nD τ).loc main_arg29)) (m ((c : Thread nD τ).loc main_arg30)) (m ((c : Thread nD τ).loc main_arg31)) (m ((c : Thread nD τ).loc main_arg32)) :=
  (W25_arr m ρ c 9).trans ((Cert.KernelIdeal.Region4.value (V24 m ρ) c).trans
    (msgArr_congr (n := 200000)
      ((KPass.v60_22_24 m ρ c).trans (at22_v60 m ρ c))
      ((KPass.v61_23_24 m ρ c).trans (at23_v61 m ρ c))
      (KPass.arg12_0_24 m ρ c)
      (at24_v62 m ρ c) (at24_v63 m ρ c) (at24_v64 m ρ c)
      (KPass.arg30_0_24 m ρ c) (at24_v65 m ρ c) (KPass.arg32_0_24 m ρ c)))

theorem at26_v69_of (V : Valuation τ sig (Elt Ideal)) (idx : IVec S200000 32) (u : FVec Ideal S200000x128 .f32)
    (hidx : V (Proc.devRef .tc main_v59) = idx) (hu : V (Proc.devRef .tc main_v66) = u) :
    StableHlo.after hostOps5 V (Proc.devRef .tc main_v69)
      = Host.scatterAdd scatter_S80000x128_S200000x1_S200000x128_1_0_0_1
          (broadcastInDim S80000x128 ![] bcast_S_S80000x128 (constant (F := Ideal) S_ .f32 0x00000000#32))
          (broadcastInDim S200000x1 ![0] bcast_S200000_S200000x1_0 idx) u := by
  subst hidx hu
  after_results <;> rfl

theorem at26_v69 (c : Dev nD) :
    W26 (F := Ideal) m ρ c (Proc.devRef .tc main_v69) = KT.agg_22 (m ((c : Thread nD τ).loc main_arg2)) (m ((c : Thread nD τ).loc main_arg2)) (m ((c : Thread nD τ).loc main_arg7)) (m ((c : Thread nD τ).loc main_arg12)) (m ((c : Thread nD τ).loc main_arg29)) (m ((c : Thread nD τ).loc main_arg30)) (m ((c : Thread nD τ).loc main_arg31)) (m ((c : Thread nD τ).loc main_arg32)) :=
  at26_v69_of (W25 m ρ c) _ _ ((KPass.v59_21_25 m ρ c).trans (at21_v59 m ρ c)) (at25_v66 m ρ c)

theorem at30_v77_of (V : Valuation τ sig (Elt Ideal)) :
    StableHlo.after hostOps7 V (Proc.devRef .tc main_v77) = extractStridedSlice S128x128 ![0, 0] (V (Proc.devRef .tc main_arg37)) slices_S384x128_S128x128_0_0 := by
  after_results <;> rfl

theorem at30_v77 (c : Dev nD) :
    W30 (F := Ideal) m ρ c (Proc.devRef .tc main_v77) = extractStridedSlice S128x128 ![0, 0] (m ((c : Thread nD τ).loc main_arg37)) slices_S384x128_S128x128_0_0 := by
  refine (at30_v77_of (W29 m ρ c)).trans ?_
  rw [KPass.arg37_0_29 m ρ c] <;> rfl

theorem at30_v78_of (V : Valuation τ sig (Elt Ideal)) :
    StableHlo.after hostOps7 V (Proc.devRef .tc main_v78) = extractStridedSlice S128x128 ![128, 0] (V (Proc.devRef .tc main_arg37)) slices_S384x128_S128x128_128_0 := by
  after_results <;> rfl

theorem at30_v78 (c : Dev nD) :
    W30 (F := Ideal) m ρ c (Proc.devRef .tc main_v78) = extractStridedSlice S128x128 ![128, 0] (m ((c : Thread nD τ).loc main_arg37)) slices_S384x128_S128x128_128_0 := by
  refine (at30_v78_of (W29 m ρ c)).trans ?_
  rw [KPass.arg37_0_29 m ρ c] <;> rfl

theorem at30_v79_of (V : Valuation τ sig (Elt Ideal)) :
    StableHlo.after hostOps7 V (Proc.devRef .tc main_v79) = extractStridedSlice S128x128 ![256, 0] (V (Proc.devRef .tc main_arg37)) slices_S384x128_S128x128_256_0 := by
  after_results <;> rfl

theorem at30_v79 (c : Dev nD) :
    W30 (F := Ideal) m ρ c (Proc.devRef .tc main_v79) = extractStridedSlice S128x128 ![256, 0] (m ((c : Thread nD τ).loc main_arg37)) slices_S384x128_S128x128_256_0 := by
  refine (at30_v79_of (W29 m ρ c)).trans ?_
  rw [KPass.arg37_0_29 m ρ c] <;> rfl

theorem out2_eq (c : Dev nD) :
    W31 (F := Ideal) m ρ c (Proc.devRef .tc main_v80)
      = KT.out2 (m ((c : Thread nD τ).loc main_arg2)) (KT.agg_12 (m ((c : Thread nD τ).loc main_arg1)) (m ((c : Thread nD τ).loc main_arg2)) (m ((c : Thread nD τ).loc main_arg6)) (m ((c : Thread nD τ).loc main_arg11)) (m ((c : Thread nD τ).loc main_arg25)) (m ((c : Thread nD τ).loc main_arg26)) (m ((c : Thread nD τ).loc main_arg27)) (m ((c : Thread nD τ).loc main_arg28))) (KT.agg_22 (m ((c : Thread nD τ).loc main_arg2)) (m ((c : Thread nD τ).loc main_arg2)) (m ((c : Thread nD τ).loc main_arg7)) (m ((c : Thread nD τ).loc main_arg12)) (m ((c : Thread nD τ).loc main_arg29)) (m ((c : Thread nD τ).loc main_arg30)) (m ((c : Thread nD τ).loc main_arg31)) (m ((c : Thread nD τ).loc main_arg32))) (m ((c : Thread nD τ).loc main_arg37)) (m ((c : Thread nD τ).loc main_arg38)) :=
  (W31_arr m ρ c 7).trans ((Cert.KernelIdeal.Region7.value (V30 m ρ) c).trans
    (upd3Arr_congr (n := 80000)
      (KPass.arg2_0_30 m ρ c)
      ((KPass.v55_21_30 m ρ c).trans (at21_v55 m ρ c))
      ((KPass.v69_26_30 m ρ c).trans (at26_v69 m ρ c))
      (at30_v77 m ρ c) (at30_v78 m ρ c) (at30_v79 m ρ c)
      (KPass.arg38_0_30 m ρ c)))

end Cert.KernelIdeal.KFold

end
-- ==== Proof.RefRun.lean ====
/- The reference's run: each result at its stage of the arguments, the arguments unchanged. -/
import proofs.«412327_j14886356648020_1_alg».proof.Proof.Gen.ReferenceIdeal
import proofs.«412327_j14886356648020_1_alg».proof.Proof.RefRead
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

private theorem forall_mem_append {α : Type} {p : α → Prop} {l₁ l₂ : List α} (h₁ : ∀ a ∈ l₁, p a) (h₂ : ∀ a ∈ l₂, p a) :
    ∀ a ∈ l₁ ++ l₂, p a := fun a h => (List.mem_append.mp h).elim (h₁ a) (h₂ a)

set_option maxRecDepth 8192 in
set_option maxHeartbeats 2000000 in

abbrev ops1 : List (HloOp τ sig (Elt F)) :=
  [ unary main_arg3 main_v0 ((extractStridedSlice S1x500000 ![0, 0] · slices_S2x500000_S1x500000_0_0) : (⟨S2x500000, .i32⟩ : BufTy).Contents (Elt F) → (⟨S1x500000, .i32⟩ : BufTy).Contents (Elt F)),
    reshape main_v0 main_v1 rfl shapeCasts_S1x500000_S500000,
    nullary main_c (constantI S_ 32 0#32),
    unary main_c main_v2 (broadcastInDim S500000 ![] bcast_S_S500000 : (⟨S_, .i32⟩ : BufTy).Contents (Elt F) → (⟨S500000, .i32⟩ : BufTy).Contents (Elt F)),
    binary main_v1 main_v2 main_v3 (cmpi .slt : (⟨S500000, .i32⟩ : BufTy).Contents (Elt F) → (⟨S500000, .i32⟩ : BufTy).Contents (Elt F) → (⟨S500000, .i1⟩ : BufTy).Contents (Elt F)),
    nullary main_c_0 (constantI S_ 32 100000#32),
    unary main_c_0 main_v4 (broadcastInDim S500000 ![] bcast_S_S500000 : (⟨S_, .i32⟩ : BufTy).Contents (Elt F) → (⟨S500000, .i32⟩ : BufTy).Contents (Elt F)),
    binary main_v1 main_v4 main_v5 (addi : (⟨S500000, .i32⟩ : BufTy).Contents (Elt F) → (⟨S500000, .i32⟩ : BufTy).Contents (Elt F) → (⟨S500000, .i32⟩ : BufTy).Contents (Elt F)),
    ternary main_v3 main_v5 main_v1 main_v6 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v6 main_v7 (broadcastInDim S500000x1 ![0] bcast_S500000_S500000x1_0 : (⟨S500000, .i32⟩ : BufTy).Contents (Elt F) → (⟨S500000x1, .i32⟩ : BufTy).Contents (Elt F)),
    binary main_arg0 main_v7 main_v8 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    unary main_arg3 main_v9 ((extractStridedSlice S1x500000 ![1, 0] · slices_S2x500000_S1x500000_1_0) : (⟨S2x500000, .i32⟩ : BufTy).Contents (Elt F) → (⟨S1x500000, .i32⟩ : BufTy).Contents (Elt F)),
    reshape main_v9 main_v10 rfl shapeCasts_S1x500000_S500000,
    nullary main_c_1 (constantI S_ 32 0#32),
    unary main_c_1 main_v11 (broadcastInDim S500000 ![] bcast_S_S500000 : (⟨S_, .i32⟩ : BufTy).Contents (Elt F) → (⟨S500000, .i32⟩ : BufTy).Contents (Elt F)),
    binary main_v10 main_v11 main_v12 (cmpi .slt : (⟨S500000, .i32⟩ : BufTy).Contents (Elt F) → (⟨S500000, .i32⟩ : BufTy).Contents (Elt F) → (⟨S500000, .i1⟩ : BufTy).Contents (Elt F)),
    nullary main_c_2 (constantI S_ 32 100000#32),
    unary main_c_2 main_v13 (broadcastInDim S500000 ![] bcast_S_S500000 : (⟨S_, .i32⟩ : BufTy).Contents (Elt F) → (⟨S500000, .i32⟩ : BufTy).Contents (Elt F)),
    binary main_v10 main_v13 main_v14 (addi : (⟨S500000, .i32⟩ : BufTy).Contents (Elt F) → (⟨S500000, .i32⟩ : BufTy).Contents (Elt F) → (⟨S500000, .i32⟩ : BufTy).Contents (Elt F)),
    ternary main_v12 main_v14 main_v10 main_v15 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v15 main_v16 (broadcastInDim S500000x1 ![0] bcast_S500000_S500000x1_0 : (⟨S500000, .i32⟩ : BufTy).Contents (Elt F) → (⟨S500000x1, .i32⟩ : BufTy).Contents (Elt F)),
    binary main_arg0 main_v16 main_v17 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)) ]

set_option maxRecDepth 8192 in
set_option maxHeartbeats 2000000 in
theorem ops1_sub : ∀ op ∈ (ops1 : List (HloOp τ sig (Elt F))), op.bufs ⊆ tcRefs τ sig :=
  List.forall_iff_forall_mem.mp (show (ops1 : List (HloOp τ sig (Elt F))).Forall (fun op => op.bufs ⊆ tcRefs τ sig) from ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩)
set_option maxRecDepth 8192 in
set_option maxHeartbeats 2000000 in
theorem ops1_fresh : ∀ op ∈ (ops1 : List (HloOp τ sig (Elt F))), op.fresh = ∅ :=
  List.forall_iff_forall_mem.mp (show (ops1 : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl⟩)

abbrev ops1_W : List (Ref sig .tc) := [main_v0, main_v1, main_c, main_v2, main_v3, main_c_0, main_v4, main_v5, main_v6, main_v7, main_v8, main_v9, main_v10, main_c_1, main_v11, main_v12, main_c_2, main_v13, main_v14, main_v15, main_v16, main_v17]
set_option maxRecDepth 8192 in
set_option maxHeartbeats 2000000 in
theorem ops1_writes : (ops1 : List (HloOp τ sig (Elt F))).Forall fun op => op.writes ⊆ (ops1_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)

set_option maxRecDepth 8192 in
set_option maxHeartbeats 2000000 in

abbrev ops2 : List (HloOp τ sig (Elt F)) :=
  [ nary ![main_v8, main_v17, main_arg8] main_v18 (fun u => concatenate S500000x259 1 [⟨S500000x128, u 0⟩, ⟨S500000x128, u 1⟩, ⟨S500000x3, u 2⟩] concatenates_S500000x128_S500000x128_S500000x3_S500000x259_d1),
    binary main_v18 main_arg13 main_v19 ((fun l r => Host.dotGeneral dot_S500000x259_S259x128_S500000x128_1_0_0_1_n_n none l r) : (⟨S500000x259, .f32⟩ : BufTy).Contents (Elt F) → (⟨S259x128, .f32⟩ : BufTy).Contents (Elt F) → (⟨S500000x128, .f32⟩ : BufTy).Contents (Elt F)),
    unary main_arg14 main_v20 (broadcastInDim S1x128 ![1] bcast_S128_S1x128_1 : (⟨S128, .f32⟩ : BufTy).Contents (Elt F) → (⟨S1x128, .f32⟩ : BufTy).Contents (Elt F)),
    unary main_v20 main_v21 (broadcastInDim S500000x128 ![0, 1] bcast_S1x128_S500000x128_0_1 : (⟨S1x128, .f32⟩ : BufTy).Contents (Elt F) → (⟨S500000x128, .f32⟩ : BufTy).Contents (Elt F)),
    binary main_v19 main_v21 main_v22 (addf : (⟨S500000x128, .f32⟩ : BufTy).Contents (Elt F) → (⟨S500000x128, .f32⟩ : BufTy).Contents (Elt F) → (⟨S500000x128, .f32⟩ : BufTy).Contents (Elt F)),
    TRef.unary (TRef.of (T := ⟨S500000x128, .f32⟩) main_v22) (TRef.of (T := ⟨S500000x128, .f32⟩) main_call0_v0) Host.negf,
    TRef.unary (TRef.of (T := ⟨S500000x128, .f32⟩) main_call0_v0) (TRef.of (T := ⟨S500000x128, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S500000x128, .f32⟩) main_call0_v2) (broadcastInDim S500000x128 ![] bcast_S_S500000x128),
    TRef.binary (TRef.of (T := ⟨S500000x128, .f32⟩) main_call0_v2) (TRef.of (T := ⟨S500000x128, .f32⟩) main_call0_v1) (TRef.of (T := ⟨S500000x128, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S500000x128, .f32⟩) main_call0_v4) (broadcastInDim S500000x128 ![] bcast_S_S500000x128),
    TRef.binary (TRef.of (T := ⟨S500000x128, .f32⟩) main_call0_v4) (TRef.of (T := ⟨S500000x128, .f32⟩) main_call0_v3) (TRef.of (T := ⟨S500000x128, .f32⟩) main_call0_v5) Host.divf,
    TRef.binary (TRef.of (T := ⟨S500000x128, .f32⟩) main_v22) (TRef.of (T := ⟨S500000x128, .f32⟩) main_call0_v5) (TRef.of (T := ⟨S500000x128, .f32⟩) main_v23) mulf,
    binary main_v23 main_arg15 main_v24 ((fun l r => Host.dotGeneral dot_S500000x128_S128x1_S500000x1_1_0_0_1_n_n none l r) : (⟨S500000x128, .f32⟩ : BufTy).Contents (Elt F) → (⟨S128x1, .f32⟩ : BufTy).Contents (Elt F) → (⟨S500000x1, .f32⟩ : BufTy).Contents (Elt F)),
    unary main_arg16 main_v25 (broadcastInDim S1x1 ![1] bcast_S1_S1x1_1 : (⟨S1, .f32⟩ : BufTy).Contents (Elt F) → (⟨S1x1, .f32⟩ : BufTy).Contents (Elt F)),
    unary main_v25 main_v26 (broadcastInDim S500000x1 ![0, 1] bcast_S1x1_S500000x1_0_1 : (⟨S1x1, .f32⟩ : BufTy).Contents (Elt F) → (⟨S500000x1, .f32⟩ : BufTy).Contents (Elt F)),
    binary main_v24 main_v26 main_v27 (addf : (⟨S500000x1, .f32⟩ : BufTy).Contents (Elt F) → (⟨S500000x1, .f32⟩ : BufTy).Contents (Elt F) → (⟨S500000x1, .f32⟩ : BufTy).Contents (Elt F)),
    unary main_v27 main_v28 (Host.negf : (⟨S500000x1, .f32⟩ : BufTy).Contents (Elt F) → (⟨S500000x1, .f32⟩ : BufTy).Contents (Elt F)),
    unary main_v28 main_v29 (Host.exp : (⟨S500000x1, .f32⟩ : BufTy).Contents (Elt F) → (⟨S500000x1, .f32⟩ : BufTy).Contents (Elt F)),
    nullary main_cst (constant S_ .f32 0x3F800000#32),
    unary main_cst main_v30 (broadcastInDim S500000x1 ![] bcast_S_S500000x1 : (⟨S_, .f32⟩ : BufTy).Contents (Elt F) → (⟨S500000x1, .f32⟩ : BufTy).Contents (Elt F)),
    binary main_v30 main_v29 main_v31 (addf : (⟨S500000x1, .f32⟩ : BufTy).Contents (Elt F) → (⟨S500000x1, .f32⟩ : BufTy).Contents (Elt F) → (⟨S500000x1, .f32⟩ : BufTy).Contents (Elt F)),
    nullary main_cst_3 (constant S_ .f32 0x3F800000#32),
    unary main_cst_3 main_v32 (broadcastInDim S500000x1 ![] bcast_S_S500000x1 : (⟨S_, .f32⟩ : BufTy).Contents (Elt F) → (⟨S500000x1, .f32⟩ : BufTy).Contents (Elt F)),
    binary main_v32 main_v31 main_v33 (Host.divf : (⟨S500000x1, .f32⟩ : BufTy).Contents (Elt F) → (⟨S500000x1, .f32⟩ : BufTy).Contents (Elt F) → (⟨S500000x1, .f32⟩ : BufTy).Contents (Elt F)),
    unary main_v33 main_v34 (broadcastInDim S500000x128 ![0, 1] bcast_S500000x1_S500000x128_0_1 : (⟨S500000x1, .f32⟩ : BufTy).Contents (Elt F) → (⟨S500000x128, .f32⟩ : BufTy).Contents (Elt F)),
    binary main_v23 main_v34 main_v35 (mulf : (⟨S500000x128, .f32⟩ : BufTy).Contents (Elt F) → (⟨S500000x128, .f32⟩ : BufTy).Contents (Elt F) → (⟨S500000x128, .f32⟩ : BufTy).Contents (Elt F)),
    unary main_arg3 main_v36 ((extractStridedSlice S1x500000 ![1, 0] · slices_S2x500000_S1x500000_1_0) : (⟨S2x500000, .i32⟩ : BufTy).Contents (Elt F) → (⟨S1x500000, .i32⟩ : BufTy).Contents (Elt F)),
    reshape main_v36 main_v37 rfl shapeCasts_S1x500000_S500000,
    nullary main_cst_4 (constant S_ .f32 0x00000000#32),
    unary main_cst_4 main_v38 (broadcastInDim S100000x128 ![] bcast_S_S100000x128 : (⟨S_, .f32⟩ : BufTy).Contents (Elt F) → (⟨S100000x128, .f32⟩ : BufTy).Contents (Elt F)),
    unary main_v37 main_v39 (broadcastInDim S500000x1 ![0] bcast_S500000_S500000x1_0 : (⟨S500000, .i32⟩ : BufTy).Contents (Elt F) → (⟨S500000x1, .i32⟩ : BufTy).Contents (Elt F)),
    ternary main_v38 main_v39 main_v35 main_v40 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)) ]

set_option maxRecDepth 8192 in
set_option maxHeartbeats 2000000 in
theorem ops2_sub : ∀ op ∈ (ops2 : List (HloOp τ sig (Elt F))), op.bufs ⊆ tcRefs τ sig :=
  List.forall_iff_forall_mem.mp (show (ops2 : List (HloOp τ sig (Elt F))).Forall (fun op => op.bufs ⊆ tcRefs τ sig) from ⟨nary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., reshape_bufs_sub .., nullary_bufs_sub .., unary_bufs_sub .., unary_bufs_sub .., ternary_bufs_sub ..⟩)
set_option maxRecDepth 8192 in
set_option maxHeartbeats 2000000 in
theorem ops2_fresh : ∀ op ∈ (ops2 : List (HloOp τ sig (Elt F))), op.fresh = ∅ :=
  List.forall_iff_forall_mem.mp (show (ops2 : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

abbrev ops2_W : List (Ref sig .tc) := [main_v18, main_v19, main_v20, main_v21, main_v22, main_call0_v0, main_call0_v1, main_call0_cst, main_call0_v2, main_call0_v3, main_call0_cst_0, main_call0_v4, main_call0_v5, main_v23, main_v24, main_v25, main_v26, main_v27, main_v28, main_v29, main_cst, main_v30, main_v31, main_cst_3, main_v32, main_v33, main_v34, main_v35, main_v36, main_v37, main_cst_4, main_v38, main_v39, main_v40]
set_option maxRecDepth 8192 in
set_option maxHeartbeats 2000000 in
theorem ops2_writes : (ops2 : List (HloOp τ sig (Elt F))).Forall fun op => op.writes ⊆ (ops2_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)

set_option maxRecDepth 8192 in
set_option maxHeartbeats 2000000 in

abbrev ops3 : List (HloOp τ sig (Elt F)) :=
  [ unary main_arg4 main_v41 ((extractStridedSlice S1x300000 ![0, 0] · slices_S2x300000_S1x300000_0_0) : (⟨S2x300000, .i32⟩ : BufTy).Contents (Elt F) → (⟨S1x300000, .i32⟩ : BufTy).Contents (Elt F)),
    reshape main_v41 main_v42 rfl shapeCasts_S1x300000_S300000,
    nullary main_c_5 (constantI S_ 32 0#32),
    unary main_c_5 main_v43 (broadcastInDim S300000 ![] bcast_S_S300000 : (⟨S_, .i32⟩ : BufTy).Contents (Elt F) → (⟨S300000, .i32⟩ : BufTy).Contents (Elt F)),
    binary main_v42 main_v43 main_v44 (cmpi .slt : (⟨S300000, .i32⟩ : BufTy).Contents (Elt F) → (⟨S300000, .i32⟩ : BufTy).Contents (Elt F) → (⟨S300000, .i1⟩ : BufTy).Contents (Elt F)),
    nullary main_c_6 (constantI S_ 32 100000#32),
    unary main_c_6 main_v45 (broadcastInDim S300000 ![] bcast_S_S300000 : (⟨S_, .i32⟩ : BufTy).Contents (Elt F) → (⟨S300000, .i32⟩ : BufTy).Contents (Elt F)),
    binary main_v42 main_v45 main_v46 (addi : (⟨S300000, .i32⟩ : BufTy).Contents (Elt F) → (⟨S300000, .i32⟩ : BufTy).Contents (Elt F) → (⟨S300000, .i32⟩ : BufTy).Contents (Elt F)),
    ternary main_v44 main_v46 main_v42 main_v47 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v47 main_v48 (broadcastInDim S300000x1 ![0] bcast_S300000_S300000x1_0 : (⟨S300000, .i32⟩ : BufTy).Contents (Elt F) → (⟨S300000x1, .i32⟩ : BufTy).Contents (Elt F)),
    binary main_arg0 main_v48 main_v49 ((fun x i => Host.gather gather_S100000x128_S300000x1_S300000x128_1_0_n_n_0_1_1128 x i) : (⟨S100000x128, .f32⟩ : BufTy).Contents (Elt F) → (⟨S300000x1, .i32⟩ : BufTy).Contents (Elt F) → (⟨S300000x128, .f32⟩ : BufTy).Contents (Elt F)),
    unary main_arg4 main_v50 ((extractStridedSlice S1x300000 ![1, 0] · slices_S2x300000_S1x300000_1_0) : (⟨S2x300000, .i32⟩ : BufTy).Contents (Elt F) → (⟨S1x300000, .i32⟩ : BufTy).Contents (Elt F)) ]

set_option maxRecDepth 8192 in
set_option maxHeartbeats 2000000 in
theorem ops3_sub : ∀ op ∈ (ops3 : List (HloOp τ sig (Elt F))), op.bufs ⊆ tcRefs τ sig :=
  List.forall_iff_forall_mem.mp (show (ops3 : List (HloOp τ sig (Elt F))).Forall (fun op => op.bufs ⊆ tcRefs τ sig) from ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub ..⟩)
set_option maxRecDepth 8192 in
set_option maxHeartbeats 2000000 in
theorem ops3_fresh : ∀ op ∈ (ops3 : List (HloOp τ sig (Elt F))), op.fresh = ∅ :=
  List.forall_iff_forall_mem.mp (show (ops3 : List (HloOp τ sig (Elt F))).Forall (fun op => op.fresh = ∅) from ⟨rfl, rfl, rfl, rfl, rfl, rfl, rfl, rfl, rfl, rfl, rfl, rfl⟩)

abbrev ops3_W : List (Ref sig .tc) := [main_v41, main_v42, main_c_5, main_v43, main_v44, main_c_6, main_v45, main_v46, main_v47, main_v48, main_v49, main_v50]
set_option maxRecDepth 8192 in
set_option maxHeartbeats 2000000 in
theorem ops3_writes : (ops3 : List (HloOp τ sig (Elt F))).Forall fun op => op.writes ⊆ (ops3_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)

set_option maxRecDepth 8192 in
set_option maxHeartbeats 2000000 in

abbrev ops4 : List (HloOp τ sig (Elt F)) :=
  [ reshape main_v50 main_v51 rfl shapeCasts_S1x300000_S300000,
    nullary main_c_7 (constantI S_ 32 0#32),
    unary main_c_7 main_v52 (broadcastInDim S300000 ![] bcast_S_S300000 : (⟨S_, .i32⟩ : BufTy).Contents (Elt F) → (⟨S300000, .i32⟩ : BufTy).Contents (Elt F)),
    binary main_v51 main_v52 main_v53 (cmpi .slt : (⟨S300000, .i32⟩ : BufTy).Contents (Elt F) → (⟨S300000, .i32⟩ : BufTy).Contents (Elt F) → (⟨S300000, .i1⟩ : BufTy).Contents (Elt F)),
    nullary main_c_8 (constantI S_ 32 150000#32),
    unary main_c_8 main_v54 (broadcastInDim S300000 ![] bcast_S_S300000 : (⟨S_, .i32⟩ : BufTy).Contents (Elt F) → (⟨S300000, .i32⟩ : BufTy).Contents (Elt F)),
    binary main_v51 main_v54 main_v55 (addi : (⟨S300000, .i32⟩ : BufTy).Contents (Elt F) → (⟨S300000, .i32⟩ : BufTy).Contents (Elt F) → (⟨S300000, .i32⟩ : BufTy).Contents (Elt F)),
    ternary main_v53 main_v55 main_v51 main_v56 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v56 main_v57 (broadcastInDim S300000x1 ![0] bcast_S300000_S300000x1_0 : (⟨S300000, .i32⟩ : BufTy).Contents (Elt F) → (⟨S300000x1, .i32⟩ : BufTy).Contents (Elt F)),
    binary main_arg1 main_v57 main_v58 ((fun x i => Host.gather gather_S150000x128_S300000x1_S300000x128_1_0_n_n_0_1_1128 x i) : (⟨S150000x128, .f32⟩ : BufTy).Contents (Elt F) → (⟨S300000x1, .i32⟩ : BufTy).Contents (Elt F) → (⟨S300000x128, .f32⟩ : BufTy).Contents (Elt F)) ]

set_option maxRecDepth 8192 in
set_option maxHeartbeats 2000000 in
theorem ops4_sub : ∀ op ∈ (ops4 : List (HloOp τ sig (Elt F))), op.bufs ⊆ tcRefs τ sig :=
  List.forall_iff_forall_mem.mp (show (ops4 : List (HloOp τ sig (Elt F))).Forall (fun op => op.bufs ⊆ tcRefs τ sig) from ⟨reshape_bufs_sub .., nullary_bufs_sub .., unary_bufs_sub .., binary_bufs_sub .., nullary_bufs_sub .., unary_bufs_sub .., binary_bufs_sub .., ternary_bufs_sub .., unary_bufs_sub .., binary_bufs_sub ..⟩)
set_option maxRecDepth 8192 in
set_option maxHeartbeats 2000000 in
theorem ops4_fresh : ∀ op ∈ (ops4 : List (HloOp τ sig (Elt F))), op.fresh = ∅ :=
  List.forall_iff_forall_mem.mp (show (ops4 : List (HloOp τ sig (Elt F))).Forall (fun op => op.fresh = ∅) from ⟨rfl, rfl, rfl, rfl, rfl, rfl, rfl, rfl, rfl, rfl⟩)

abbrev ops4_W : List (Ref sig .tc) := [main_v51, main_c_7, main_v52, main_v53, main_c_8, main_v54, main_v55, main_v56, main_v57, main_v58]
set_option maxRecDepth 8192 in
set_option maxHeartbeats 2000000 in
theorem ops4_writes : (ops4 : List (HloOp τ sig (Elt F))).Forall fun op => op.writes ⊆ (ops4_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)

set_option maxRecDepth 8192 in
set_option maxHeartbeats 2000000 in

abbrev ops5 : List (HloOp τ sig (Elt F)) :=
  [ nary ![main_v49, main_v58, main_arg9] main_v59 (fun u => concatenate S300000x259 1 [⟨S300000x128, u 0⟩, ⟨S300000x128, u 1⟩, ⟨S300000x3, u 2⟩] concatenates_S300000x128_S300000x128_S300000x3_S300000x259_d1),
    binary main_v59 main_arg17 main_v60 ((fun l r => Host.dotGeneral dot_S300000x259_S259x128_S300000x128_1_0_0_1_n_n none l r) : (⟨S300000x259, .f32⟩ : BufTy).Contents (Elt F) → (⟨S259x128, .f32⟩ : BufTy).Contents (Elt F) → (⟨S300000x128, .f32⟩ : BufTy).Contents (Elt F)),
    unary main_arg18 main_v61 (broadcastInDim S1x128 ![1] bcast_S128_S1x128_1 : (⟨S128, .f32⟩ : BufTy).Contents (Elt F) → (⟨S1x128, .f32⟩ : BufTy).Contents (Elt F)),
    unary main_v61 main_v62 (broadcastInDim S300000x128 ![0, 1] bcast_S1x128_S300000x128_0_1 : (⟨S1x128, .f32⟩ : BufTy).Contents (Elt F) → (⟨S300000x128, .f32⟩ : BufTy).Contents (Elt F)),
    binary main_v60 main_v62 main_v63 (addf : (⟨S300000x128, .f32⟩ : BufTy).Contents (Elt F) → (⟨S300000x128, .f32⟩ : BufTy).Contents (Elt F) → (⟨S300000x128, .f32⟩ : BufTy).Contents (Elt F)),
    TRef.unary (TRef.of (T := ⟨S300000x128, .f32⟩) main_v63) (TRef.of (T := ⟨S300000x128, .f32⟩) main_call1_v0) Host.negf,
    TRef.unary (TRef.of (T := ⟨S300000x128, .f32⟩) main_call1_v0) (TRef.of (T := ⟨S300000x128, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S300000x128, .f32⟩) main_call1_v2) (broadcastInDim S300000x128 ![] bcast_S_S300000x128),
    TRef.binary (TRef.of (T := ⟨S300000x128, .f32⟩) main_call1_v2) (TRef.of (T := ⟨S300000x128, .f32⟩) main_call1_v1) (TRef.of (T := ⟨S300000x128, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S300000x128, .f32⟩) main_call1_v4) (broadcastInDim S300000x128 ![] bcast_S_S300000x128),
    TRef.binary (TRef.of (T := ⟨S300000x128, .f32⟩) main_call1_v4) (TRef.of (T := ⟨S300000x128, .f32⟩) main_call1_v3) (TRef.of (T := ⟨S300000x128, .f32⟩) main_call1_v5) Host.divf,
    TRef.binary (TRef.of (T := ⟨S300000x128, .f32⟩) main_v63) (TRef.of (T := ⟨S300000x128, .f32⟩) main_call1_v5) (TRef.of (T := ⟨S300000x128, .f32⟩) main_v64) mulf,
    binary main_v64 main_arg19 main_v65 ((fun l r => Host.dotGeneral dot_S300000x128_S128x1_S300000x1_1_0_0_1_n_n none l r) : (⟨S300000x128, .f32⟩ : BufTy).Contents (Elt F) → (⟨S128x1, .f32⟩ : BufTy).Contents (Elt F) → (⟨S300000x1, .f32⟩ : BufTy).Contents (Elt F)),
    unary main_arg20 main_v66 (broadcastInDim S1x1 ![1] bcast_S1_S1x1_1 : (⟨S1, .f32⟩ : BufTy).Contents (Elt F) → (⟨S1x1, .f32⟩ : BufTy).Contents (Elt F)),
    unary main_v66 main_v67 (broadcastInDim S300000x1 ![0, 1] bcast_S1x1_S300000x1_0_1 : (⟨S1x1, .f32⟩ : BufTy).Contents (Elt F) → (⟨S300000x1, .f32⟩ : BufTy).Contents (Elt F)),
    binary main_v65 main_v67 main_v68 (addf : (⟨S300000x1, .f32⟩ : BufTy).Contents (Elt F) → (⟨S300000x1, .f32⟩ : BufTy).Contents (Elt F) → (⟨S300000x1, .f32⟩ : BufTy).Contents (Elt F)),
    unary main_v68 main_v69 (Host.negf : (⟨S300000x1, .f32⟩ : BufTy).Contents (Elt F) → (⟨S300000x1, .f32⟩ : BufTy).Contents (Elt F)),
    unary main_v69 main_v70 (Host.exp : (⟨S300000x1, .f32⟩ : BufTy).Contents (Elt F) → (⟨S300000x1, .f32⟩ : BufTy).Contents (Elt F)),
    nullary main_cst_9 (constant S_ .f32 0x3F800000#32),
    unary main_cst_9 main_v71 (broadcastInDim S300000x1 ![] bcast_S_S300000x1 : (⟨S_, .f32⟩ : BufTy).Contents (Elt F) → (⟨S300000x1, .f32⟩ : BufTy).Contents (Elt F)),
    binary main_v71 main_v70 main_v72 (addf : (⟨S300000x1, .f32⟩ : BufTy).Contents (Elt F) → (⟨S300000x1, .f32⟩ : BufTy).Contents (Elt F) → (⟨S300000x1, .f32⟩ : BufTy).Contents (Elt F)),
    nullary main_cst_10 (constant S_ .f32 0x3F800000#32),
    unary main_cst_10 main_v73 (broadcastInDim S300000x1 ![] bcast_S_S300000x1 : (⟨S_, .f32⟩ : BufTy).Contents (Elt F) → (⟨S300000x1, .f32⟩ : BufTy).Contents (Elt F)),
    binary main_v73 main_v72 main_v74 (Host.divf : (⟨S300000x1, .f32⟩ : BufTy).Contents (Elt F) → (⟨S300000x1, .f32⟩ : BufTy).Contents (Elt F) → (⟨S300000x1, .f32⟩ : BufTy).Contents (Elt F)),
    unary main_v74 main_v75 (broadcastInDim S300000x128 ![0, 1] bcast_S300000x1_S300000x128_0_1 : (⟨S300000x1, .f32⟩ : BufTy).Contents (Elt F) → (⟨S300000x128, .f32⟩ : BufTy).Contents (Elt F)),
    binary main_v64 main_v75 main_v76 (mulf : (⟨S300000x128, .f32⟩ : BufTy).Contents (Elt F) → (⟨S300000x128, .f32⟩ : BufTy).Contents (Elt F) → (⟨S300000x128, .f32⟩ : BufTy).Contents (Elt F)),
    unary main_arg4 main_v77 ((extractStridedSlice S1x300000 ![1, 0] · slices_S2x300000_S1x300000_1_0) : (⟨S2x300000, .i32⟩ : BufTy).Contents (Elt F) → (⟨S1x300000, .i32⟩ : BufTy).Contents (Elt F)),
    reshape main_v77 main_v78 rfl shapeCasts_S1x300000_S300000,
    nullary main_cst_11 (constant S_ .f32 0x00000000#32),
    unary main_cst_11 main_v79 (broadcastInDim S150000x128 ![] bcast_S_S150000x128 : (⟨S_, .f32⟩ : BufTy).Contents (Elt F) → (⟨S150000x128, .f32⟩ : BufTy).Contents (Elt F)),
    unary main_v78 main_v80 (broadcastInDim S300000x1 ![0] bcast_S300000_S300000x1_0 : (⟨S300000, .i32⟩ : BufTy).Contents (Elt F) → (⟨S300000x1, .i32⟩ : BufTy).Contents (Elt F)),
    ternary main_v79 main_v80 main_v76 main_v81 ((fun x i u => Host.scatterAdd scatter_S150000x128_S300000x1_S300000x128_1_0_0_1 x i u) : (⟨S150000x128, .f32⟩ : BufTy).Contents (Elt F) → (⟨S300000x1, .i32⟩ : BufTy).Contents (Elt F) → (⟨S300000x128, .f32⟩ : BufTy).Contents (Elt F) → (⟨S150000x128, .f32⟩ : BufTy).Contents (Elt F)) ]

set_option maxRecDepth 8192 in
set_option maxHeartbeats 2000000 in
theorem ops5_sub : ∀ op ∈ (ops5 : List (HloOp τ sig (Elt F))), op.bufs ⊆ tcRefs τ sig :=
  List.forall_iff_forall_mem.mp (show (ops5 : List (HloOp τ sig (Elt F))).Forall (fun op => op.bufs ⊆ tcRefs τ sig) from ⟨nary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., reshape_bufs_sub .., nullary_bufs_sub .., unary_bufs_sub .., unary_bufs_sub .., ternary_bufs_sub ..⟩)
set_option maxRecDepth 8192 in
set_option maxHeartbeats 2000000 in
theorem ops5_fresh : ∀ op ∈ (ops5 : List (HloOp τ sig (Elt F))), op.fresh = ∅ :=
  List.forall_iff_forall_mem.mp (show (ops5 : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

abbrev ops5_W : List (Ref sig .tc) := [main_v59, main_v60, main_v61, main_v62, main_v63, main_call1_v0, main_call1_v1, main_call1_cst, main_call1_v2, main_call1_v3, main_call1_cst_0, main_call1_v4, main_call1_v5, main_v64, main_v65, main_v66, main_v67, main_v68, main_v69, main_v70, main_cst_9, main_v71, main_v72, main_cst_10, main_v73, main_v74, main_v75, main_v76, main_v77, main_v78, main_cst_11, main_v79, main_v80, main_v81]
set_option maxRecDepth 8192 in
set_option maxHeartbeats 2000000 in
theorem ops5_writes : (ops5 : List (HloOp τ sig (Elt F))).Forall fun op => op.writes ⊆ (ops5_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)

set_option maxRecDepth 8192 in
set_option maxHeartbeats 2000000 in

abbrev ops6 : List (HloOp τ sig (Elt F)) :=
  [ unary main_arg5 main_v82 ((extractStridedSlice S1x300000 ![0, 0] · slices_S2x300000_S1x300000_0_0) : (⟨S2x300000, .i32⟩ : BufTy).Contents (Elt F) → (⟨S1x300000, .i32⟩ : BufTy).Contents (Elt F)),
    reshape main_v82 main_v83 rfl shapeCasts_S1x300000_S300000,
    nullary main_c_12 (constantI S_ 32 0#32),
    unary main_c_12 main_v84 (broadcastInDim S300000 ![] bcast_S_S300000 : (⟨S_, .i32⟩ : BufTy).Contents (Elt F) → (⟨S300000, .i32⟩ : BufTy).Contents (Elt F)),
    binary main_v83 main_v84 main_v85 (cmpi .slt : (⟨S300000, .i32⟩ : BufTy).Contents (Elt F) → (⟨S300000, .i32⟩ : BufTy).Contents (Elt F) → (⟨S300000, .i1⟩ : BufTy).Contents (Elt F)),
    nullary main_c_13 (constantI S_ 32 150000#32),
    unary main_c_13 main_v86 (broadcastInDim S300000 ![] bcast_S_S300000 : (⟨S_, .i32⟩ : BufTy).Contents (Elt F) → (⟨S300000, .i32⟩ : BufTy).Contents (Elt F)),
    binary main_v83 main_v86 main_v87 (addi : (⟨S300000, .i32⟩ : BufTy).Contents (Elt F) → (⟨S300000, .i32⟩ : BufTy).Contents (Elt F) → (⟨S300000, .i32⟩ : BufTy).Contents (Elt F)),
    ternary main_v85 main_v87 main_v83 main_v88 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v88 main_v89 (broadcastInDim S300000x1 ![0] bcast_S300000_S300000x1_0 : (⟨S300000, .i32⟩ : BufTy).Contents (Elt F) → (⟨S300000x1, .i32⟩ : BufTy).Contents (Elt F)),
    binary main_arg1 main_v89 main_v90 ((fun x i => Host.gather gather_S150000x128_S300000x1_S300000x128_1_0_n_n_0_1_1128 x i) : (⟨S150000x128, .f32⟩ : BufTy).Contents (Elt F) → (⟨S300000x1, .i32⟩ : BufTy).Contents (Elt F) → (⟨S300000x128, .f32⟩ : BufTy).Contents (Elt F)),
    unary main_arg5 main_v91 ((extractStridedSlice S1x300000 ![1, 0] · slices_S2x300000_S1x300000_1_0) : (⟨S2x300000, .i32⟩ : BufTy).Contents (Elt F) → (⟨S1x300000, .i32⟩ : BufTy).Contents (Elt F)),
    reshape main_v91 main_v92 rfl shapeCasts_S1x300000_S300000,
    nullary main_c_14 (constantI S_ 32 0#32),
    unary main_c_14 main_v93 (broadcastInDim S300000 ![] bcast_S_S300000 : (⟨S_, .i32⟩ : BufTy).Contents (Elt F) → (⟨S300000, .i32⟩ : BufTy).Contents (Elt F)),
    binary main_v92 main_v93 main_v94 (cmpi .slt : (⟨S300000, .i32⟩ : BufTy).Contents (Elt F) → (⟨S300000, .i32⟩ : BufTy).Contents (Elt F) → (⟨S300000, .i1⟩ : BufTy).Contents (Elt F)),
    nullary main_c_15 (constantI S_ 32 150000#32),
    unary main_c_15 main_v95 (broadcastInDim S300000 ![] bcast_S_S300000 : (⟨S_, .i32⟩ : BufTy).Contents (Elt F) → (⟨S300000, .i32⟩ : BufTy).Contents (Elt F)),
    binary main_v92 main_v95 main_v96 (addi : (⟨S300000, .i32⟩ : BufTy).Contents (Elt F) → (⟨S300000, .i32⟩ : BufTy).Contents (Elt F) → (⟨S300000, .i32⟩ : BufTy).Contents (Elt F)),
    ternary main_v94 main_v96 main_v92 main_v97 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v97 main_v98 (broadcastInDim S300000x1 ![0] bcast_S300000_S300000x1_0 : (⟨S300000, .i32⟩ : BufTy).Contents (Elt F) → (⟨S300000x1, .i32⟩ : BufTy).Contents (Elt F)),
    binary main_arg1 main_v98 main_v99 ((fun x i => Host.gather gather_S150000x128_S300000x1_S300000x128_1_0_n_n_0_1_1128 x i) : (⟨S150000x128, .f32⟩ : BufTy).Contents (Elt F) → (⟨S300000x1, .i32⟩ : BufTy).Contents (Elt F) → (⟨S300000x128, .f32⟩ : BufTy).Contents (Elt F)) ]

set_option maxRecDepth 8192 in
set_option maxHeartbeats 2000000 in
theorem ops6_sub : ∀ op ∈ (ops6 : List (HloOp τ sig (Elt F))), op.bufs ⊆ tcRefs τ sig :=
  List.forall_iff_forall_mem.mp (show (ops6 : List (HloOp τ sig (Elt F))).Forall (fun op => op.bufs ⊆ tcRefs τ sig) from ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩)
set_option maxRecDepth 8192 in
set_option maxHeartbeats 2000000 in
theorem ops6_fresh : ∀ op ∈ (ops6 : List (HloOp τ sig (Elt F))), op.fresh = ∅ :=
  List.forall_iff_forall_mem.mp (show (ops6 : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl⟩)

abbrev ops6_W : List (Ref sig .tc) := [main_v82, main_v83, main_c_12, main_v84, main_v85, main_c_13, main_v86, main_v87, main_v88, main_v89, main_v90, main_v91, main_v92, main_c_14, main_v93, main_v94, main_c_15, main_v95, main_v96, main_v97, main_v98, main_v99]
set_option maxRecDepth 8192 in
set_option maxHeartbeats 2000000 in
theorem ops6_writes : (ops6 : List (HloOp τ sig (Elt F))).Forall fun op => op.writes ⊆ (ops6_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)

set_option maxRecDepth 8192 in
set_option maxHeartbeats 2000000 in

abbrev ops7 : List (HloOp τ sig (Elt F)) :=
  [ nary ![main_v90, main_v99, main_arg10] main_v100 (fun u => concatenate S300000x259 1 [⟨S300000x128, u 0⟩, ⟨S300000x128, u 1⟩, ⟨S300000x3, u 2⟩] concatenates_S300000x128_S300000x128_S300000x3_S300000x259_d1),
    binary main_v100 main_arg21 main_v101 ((fun l r => Host.dotGeneral dot_S300000x259_S259x128_S300000x128_1_0_0_1_n_n none l r) : (⟨S300000x259, .f32⟩ : BufTy).Contents (Elt F) → (⟨S259x128, .f32⟩ : BufTy).Contents (Elt F) → (⟨S300000x128, .f32⟩ : BufTy).Contents (Elt F)) ]

set_option maxRecDepth 8192 in
set_option maxHeartbeats 2000000 in
theorem ops7_sub : ∀ op ∈ (ops7 : List (HloOp τ sig (Elt F))), op.bufs ⊆ tcRefs τ sig :=
  List.forall_iff_forall_mem.mp (show (ops7 : List (HloOp τ sig (Elt F))).Forall (fun op => op.bufs ⊆ tcRefs τ sig) from ⟨nary_bufs_sub .., binary_bufs_sub ..⟩)
set_option maxRecDepth 8192 in
set_option maxHeartbeats 2000000 in
theorem ops7_fresh : ∀ op ∈ (ops7 : List (HloOp τ sig (Elt F))), op.fresh = ∅ :=
  List.forall_iff_forall_mem.mp (show (ops7 : List (HloOp τ sig (Elt F))).Forall (fun op => op.fresh = ∅) from ⟨rfl, rfl⟩)

abbrev ops7_W : List (Ref sig .tc) := [main_v100, main_v101]
set_option maxRecDepth 8192 in
set_option maxHeartbeats 2000000 in
theorem ops7_writes : (ops7 : List (HloOp τ sig (Elt F))).Forall fun op => op.writes ⊆ (ops7_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)

set_option maxRecDepth 8192 in
set_option maxHeartbeats 2000000 in

abbrev ops8 : List (HloOp τ sig (Elt F)) :=
  [ unary main_arg22 main_v102 (broadcastInDim S1x128 ![1] bcast_S128_S1x128_1 : (⟨S128, .f32⟩ : BufTy).Contents (Elt F) → (⟨S1x128, .f32⟩ : BufTy).Contents (Elt F)),
    unary main_v102 main_v103 (broadcastInDim S300000x128 ![0, 1] bcast_S1x128_S300000x128_0_1 : (⟨S1x128, .f32⟩ : BufTy).Contents (Elt F) → (⟨S300000x128, .f32⟩ : BufTy).Contents (Elt F)),
    binary main_v101 main_v103 main_v104 (addf : (⟨S300000x128, .f32⟩ : BufTy).Contents (Elt F) → (⟨S300000x128, .f32⟩ : BufTy).Contents (Elt F) → (⟨S300000x128, .f32⟩ : BufTy).Contents (Elt F)),
    TRef.unary (TRef.of (T := ⟨S300000x128, .f32⟩) main_v104) (TRef.of (T := ⟨S300000x128, .f32⟩) main_call2_v0) Host.negf,
    TRef.unary (TRef.of (T := ⟨S300000x128, .f32⟩) main_call2_v0) (TRef.of (T := ⟨S300000x128, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S300000x128, .f32⟩) main_call2_v2) (broadcastInDim S300000x128 ![] bcast_S_S300000x128),
    TRef.binary (TRef.of (T := ⟨S300000x128, .f32⟩) main_call2_v2) (TRef.of (T := ⟨S300000x128, .f32⟩) main_call2_v1) (TRef.of (T := ⟨S300000x128, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S300000x128, .f32⟩) main_call2_v4) (broadcastInDim S300000x128 ![] bcast_S_S300000x128),
    TRef.binary (TRef.of (T := ⟨S300000x128, .f32⟩) main_call2_v4) (TRef.of (T := ⟨S300000x128, .f32⟩) main_call2_v3) (TRef.of (T := ⟨S300000x128, .f32⟩) main_call2_v5) Host.divf,
    TRef.binary (TRef.of (T := ⟨S300000x128, .f32⟩) main_v104) (TRef.of (T := ⟨S300000x128, .f32⟩) main_call2_v5) (TRef.of (T := ⟨S300000x128, .f32⟩) main_v105) mulf,
    binary main_v105 main_arg23 main_v106 ((fun l r => Host.dotGeneral dot_S300000x128_S128x1_S300000x1_1_0_0_1_n_n none l r) : (⟨S300000x128, .f32⟩ : BufTy).Contents (Elt F) → (⟨S128x1, .f32⟩ : BufTy).Contents (Elt F) → (⟨S300000x1, .f32⟩ : BufTy).Contents (Elt F)),
    unary main_arg24 main_v107 (broadcastInDim S1x1 ![1] bcast_S1_S1x1_1 : (⟨S1, .f32⟩ : BufTy).Contents (Elt F) → (⟨S1x1, .f32⟩ : BufTy).Contents (Elt F)),
    unary main_v107 main_v108 (broadcastInDim S300000x1 ![0, 1] bcast_S1x1_S300000x1_0_1 : (⟨S1x1, .f32⟩ : BufTy).Contents (Elt F) → (⟨S300000x1, .f32⟩ : BufTy).Contents (Elt F)),
    binary main_v106 main_v108 main_v109 (addf : (⟨S300000x1, .f32⟩ : BufTy).Contents (Elt F) → (⟨S300000x1, .f32⟩ : BufTy).Contents (Elt F) → (⟨S300000x1, .f32⟩ : BufTy).Contents (Elt F)),
    unary main_v109 main_v110 (Host.negf : (⟨S300000x1, .f32⟩ : BufTy).Contents (Elt F) → (⟨S300000x1, .f32⟩ : BufTy).Contents (Elt F)),
    unary main_v110 main_v111 (Host.exp : (⟨S300000x1, .f32⟩ : BufTy).Contents (Elt F) → (⟨S300000x1, .f32⟩ : BufTy).Contents (Elt F)),
    nullary main_cst_16 (constant S_ .f32 0x3F800000#32),
    unary main_cst_16 main_v112 (broadcastInDim S300000x1 ![] bcast_S_S300000x1 : (⟨S_, .f32⟩ : BufTy).Contents (Elt F) → (⟨S300000x1, .f32⟩ : BufTy).Contents (Elt F)),
    binary main_v112 main_v111 main_v113 (addf : (⟨S300000x1, .f32⟩ : BufTy).Contents (Elt F) → (⟨S300000x1, .f32⟩ : BufTy).Contents (Elt F) → (⟨S300000x1, .f32⟩ : BufTy).Contents (Elt F)),
    nullary main_cst_17 (constant S_ .f32 0x3F800000#32),
    unary main_cst_17 main_v114 (broadcastInDim S300000x1 ![] bcast_S_S300000x1 : (⟨S_, .f32⟩ : BufTy).Contents (Elt F) → (⟨S300000x1, .f32⟩ : BufTy).Contents (Elt F)),
    binary main_v114 main_v113 main_v115 (Host.divf : (⟨S300000x1, .f32⟩ : BufTy).Contents (Elt F) → (⟨S300000x1, .f32⟩ : BufTy).Contents (Elt F) → (⟨S300000x1, .f32⟩ : BufTy).Contents (Elt F)),
    unary main_v115 main_v116 (broadcastInDim S300000x128 ![0, 1] bcast_S300000x1_S300000x128_0_1 : (⟨S300000x1, .f32⟩ : BufTy).Contents (Elt F) → (⟨S300000x128, .f32⟩ : BufTy).Contents (Elt F)),
    binary main_v105 main_v116 main_v117 (mulf : (⟨S300000x128, .f32⟩ : BufTy).Contents (Elt F) → (⟨S300000x128, .f32⟩ : BufTy).Contents (Elt F) → (⟨S300000x128, .f32⟩ : BufTy).Contents (Elt F)),
    unary main_arg5 main_v118 ((extractStridedSlice S1x300000 ![1, 0] · slices_S2x300000_S1x300000_1_0) : (⟨S2x300000, .i32⟩ : BufTy).Contents (Elt F) → (⟨S1x300000, .i32⟩ : BufTy).Contents (Elt F)),
    reshape main_v118 main_v119 rfl shapeCasts_S1x300000_S300000,
    nullary main_cst_18 (constant S_ .f32 0x00000000#32),
    unary main_cst_18 main_v120 (broadcastInDim S150000x128 ![] bcast_S_S150000x128 : (⟨S_, .f32⟩ : BufTy).Contents (Elt F) → (⟨S150000x128, .f32⟩ : BufTy).Contents (Elt F)),
    unary main_v119 main_v121 (broadcastInDim S300000x1 ![0] bcast_S300000_S300000x1_0 : (⟨S300000, .i32⟩ : BufTy).Contents (Elt F) → (⟨S300000x1, .i32⟩ : BufTy).Contents (Elt F)),
    ternary main_v120 main_v121 main_v117 main_v122 ((fun x i u => Host.scatterAdd scatter_S150000x128_S300000x1_S300000x128_1_0_0_1 x i u) : (⟨S150000x128, .f32⟩ : BufTy).Contents (Elt F) → (⟨S300000x1, .i32⟩ : BufTy).Contents (Elt F) → (⟨S300000x128, .f32⟩ : BufTy).Contents (Elt F) → (⟨S150000x128, .f32⟩ : BufTy).Contents (Elt F)) ]

set_option maxRecDepth 8192 in
set_option maxHeartbeats 2000000 in
theorem ops8_sub : ∀ op ∈ (ops8 : List (HloOp τ sig (Elt F))), op.bufs ⊆ tcRefs τ sig :=
  List.forall_iff_forall_mem.mp (show (ops8 : List (HloOp τ sig (Elt F))).Forall (fun op => op.bufs ⊆ tcRefs τ sig) from ⟨unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., reshape_bufs_sub .., nullary_bufs_sub .., unary_bufs_sub .., unary_bufs_sub .., ternary_bufs_sub ..⟩)
set_option maxRecDepth 8192 in
set_option maxHeartbeats 2000000 in
theorem ops8_fresh : ∀ op ∈ (ops8 : List (HloOp τ sig (Elt F))), op.fresh = ∅ :=
  List.forall_iff_forall_mem.mp (show (ops8 : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

abbrev ops8_W : List (Ref sig .tc) := [main_v102, main_v103, main_v104, main_call2_v0, main_call2_v1, main_call2_cst, main_call2_v2, main_call2_v3, main_call2_cst_0, main_call2_v4, main_call2_v5, main_v105, main_v106, main_v107, main_v108, main_v109, main_v110, main_v111, main_cst_16, main_v112, main_v113, main_cst_17, main_v114, main_v115, main_v116, main_v117, main_v118, main_v119, main_cst_18, main_v120, main_v121, main_v122]
set_option maxRecDepth 8192 in
set_option maxHeartbeats 2000000 in
theorem ops8_writes : (ops8 : List (HloOp τ sig (Elt F))).Forall fun op => op.writes ⊆ (ops8_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)

set_option maxRecDepth 8192 in
set_option maxHeartbeats 2000000 in

abbrev ops9 : List (HloOp τ sig (Elt F)) :=
  [ unary main_arg6 main_v123 ((extractStridedSlice S1x200000 ![0, 0] · slices_S2x200000_S1x200000_0_0) : (⟨S2x200000, .i32⟩ : BufTy).Contents (Elt F) → (⟨S1x200000, .i32⟩ : BufTy).Contents (Elt F)),
    reshape main_v123 main_v124 rfl shapeCasts_S1x200000_S200000,
    nullary main_c_19 (constantI S_ 32 0#32),
    unary main_c_19 main_v125 (broadcastInDim S200000 ![] bcast_S_S200000 : (⟨S_, .i32⟩ : BufTy).Contents (Elt F) → (⟨S200000, .i32⟩ : BufTy).Contents (Elt F)),
    binary main_v124 main_v125 main_v126 (cmpi .slt : (⟨S200000, .i32⟩ : BufTy).Contents (Elt F) → (⟨S200000, .i32⟩ : BufTy).Contents (Elt F) → (⟨S200000, .i1⟩ : BufTy).Contents (Elt F)),
    nullary main_c_20 (constantI S_ 32 150000#32),
    unary main_c_20 main_v127 (broadcastInDim S200000 ![] bcast_S_S200000 : (⟨S_, .i32⟩ : BufTy).Contents (Elt F) → (⟨S200000, .i32⟩ : BufTy).Contents (Elt F)),
    binary main_v124 main_v127 main_v128 (addi : (⟨S200000, .i32⟩ : BufTy).Contents (Elt F) → (⟨S200000, .i32⟩ : BufTy).Contents (Elt F) → (⟨S200000, .i32⟩ : BufTy).Contents (Elt F)),
    ternary main_v126 main_v128 main_v124 main_v129 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v129 main_v130 (broadcastInDim S200000x1 ![0] bcast_S200000_S200000x1_0 : (⟨S200000, .i32⟩ : BufTy).Contents (Elt F) → (⟨S200000x1, .i32⟩ : BufTy).Contents (Elt F)),
    binary main_arg1 main_v130 main_v131 ((fun x i => Host.gather gather_S150000x128_S200000x1_S200000x128_1_0_n_n_0_1_1128 x i) : (⟨S150000x128, .f32⟩ : BufTy).Contents (Elt F) → (⟨S200000x1, .i32⟩ : BufTy).Contents (Elt F) → (⟨S200000x128, .f32⟩ : BufTy).Contents (Elt F)),
    unary main_arg6 main_v132 ((extractStridedSlice S1x200000 ![1, 0] · slices_S2x200000_S1x200000_1_0) : (⟨S2x200000, .i32⟩ : BufTy).Contents (Elt F) → (⟨S1x200000, .i32⟩ : BufTy).Contents (Elt F)),
    reshape main_v132 main_v133 rfl shapeCasts_S1x200000_S200000,
    nullary main_c_21 (constantI S_ 32 0#32),
    unary main_c_21 main_v134 (broadcastInDim S200000 ![] bcast_S_S200000 : (⟨S_, .i32⟩ : BufTy).Contents (Elt F) → (⟨S200000, .i32⟩ : BufTy).Contents (Elt F)),
    binary main_v133 main_v134 main_v135 (cmpi .slt : (⟨S200000, .i32⟩ : BufTy).Contents (Elt F) → (⟨S200000, .i32⟩ : BufTy).Contents (Elt F) → (⟨S200000, .i1⟩ : BufTy).Contents (Elt F)),
    nullary main_c_22 (constantI S_ 32 80000#32),
    unary main_c_22 main_v136 (broadcastInDim S200000 ![] bcast_S_S200000 : (⟨S_, .i32⟩ : BufTy).Contents (Elt F) → (⟨S200000, .i32⟩ : BufTy).Contents (Elt F)),
    binary main_v133 main_v136 main_v137 (addi : (⟨S200000, .i32⟩ : BufTy).Contents (Elt F) → (⟨S200000, .i32⟩ : BufTy).Contents (Elt F) → (⟨S200000, .i32⟩ : BufTy).Contents (Elt F)),
    ternary main_v135 main_v137 main_v133 main_v138 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v138 main_v139 (broadcastInDim S200000x1 ![0] bcast_S200000_S200000x1_0 : (⟨S200000, .i32⟩ : BufTy).Contents (Elt F) → (⟨S200000x1, .i32⟩ : BufTy).Contents (Elt F)),
    binary main_arg2 main_v139 main_v140 ((fun x i => Host.gather gather_S80000x128_S200000x1_S200000x128_1_0_n_n_0_1_1128 x i) : (⟨S80000x128, .f32⟩ : BufTy).Contents (Elt F) → (⟨S200000x1, .i32⟩ : BufTy).Contents (Elt F) → (⟨S200000x128, .f32⟩ : BufTy).Contents (Elt F)) ]

set_option maxRecDepth 8192 in
set_option maxHeartbeats 2000000 in
theorem ops9_sub : ∀ op ∈ (ops9 : List (HloOp τ sig (Elt F))), op.bufs ⊆ tcRefs τ sig :=
  List.forall_iff_forall_mem.mp (show (ops9 : List (HloOp τ sig (Elt F))).Forall (fun op => op.bufs ⊆ tcRefs τ sig) from ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩)
set_option maxRecDepth 8192 in
set_option maxHeartbeats 2000000 in
theorem ops9_fresh : ∀ op ∈ (ops9 : List (HloOp τ sig (Elt F))), op.fresh = ∅ :=
  List.forall_iff_forall_mem.mp (show (ops9 : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl⟩)

abbrev ops9_W : List (Ref sig .tc) := [main_v123, main_v124, main_c_19, main_v125, main_v126, main_c_20, main_v127, main_v128, main_v129, main_v130, main_v131, main_v132, main_v133, main_c_21, main_v134, main_v135, main_c_22, main_v136, main_v137, main_v138, main_v139, main_v140]
set_option maxRecDepth 8192 in
set_option maxHeartbeats 2000000 in
theorem ops9_writes : (ops9 : List (HloOp τ sig (Elt F))).Forall fun op => op.writes ⊆ (ops9_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)

set_option maxRecDepth 8192 in
set_option maxHeartbeats 2000000 in

abbrev ops10 : List (HloOp τ sig (Elt F)) :=
  [ nary ![main_v131, main_v140, main_arg11] main_v141 (fun u => concatenate S200000x259 1 [⟨S200000x128, u 0⟩, ⟨S200000x128, u 1⟩, ⟨S200000x3, u 2⟩] concatenates_S200000x128_S200000x128_S200000x3_S200000x259_d1),
    binary main_v141 main_arg25 main_v142 ((fun l r => Host.dotGeneral dot_S200000x259_S259x128_S200000x128_1_0_0_1_n_n none l r) : (⟨S200000x259, .f32⟩ : BufTy).Contents (Elt F) → (⟨S259x128, .f32⟩ : BufTy).Contents (Elt F) → (⟨S200000x128, .f32⟩ : BufTy).Contents (Elt F)),
    unary main_arg26 main_v143 (broadcastInDim S1x128 ![1] bcast_S128_S1x128_1 : (⟨S128, .f32⟩ : BufTy).Contents (Elt F) → (⟨S1x128, .f32⟩ : BufTy).Contents (Elt F)),
    unary main_v143 main_v144 (broadcastInDim S200000x128 ![0, 1] bcast_S1x128_S200000x128_0_1 : (⟨S1x128, .f32⟩ : BufTy).Contents (Elt F) → (⟨S200000x128, .f32⟩ : BufTy).Contents (Elt F)),
    binary main_v142 main_v144 main_v145 (addf : (⟨S200000x128, .f32⟩ : BufTy).Contents (Elt F) → (⟨S200000x128, .f32⟩ : BufTy).Contents (Elt F) → (⟨S200000x128, .f32⟩ : BufTy).Contents (Elt F)),
    TRef.unary (TRef.of (T := ⟨S200000x128, .f32⟩) main_v145) (TRef.of (T := ⟨S200000x128, .f32⟩) main_call3_v0) Host.negf,
    TRef.unary (TRef.of (T := ⟨S200000x128, .f32⟩) main_call3_v0) (TRef.of (T := ⟨S200000x128, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S200000x128, .f32⟩) main_call3_v2) (broadcastInDim S200000x128 ![] bcast_S_S200000x128),
    TRef.binary (TRef.of (T := ⟨S200000x128, .f32⟩) main_call3_v2) (TRef.of (T := ⟨S200000x128, .f32⟩) main_call3_v1) (TRef.of (T := ⟨S200000x128, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S200000x128, .f32⟩) main_call3_v4) (broadcastInDim S200000x128 ![] bcast_S_S200000x128),
    TRef.binary (TRef.of (T := ⟨S200000x128, .f32⟩) main_call3_v4) (TRef.of (T := ⟨S200000x128, .f32⟩) main_call3_v3) (TRef.of (T := ⟨S200000x128, .f32⟩) main_call3_v5) Host.divf,
    TRef.binary (TRef.of (T := ⟨S200000x128, .f32⟩) main_v145) (TRef.of (T := ⟨S200000x128, .f32⟩) main_call3_v5) (TRef.of (T := ⟨S200000x128, .f32⟩) main_v146) mulf,
    binary main_v146 main_arg27 main_v147 ((fun l r => Host.dotGeneral dot_S200000x128_S128x1_S200000x1_1_0_0_1_n_n none l r) : (⟨S200000x128, .f32⟩ : BufTy).Contents (Elt F) → (⟨S128x1, .f32⟩ : BufTy).Contents (Elt F) → (⟨S200000x1, .f32⟩ : BufTy).Contents (Elt F)),
    unary main_arg28 main_v148 (broadcastInDim S1x1 ![1] bcast_S1_S1x1_1 : (⟨S1, .f32⟩ : BufTy).Contents (Elt F) → (⟨S1x1, .f32⟩ : BufTy).Contents (Elt F)),
    unary main_v148 main_v149 (broadcastInDim S200000x1 ![0, 1] bcast_S1x1_S200000x1_0_1 : (⟨S1x1, .f32⟩ : BufTy).Contents (Elt F) → (⟨S200000x1, .f32⟩ : BufTy).Contents (Elt F)),
    binary main_v147 main_v149 main_v150 (addf : (⟨S200000x1, .f32⟩ : BufTy).Contents (Elt F) → (⟨S200000x1, .f32⟩ : BufTy).Contents (Elt F) → (⟨S200000x1, .f32⟩ : BufTy).Contents (Elt F)),
    unary main_v150 main_v151 (Host.negf : (⟨S200000x1, .f32⟩ : BufTy).Contents (Elt F) → (⟨S200000x1, .f32⟩ : BufTy).Contents (Elt F)),
    unary main_v151 main_v152 (Host.exp : (⟨S200000x1, .f32⟩ : BufTy).Contents (Elt F) → (⟨S200000x1, .f32⟩ : BufTy).Contents (Elt F)),
    nullary main_cst_23 (constant S_ .f32 0x3F800000#32),
    unary main_cst_23 main_v153 (broadcastInDim S200000x1 ![] bcast_S_S200000x1 : (⟨S_, .f32⟩ : BufTy).Contents (Elt F) → (⟨S200000x1, .f32⟩ : BufTy).Contents (Elt F)) ]

set_option maxRecDepth 8192 in
set_option maxHeartbeats 2000000 in
theorem ops10_sub : ∀ op ∈ (ops10 : List (HloOp τ sig (Elt F))), op.bufs ⊆ tcRefs τ sig :=
  List.forall_iff_forall_mem.mp (show (ops10 : List (HloOp τ sig (Elt F))).Forall (fun op => op.bufs ⊆ tcRefs τ sig) from ⟨nary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub ..⟩)
set_option maxRecDepth 8192 in
set_option maxHeartbeats 2000000 in
theorem ops10_fresh : ∀ op ∈ (ops10 : List (HloOp τ sig (Elt F))), op.fresh = ∅ :=
  List.forall_iff_forall_mem.mp (show (ops10 : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl⟩)

abbrev ops10_W : List (Ref sig .tc) := [main_v141, main_v142, main_v143, main_v144, main_v145, main_call3_v0, main_call3_v1, main_call3_cst, main_call3_v2, main_call3_v3, main_call3_cst_0, main_call3_v4, main_call3_v5, main_v146, main_v147, main_v148, main_v149, main_v150, main_v151, main_v152, main_cst_23, main_v153]
set_option maxRecDepth 8192 in
set_option maxHeartbeats 2000000 in
theorem ops10_writes : (ops10 : List (HloOp τ sig (Elt F))).Forall fun op => op.writes ⊆ (ops10_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)

set_option maxRecDepth 8192 in
set_option maxHeartbeats 2000000 in

abbrev ops11 : List (HloOp τ sig (Elt F)) :=
  [ binary main_v153 main_v152 main_v154 (addf : (⟨S200000x1, .f32⟩ : BufTy).Contents (Elt F) → (⟨S200000x1, .f32⟩ : BufTy).Contents (Elt F) → (⟨S200000x1, .f32⟩ : BufTy).Contents (Elt F)),
    nullary main_cst_24 (constant S_ .f32 0x3F800000#32),
    unary main_cst_24 main_v155 (broadcastInDim S200000x1 ![] bcast_S_S200000x1 : (⟨S_, .f32⟩ : BufTy).Contents (Elt F) → (⟨S200000x1, .f32⟩ : BufTy).Contents (Elt F)),
    binary main_v155 main_v154 main_v156 (Host.divf : (⟨S200000x1, .f32⟩ : BufTy).Contents (Elt F) → (⟨S200000x1, .f32⟩ : BufTy).Contents (Elt F) → (⟨S200000x1, .f32⟩ : BufTy).Contents (Elt F)),
    unary main_v156 main_v157 (broadcastInDim S200000x128 ![0, 1] bcast_S200000x1_S200000x128_0_1 : (⟨S200000x1, .f32⟩ : BufTy).Contents (Elt F) → (⟨S200000x128, .f32⟩ : BufTy).Contents (Elt F)),
    binary main_v146 main_v157 main_v158 (mulf : (⟨S200000x128, .f32⟩ : BufTy).Contents (Elt F) → (⟨S200000x128, .f32⟩ : BufTy).Contents (Elt F) → (⟨S200000x128, .f32⟩ : BufTy).Contents (Elt F)),
    unary main_arg6 main_v159 ((extractStridedSlice S1x200000 ![1, 0] · slices_S2x200000_S1x200000_1_0) : (⟨S2x200000, .i32⟩ : BufTy).Contents (Elt F) → (⟨S1x200000, .i32⟩ : BufTy).Contents (Elt F)),
    reshape main_v159 main_v160 rfl shapeCasts_S1x200000_S200000,
    nullary main_cst_25 (constant S_ .f32 0x00000000#32),
    unary main_cst_25 main_v161 (broadcastInDim S80000x128 ![] bcast_S_S80000x128 : (⟨S_, .f32⟩ : BufTy).Contents (Elt F) → (⟨S80000x128, .f32⟩ : BufTy).Contents (Elt F)),
    unary main_v160 main_v162 (broadcastInDim S200000x1 ![0] bcast_S200000_S200000x1_0 : (⟨S200000, .i32⟩ : BufTy).Contents (Elt F) → (⟨S200000x1, .i32⟩ : BufTy).Contents (Elt F)),
    ternary main_v161 main_v162 main_v158 main_v163 ((fun x i u => Host.scatterAdd scatter_S80000x128_S200000x1_S200000x128_1_0_0_1 x i u) : (⟨S80000x128, .f32⟩ : BufTy).Contents (Elt F) → (⟨S200000x1, .i32⟩ : BufTy).Contents (Elt F) → (⟨S200000x128, .f32⟩ : BufTy).Contents (Elt F) → (⟨S80000x128, .f32⟩ : BufTy).Contents (Elt F)) ]

set_option maxRecDepth 8192 in
set_option maxHeartbeats 2000000 in
theorem ops11_sub : ∀ op ∈ (ops11 : List (HloOp τ sig (Elt F))), op.bufs ⊆ tcRefs τ sig :=
  List.forall_iff_forall_mem.mp (show (ops11 : List (HloOp τ sig (Elt F))).Forall (fun op => op.bufs ⊆ tcRefs τ sig) from ⟨binary_bufs_sub .., nullary_bufs_sub .., unary_bufs_sub .., binary_bufs_sub .., unary_bufs_sub .., binary_bufs_sub .., unary_bufs_sub .., reshape_bufs_sub .., nullary_bufs_sub .., unary_bufs_sub .., unary_bufs_sub .., ternary_bufs_sub ..⟩)
set_option maxRecDepth 8192 in
set_option maxHeartbeats 2000000 in
theorem ops11_fresh : ∀ op ∈ (ops11 : List (HloOp τ sig (Elt F))), op.fresh = ∅ :=
  List.forall_iff_forall_mem.mp (show (ops11 : List (HloOp τ sig (Elt F))).Forall (fun op => op.fresh = ∅) from ⟨rfl, rfl, rfl, rfl, rfl, rfl, rfl, rfl, rfl, rfl, rfl, rfl⟩)

abbrev ops11_W : List (Ref sig .tc) := [main_v154, main_cst_24, main_v155, main_v156, main_v157, main_v158, main_v159, main_v160, main_cst_25, main_v161, main_v162, main_v163]
set_option maxRecDepth 8192 in
set_option maxHeartbeats 2000000 in
theorem ops11_writes : (ops11 : List (HloOp τ sig (Elt F))).Forall fun op => op.writes ⊆ (ops11_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)

set_option maxRecDepth 8192 in
set_option maxHeartbeats 2000000 in

abbrev ops12 : List (HloOp τ sig (Elt F)) :=
  [ unary main_arg7 main_v164 ((extractStridedSlice S1x200000 ![0, 0] · slices_S2x200000_S1x200000_0_0) : (⟨S2x200000, .i32⟩ : BufTy).Contents (Elt F) → (⟨S1x200000, .i32⟩ : BufTy).Contents (Elt F)),
    reshape main_v164 main_v165 rfl shapeCasts_S1x200000_S200000,
    nullary main_c_26 (constantI S_ 32 0#32),
    unary main_c_26 main_v166 (broadcastInDim S200000 ![] bcast_S_S200000 : (⟨S_, .i32⟩ : BufTy).Contents (Elt F) → (⟨S200000, .i32⟩ : BufTy).Contents (Elt F)),
    binary main_v165 main_v166 main_v167 (cmpi .slt : (⟨S200000, .i32⟩ : BufTy).Contents (Elt F) → (⟨S200000, .i32⟩ : BufTy).Contents (Elt F) → (⟨S200000, .i1⟩ : BufTy).Contents (Elt F)),
    nullary main_c_27 (constantI S_ 32 80000#32),
    unary main_c_27 main_v168 (broadcastInDim S200000 ![] bcast_S_S200000 : (⟨S_, .i32⟩ : BufTy).Contents (Elt F) → (⟨S200000, .i32⟩ : BufTy).Contents (Elt F)),
    binary main_v165 main_v168 main_v169 (addi : (⟨S200000, .i32⟩ : BufTy).Contents (Elt F) → (⟨S200000, .i32⟩ : BufTy).Contents (Elt F) → (⟨S200000, .i32⟩ : BufTy).Contents (Elt F)),
    ternary main_v167 main_v169 main_v165 main_v170 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v170 main_v171 (broadcastInDim S200000x1 ![0] bcast_S200000_S200000x1_0 : (⟨S200000, .i32⟩ : BufTy).Contents (Elt F) → (⟨S200000x1, .i32⟩ : BufTy).Contents (Elt F)),
    binary main_arg2 main_v171 main_v172 ((fun x i => Host.gather gather_S80000x128_S200000x1_S200000x128_1_0_n_n_0_1_1128 x i) : (⟨S80000x128, .f32⟩ : BufTy).Contents (Elt F) → (⟨S200000x1, .i32⟩ : BufTy).Contents (Elt F) → (⟨S200000x128, .f32⟩ : BufTy).Contents (Elt F)),
    unary main_arg7 main_v173 ((extractStridedSlice S1x200000 ![1, 0] · slices_S2x200000_S1x200000_1_0) : (⟨S2x200000, .i32⟩ : BufTy).Contents (Elt F) → (⟨S1x200000, .i32⟩ : BufTy).Contents (Elt F)),
    reshape main_v173 main_v174 rfl shapeCasts_S1x200000_S200000,
    nullary main_c_28 (constantI S_ 32 0#32),
    unary main_c_28 main_v175 (broadcastInDim S200000 ![] bcast_S_S200000 : (⟨S_, .i32⟩ : BufTy).Contents (Elt F) → (⟨S200000, .i32⟩ : BufTy).Contents (Elt F)),
    binary main_v174 main_v175 main_v176 (cmpi .slt : (⟨S200000, .i32⟩ : BufTy).Contents (Elt F) → (⟨S200000, .i32⟩ : BufTy).Contents (Elt F) → (⟨S200000, .i1⟩ : BufTy).Contents (Elt F)),
    nullary main_c_29 (constantI S_ 32 80000#32),
    unary main_c_29 main_v177 (broadcastInDim S200000 ![] bcast_S_S200000 : (⟨S_, .i32⟩ : BufTy).Contents (Elt F) → (⟨S200000, .i32⟩ : BufTy).Contents (Elt F)),
    binary main_v174 main_v177 main_v178 (addi : (⟨S200000, .i32⟩ : BufTy).Contents (Elt F) → (⟨S200000, .i32⟩ : BufTy).Contents (Elt F) → (⟨S200000, .i32⟩ : BufTy).Contents (Elt F)),
    ternary main_v176 main_v178 main_v174 main_v179 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v179 main_v180 (broadcastInDim S200000x1 ![0] bcast_S200000_S200000x1_0 : (⟨S200000, .i32⟩ : BufTy).Contents (Elt F) → (⟨S200000x1, .i32⟩ : BufTy).Contents (Elt F)),
    binary main_arg2 main_v180 main_v181 ((fun x i => Host.gather gather_S80000x128_S200000x1_S200000x128_1_0_n_n_0_1_1128 x i) : (⟨S80000x128, .f32⟩ : BufTy).Contents (Elt F) → (⟨S200000x1, .i32⟩ : BufTy).Contents (Elt F) → (⟨S200000x128, .f32⟩ : BufTy).Contents (Elt F)) ]

set_option maxRecDepth 8192 in
set_option maxHeartbeats 2000000 in
theorem ops12_sub : ∀ op ∈ (ops12 : List (HloOp τ sig (Elt F))), op.bufs ⊆ tcRefs τ sig :=
  List.forall_iff_forall_mem.mp (show (ops12 : List (HloOp τ sig (Elt F))).Forall (fun op => op.bufs ⊆ tcRefs τ sig) from ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩)
set_option maxRecDepth 8192 in
set_option maxHeartbeats 2000000 in
theorem ops12_fresh : ∀ op ∈ (ops12 : List (HloOp τ sig (Elt F))), op.fresh = ∅ :=
  List.forall_iff_forall_mem.mp (show (ops12 : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl⟩)

abbrev ops12_W : List (Ref sig .tc) := [main_v164, main_v165, main_c_26, main_v166, main_v167, main_c_27, main_v168, main_v169, main_v170, main_v171, main_v172, main_v173, main_v174, main_c_28, main_v175, main_v176, main_c_29, main_v177, main_v178, main_v179, main_v180, main_v181]
set_option maxRecDepth 8192 in
set_option maxHeartbeats 2000000 in
theorem ops12_writes : (ops12 : List (HloOp τ sig (Elt F))).Forall fun op => op.writes ⊆ (ops12_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)

set_option maxRecDepth 8192 in
set_option maxHeartbeats 2000000 in

abbrev ops13 : List (HloOp τ sig (Elt F)) :=
  [ nary ![main_v172, main_v181, main_arg12] main_v182 (fun u => concatenate S200000x259 1 [⟨S200000x128, u 0⟩, ⟨S200000x128, u 1⟩, ⟨S200000x3, u 2⟩] concatenates_S200000x128_S200000x128_S200000x3_S200000x259_d1),
    binary main_v182 main_arg29 main_v183 ((fun l r => Host.dotGeneral dot_S200000x259_S259x128_S200000x128_1_0_0_1_n_n none l r) : (⟨S200000x259, .f32⟩ : BufTy).Contents (Elt F) → (⟨S259x128, .f32⟩ : BufTy).Contents (Elt F) → (⟨S200000x128, .f32⟩ : BufTy).Contents (Elt F)),
    unary main_arg30 main_v184 (broadcastInDim S1x128 ![1] bcast_S128_S1x128_1 : (⟨S128, .f32⟩ : BufTy).Contents (Elt F) → (⟨S1x128, .f32⟩ : BufTy).Contents (Elt F)),
    unary main_v184 main_v185 (broadcastInDim S200000x128 ![0, 1] bcast_S1x128_S200000x128_0_1 : (⟨S1x128, .f32⟩ : BufTy).Contents (Elt F) → (⟨S200000x128, .f32⟩ : BufTy).Contents (Elt F)),
    binary main_v183 main_v185 main_v186 (addf : (⟨S200000x128, .f32⟩ : BufTy).Contents (Elt F) → (⟨S200000x128, .f32⟩ : BufTy).Contents (Elt F) → (⟨S200000x128, .f32⟩ : BufTy).Contents (Elt F)),
    TRef.unary (TRef.of (T := ⟨S200000x128, .f32⟩) main_v186) (TRef.of (T := ⟨S200000x128, .f32⟩) main_call4_v0) Host.negf,
    TRef.unary (TRef.of (T := ⟨S200000x128, .f32⟩) main_call4_v0) (TRef.of (T := ⟨S200000x128, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S200000x128, .f32⟩) main_call4_v2) (broadcastInDim S200000x128 ![] bcast_S_S200000x128),
    TRef.binary (TRef.of (T := ⟨S200000x128, .f32⟩) main_call4_v2) (TRef.of (T := ⟨S200000x128, .f32⟩) main_call4_v1) (TRef.of (T := ⟨S200000x128, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S200000x128, .f32⟩) main_call4_v4) (broadcastInDim S200000x128 ![] bcast_S_S200000x128),
    TRef.binary (TRef.of (T := ⟨S200000x128, .f32⟩) main_call4_v4) (TRef.of (T := ⟨S200000x128, .f32⟩) main_call4_v3) (TRef.of (T := ⟨S200000x128, .f32⟩) main_call4_v5) Host.divf,
    TRef.binary (TRef.of (T := ⟨S200000x128, .f32⟩) main_v186) (TRef.of (T := ⟨S200000x128, .f32⟩) main_call4_v5) (TRef.of (T := ⟨S200000x128, .f32⟩) main_v187) mulf,
    binary main_v187 main_arg31 main_v188 ((fun l r => Host.dotGeneral dot_S200000x128_S128x1_S200000x1_1_0_0_1_n_n none l r) : (⟨S200000x128, .f32⟩ : BufTy).Contents (Elt F) → (⟨S128x1, .f32⟩ : BufTy).Contents (Elt F) → (⟨S200000x1, .f32⟩ : BufTy).Contents (Elt F)),
    unary main_arg32 main_v189 (broadcastInDim S1x1 ![1] bcast_S1_S1x1_1 : (⟨S1, .f32⟩ : BufTy).Contents (Elt F) → (⟨S1x1, .f32⟩ : BufTy).Contents (Elt F)),
    unary main_v189 main_v190 (broadcastInDim S200000x1 ![0, 1] bcast_S1x1_S200000x1_0_1 : (⟨S1x1, .f32⟩ : BufTy).Contents (Elt F) → (⟨S200000x1, .f32⟩ : BufTy).Contents (Elt F)),
    binary main_v188 main_v190 main_v191 (addf : (⟨S200000x1, .f32⟩ : BufTy).Contents (Elt F) → (⟨S200000x1, .f32⟩ : BufTy).Contents (Elt F) → (⟨S200000x1, .f32⟩ : BufTy).Contents (Elt F)),
    unary main_v191 main_v192 (Host.negf : (⟨S200000x1, .f32⟩ : BufTy).Contents (Elt F) → (⟨S200000x1, .f32⟩ : BufTy).Contents (Elt F)),
    unary main_v192 main_v193 (Host.exp : (⟨S200000x1, .f32⟩ : BufTy).Contents (Elt F) → (⟨S200000x1, .f32⟩ : BufTy).Contents (Elt F)),
    nullary main_cst_30 (constant S_ .f32 0x3F800000#32),
    unary main_cst_30 main_v194 (broadcastInDim S200000x1 ![] bcast_S_S200000x1 : (⟨S_, .f32⟩ : BufTy).Contents (Elt F) → (⟨S200000x1, .f32⟩ : BufTy).Contents (Elt F)),
    binary main_v194 main_v193 main_v195 (addf : (⟨S200000x1, .f32⟩ : BufTy).Contents (Elt F) → (⟨S200000x1, .f32⟩ : BufTy).Contents (Elt F) → (⟨S200000x1, .f32⟩ : BufTy).Contents (Elt F)),
    nullary main_cst_31 (constant S_ .f32 0x3F800000#32),
    unary main_cst_31 main_v196 (broadcastInDim S200000x1 ![] bcast_S_S200000x1 : (⟨S_, .f32⟩ : BufTy).Contents (Elt F) → (⟨S200000x1, .f32⟩ : BufTy).Contents (Elt F)),
    binary main_v196 main_v195 main_v197 (Host.divf : (⟨S200000x1, .f32⟩ : BufTy).Contents (Elt F) → (⟨S200000x1, .f32⟩ : BufTy).Contents (Elt F) → (⟨S200000x1, .f32⟩ : BufTy).Contents (Elt F)),
    unary main_v197 main_v198 (broadcastInDim S200000x128 ![0, 1] bcast_S200000x1_S200000x128_0_1 : (⟨S200000x1, .f32⟩ : BufTy).Contents (Elt F) → (⟨S200000x128, .f32⟩ : BufTy).Contents (Elt F)),
    binary main_v187 main_v198 main_v199 (mulf : (⟨S200000x128, .f32⟩ : BufTy).Contents (Elt F) → (⟨S200000x128, .f32⟩ : BufTy).Contents (Elt F) → (⟨S200000x128, .f32⟩ : BufTy).Contents (Elt F)),
    unary main_arg7 main_v200 ((extractStridedSlice S1x200000 ![1, 0] · slices_S2x200000_S1x200000_1_0) : (⟨S2x200000, .i32⟩ : BufTy).Contents (Elt F) → (⟨S1x200000, .i32⟩ : BufTy).Contents (Elt F)),
    reshape main_v200 main_v201 rfl shapeCasts_S1x200000_S200000,
    nullary main_cst_32 (constant S_ .f32 0x00000000#32),
    unary main_cst_32 main_v202 (broadcastInDim S80000x128 ![] bcast_S_S80000x128 : (⟨S_, .f32⟩ : BufTy).Contents (Elt F) → (⟨S80000x128, .f32⟩ : BufTy).Contents (Elt F)),
    unary main_v201 main_v203 (broadcastInDim S200000x1 ![0] bcast_S200000_S200000x1_0 : (⟨S200000, .i32⟩ : BufTy).Contents (Elt F) → (⟨S200000x1, .i32⟩ : BufTy).Contents (Elt F)),
    ternary main_v202 main_v203 main_v199 main_v204 ((fun x i u => Host.scatterAdd scatter_S80000x128_S200000x1_S200000x128_1_0_0_1 x i u) : (⟨S80000x128, .f32⟩ : BufTy).Contents (Elt F) → (⟨S200000x1, .i32⟩ : BufTy).Contents (Elt F) → (⟨S200000x128, .f32⟩ : BufTy).Contents (Elt F) → (⟨S80000x128, .f32⟩ : BufTy).Contents (Elt F)) ]

set_option maxRecDepth 8192 in
set_option maxHeartbeats 2000000 in
theorem ops13_sub : ∀ op ∈ (ops13 : List (HloOp τ sig (Elt F))), op.bufs ⊆ tcRefs τ sig :=
  List.forall_iff_forall_mem.mp (show (ops13 : List (HloOp τ sig (Elt F))).Forall (fun op => op.bufs ⊆ tcRefs τ sig) from ⟨nary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., reshape_bufs_sub .., nullary_bufs_sub .., unary_bufs_sub .., unary_bufs_sub .., ternary_bufs_sub ..⟩)
set_option maxRecDepth 8192 in
set_option maxHeartbeats 2000000 in
theorem ops13_fresh : ∀ op ∈ (ops13 : List (HloOp τ sig (Elt F))), op.fresh = ∅ :=
  List.forall_iff_forall_mem.mp (show (ops13 : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

abbrev ops13_W : List (Ref sig .tc) := [main_v182, main_v183, main_v184, main_v185, main_v186, main_call4_v0, main_call4_v1, main_call4_cst, main_call4_v2, main_call4_v3, main_call4_cst_0, main_call4_v4, main_call4_v5, main_v187, main_v188, main_v189, main_v190, main_v191, main_v192, main_v193, main_cst_30, main_v194, main_v195, main_cst_31, main_v196, main_v197, main_v198, main_v199, main_v200, main_v201, main_cst_32, main_v202, main_v203, main_v204]
set_option maxRecDepth 8192 in
set_option maxHeartbeats 2000000 in
theorem ops13_writes : (ops13 : List (HloOp τ sig (Elt F))).Forall fun op => op.writes ⊆ (ops13_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)

set_option maxRecDepth 8192 in
set_option maxHeartbeats 2000000 in

abbrev ops14 : List (HloOp τ sig (Elt F)) :=
  [ binary main_arg0 main_v40 main_v205 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    binary main_v205 main_arg33 main_v206 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg34 main_v207 (broadcastInDim S1x128 ![1] bcast_S128_S1x128_1 : (⟨S128, .f32⟩ : BufTy).Contents (Elt F) → (⟨S1x128, .f32⟩ : BufTy).Contents (Elt F)),
    unary main_v207 main_v208 (broadcastInDim S100000x128 ![0, 1] bcast_S1x128_S100000x128_0_1 : (⟨S1x128, .f32⟩ : BufTy).Contents (Elt F) → (⟨S100000x128, .f32⟩ : BufTy).Contents (Elt F)),
    binary main_v206 main_v208 main_v209 (addf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 2000000 in
theorem ops14_sub : ∀ op ∈ (ops14 : List (HloOp τ sig (Elt F))), op.bufs ⊆ tcRefs τ sig :=
  List.forall_iff_forall_mem.mp (show (ops14 : List (HloOp τ sig (Elt F))).Forall (fun op => op.bufs ⊆ tcRefs τ sig) from ⟨binary_bufs_sub .., binary_bufs_sub .., unary_bufs_sub .., unary_bufs_sub .., binary_bufs_sub ..⟩)
set_option maxRecDepth 8192 in
set_option maxHeartbeats 2000000 in
theorem ops14_fresh : ∀ op ∈ (ops14 : List (HloOp τ sig (Elt F))), op.fresh = ∅ :=
  List.forall_iff_forall_mem.mp (show (ops14 : List (HloOp τ sig (Elt F))).Forall (fun op => op.fresh = ∅) from ⟨rfl, rfl, rfl, rfl, rfl⟩)

abbrev ops14_W : List (Ref sig .tc) := [main_v205, main_v206, main_v207, main_v208, main_v209]
set_option maxRecDepth 8192 in
set_option maxHeartbeats 2000000 in
theorem ops14_writes : (ops14 : List (HloOp τ sig (Elt F))).Forall fun op => op.writes ⊆ (ops14_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)

set_option maxRecDepth 8192 in
set_option maxHeartbeats 2000000 in

abbrev ops15 : List (HloOp τ sig (Elt F)) :=
  [ nary ![main_arg1, main_v81, main_v122] main_v210 (fun u => concatenate S150000x384 1 [⟨S150000x128, u 0⟩, ⟨S150000x128, u 1⟩, ⟨S150000x128, u 2⟩] concatenates_S150000x128_S150000x128_S150000x128_S150000x384_d1),
    binary main_v210 main_arg35 main_v211 ((fun l r => Host.dotGeneral dot_S150000x384_S384x128_S150000x128_1_0_0_1_n_n none l r) : (⟨S150000x384, .f32⟩ : BufTy).Contents (Elt F) → (⟨S384x128, .f32⟩ : BufTy).Contents (Elt F) → (⟨S150000x128, .f32⟩ : BufTy).Contents (Elt F)),
    unary main_arg36 main_v212 (broadcastInDim S1x128 ![1] bcast_S128_S1x128_1 : (⟨S128, .f32⟩ : BufTy).Contents (Elt F) → (⟨S1x128, .f32⟩ : BufTy).Contents (Elt F)),
    unary main_v212 main_v213 (broadcastInDim S150000x128 ![0, 1] bcast_S1x128_S150000x128_0_1 : (⟨S1x128, .f32⟩ : BufTy).Contents (Elt F) → (⟨S150000x128, .f32⟩ : BufTy).Contents (Elt F)),
    binary main_v211 main_v213 main_v214 (addf : (⟨S150000x128, .f32⟩ : BufTy).Contents (Elt F) → (⟨S150000x128, .f32⟩ : BufTy).Contents (Elt F) → (⟨S150000x128, .f32⟩ : BufTy).Contents (Elt F)) ]

set_option maxRecDepth 8192 in
set_option maxHeartbeats 2000000 in
theorem ops15_sub : ∀ op ∈ (ops15 : List (HloOp τ sig (Elt F))), op.bufs ⊆ tcRefs τ sig :=
  List.forall_iff_forall_mem.mp (show (ops15 : List (HloOp τ sig (Elt F))).Forall (fun op => op.bufs ⊆ tcRefs τ sig) from ⟨nary_bufs_sub .., binary_bufs_sub .., unary_bufs_sub .., unary_bufs_sub .., binary_bufs_sub ..⟩)
set_option maxRecDepth 8192 in
set_option maxHeartbeats 2000000 in
theorem ops15_fresh : ∀ op ∈ (ops15 : List (HloOp τ sig (Elt F))), op.fresh = ∅ :=
  List.forall_iff_forall_mem.mp (show (ops15 : List (HloOp τ sig (Elt F))).Forall (fun op => op.fresh = ∅) from ⟨rfl, rfl, rfl, rfl, rfl⟩)

abbrev ops15_W : List (Ref sig .tc) := [main_v210, main_v211, main_v212, main_v213, main_v214]
set_option maxRecDepth 8192 in
set_option maxHeartbeats 2000000 in
theorem ops15_writes : (ops15 : List (HloOp τ sig (Elt F))).Forall fun op => op.writes ⊆ (ops15_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)

set_option maxRecDepth 8192 in
set_option maxHeartbeats 2000000 in

abbrev ops16 : List (HloOp τ sig (Elt F)) :=
  [ nary ![main_arg2, main_v163, main_v204] main_v215 (fun u => concatenate S80000x384 1 [⟨S80000x128, u 0⟩, ⟨S80000x128, u 1⟩, ⟨S80000x128, u 2⟩] concatenates_S80000x128_S80000x128_S80000x128_S80000x384_d1),
    binary main_v215 main_arg37 main_v216 ((fun l r => Host.dotGeneral dot_S80000x384_S384x128_S80000x128_1_0_0_1_n_n none l r) : (⟨S80000x384, .f32⟩ : BufTy).Contents (Elt F) → (⟨S384x128, .f32⟩ : BufTy).Contents (Elt F) → (⟨S80000x128, .f32⟩ : BufTy).Contents (Elt F)),
    unary main_arg38 main_v217 (broadcastInDim S1x128 ![1] bcast_S128_S1x128_1 : (⟨S128, .f32⟩ : BufTy).Contents (Elt F) → (⟨S1x128, .f32⟩ : BufTy).Contents (Elt F)),
    unary main_v217 main_v218 (broadcastInDim S80000x128 ![0, 1] bcast_S1x128_S80000x128_0_1 : (⟨S1x128, .f32⟩ : BufTy).Contents (Elt F) → (⟨S80000x128, .f32⟩ : BufTy).Contents (Elt F)),
    binary main_v216 main_v218 main_v219 (addf : (⟨S80000x128, .f32⟩ : BufTy).Contents (Elt F) → (⟨S80000x128, .f32⟩ : BufTy).Contents (Elt F) → (⟨S80000x128, .f32⟩ : BufTy).Contents (Elt F)),
    binary main_arg0 main_v209 main_v220 (addf : (⟨S100000x128, .f32⟩ : BufTy).Contents (Elt F) → (⟨S100000x128, .f32⟩ : BufTy).Contents (Elt F) → (⟨S100000x128, .f32⟩ : BufTy).Contents (Elt F)),
    binary main_arg1 main_v214 main_v221 (addf : (⟨S150000x128, .f32⟩ : BufTy).Contents (Elt F) → (⟨S150000x128, .f32⟩ : BufTy).Contents (Elt F) → (⟨S150000x128, .f32⟩ : BufTy).Contents (Elt F)),
    binary main_arg2 main_v219 main_v222 (addf : (⟨S80000x128, .f32⟩ : BufTy).Contents (Elt F) → (⟨S80000x128, .f32⟩ : BufTy).Contents (Elt F) → (⟨S80000x128, .f32⟩ : BufTy).Contents (Elt F)) ]

set_option maxRecDepth 8192 in
set_option maxHeartbeats 2000000 in
theorem ops16_sub : ∀ op ∈ (ops16 : List (HloOp τ sig (Elt F))), op.bufs ⊆ tcRefs τ sig :=
  List.forall_iff_forall_mem.mp (show (ops16 : List (HloOp τ sig (Elt F))).Forall (fun op => op.bufs ⊆ tcRefs τ sig) from ⟨nary_bufs_sub .., binary_bufs_sub .., unary_bufs_sub .., unary_bufs_sub .., binary_bufs_sub .., binary_bufs_sub .., binary_bufs_sub .., binary_bufs_sub ..⟩)
set_option maxRecDepth 8192 in
set_option maxHeartbeats 2000000 in
theorem ops16_fresh : ∀ op ∈ (ops16 : List (HloOp τ sig (Elt F))), op.fresh = ∅ :=
  List.forall_iff_forall_mem.mp (show (ops16 : List (HloOp τ sig (Elt F))).Forall (fun op => op.fresh = ∅) from ⟨rfl, rfl, rfl, rfl, rfl, rfl, rfl, rfl⟩)

abbrev ops16_W : List (Ref sig .tc) := [main_v215, main_v216, main_v217, main_v218, main_v219, main_v220, main_v221, main_v222]
set_option maxRecDepth 8192 in
set_option maxHeartbeats 2000000 in
theorem ops16_writes : (ops16 : List (HloOp τ sig (Elt F))).Forall fun op => op.writes ⊆ (ops16_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)

abbrev Kept (r : Ref sig .tc) : Prop :=
  r ∉ ops1_W ∧ r ∉ ops2_W ∧ r ∉ ops3_W ∧ r ∉ ops4_W ∧ r ∉ ops5_W ∧ r ∉ ops6_W ∧ r ∉ ops7_W ∧ r ∉ ops8_W ∧ r ∉ ops9_W ∧ r ∉ ops10_W ∧ r ∉ ops11_W ∧ r ∉ ops12_W ∧ r ∉ ops13_W ∧ r ∉ ops14_W ∧ r ∉ ops15_W ∧ r ∉ ops16_W
theorem kept0 : Kept main_arg0 := by decide
theorem kept1 : Kept main_arg1 := by decide
theorem kept2 : Kept main_arg2 := by decide
theorem kept3 : Kept main_arg3 := by decide
theorem kept4 : Kept main_arg4 := by decide
theorem kept5 : Kept main_arg5 := by decide
theorem kept6 : Kept main_arg6 := by decide
theorem kept7 : Kept main_arg7 := by decide
theorem kept8 : Kept main_arg8 := by decide
theorem kept9 : Kept main_arg9 := by decide
theorem kept10 : Kept main_arg10 := by decide
theorem kept11 : Kept main_arg11 := by decide
theorem kept12 : Kept main_arg12 := by decide
theorem kept13 : Kept main_arg13 := by decide
theorem kept14 : Kept main_arg14 := by decide
theorem kept15 : Kept main_arg15 := by decide
theorem kept16 : Kept main_arg16 := by decide
theorem kept17 : Kept main_arg17 := by decide
theorem kept18 : Kept main_arg18 := by decide
theorem kept19 : Kept main_arg19 := by decide
theorem kept20 : Kept main_arg20 := by decide
theorem kept21 : Kept main_arg21 := by decide
theorem kept22 : Kept main_arg22 := by decide
theorem kept23 : Kept main_arg23 := by decide
theorem kept24 : Kept main_arg24 := by decide
theorem kept25 : Kept main_arg25 := by decide
theorem kept26 : Kept main_arg26 := by decide
theorem kept27 : Kept main_arg27 := by decide
theorem kept28 : Kept main_arg28 := by decide
theorem kept29 : Kept main_arg29 := by decide
theorem kept30 : Kept main_arg30 := by decide
theorem kept31 : Kept main_arg31 := by decide
theorem kept32 : Kept main_arg32 := by decide
theorem kept33 : Kept main_arg33 := by decide
theorem kept34 : Kept main_arg34 := by decide
theorem kept35 : Kept main_arg35 := by decide
theorem kept36 : Kept main_arg36 := by decide
theorem kept37 : Kept main_arg37 := by decide
theorem kept38 : Kept main_arg38 := by decide

def val0 (V0 : Valuation τ sig (Elt F)) : Valuation τ sig (Elt F) := V0
theorem val0_arg (V0 : Valuation τ sig (Elt F)) (r : Ref sig .tc) : val0 V0 (no_index (Proc.devRef .tc r)) = V0 (Proc.devRef .tc r) := rfl

def val1 (V0 : Valuation τ sig (Elt F)) : Valuation τ sig (Elt F) := after ops1 (val0 V0)

theorem val1_keep (V0 : Valuation τ sig (Elt F)) (r : Ref sig .tc) (h : r ∉ ops1_W) :
    val1 V0 (Proc.devRef .tc r) = val0 V0 (Proc.devRef .tc r) :=
  after_of_writes_sub ops1 _ ops1_writes h
theorem val1_arg (V0 : Valuation τ sig (Elt F)) {r : Ref sig .tc} (h : Kept r) : val1 V0 (no_index (Proc.devRef .tc r)) = V0 (Proc.devRef .tc r) :=
  (val1_keep V0 r h.1).trans (val0_arg V0 r)
set_option maxRecDepth 8192 in
set_option maxHeartbeats 4000000 in
theorem val1_main_v8 (V0 : Valuation τ sig (Elt F)) : val1 V0 (no_index (Proc.devRef .tc main_v8)) = Read.val_main_v8 (F := F) (V0 (Proc.devRef .tc main_arg0)) (V0 (Proc.devRef .tc main_arg3)) := by
  unfold val1
  simp only [ops1]
  after_results_simp
  rw [val0_arg _ main_arg3, val0_arg _ main_arg0]
  all_goals rfl
set_option maxRecDepth 8192 in
set_option maxHeartbeats 4000000 in
theorem val1_main_v17 (V0 : Valuation τ sig (Elt F)) : val1 V0 (no_index (Proc.devRef .tc main_v17)) = Read.val_main_v17 (F := F) (V0 (Proc.devRef .tc main_arg0)) (V0 (Proc.devRef .tc main_arg3)) := by
  unfold val1
  simp only [ops1]
  after_results_simp
  rw [val0_arg _ main_arg3, val0_arg _ main_arg0]
  all_goals rfl

def val2 (V0 : Valuation τ sig (Elt F)) : Valuation τ sig (Elt F) := after ops2 (val1 V0)

theorem val2_keep (V0 : Valuation τ sig (Elt F)) (r : Ref sig .tc) (h : r ∉ ops2_W) :
    val2 V0 (Proc.devRef .tc r) = val1 V0 (Proc.devRef .tc r) :=
  after_of_writes_sub ops2 _ ops2_writes h
theorem val2_arg (V0 : Valuation τ sig (Elt F)) {r : Ref sig .tc} (h : Kept r) : val2 V0 (no_index (Proc.devRef .tc r)) = V0 (Proc.devRef .tc r) :=
  (val2_keep V0 r h.2.1).trans (val1_arg V0 h)
set_option maxRecDepth 8192 in
set_option maxHeartbeats 4000000 in
theorem val2_main_v40 (V0 : Valuation τ sig (Elt F)) : val2 V0 (no_index (Proc.devRef .tc main_v40)) = Read.val_main_v40 (F := F) (V0 (Proc.devRef .tc main_arg0)) (V0 (Proc.devRef .tc main_arg3)) (V0 (Proc.devRef .tc main_arg8)) (V0 (Proc.devRef .tc main_arg13)) (V0 (Proc.devRef .tc main_arg14)) (V0 (Proc.devRef .tc main_arg15)) (V0 (Proc.devRef .tc main_arg16)) := by
  unfold val2
  simp only [ops2]
  after_results_simp
  try dsimp only [Matrix.cons_val]
  rw [val1_arg _ kept16, val1_arg _ kept15, val1_arg _ kept14, val1_arg _ kept13, val1_arg _ kept8, val1_main_v17, val1_main_v8, val1_arg _ kept3]
  all_goals rfl

def val3 (V0 : Valuation τ sig (Elt F)) : Valuation τ sig (Elt F) := after ops3 (val2 V0)

theorem val3_keep (V0 : Valuation τ sig (Elt F)) (r : Ref sig .tc) (h : r ∉ ops3_W) :
    val3 V0 (Proc.devRef .tc r) = val2 V0 (Proc.devRef .tc r) :=
  after_of_writes_sub ops3 _ ops3_writes h
theorem val3_arg (V0 : Valuation τ sig (Elt F)) {r : Ref sig .tc} (h : Kept r) : val3 V0 (no_index (Proc.devRef .tc r)) = V0 (Proc.devRef .tc r) :=
  (val3_keep V0 r h.2.2.1).trans (val2_arg V0 h)
theorem val3_main_v40 (V0 : Valuation τ sig (Elt F)) : val3 V0 (no_index (Proc.devRef .tc main_v40)) = Read.val_main_v40 (F := F) (V0 (Proc.devRef .tc main_arg0)) (V0 (Proc.devRef .tc main_arg3)) (V0 (Proc.devRef .tc main_arg8)) (V0 (Proc.devRef .tc main_arg13)) (V0 (Proc.devRef .tc main_arg14)) (V0 (Proc.devRef .tc main_arg15)) (V0 (Proc.devRef .tc main_arg16)) :=
  (val3_keep V0 main_v40 (by decide)).trans (val2_main_v40 V0)
set_option maxRecDepth 8192 in
set_option maxHeartbeats 4000000 in
theorem val3_main_v49 (V0 : Valuation τ sig (Elt F)) : val3 V0 (no_index (Proc.devRef .tc main_v49)) = Read.val_main_v49 (F := F) (V0 (Proc.devRef .tc main_arg0)) (V0 (Proc.devRef .tc main_arg4)) := by
  unfold val3
  simp only [ops3]
  after_results_simp
  rw [val2_arg _ kept4, val2_arg _ kept0]
  all_goals rfl
set_option maxRecDepth 8192 in
set_option maxHeartbeats 4000000 in
theorem val3_main_v50 (V0 : Valuation τ sig (Elt F)) : val3 V0 (no_index (Proc.devRef .tc main_v50)) = Read.val_main_v50 (F := F) (V0 (Proc.devRef .tc main_arg4)) := by
  unfold val3
  simp only [ops3]
  after_results_simp
  rw [val2_arg _ kept4]
  all_goals rfl

def val4 (V0 : Valuation τ sig (Elt F)) : Valuation τ sig (Elt F) := after ops4 (val3 V0)

theorem val4_keep (V0 : Valuation τ sig (Elt F)) (r : Ref sig .tc) (h : r ∉ ops4_W) :
    val4 V0 (Proc.devRef .tc r) = val3 V0 (Proc.devRef .tc r) :=
  after_of_writes_sub ops4 _ ops4_writes h
theorem val4_arg (V0 : Valuation τ sig (Elt F)) {r : Ref sig .tc} (h : Kept r) : val4 V0 (no_index (Proc.devRef .tc r)) = V0 (Proc.devRef .tc r) :=
  (val4_keep V0 r h.2.2.2.1).trans (val3_arg V0 h)
theorem val4_main_v40 (V0 : Valuation τ sig (Elt F)) : val4 V0 (no_index (Proc.devRef .tc main_v40)) = Read.val_main_v40 (F := F) (V0 (Proc.devRef .tc main_arg0)) (V0 (Proc.devRef .tc main_arg3)) (V0 (Proc.devRef .tc main_arg8)) (V0 (Proc.devRef .tc main_arg13)) (V0 (Proc.devRef .tc main_arg14)) (V0 (Proc.devRef .tc main_arg15)) (V0 (Proc.devRef .tc main_arg16)) :=
  (val4_keep V0 main_v40 (by decide)).trans (val3_main_v40 V0)
theorem val4_main_v49 (V0 : Valuation τ sig (Elt F)) : val4 V0 (no_index (Proc.devRef .tc main_v49)) = Read.val_main_v49 (F := F) (V0 (Proc.devRef .tc main_arg0)) (V0 (Proc.devRef .tc main_arg4)) :=
  (val4_keep V0 main_v49 (by decide)).trans (val3_main_v49 V0)
set_option maxRecDepth 8192 in
set_option maxHeartbeats 4000000 in
theorem val4_main_v58 (V0 : Valuation τ sig (Elt F)) : val4 V0 (no_index (Proc.devRef .tc main_v58)) = Read.val_main_v58 (F := F) (V0 (Proc.devRef .tc main_arg1)) (V0 (Proc.devRef .tc main_arg4)) := by
  unfold val4
  simp only [ops4]
  after_results_simp
  rw [val3_main_v50, val3_arg _ kept1]
  all_goals rfl

def val5 (V0 : Valuation τ sig (Elt F)) : Valuation τ sig (Elt F) := after ops5 (val4 V0)

theorem val5_keep (V0 : Valuation τ sig (Elt F)) (r : Ref sig .tc) (h : r ∉ ops5_W) :
    val5 V0 (Proc.devRef .tc r) = val4 V0 (Proc.devRef .tc r) :=
  after_of_writes_sub ops5 _ ops5_writes h
theorem val5_arg (V0 : Valuation τ sig (Elt F)) {r : Ref sig .tc} (h : Kept r) : val5 V0 (no_index (Proc.devRef .tc r)) = V0 (Proc.devRef .tc r) :=
  (val5_keep V0 r h.2.2.2.2.1).trans (val4_arg V0 h)
theorem val5_main_v40 (V0 : Valuation τ sig (Elt F)) : val5 V0 (no_index (Proc.devRef .tc main_v40)) = Read.val_main_v40 (F := F) (V0 (Proc.devRef .tc main_arg0)) (V0 (Proc.devRef .tc main_arg3)) (V0 (Proc.devRef .tc main_arg8)) (V0 (Proc.devRef .tc main_arg13)) (V0 (Proc.devRef .tc main_arg14)) (V0 (Proc.devRef .tc main_arg15)) (V0 (Proc.devRef .tc main_arg16)) :=
  (val5_keep V0 main_v40 (by decide)).trans (val4_main_v40 V0)
set_option maxRecDepth 8192 in
set_option maxHeartbeats 4000000 in
theorem val5_main_v81 (V0 : Valuation τ sig (Elt F)) : val5 V0 (no_index (Proc.devRef .tc main_v81)) = Read.val_main_v81 (F := F) (V0 (Proc.devRef .tc main_arg0)) (V0 (Proc.devRef .tc main_arg1)) (V0 (Proc.devRef .tc main_arg4)) (V0 (Proc.devRef .tc main_arg9)) (V0 (Proc.devRef .tc main_arg17)) (V0 (Proc.devRef .tc main_arg18)) (V0 (Proc.devRef .tc main_arg19)) (V0 (Proc.devRef .tc main_arg20)) := by
  unfold val5
  simp only [ops5]
  after_results_simp
  try dsimp only [Matrix.cons_val]
  rw [val4_arg _ kept20, val4_arg _ kept19, val4_arg _ kept18, val4_arg _ kept17, val4_arg _ kept9, val4_main_v58, val4_main_v49, val4_arg _ kept4]
  all_goals rfl

def val6 (V0 : Valuation τ sig (Elt F)) : Valuation τ sig (Elt F) := after ops6 (val5 V0)

theorem val6_keep (V0 : Valuation τ sig (Elt F)) (r : Ref sig .tc) (h : r ∉ ops6_W) :
    val6 V0 (Proc.devRef .tc r) = val5 V0 (Proc.devRef .tc r) :=
  after_of_writes_sub ops6 _ ops6_writes h
theorem val6_arg (V0 : Valuation τ sig (Elt F)) {r : Ref sig .tc} (h : Kept r) : val6 V0 (no_index (Proc.devRef .tc r)) = V0 (Proc.devRef .tc r) :=
  (val6_keep V0 r h.2.2.2.2.2.1).trans (val5_arg V0 h)
theorem val6_main_v40 (V0 : Valuation τ sig (Elt F)) : val6 V0 (no_index (Proc.devRef .tc main_v40)) = Read.val_main_v40 (F := F) (V0 (Proc.devRef .tc main_arg0)) (V0 (Proc.devRef .tc main_arg3)) (V0 (Proc.devRef .tc main_arg8)) (V0 (Proc.devRef .tc main_arg13)) (V0 (Proc.devRef .tc main_arg14)) (V0 (Proc.devRef .tc main_arg15)) (V0 (Proc.devRef .tc main_arg16)) :=
  (val6_keep V0 main_v40 (by decide)).trans (val5_main_v40 V0)
theorem val6_main_v81 (V0 : Valuation τ sig (Elt F)) : val6 V0 (no_index (Proc.devRef .tc main_v81)) = Read.val_main_v81 (F := F) (V0 (Proc.devRef .tc main_arg0)) (V0 (Proc.devRef .tc main_arg1)) (V0 (Proc.devRef .tc main_arg4)) (V0 (Proc.devRef .tc main_arg9)) (V0 (Proc.devRef .tc main_arg17)) (V0 (Proc.devRef .tc main_arg18)) (V0 (Proc.devRef .tc main_arg19)) (V0 (Proc.devRef .tc main_arg20)) :=
  (val6_keep V0 main_v81 (by decide)).trans (val5_main_v81 V0)
set_option maxRecDepth 8192 in
set_option maxHeartbeats 4000000 in
theorem val6_main_v90 (V0 : Valuation τ sig (Elt F)) : val6 V0 (no_index (Proc.devRef .tc main_v90)) = Read.val_main_v90 (F := F) (V0 (Proc.devRef .tc main_arg1)) (V0 (Proc.devRef .tc main_arg5)) := by
  unfold val6
  simp only [ops6]
  after_results_simp
  rw [val5_arg _ kept5, val5_arg _ kept1]
  all_goals rfl
set_option maxRecDepth 8192 in
set_option maxHeartbeats 4000000 in
theorem val6_main_v99 (V0 : Valuation τ sig (Elt F)) : val6 V0 (no_index (Proc.devRef .tc main_v99)) = Read.val_main_v99 (F := F) (V0 (Proc.devRef .tc main_arg1)) (V0 (Proc.devRef .tc main_arg5)) := by
  unfold val6
  simp only [ops6]
  after_results_simp
  rw [val5_arg _ kept5, val5_arg _ kept1]
  all_goals rfl

def val7 (V0 : Valuation τ sig (Elt F)) : Valuation τ sig (Elt F) := after ops7 (val6 V0)

theorem val7_keep (V0 : Valuation τ sig (Elt F)) (r : Ref sig .tc) (h : r ∉ ops7_W) :
    val7 V0 (Proc.devRef .tc r) = val6 V0 (Proc.devRef .tc r) :=
  after_of_writes_sub ops7 _ ops7_writes h
theorem val7_arg (V0 : Valuation τ sig (Elt F)) {r : Ref sig .tc} (h : Kept r) : val7 V0 (no_index (Proc.devRef .tc r)) = V0 (Proc.devRef .tc r) :=
  (val7_keep V0 r h.2.2.2.2.2.2.1).trans (val6_arg V0 h)
theorem val7_main_v40 (V0 : Valuation τ sig (Elt F)) : val7 V0 (no_index (Proc.devRef .tc main_v40)) = Read.val_main_v40 (F := F) (V0 (Proc.devRef .tc main_arg0)) (V0 (Proc.devRef .tc main_arg3)) (V0 (Proc.devRef .tc main_arg8)) (V0 (Proc.devRef .tc main_arg13)) (V0 (Proc.devRef .tc main_arg14)) (V0 (Proc.devRef .tc main_arg15)) (V0 (Proc.devRef .tc main_arg16)) :=
  (val7_keep V0 main_v40 (by decide)).trans (val6_main_v40 V0)
theorem val7_main_v81 (V0 : Valuation τ sig (Elt F)) : val7 V0 (no_index (Proc.devRef .tc main_v81)) = Read.val_main_v81 (F := F) (V0 (Proc.devRef .tc main_arg0)) (V0 (Proc.devRef .tc main_arg1)) (V0 (Proc.devRef .tc main_arg4)) (V0 (Proc.devRef .tc main_arg9)) (V0 (Proc.devRef .tc main_arg17)) (V0 (Proc.devRef .tc main_arg18)) (V0 (Proc.devRef .tc main_arg19)) (V0 (Proc.devRef .tc main_arg20)) :=
  (val7_keep V0 main_v81 (by decide)).trans (val6_main_v81 V0)
set_option maxRecDepth 8192 in
set_option maxHeartbeats 4000000 in
theorem val7_main_v101 (V0 : Valuation τ sig (Elt F)) : val7 V0 (no_index (Proc.devRef .tc main_v101)) = Read.val_main_v101 (F := F) (V0 (Proc.devRef .tc main_arg1)) (V0 (Proc.devRef .tc main_arg5)) (V0 (Proc.devRef .tc main_arg10)) (V0 (Proc.devRef .tc main_arg21)) := by
  unfold val7
  simp only [ops7]
  after_results_simp
  try dsimp only [Matrix.cons_val]
  rw [val6_arg _ kept21, val6_arg _ kept10, val6_main_v99, val6_main_v90]
  all_goals rfl

def val8 (V0 : Valuation τ sig (Elt F)) : Valuation τ sig (Elt F) := after ops8 (val7 V0)

theorem val8_keep (V0 : Valuation τ sig (Elt F)) (r : Ref sig .tc) (h : r ∉ ops8_W) :
    val8 V0 (Proc.devRef .tc r) = val7 V0 (Proc.devRef .tc r) :=
  after_of_writes_sub ops8 _ ops8_writes h
theorem val8_arg (V0 : Valuation τ sig (Elt F)) {r : Ref sig .tc} (h : Kept r) : val8 V0 (no_index (Proc.devRef .tc r)) = V0 (Proc.devRef .tc r) :=
  (val8_keep V0 r h.2.2.2.2.2.2.2.1).trans (val7_arg V0 h)
theorem val8_main_v40 (V0 : Valuation τ sig (Elt F)) : val8 V0 (no_index (Proc.devRef .tc main_v40)) = Read.val_main_v40 (F := F) (V0 (Proc.devRef .tc main_arg0)) (V0 (Proc.devRef .tc main_arg3)) (V0 (Proc.devRef .tc main_arg8)) (V0 (Proc.devRef .tc main_arg13)) (V0 (Proc.devRef .tc main_arg14)) (V0 (Proc.devRef .tc main_arg15)) (V0 (Proc.devRef .tc main_arg16)) :=
  (val8_keep V0 main_v40 (by decide)).trans (val7_main_v40 V0)
theorem val8_main_v81 (V0 : Valuation τ sig (Elt F)) : val8 V0 (no_index (Proc.devRef .tc main_v81)) = Read.val_main_v81 (F := F) (V0 (Proc.devRef .tc main_arg0)) (V0 (Proc.devRef .tc main_arg1)) (V0 (Proc.devRef .tc main_arg4)) (V0 (Proc.devRef .tc main_arg9)) (V0 (Proc.devRef .tc main_arg17)) (V0 (Proc.devRef .tc main_arg18)) (V0 (Proc.devRef .tc main_arg19)) (V0 (Proc.devRef .tc main_arg20)) :=
  (val8_keep V0 main_v81 (by decide)).trans (val7_main_v81 V0)
set_option maxRecDepth 8192 in
set_option maxHeartbeats 4000000 in
theorem val8_main_v122 (V0 : Valuation τ sig (Elt F)) : val8 V0 (no_index (Proc.devRef .tc main_v122)) = Read.val_main_v122 (F := F) (V0 (Proc.devRef .tc main_arg1)) (V0 (Proc.devRef .tc main_arg5)) (V0 (Proc.devRef .tc main_arg10)) (V0 (Proc.devRef .tc main_arg21)) (V0 (Proc.devRef .tc main_arg22)) (V0 (Proc.devRef .tc main_arg23)) (V0 (Proc.devRef .tc main_arg24)) := by
  unfold val8
  simp only [ops8]
  after_results_simp
  rw [val7_arg _ kept24, val7_arg _ kept23, val7_arg _ kept22, val7_main_v101, val7_arg _ kept5]
  all_goals rfl

def val9 (V0 : Valuation τ sig (Elt F)) : Valuation τ sig (Elt F) := after ops9 (val8 V0)

theorem val9_keep (V0 : Valuation τ sig (Elt F)) (r : Ref sig .tc) (h : r ∉ ops9_W) :
    val9 V0 (Proc.devRef .tc r) = val8 V0 (Proc.devRef .tc r) :=
  after_of_writes_sub ops9 _ ops9_writes h
theorem val9_arg (V0 : Valuation τ sig (Elt F)) {r : Ref sig .tc} (h : Kept r) : val9 V0 (no_index (Proc.devRef .tc r)) = V0 (Proc.devRef .tc r) :=
  (val9_keep V0 r h.2.2.2.2.2.2.2.2.1).trans (val8_arg V0 h)
theorem val9_main_v40 (V0 : Valuation τ sig (Elt F)) : val9 V0 (no_index (Proc.devRef .tc main_v40)) = Read.val_main_v40 (F := F) (V0 (Proc.devRef .tc main_arg0)) (V0 (Proc.devRef .tc main_arg3)) (V0 (Proc.devRef .tc main_arg8)) (V0 (Proc.devRef .tc main_arg13)) (V0 (Proc.devRef .tc main_arg14)) (V0 (Proc.devRef .tc main_arg15)) (V0 (Proc.devRef .tc main_arg16)) :=
  (val9_keep V0 main_v40 (by decide)).trans (val8_main_v40 V0)
theorem val9_main_v81 (V0 : Valuation τ sig (Elt F)) : val9 V0 (no_index (Proc.devRef .tc main_v81)) = Read.val_main_v81 (F := F) (V0 (Proc.devRef .tc main_arg0)) (V0 (Proc.devRef .tc main_arg1)) (V0 (Proc.devRef .tc main_arg4)) (V0 (Proc.devRef .tc main_arg9)) (V0 (Proc.devRef .tc main_arg17)) (V0 (Proc.devRef .tc main_arg18)) (V0 (Proc.devRef .tc main_arg19)) (V0 (Proc.devRef .tc main_arg20)) :=
  (val9_keep V0 main_v81 (by decide)).trans (val8_main_v81 V0)
theorem val9_main_v122 (V0 : Valuation τ sig (Elt F)) : val9 V0 (no_index (Proc.devRef .tc main_v122)) = Read.val_main_v122 (F := F) (V0 (Proc.devRef .tc main_arg1)) (V0 (Proc.devRef .tc main_arg5)) (V0 (Proc.devRef .tc main_arg10)) (V0 (Proc.devRef .tc main_arg21)) (V0 (Proc.devRef .tc main_arg22)) (V0 (Proc.devRef .tc main_arg23)) (V0 (Proc.devRef .tc main_arg24)) :=
  (val9_keep V0 main_v122 (by decide)).trans (val8_main_v122 V0)
set_option maxRecDepth 8192 in
set_option maxHeartbeats 4000000 in
theorem val9_main_v131 (V0 : Valuation τ sig (Elt F)) : val9 V0 (no_index (Proc.devRef .tc main_v131)) = Read.val_main_v131 (F := F) (V0 (Proc.devRef .tc main_arg1)) (V0 (Proc.devRef .tc main_arg6)) := by
  unfold val9
  simp only [ops9]
  after_results_simp
  rw [val8_arg _ kept6, val8_arg _ kept1]
  all_goals rfl
set_option maxRecDepth 8192 in
set_option maxHeartbeats 4000000 in
theorem val9_main_v140 (V0 : Valuation τ sig (Elt F)) : val9 V0 (no_index (Proc.devRef .tc main_v140)) = Read.val_main_v140 (F := F) (V0 (Proc.devRef .tc main_arg2)) (V0 (Proc.devRef .tc main_arg6)) := by
  unfold val9
  simp only [ops9]
  after_results_simp
  rw [val8_arg _ kept6, val8_arg _ kept2]
  all_goals rfl

def val10 (V0 : Valuation τ sig (Elt F)) : Valuation τ sig (Elt F) := after ops10 (val9 V0)

theorem val10_keep (V0 : Valuation τ sig (Elt F)) (r : Ref sig .tc) (h : r ∉ ops10_W) :
    val10 V0 (Proc.devRef .tc r) = val9 V0 (Proc.devRef .tc r) :=
  after_of_writes_sub ops10 _ ops10_writes h
theorem val10_arg (V0 : Valuation τ sig (Elt F)) {r : Ref sig .tc} (h : Kept r) : val10 V0 (no_index (Proc.devRef .tc r)) = V0 (Proc.devRef .tc r) :=
  (val10_keep V0 r h.2.2.2.2.2.2.2.2.2.1).trans (val9_arg V0 h)
theorem val10_main_v40 (V0 : Valuation τ sig (Elt F)) : val10 V0 (no_index (Proc.devRef .tc main_v40)) = Read.val_main_v40 (F := F) (V0 (Proc.devRef .tc main_arg0)) (V0 (Proc.devRef .tc main_arg3)) (V0 (Proc.devRef .tc main_arg8)) (V0 (Proc.devRef .tc main_arg13)) (V0 (Proc.devRef .tc main_arg14)) (V0 (Proc.devRef .tc main_arg15)) (V0 (Proc.devRef .tc main_arg16)) :=
  (val10_keep V0 main_v40 (by decide)).trans (val9_main_v40 V0)
theorem val10_main_v81 (V0 : Valuation τ sig (Elt F)) : val10 V0 (no_index (Proc.devRef .tc main_v81)) = Read.val_main_v81 (F := F) (V0 (Proc.devRef .tc main_arg0)) (V0 (Proc.devRef .tc main_arg1)) (V0 (Proc.devRef .tc main_arg4)) (V0 (Proc.devRef .tc main_arg9)) (V0 (Proc.devRef .tc main_arg17)) (V0 (Proc.devRef .tc main_arg18)) (V0 (Proc.devRef .tc main_arg19)) (V0 (Proc.devRef .tc main_arg20)) :=
  (val10_keep V0 main_v81 (by decide)).trans (val9_main_v81 V0)
theorem val10_main_v122 (V0 : Valuation τ sig (Elt F)) : val10 V0 (no_index (Proc.devRef .tc main_v122)) = Read.val_main_v122 (F := F) (V0 (Proc.devRef .tc main_arg1)) (V0 (Proc.devRef .tc main_arg5)) (V0 (Proc.devRef .tc main_arg10)) (V0 (Proc.devRef .tc main_arg21)) (V0 (Proc.devRef .tc main_arg22)) (V0 (Proc.devRef .tc main_arg23)) (V0 (Proc.devRef .tc main_arg24)) :=
  (val10_keep V0 main_v122 (by decide)).trans (val9_main_v122 V0)
set_option maxRecDepth 8192 in
set_option maxHeartbeats 4000000 in
theorem val10_main_v146 (V0 : Valuation τ sig (Elt F)) : val10 V0 (no_index (Proc.devRef .tc main_v146)) = Read.val_main_v146 (F := F) (V0 (Proc.devRef .tc main_arg1)) (V0 (Proc.devRef .tc main_arg2)) (V0 (Proc.devRef .tc main_arg6)) (V0 (Proc.devRef .tc main_arg11)) (V0 (Proc.devRef .tc main_arg25)) (V0 (Proc.devRef .tc main_arg26)) := by
  unfold val10
  simp only [ops10]
  after_results_simp
  try dsimp only [Matrix.cons_val]
  rw [val9_arg _ kept26, val9_arg _ kept25, val9_arg _ kept11, val9_main_v140, val9_main_v131]
  all_goals rfl
set_option maxRecDepth 8192 in
set_option maxHeartbeats 4000000 in
theorem val10_main_v152 (V0 : Valuation τ sig (Elt F)) : val10 V0 (no_index (Proc.devRef .tc main_v152)) = Read.val_main_v152 (F := F) (V0 (Proc.devRef .tc main_arg1)) (V0 (Proc.devRef .tc main_arg2)) (V0 (Proc.devRef .tc main_arg6)) (V0 (Proc.devRef .tc main_arg11)) (V0 (Proc.devRef .tc main_arg25)) (V0 (Proc.devRef .tc main_arg26)) (V0 (Proc.devRef .tc main_arg27)) (V0 (Proc.devRef .tc main_arg28)) := by
  unfold val10
  simp only [ops10]
  after_results_simp
  try dsimp only [Matrix.cons_val]
  rw [val9_arg _ kept28, val9_arg _ kept27, val9_arg _ kept26, val9_arg _ kept25, val9_arg _ kept11, val9_main_v140, val9_main_v131]
  all_goals rfl
set_option maxRecDepth 8192 in
set_option maxHeartbeats 4000000 in
theorem val10_main_v153 (V0 : Valuation τ sig (Elt F)) : val10 V0 (no_index (Proc.devRef .tc main_v153)) = Read.val_main_v153 (F := F) := by
  unfold val10
  simp only [ops10]
  after_results_simp
  all_goals rfl

def val11 (V0 : Valuation τ sig (Elt F)) : Valuation τ sig (Elt F) := after ops11 (val10 V0)

theorem val11_keep (V0 : Valuation τ sig (Elt F)) (r : Ref sig .tc) (h : r ∉ ops11_W) :
    val11 V0 (Proc.devRef .tc r) = val10 V0 (Proc.devRef .tc r) :=
  after_of_writes_sub ops11 _ ops11_writes h
theorem val11_arg (V0 : Valuation τ sig (Elt F)) {r : Ref sig .tc} (h : Kept r) : val11 V0 (no_index (Proc.devRef .tc r)) = V0 (Proc.devRef .tc r) :=
  (val11_keep V0 r h.2.2.2.2.2.2.2.2.2.2.1).trans (val10_arg V0 h)
theorem val11_main_v40 (V0 : Valuation τ sig (Elt F)) : val11 V0 (no_index (Proc.devRef .tc main_v40)) = Read.val_main_v40 (F := F) (V0 (Proc.devRef .tc main_arg0)) (V0 (Proc.devRef .tc main_arg3)) (V0 (Proc.devRef .tc main_arg8)) (V0 (Proc.devRef .tc main_arg13)) (V0 (Proc.devRef .tc main_arg14)) (V0 (Proc.devRef .tc main_arg15)) (V0 (Proc.devRef .tc main_arg16)) :=
  (val11_keep V0 main_v40 (by decide)).trans (val10_main_v40 V0)
theorem val11_main_v81 (V0 : Valuation τ sig (Elt F)) : val11 V0 (no_index (Proc.devRef .tc main_v81)) = Read.val_main_v81 (F := F) (V0 (Proc.devRef .tc main_arg0)) (V0 (Proc.devRef .tc main_arg1)) (V0 (Proc.devRef .tc main_arg4)) (V0 (Proc.devRef .tc main_arg9)) (V0 (Proc.devRef .tc main_arg17)) (V0 (Proc.devRef .tc main_arg18)) (V0 (Proc.devRef .tc main_arg19)) (V0 (Proc.devRef .tc main_arg20)) :=
  (val11_keep V0 main_v81 (by decide)).trans (val10_main_v81 V0)
theorem val11_main_v122 (V0 : Valuation τ sig (Elt F)) : val11 V0 (no_index (Proc.devRef .tc main_v122)) = Read.val_main_v122 (F := F) (V0 (Proc.devRef .tc main_arg1)) (V0 (Proc.devRef .tc main_arg5)) (V0 (Proc.devRef .tc main_arg10)) (V0 (Proc.devRef .tc main_arg21)) (V0 (Proc.devRef .tc main_arg22)) (V0 (Proc.devRef .tc main_arg23)) (V0 (Proc.devRef .tc main_arg24)) :=
  (val11_keep V0 main_v122 (by decide)).trans (val10_main_v122 V0)
set_option maxRecDepth 8192 in
set_option maxHeartbeats 4000000 in
theorem val11_main_v163 (V0 : Valuation τ sig (Elt F)) : val11 V0 (no_index (Proc.devRef .tc main_v163)) = Read.val_main_v163 (F := F) (V0 (Proc.devRef .tc main_arg1)) (V0 (Proc.devRef .tc main_arg2)) (V0 (Proc.devRef .tc main_arg6)) (V0 (Proc.devRef .tc main_arg11)) (V0 (Proc.devRef .tc main_arg25)) (V0 (Proc.devRef .tc main_arg26)) (V0 (Proc.devRef .tc main_arg27)) (V0 (Proc.devRef .tc main_arg28)) := by
  unfold val11
  simp only [ops11]
  after_results_simp
  rw [val10_main_v152, val10_main_v153, val10_main_v146, val10_arg _ kept6]
  all_goals rfl

def val12 (V0 : Valuation τ sig (Elt F)) : Valuation τ sig (Elt F) := after ops12 (val11 V0)

theorem val12_keep (V0 : Valuation τ sig (Elt F)) (r : Ref sig .tc) (h : r ∉ ops12_W) :
    val12 V0 (Proc.devRef .tc r) = val11 V0 (Proc.devRef .tc r) :=
  after_of_writes_sub ops12 _ ops12_writes h
theorem val12_arg (V0 : Valuation τ sig (Elt F)) {r : Ref sig .tc} (h : Kept r) : val12 V0 (no_index (Proc.devRef .tc r)) = V0 (Proc.devRef .tc r) :=
  (val12_keep V0 r h.2.2.2.2.2.2.2.2.2.2.2.1).trans (val11_arg V0 h)
theorem val12_main_v40 (V0 : Valuation τ sig (Elt F)) : val12 V0 (no_index (Proc.devRef .tc main_v40)) = Read.val_main_v40 (F := F) (V0 (Proc.devRef .tc main_arg0)) (V0 (Proc.devRef .tc main_arg3)) (V0 (Proc.devRef .tc main_arg8)) (V0 (Proc.devRef .tc main_arg13)) (V0 (Proc.devRef .tc main_arg14)) (V0 (Proc.devRef .tc main_arg15)) (V0 (Proc.devRef .tc main_arg16)) :=
  (val12_keep V0 main_v40 (by decide)).trans (val11_main_v40 V0)
theorem val12_main_v81 (V0 : Valuation τ sig (Elt F)) : val12 V0 (no_index (Proc.devRef .tc main_v81)) = Read.val_main_v81 (F := F) (V0 (Proc.devRef .tc main_arg0)) (V0 (Proc.devRef .tc main_arg1)) (V0 (Proc.devRef .tc main_arg4)) (V0 (Proc.devRef .tc main_arg9)) (V0 (Proc.devRef .tc main_arg17)) (V0 (Proc.devRef .tc main_arg18)) (V0 (Proc.devRef .tc main_arg19)) (V0 (Proc.devRef .tc main_arg20)) :=
  (val12_keep V0 main_v81 (by decide)).trans (val11_main_v81 V0)
theorem val12_main_v122 (V0 : Valuation τ sig (Elt F)) : val12 V0 (no_index (Proc.devRef .tc main_v122)) = Read.val_main_v122 (F := F) (V0 (Proc.devRef .tc main_arg1)) (V0 (Proc.devRef .tc main_arg5)) (V0 (Proc.devRef .tc main_arg10)) (V0 (Proc.devRef .tc main_arg21)) (V0 (Proc.devRef .tc main_arg22)) (V0 (Proc.devRef .tc main_arg23)) (V0 (Proc.devRef .tc main_arg24)) :=
  (val12_keep V0 main_v122 (by decide)).trans (val11_main_v122 V0)
theorem val12_main_v163 (V0 : Valuation τ sig (Elt F)) : val12 V0 (no_index (Proc.devRef .tc main_v163)) = Read.val_main_v163 (F := F) (V0 (Proc.devRef .tc main_arg1)) (V0 (Proc.devRef .tc main_arg2)) (V0 (Proc.devRef .tc main_arg6)) (V0 (Proc.devRef .tc main_arg11)) (V0 (Proc.devRef .tc main_arg25)) (V0 (Proc.devRef .tc main_arg26)) (V0 (Proc.devRef .tc main_arg27)) (V0 (Proc.devRef .tc main_arg28)) :=
  (val12_keep V0 main_v163 (by decide)).trans (val11_main_v163 V0)
set_option maxRecDepth 8192 in
set_option maxHeartbeats 4000000 in
theorem val12_main_v172 (V0 : Valuation τ sig (Elt F)) : val12 V0 (no_index (Proc.devRef .tc main_v172)) = Read.val_main_v172 (F := F) (V0 (Proc.devRef .tc main_arg2)) (V0 (Proc.devRef .tc main_arg7)) := by
  unfold val12
  simp only [ops12]
  after_results_simp
  rw [val11_arg _ kept7, val11_arg _ kept2]
  all_goals rfl
set_option maxRecDepth 8192 in
set_option maxHeartbeats 4000000 in
theorem val12_main_v181 (V0 : Valuation τ sig (Elt F)) : val12 V0 (no_index (Proc.devRef .tc main_v181)) = Read.val_main_v181 (F := F) (V0 (Proc.devRef .tc main_arg2)) (V0 (Proc.devRef .tc main_arg7)) := by
  unfold val12
  simp only [ops12]
  after_results_simp
  rw [val11_arg _ kept7, val11_arg _ kept2]
  all_goals rfl

def val13 (V0 : Valuation τ sig (Elt F)) : Valuation τ sig (Elt F) := after ops13 (val12 V0)

theorem val13_keep (V0 : Valuation τ sig (Elt F)) (r : Ref sig .tc) (h : r ∉ ops13_W) :
    val13 V0 (Proc.devRef .tc r) = val12 V0 (Proc.devRef .tc r) :=
  after_of_writes_sub ops13 _ ops13_writes h
theorem val13_arg (V0 : Valuation τ sig (Elt F)) {r : Ref sig .tc} (h : Kept r) : val13 V0 (no_index (Proc.devRef .tc r)) = V0 (Proc.devRef .tc r) :=
  (val13_keep V0 r h.2.2.2.2.2.2.2.2.2.2.2.2.1).trans (val12_arg V0 h)
theorem val13_main_v40 (V0 : Valuation τ sig (Elt F)) : val13 V0 (no_index (Proc.devRef .tc main_v40)) = Read.val_main_v40 (F := F) (V0 (Proc.devRef .tc main_arg0)) (V0 (Proc.devRef .tc main_arg3)) (V0 (Proc.devRef .tc main_arg8)) (V0 (Proc.devRef .tc main_arg13)) (V0 (Proc.devRef .tc main_arg14)) (V0 (Proc.devRef .tc main_arg15)) (V0 (Proc.devRef .tc main_arg16)) :=
  (val13_keep V0 main_v40 (by decide)).trans (val12_main_v40 V0)
theorem val13_main_v81 (V0 : Valuation τ sig (Elt F)) : val13 V0 (no_index (Proc.devRef .tc main_v81)) = Read.val_main_v81 (F := F) (V0 (Proc.devRef .tc main_arg0)) (V0 (Proc.devRef .tc main_arg1)) (V0 (Proc.devRef .tc main_arg4)) (V0 (Proc.devRef .tc main_arg9)) (V0 (Proc.devRef .tc main_arg17)) (V0 (Proc.devRef .tc main_arg18)) (V0 (Proc.devRef .tc main_arg19)) (V0 (Proc.devRef .tc main_arg20)) :=
  (val13_keep V0 main_v81 (by decide)).trans (val12_main_v81 V0)
theorem val13_main_v122 (V0 : Valuation τ sig (Elt F)) : val13 V0 (no_index (Proc.devRef .tc main_v122)) = Read.val_main_v122 (F := F) (V0 (Proc.devRef .tc main_arg1)) (V0 (Proc.devRef .tc main_arg5)) (V0 (Proc.devRef .tc main_arg10)) (V0 (Proc.devRef .tc main_arg21)) (V0 (Proc.devRef .tc main_arg22)) (V0 (Proc.devRef .tc main_arg23)) (V0 (Proc.devRef .tc main_arg24)) :=
  (val13_keep V0 main_v122 (by decide)).trans (val12_main_v122 V0)
theorem val13_main_v163 (V0 : Valuation τ sig (Elt F)) : val13 V0 (no_index (Proc.devRef .tc main_v163)) = Read.val_main_v163 (F := F) (V0 (Proc.devRef .tc main_arg1)) (V0 (Proc.devRef .tc main_arg2)) (V0 (Proc.devRef .tc main_arg6)) (V0 (Proc.devRef .tc main_arg11)) (V0 (Proc.devRef .tc main_arg25)) (V0 (Proc.devRef .tc main_arg26)) (V0 (Proc.devRef .tc main_arg27)) (V0 (Proc.devRef .tc main_arg28)) :=
  (val13_keep V0 main_v163 (by decide)).trans (val12_main_v163 V0)
set_option maxRecDepth 8192 in
set_option maxHeartbeats 4000000 in
theorem val13_main_v204 (V0 : Valuation τ sig (Elt F)) : val13 V0 (no_index (Proc.devRef .tc main_v204)) = Read.val_main_v204 (F := F) (V0 (Proc.devRef .tc main_arg2)) (V0 (Proc.devRef .tc main_arg7)) (V0 (Proc.devRef .tc main_arg12)) (V0 (Proc.devRef .tc main_arg29)) (V0 (Proc.devRef .tc main_arg30)) (V0 (Proc.devRef .tc main_arg31)) (V0 (Proc.devRef .tc main_arg32)) := by
  unfold val13
  simp only [ops13]
  after_results_simp
  try dsimp only [Matrix.cons_val]
  rw [val12_arg _ kept32, val12_arg _ kept31, val12_arg _ kept30, val12_arg _ kept29, val12_arg _ kept12, val12_main_v181, val12_main_v172, val12_arg _ kept7]
  all_goals rfl

def val14 (V0 : Valuation τ sig (Elt F)) : Valuation τ sig (Elt F) := after ops14 (val13 V0)

theorem val14_keep (V0 : Valuation τ sig (Elt F)) (r : Ref sig .tc) (h : r ∉ ops14_W) :
    val14 V0 (Proc.devRef .tc r) = val13 V0 (Proc.devRef .tc r) :=
  after_of_writes_sub ops14 _ ops14_writes h
theorem val14_arg (V0 : Valuation τ sig (Elt F)) {r : Ref sig .tc} (h : Kept r) : val14 V0 (no_index (Proc.devRef .tc r)) = V0 (Proc.devRef .tc r) :=
  (val14_keep V0 r h.2.2.2.2.2.2.2.2.2.2.2.2.2.1).trans (val13_arg V0 h)
theorem val14_main_v81 (V0 : Valuation τ sig (Elt F)) : val14 V0 (no_index (Proc.devRef .tc main_v81)) = Read.val_main_v81 (F := F) (V0 (Proc.devRef .tc main_arg0)) (V0 (Proc.devRef .tc main_arg1)) (V0 (Proc.devRef .tc main_arg4)) (V0 (Proc.devRef .tc main_arg9)) (V0 (Proc.devRef .tc main_arg17)) (V0 (Proc.devRef .tc main_arg18)) (V0 (Proc.devRef .tc main_arg19)) (V0 (Proc.devRef .tc main_arg20)) :=
  (val14_keep V0 main_v81 (by decide)).trans (val13_main_v81 V0)
theorem val14_main_v122 (V0 : Valuation τ sig (Elt F)) : val14 V0 (no_index (Proc.devRef .tc main_v122)) = Read.val_main_v122 (F := F) (V0 (Proc.devRef .tc main_arg1)) (V0 (Proc.devRef .tc main_arg5)) (V0 (Proc.devRef .tc main_arg10)) (V0 (Proc.devRef .tc main_arg21)) (V0 (Proc.devRef .tc main_arg22)) (V0 (Proc.devRef .tc main_arg23)) (V0 (Proc.devRef .tc main_arg24)) :=
  (val14_keep V0 main_v122 (by decide)).trans (val13_main_v122 V0)
theorem val14_main_v163 (V0 : Valuation τ sig (Elt F)) : val14 V0 (no_index (Proc.devRef .tc main_v163)) = Read.val_main_v163 (F := F) (V0 (Proc.devRef .tc main_arg1)) (V0 (Proc.devRef .tc main_arg2)) (V0 (Proc.devRef .tc main_arg6)) (V0 (Proc.devRef .tc main_arg11)) (V0 (Proc.devRef .tc main_arg25)) (V0 (Proc.devRef .tc main_arg26)) (V0 (Proc.devRef .tc main_arg27)) (V0 (Proc.devRef .tc main_arg28)) :=
  (val14_keep V0 main_v163 (by decide)).trans (val13_main_v163 V0)
theorem val14_main_v204 (V0 : Valuation τ sig (Elt F)) : val14 V0 (no_index (Proc.devRef .tc main_v204)) = Read.val_main_v204 (F := F) (V0 (Proc.devRef .tc main_arg2)) (V0 (Proc.devRef .tc main_arg7)) (V0 (Proc.devRef .tc main_arg12)) (V0 (Proc.devRef .tc main_arg29)) (V0 (Proc.devRef .tc main_arg30)) (V0 (Proc.devRef .tc main_arg31)) (V0 (Proc.devRef .tc main_arg32)) :=
  (val14_keep V0 main_v204 (by decide)).trans (val13_main_v204 V0)
set_option maxRecDepth 8192 in
set_option maxHeartbeats 4000000 in
theorem val14_main_v209 (V0 : Valuation τ sig (Elt F)) : val14 V0 (no_index (Proc.devRef .tc main_v209)) = Read.val_main_v209 (F := F) (V0 (Proc.devRef .tc main_arg0)) (V0 (Proc.devRef .tc main_arg3)) (V0 (Proc.devRef .tc main_arg8)) (V0 (Proc.devRef .tc main_arg13)) (V0 (Proc.devRef .tc main_arg14)) (V0 (Proc.devRef .tc main_arg15)) (V0 (Proc.devRef .tc main_arg16)) (V0 (Proc.devRef .tc main_arg33)) (V0 (Proc.devRef .tc main_arg34)) := by
  unfold val14
  simp only [ops14]
  after_results_simp
  rw [val13_arg _ kept34, val13_arg _ kept33, val13_main_v40, val13_arg _ kept0]
  all_goals rfl

def val15 (V0 : Valuation τ sig (Elt F)) : Valuation τ sig (Elt F) := after ops15 (val14 V0)

theorem val15_keep (V0 : Valuation τ sig (Elt F)) (r : Ref sig .tc) (h : r ∉ ops15_W) :
    val15 V0 (Proc.devRef .tc r) = val14 V0 (Proc.devRef .tc r) :=
  after_of_writes_sub ops15 _ ops15_writes h
theorem val15_arg (V0 : Valuation τ sig (Elt F)) {r : Ref sig .tc} (h : Kept r) : val15 V0 (no_index (Proc.devRef .tc r)) = V0 (Proc.devRef .tc r) :=
  (val15_keep V0 r h.2.2.2.2.2.2.2.2.2.2.2.2.2.2.1).trans (val14_arg V0 h)
theorem val15_main_v163 (V0 : Valuation τ sig (Elt F)) : val15 V0 (no_index (Proc.devRef .tc main_v163)) = Read.val_main_v163 (F := F) (V0 (Proc.devRef .tc main_arg1)) (V0 (Proc.devRef .tc main_arg2)) (V0 (Proc.devRef .tc main_arg6)) (V0 (Proc.devRef .tc main_arg11)) (V0 (Proc.devRef .tc main_arg25)) (V0 (Proc.devRef .tc main_arg26)) (V0 (Proc.devRef .tc main_arg27)) (V0 (Proc.devRef .tc main_arg28)) :=
  (val15_keep V0 main_v163 (by decide)).trans (val14_main_v163 V0)
theorem val15_main_v204 (V0 : Valuation τ sig (Elt F)) : val15 V0 (no_index (Proc.devRef .tc main_v204)) = Read.val_main_v204 (F := F) (V0 (Proc.devRef .tc main_arg2)) (V0 (Proc.devRef .tc main_arg7)) (V0 (Proc.devRef .tc main_arg12)) (V0 (Proc.devRef .tc main_arg29)) (V0 (Proc.devRef .tc main_arg30)) (V0 (Proc.devRef .tc main_arg31)) (V0 (Proc.devRef .tc main_arg32)) :=
  (val15_keep V0 main_v204 (by decide)).trans (val14_main_v204 V0)
theorem val15_main_v209 (V0 : Valuation τ sig (Elt F)) : val15 V0 (no_index (Proc.devRef .tc main_v209)) = Read.val_main_v209 (F := F) (V0 (Proc.devRef .tc main_arg0)) (V0 (Proc.devRef .tc main_arg3)) (V0 (Proc.devRef .tc main_arg8)) (V0 (Proc.devRef .tc main_arg13)) (V0 (Proc.devRef .tc main_arg14)) (V0 (Proc.devRef .tc main_arg15)) (V0 (Proc.devRef .tc main_arg16)) (V0 (Proc.devRef .tc main_arg33)) (V0 (Proc.devRef .tc main_arg34)) :=
  (val15_keep V0 main_v209 (by decide)).trans (val14_main_v209 V0)
set_option maxRecDepth 8192 in
set_option maxHeartbeats 4000000 in
theorem val15_main_v214 (V0 : Valuation τ sig (Elt F)) : val15 V0 (no_index (Proc.devRef .tc main_v214)) = Read.val_main_v214 (F := F) (V0 (Proc.devRef .tc main_arg0)) (V0 (Proc.devRef .tc main_arg1)) (V0 (Proc.devRef .tc main_arg4)) (V0 (Proc.devRef .tc main_arg5)) (V0 (Proc.devRef .tc main_arg9)) (V0 (Proc.devRef .tc main_arg10)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg35)) (V0 (Proc.devRef .tc main_arg36)) := by
  unfold val15
  simp only [ops15]
  after_results_simp
  try dsimp only [Matrix.cons_val]
  rw [val14_arg _ kept36, val14_arg _ kept35, val14_main_v122, val14_main_v81, val14_arg _ kept1]
  all_goals rfl

def val16 (V0 : Valuation τ sig (Elt F)) : Valuation τ sig (Elt F) := after ops16 (val15 V0)

theorem val16_keep (V0 : Valuation τ sig (Elt F)) (r : Ref sig .tc) (h : r ∉ ops16_W) :
    val16 V0 (Proc.devRef .tc r) = val15 V0 (Proc.devRef .tc r) :=
  after_of_writes_sub ops16 _ ops16_writes h
theorem val16_arg (V0 : Valuation τ sig (Elt F)) {r : Ref sig .tc} (h : Kept r) : val16 V0 (no_index (Proc.devRef .tc r)) = V0 (Proc.devRef .tc r) :=
  (val16_keep V0 r h.2.2.2.2.2.2.2.2.2.2.2.2.2.2.2).trans (val15_arg V0 h)
set_option maxRecDepth 8192 in
set_option maxHeartbeats 4000000 in
theorem val16_main_v220 (V0 : Valuation τ sig (Elt F)) : val16 V0 (no_index (Proc.devRef .tc main_v220)) = Read.val_main_v220 (F := F) (V0 (Proc.devRef .tc main_arg0)) (V0 (Proc.devRef .tc main_arg3)) (V0 (Proc.devRef .tc main_arg8)) (V0 (Proc.devRef .tc main_arg13)) (V0 (Proc.devRef .tc main_arg14)) (V0 (Proc.devRef .tc main_arg15)) (V0 (Proc.devRef .tc main_arg16)) (V0 (Proc.devRef .tc main_arg33)) (V0 (Proc.devRef .tc main_arg34)) := by
  unfold val16
  simp only [ops16]
  after_results_simp
  rw [val15_main_v209, val15_arg _ kept0]
  all_goals rfl
set_option maxRecDepth 8192 in
set_option maxHeartbeats 4000000 in
theorem val16_main_v221 (V0 : Valuation τ sig (Elt F)) : val16 V0 (no_index (Proc.devRef .tc main_v221)) = Read.val_main_v221 (F := F) (V0 (Proc.devRef .tc main_arg0)) (V0 (Proc.devRef .tc main_arg1)) (V0 (Proc.devRef .tc main_arg4)) (V0 (Proc.devRef .tc main_arg5)) (V0 (Proc.devRef .tc main_arg9)) (V0 (Proc.devRef .tc main_arg10)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg35)) (V0 (Proc.devRef .tc main_arg36)) := by
  unfold val16
  simp only [ops16]
  after_results_simp
  rw [val15_main_v214, val15_arg _ kept1]
  all_goals rfl
set_option maxRecDepth 8192 in
set_option maxHeartbeats 4000000 in
theorem val16_main_v222 (V0 : Valuation τ sig (Elt F)) : val16 V0 (no_index (Proc.devRef .tc main_v222)) = Read.val_main_v222 (F := F) (V0 (Proc.devRef .tc main_arg1)) (V0 (Proc.devRef .tc main_arg2)) (V0 (Proc.devRef .tc main_arg6)) (V0 (Proc.devRef .tc main_arg7)) (V0 (Proc.devRef .tc main_arg11)) (V0 (Proc.devRef .tc main_arg12)) (V0 (Proc.devRef .tc main_arg25)) (V0 (Proc.devRef .tc main_arg26)) (V0 (Proc.devRef .tc main_arg27)) (V0 (Proc.devRef .tc main_arg28)) (V0 (Proc.devRef .tc main_arg29)) (V0 (Proc.devRef .tc main_arg30)) (V0 (Proc.devRef .tc main_arg31)) (V0 (Proc.devRef .tc main_arg32)) (V0 (Proc.devRef .tc main_arg37)) (V0 (Proc.devRef .tc main_arg38)) := by
  unfold val16
  simp only [ops16]
  after_results_simp
  try dsimp only [Matrix.cons_val]
  rw [val15_arg _ kept38, val15_arg _ kept37, val15_main_v204, val15_main_v163, val15_arg _ kept2]
  all_goals rfl

def win0 : List (HloOp τ sig (Elt F)) := ops1 ++ (ops2 ++ (ops3))
set_option maxRecDepth 8192 in
set_option maxHeartbeats 4000000 in
theorem main_part0_eq (c : Dev nD) : main_part0 (F := F) c = seq win0 := rfl
theorem win0_sub : ∀ op ∈ (win0 : List (HloOp τ sig (Elt F))), op.bufs ⊆ tcRefs τ sig := by unfold win0; exact forall_mem_append ops1_sub (forall_mem_append ops2_sub (ops3_sub))
theorem win0_fresh : ∀ op ∈ (win0 : List (HloOp τ sig (Elt F))), op.fresh = ∅ := by unfold win0; exact forall_mem_append ops1_fresh (forall_mem_append ops2_fresh (ops3_fresh))

def win1 : List (HloOp τ sig (Elt F)) := ops4 ++ (ops5 ++ (ops6 ++ (ops7)))
set_option maxRecDepth 8192 in
set_option maxHeartbeats 4000000 in
theorem main_part1_eq (c : Dev nD) : main_part1 (F := F) c = seq win1 := rfl
theorem win1_sub : ∀ op ∈ (win1 : List (HloOp τ sig (Elt F))), op.bufs ⊆ tcRefs τ sig := by unfold win1; exact forall_mem_append ops4_sub (forall_mem_append ops5_sub (forall_mem_append ops6_sub (ops7_sub)))
theorem win1_fresh : ∀ op ∈ (win1 : List (HloOp τ sig (Elt F))), op.fresh = ∅ := by unfold win1; exact forall_mem_append ops4_fresh (forall_mem_append ops5_fresh (forall_mem_append ops6_fresh (ops7_fresh)))

def win2 : List (HloOp τ sig (Elt F)) := ops8 ++ (ops9 ++ (ops10))
set_option maxRecDepth 8192 in
set_option maxHeartbeats 4000000 in
theorem main_part2_eq (c : Dev nD) : main_part2 (F := F) c = seq win2 := rfl
theorem win2_sub : ∀ op ∈ (win2 : List (HloOp τ sig (Elt F))), op.bufs ⊆ tcRefs τ sig := by unfold win2; exact forall_mem_append ops8_sub (forall_mem_append ops9_sub (ops10_sub))
theorem win2_fresh : ∀ op ∈ (win2 : List (HloOp τ sig (Elt F))), op.fresh = ∅ := by unfold win2; exact forall_mem_append ops8_fresh (forall_mem_append ops9_fresh (ops10_fresh))

def win3 : List (HloOp τ sig (Elt F)) := ops11 ++ (ops12 ++ (ops13))
set_option maxRecDepth 8192 in
set_option maxHeartbeats 4000000 in
theorem main_part3_eq (c : Dev nD) : main_part3 (F := F) c = seq win3 := rfl
theorem win3_sub : ∀ op ∈ (win3 : List (HloOp τ sig (Elt F))), op.bufs ⊆ tcRefs τ sig := by unfold win3; exact forall_mem_append ops11_sub (forall_mem_append ops12_sub (ops13_sub))
theorem win3_fresh : ∀ op ∈ (win3 : List (HloOp τ sig (Elt F))), op.fresh = ∅ := by unfold win3; exact forall_mem_append ops11_fresh (forall_mem_append ops12_fresh (ops13_fresh))

def win4 : List (HloOp τ sig (Elt F)) := ops14 ++ (ops15 ++ (ops16))
set_option maxRecDepth 8192 in
set_option maxHeartbeats 4000000 in
theorem main_part4_eq (c : Dev nD) : main_part4 (F := F) c = seq win4 := rfl
theorem win4_sub : ∀ op ∈ (win4 : List (HloOp τ sig (Elt F))), op.bufs ⊆ tcRefs τ sig := by unfold win4; exact forall_mem_append ops14_sub (forall_mem_append ops15_sub (ops16_sub))
theorem win4_fresh : ∀ op ∈ (win4 : List (HloOp τ sig (Elt F))), op.fresh = ∅ := by unfold win4; exact forall_mem_append ops14_fresh (forall_mem_append ops15_fresh (ops16_fresh))

def ops : List (HloOp τ sig (Elt F)) := win0 ++ (win1 ++ (win2 ++ (win3 ++ win4)))
theorem main_eq (c : Dev nD) : main (F := F) c = seq ops := by
  unfold ops
  rw [seq_append, seq_append, seq_append, seq_append, ← main_part0_eq c, ← main_part1_eq c, ← main_part2_eq c, ← main_part3_eq c, ← main_part4_eq c]
  rfl
theorem ops_sub : (ops : List (HloOp τ sig (Elt F))).Forall fun op => op.bufs ⊆ tcRefs τ sig := by
  unfold ops; exact List.forall_iff_forall_mem.mpr (forall_mem_append win0_sub (forall_mem_append win1_sub (forall_mem_append win2_sub (forall_mem_append win3_sub win4_sub))))
theorem ops_fresh : ∀ op ∈ (ops : List (HloOp τ sig (Elt F))), op.fresh = ∅ := by
  unfold ops; exact forall_mem_append win0_fresh (forall_mem_append win1_fresh (forall_mem_append win2_fresh (forall_mem_append win3_fresh win4_fresh)))
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in

theorem after_ops (V0 : Valuation τ sig (Elt F)) : after ops V0 = val16 V0 := by
  unfold ops win0 win1 win2 win3 win4
  simp only [after_append]
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v220) = Cert.ReferenceIdeal.Read.val_main_v220 (F := F) (m ((c.tc : Thread nD τ).loc main_arg0)) (m ((c.tc : Thread nD τ).loc main_arg3)) (m ((c.tc : Thread nD τ).loc main_arg8)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg33)) (m ((c.tc : Thread nD τ).loc main_arg34))
      ∧ r.2.mem ((c.tc : Thread nD τ).loc main_v221) = Cert.ReferenceIdeal.Read.val_main_v221 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg9)) (m ((c.tc : Thread nD τ).loc main_arg10)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg35)) (m ((c.tc : Thread nD τ).loc main_arg36))
      ∧ r.2.mem ((c.tc : Thread nD τ).loc main_v222) = Cert.ReferenceIdeal.Read.val_main_v222 (F := F) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg11)) (m ((c.tc : Thread nD τ).loc main_arg12)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg37)) (m ((c.tc : Thread nD τ).loc main_arg38))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38) :=
  (θ_run defs _ _).mono (fun _ h c => ⟨(h c main_v220).trans ((congrFun (after_ops _) _).trans (val16_main_v220 (launchContents m c))),
      (h c main_v221).trans ((congrFun (after_ops _) _).trans (val16_main_v221 (launchContents m c))),
      (h c main_v222).trans ((congrFun (after_ops _) _).trans (val16_main_v222 (launchContents m c))),
      (h c main_arg0).trans ((congrFun (after_ops _) _).trans (val16_arg (launchContents m c) kept0)),
      (h c main_arg1).trans ((congrFun (after_ops _) _).trans (val16_arg (launchContents m c) kept1)),
      (h c main_arg2).trans ((congrFun (after_ops _) _).trans (val16_arg (launchContents m c) kept2)),
      (h c main_arg3).trans ((congrFun (after_ops _) _).trans (val16_arg (launchContents m c) kept3)),
      (h c main_arg4).trans ((congrFun (after_ops _) _).trans (val16_arg (launchContents m c) kept4)),
      (h c main_arg5).trans ((congrFun (after_ops _) _).trans (val16_arg (launchContents m c) kept5)),
      (h c main_arg6).trans ((congrFun (after_ops _) _).trans (val16_arg (launchContents m c) kept6)),
      (h c main_arg7).trans ((congrFun (after_ops _) _).trans (val16_arg (launchContents m c) kept7)),
      (h c main_arg8).trans ((congrFun (after_ops _) _).trans (val16_arg (launchContents m c) kept8)),
      (h c main_arg9).trans ((congrFun (after_ops _) _).trans (val16_arg (launchContents m c) kept9)),
      (h c main_arg10).trans ((congrFun (after_ops _) _).trans (val16_arg (launchContents m c) kept10)),
      (h c main_arg11).trans ((congrFun (after_ops _) _).trans (val16_arg (launchContents m c) kept11)),
      (h c main_arg12).trans ((congrFun (after_ops _) _).trans (val16_arg (launchContents m c) kept12)),
      (h c main_arg13).trans ((congrFun (after_ops _) _).trans (val16_arg (launchContents m c) kept13)),
      (h c main_arg14).trans ((congrFun (after_ops _) _).trans (val16_arg (launchContents m c) kept14)),
      (h c main_arg15).trans ((congrFun (after_ops _) _).trans (val16_arg (launchContents m c) kept15)),
      (h c main_arg16).trans ((congrFun (after_ops _) _).trans (val16_arg (launchContents m c) kept16)),
      (h c main_arg17).trans ((congrFun (after_ops _) _).trans (val16_arg (launchContents m c) kept17)),
      (h c main_arg18).trans ((congrFun (after_ops _) _).trans (val16_arg (launchContents m c) kept18)),
      (h c main_arg19).trans ((congrFun (after_ops _) _).trans (val16_arg (launchContents m c) kept19)),
      (h c main_arg20).trans ((congrFun (after_ops _) _).trans (val16_arg (launchContents m c) kept20)),
      (h c main_arg21).trans ((congrFun (after_ops _) _).trans (val16_arg (launchContents m c) kept21)),
      (h c main_arg22).trans ((congrFun (after_ops _) _).trans (val16_arg (launchContents m c) kept22)),
      (h c main_arg23).trans ((congrFun (after_ops _) _).trans (val16_arg (launchContents m c) kept23)),
      (h c main_arg24).trans ((congrFun (after_ops _) _).trans (val16_arg (launchContents m c) kept24)),
      (h c main_arg25).trans ((congrFun (after_ops _) _).trans (val16_arg (launchContents m c) kept25)),
      (h c main_arg26).trans ((congrFun (after_ops _) _).trans (val16_arg (launchContents m c) kept26)),
      (h c main_arg27).trans ((congrFun (after_ops _) _).trans (val16_arg (launchContents m c) kept27)),
      (h c main_arg28).trans ((congrFun (after_ops _) _).trans (val16_arg (launchContents m c) kept28)),
      (h c main_arg29).trans ((congrFun (after_ops _) _).trans (val16_arg (launchContents m c) kept29)),
      (h c main_arg30).trans ((congrFun (after_ops _) _).trans (val16_arg (launchContents m c) kept30)),
      (h c main_arg31).trans ((congrFun (after_ops _) _).trans (val16_arg (launchContents m c) kept31)),
      (h c main_arg32).trans ((congrFun (after_ops _) _).trans (val16_arg (launchContents m c) kept32)),
      (h c main_arg33).trans ((congrFun (after_ops _) _).trans (val16_arg (launchContents m c) kept33)),
      (h c main_arg34).trans ((congrFun (after_ops _) _).trans (val16_arg (launchContents m c) kept34)),
      (h c main_arg35).trans ((congrFun (after_ops _) _).trans (val16_arg (launchContents m c) kept35)),
      (h c main_arg36).trans ((congrFun (after_ops _) _).trans (val16_arg (launchContents m c) kept36)),
      (h c main_arg37).trans ((congrFun (after_ops _) _).trans (val16_arg (launchContents m c) kept37)),
      (h c main_arg38).trans ((congrFun (after_ops _) _).trans (val16_arg (launchContents m c) kept38))⟩)
    (run_seq scopedRefs_eq scopedSems_eq defs main (fun _ => ops) main_eq (fun _ => ops_sub) m ρ (fun _ => ops_fresh))

end Cert.RefRun

end
-- ==== Proof.IdxFacts.lean ====
/- An index vector lies in [0, N): each word, read signed, is at least 0 and below N. -/
import Idealize.ShloMosaic.Lib.StableHlo.Predicate

namespace Cert.IdxFacts

open Idealize.ShloMosaic

def InRange (N : ℕ) {S : Shape} (v : IVec S 32) : Prop :=
  ∀ i, IntOp.cmpi .sge (v i) 0#32 = 1#1 ∧ IntOp.cmpi .slt (v i) (BitVec.ofNat 32 N) = 1#1

end Cert.IdxFacts
-- ==== Proof.PreFacts.lean ====
/- The precondition puts every index row of every adjacency array inside the table it indexes. -/
import proofs.«412327_j14886356648020_1_alg».proof.Defs
import proofs.«412327_j14886356648020_1_alg».proof.Proof.Gen.Pre_finite_inputs
import proofs.«412327_j14886356648020_1_alg».proof.Proof.Gen.KernelIdeal
import proofs.«412327_j14886356648020_1_alg».proof.Proof.KTerms
import proofs.«412327_j14886356648020_1_alg».proof.Proof.IdxFacts
import Idealize.ShloMosaic.Lib.ReduceAll
import Idealize.ShloMosaic.Lib.StableHlo.Predicate

set_option maxRecDepth 16384

noncomputable section

namespace Cert.PreFacts

open Idealize.ShloMosaic Idealize.ShloMosaic.TcCoe Idealize.SL.Sem Cert.KernelIdeal Cert.IdxFacts

instance scalarIdx_subsingleton : Subsingleton (⟨0, ![]⟩ : Shape).Idx := ⟨fun a b => funext fun d => d.elim0⟩

theorem row_inRange {s : Shape} {axes : List (Fin s.rank)} (N : ℕ) (row : IVec s 32)
    (hb : (⟨0, ![]⟩ : Shape).BroadcastsInDim s ![]) (hr : s.ReducesTo axes ⟨0, ![]⟩)
    (hu : 0 < (⟨0, ![]⟩ : Shape).numel) (j : (⟨0, ![]⟩ : Shape).Idx)
    (e : Host.reduce IntOp.andi
          (andi (cmpi .sge row (broadcastInDim s ![] hb (constantI ⟨0, ![]⟩ 32 0#32)))
                (cmpi .slt row (broadcastInDim s ![] hb (constantI ⟨0, ![]⟩ 32 (BitVec.ofNat 32 N)))))
          (constantI ⟨0, ![]⟩ 1 1#1) hr hu j = 1#1) :
    InRange N row := by
  intro i
  have hi := Host.reduce_andi_all _ _ hr hu j e i
  obtain ⟨h0, h1⟩ := IntOp.andi_eq_one.1 hi
  have h0' : IntOp.cmpi .sge (row i) (broadcastInDim s ![] hb (constantI ⟨0, ![]⟩ 32 0#32) i) = 1#1 := h0
  have h1' : IntOp.cmpi .slt (row i) (broadcastInDim s ![] hb (constantI ⟨0, ![]⟩ 32 (BitVec.ofNat 32 N)) i) = 1#1 := h1
  rw [StableHlo.Predicate.bcast_scalar hb hu] at h0' h1'
  exact ⟨h0', h1'⟩

theorem of_pre (m : (ℓ : Loc nD τ sig) → Buf (Elt Ideal) ℓ) (h : Cert.Pre_KernelIdeal m) (c : Dev nD) :
    InRange 100000 (KT.idx0_00 (m ((c : Thread nD τ).loc main_arg3)))
    ∧ InRange 100000 (KT.idx1_00 (m ((c : Thread nD τ).loc main_arg3)))
    ∧ InRange 100000 (KT.idx0_01 (m ((c : Thread nD τ).loc main_arg4)))
    ∧ InRange 150000 (KT.idx1_01 (m ((c : Thread nD τ).loc main_arg4)))
    ∧ InRange 150000 (KT.idx0_11 (m ((c : Thread nD τ).loc main_arg5)))
    ∧ InRange 150000 (KT.idx1_11 (m ((c : Thread nD τ).loc main_arg5)))
    ∧ InRange 150000 (KT.idx0_12 (m ((c : Thread nD τ).loc main_arg6)))
    ∧ InRange 80000 (KT.idx1_12 (m ((c : Thread nD τ).loc main_arg6)))
    ∧ InRange 80000 (KT.idx0_22 (m ((c : Thread nD τ).loc main_arg7)))
    ∧ InRange 80000 (KT.idx1_22 (m ((c : Thread nD τ).loc main_arg7))) := by
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7, Cert.Pre_finite_inputs.fn_part8,
    Cert.Pre_finite_inputs.fn_part9, Cert.Pre_finite_inputs.fn_part10, Cert.Pre_finite_inputs.fn_part11,
    Cert.Pre_finite_inputs.fn_part12, Cert.Pre_finite_inputs.fn_part13, Cert.Pre_finite_inputs.fn_part14,
    Cert.Pre_finite_inputs.fn_part15] at e
  obtain ⟨e9, c9⟩ := IntOp.andi_eq_one.1 e
  obtain ⟨e8, c8⟩ := IntOp.andi_eq_one.1 e9
  obtain ⟨e7, c7⟩ := IntOp.andi_eq_one.1 e8
  obtain ⟨e6, c6⟩ := IntOp.andi_eq_one.1 e7
  obtain ⟨e5, c5⟩ := IntOp.andi_eq_one.1 e6
  obtain ⟨e4, c4⟩ := IntOp.andi_eq_one.1 e5
  obtain ⟨e3, c3⟩ := IntOp.andi_eq_one.1 e4
  obtain ⟨e2, c2⟩ := IntOp.andi_eq_one.1 e3
  obtain ⟨e1, c1⟩ := IntOp.andi_eq_one.1 e2
  obtain ⟨-, c0⟩ := IntOp.andi_eq_one.1 e1
  clear e e9 e8 e7 e6 e5 e4 e3 e2 e1
  exact ⟨row_inRange 100000 _ _ _ _ _ c0, row_inRange 100000 _ _ _ _ _ c1, row_inRange 100000 _ _ _ _ _ c2,
    row_inRange 150000 _ _ _ _ _ c3, row_inRange 150000 _ _ _ _ _ c4, row_inRange 150000 _ _ _ _ _ c5,
    row_inRange 150000 _ _ _ _ _ c6, row_inRange 80000 _ _ _ _ _ c7, row_inRange 80000 _ _ _ _ _ c8,
    row_inRange 80000 _ _ _ _ _ c9⟩

end Cert.PreFacts

end
-- ==== Proof.TakeFacts.lean ====
/- A row gather whose indices all lie inside the table is the plain gather. -/
import proofs.«412327_j14886356648020_1_alg».proof.Proof.KTerms
import proofs.«412327_j14886356648020_1_alg».proof.Proof.IdxFacts
import Idealize.ShloMosaic.Lib.ReduceAll
import Idealize.ShloMosaic.Lib.StableHlo.Predicate
import Idealize.ShloMosaic.Lib.Pipeline.Value

set_option maxRecDepth 16384

noncomputable section

namespace Cert.KernelIdeal.TakeFacts

open Idealize.ShloMosaic Idealize.ShloMosaic.ValueIdx Cert.KernelIdeal Cert.KernelIdeal.Facts₀ Cert.KernelIdeal.Facts Cert.IdxFacts

theorem toNat_lt_of_sge_zero {w : BitVec 32} (h : IntOp.cmpi .sge w 0#32 = 1#1) : w.toNat < 2 ^ 31 := by
  have h' : BitVec.ofBool ((0#32 : BitVec 32).sle w) = 1#1 := h
  rw [StableHlo.Predicate.ofBool_eq_one_iff] at h'
  simp only [BitVec.sle, decide_eq_true_eq] at h'
  have h0 : (0#32 : BitVec 32).toInt = 0 := by decide
  rw [h0, BitVec.toInt_eq_toNat_cond] at h'
  have hlt := w.isLt
  split at h' <;> omega

theorem word_facts {N : ℕ} (hN : N < 2 ^ 31) {w hi : BitVec 32} (hhi : hi.toNat + 1 = N)
    (h : IntOp.cmpi .sge w 0#32 = 1#1 ∧ IntOp.cmpi .slt w (BitVec.ofNat 32 N) = 1#1) :
    IntOp.cmpi .slt w 0#32 = 0#1 ∧ IntOp.cmpi .sle w hi = 1#1 := by
  have hw : w.toNat < 2 ^ 31 := toNat_lt_of_sge_zero h.1
  have hNn : (BitVec.ofNat 32 N).toNat = N := by
    rw [BitVec.toNat_ofNat]; exact Nat.mod_eq_of_lt (by omega)
  have hlt : w.toNat < N := by
    have := (StableHlo.Predicate.slt_iff_toNat hw (by rw [hNn]; exact hN)).1 h.2
    rwa [hNn] at this
  refine ⟨eq_zero_of_ne_one fun e => ?_, (StableHlo.Predicate.sle_iff_toNat hw (by omega)).2 (by omega)⟩
  have := (StableHlo.Predicate.slt_iff_toNat hw (by decide)).1 e
  have h0 : (0#32 : BitVec 32).toNat = 0 := by decide
  omega

theorem word_inside {N : ℕ} (hN : N < 2 ^ 31) {w hi : BitVec 32} (hhi : hi.toNat + 1 = N) (Nw : BitVec 32)
    (h : IntOp.cmpi .sge w 0#32 = 1#1 ∧ IntOp.cmpi .slt w (BitVec.ofNat 32 N) = 1#1) :
    IntOp.andi (IntOp.cmpi .sge (Scalar.select (IntOp.cmpi .slt w 0#32) (IntOp.addi w Nw) w) 0#32)
      (IntOp.cmpi .sle (Scalar.select (IntOp.cmpi .slt w 0#32) (IntOp.addi w Nw) w) hi) = 1#1 := by
  obtain ⟨h1, h2⟩ := word_facts hN hhi h
  rw [h1, select_zero, h.1, h2]
  decide

theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons.2 (Or.inl rfl)), show IntOp.andi 1#1 1#1 = 1#1 from by decide]
    exact foldl_andi_one f l fun n hn => h n (List.mem_cons.2 (Or.inr hn))

theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ fun i _ => hx i

theorem select_bcast_one {α : Type} {s t : Shape} (dims : Fin s.rank → Fin t.rank) (b : s.BroadcastsInDim t dims)
    (m : IVec s 1) (hm : ∀ j, m j = 1#1) (A B : t.Idx → α) :
    select (broadcastInDim t dims b m) A B = A := by
  funext i
  rw [select_apply]
  unfold broadcastInDim
  rw [hm]
  exact select_one _ _

theorem inside_eq_one {N E : ℕ} (hN : N < 2 ^ 31) (hi : BitVec 32) (hhi : hi.toNat + 1 = N) (Nw : BitVec 32)
    (b_col : (⟨1, ![E]⟩ : Shape).BroadcastsInDim ⟨2, ![E, 1]⟩ ![0])
    (b_s1 : S_.BroadcastsInDim (⟨1, ![E]⟩ : Shape) ![])
    (b_s2 : S_.BroadcastsInDim (⟨2, ![E, 1]⟩ : Shape) ![])
    (b_11 : S1x1.BroadcastsInDim (⟨2, ![E, 1]⟩ : Shape) ![0, 1])
    (b_1 : S1.BroadcastsInDim S1x1 ![1])
    (red : (⟨2, ![E, 1]⟩ : Shape).ReducesTo [1] ⟨1, ![E]⟩) (hu : 0 < S_.numel)
    (idx : IVec ⟨1, ![E]⟩ 32) (h : InRange N idx) (j : (⟨1, ![E]⟩ : Shape).Idx) :
    Host.reduce IntOp.andi
      (andi
        (cmpi .sge
          (broadcastInDim ⟨2, ![E, 1]⟩ ![0] b_col
            (select (cmpi .slt idx (broadcastInDim ⟨1, ![E]⟩ ![] b_s1 (constantI S_ 32 0#32)))
              (addi idx (broadcastInDim ⟨1, ![E]⟩ ![] b_s1 (constantI S_ 32 Nw))) idx))
          (broadcastInDim ⟨2, ![E, 1]⟩ ![] b_s2 (constantI S_ 32 0#32)))
        (cmpi .sle
          (broadcastInDim ⟨2, ![E, 1]⟩ ![0] b_col
            (select (cmpi .slt idx (broadcastInDim ⟨1, ![E]⟩ ![] b_s1 (constantI S_ 32 0#32)))
              (addi idx (broadcastInDim ⟨1, ![E]⟩ ![] b_s1 (constantI S_ 32 Nw))) idx))
          (broadcastInDim ⟨2, ![E, 1]⟩ ![0, 1] b_11 (broadcastInDim S1x1 ![1] b_1 (constantI S1 32 hi)))))
      (constantI S_ 1 1#1) red hu j = 1#1 := by
  refine reduce_andi_one _ _ red hu j rfl fun i => ?_
  exact word_inside hN hhi Nw (h _)

theorem take_100000_500000_eq (x : FVec Ideal S100000x128 .f32) (idx : IVec S500000 32) (h : InRange 100000 idx) :
    KT.take_100000_500000 x idx
      = Host.gather gather_S100000x128_S500000x1_S500000x128_1_0_n_n_0_1_1128 x
          (broadcastInDim S500000x1 ![0] bcast_S500000_S500000x1_0
            (select (cmpi .slt idx (broadcastInDim S500000 ![] bcast_S_S500000 (constantI S_ 32 0#32)))
              (addi idx (broadcastInDim S500000 ![] bcast_S_S500000 (constantI S_ 32 100000#32))) idx)) := by
  unfold KT.take_100000_500000
  exact select_bcast_one _ _ _
    (inside_eq_one (N := 100000) (E := 500000) (by norm_num) 99999#32 rfl 100000#32 bcast_S500000_S500000x1_0 bcast_S_S500000
      bcast_S_S500000x1 bcast_S1x1_S500000x1_0_1 bcast_S1_S1x1_1 reducesTo_S500000x1_S500000_d1 h_S_ idx h) _ _

theorem take_100000_300000_eq (x : FVec Ideal S100000x128 .f32) (idx : IVec S300000 32) (h : InRange 100000 idx) :
    KT.take_100000_300000 x idx
      = Host.gather gather_S100000x128_S300000x1_S300000x128_1_0_n_n_0_1_1128 x
          (broadcastInDim S300000x1 ![0] bcast_S300000_S300000x1_0
            (select (cmpi .slt idx (broadcastInDim S300000 ![] bcast_S_S300000 (constantI S_ 32 0#32)))
              (addi idx (broadcastInDim S300000 ![] bcast_S_S300000 (constantI S_ 32 100000#32))) idx)) := by
  unfold KT.take_100000_300000
  exact select_bcast_one _ _ _
    (inside_eq_one (N := 100000) (E := 300000) (by norm_num) 99999#32 rfl 100000#32 bcast_S300000_S300000x1_0 bcast_S_S300000
      bcast_S_S300000x1 bcast_S1x1_S300000x1_0_1 bcast_S1_S1x1_1 reducesTo_S300000x1_S300000_d1 h_S_ idx h) _ _

theorem take_150000_300000_eq (x : FVec Ideal S150000x128 .f32) (idx : IVec S300000 32) (h : InRange 150000 idx) :
    KT.take_150000_300000 x idx
      = Host.gather gather_S150000x128_S300000x1_S300000x128_1_0_n_n_0_1_1128 x
          (broadcastInDim S300000x1 ![0] bcast_S300000_S300000x1_0
            (select (cmpi .slt idx (broadcastInDim S300000 ![] bcast_S_S300000 (constantI S_ 32 0#32)))
              (addi idx (broadcastInDim S300000 ![] bcast_S_S300000 (constantI S_ 32 150000#32))) idx)) := by
  unfold KT.take_150000_300000
  exact select_bcast_one _ _ _
    (inside_eq_one (N := 150000) (E := 300000) (by norm_num) 149999#32 rfl 150000#32 bcast_S300000_S300000x1_0 bcast_S_S300000
      bcast_S_S300000x1 bcast_S1x1_S300000x1_0_1 bcast_S1_S1x1_1 reducesTo_S300000x1_S300000_d1 h_S_ idx h) _ _

theorem take_150000_200000_eq (x : FVec Ideal S150000x128 .f32) (idx : IVec S200000 32) (h : InRange 150000 idx) :
    KT.take_150000_200000 x idx
      = Host.gather gather_S150000x128_S200000x1_S200000x128_1_0_n_n_0_1_1128 x
          (broadcastInDim S200000x1 ![0] bcast_S200000_S200000x1_0
            (select (cmpi .slt idx (broadcastInDim S200000 ![] bcast_S_S200000 (constantI S_ 32 0#32)))
              (addi idx (broadcastInDim S200000 ![] bcast_S_S200000 (constantI S_ 32 150000#32))) idx)) := by
  unfold KT.take_150000_200000
  exact select_bcast_one _ _ _
    (inside_eq_one (N := 150000) (E := 200000) (by norm_num) 149999#32 rfl 150000#32 bcast_S200000_S200000x1_0 bcast_S_S200000
      bcast_S_S200000x1 bcast_S1x1_S200000x1_0_1 bcast_S1_S1x1_1 reducesTo_S200000x1_S200000_d1 h_S_ idx h) _ _

theorem take_80000_200000_eq (x : FVec Ideal S80000x128 .f32) (idx : IVec S200000 32) (h : InRange 80000 idx) :
    KT.take_80000_200000 x idx
      = Host.gather gather_S80000x128_S200000x1_S200000x128_1_0_n_n_0_1_1128 x
          (broadcastInDim S200000x1 ![0] bcast_S200000_S200000x1_0
            (select (cmpi .slt idx (broadcastInDim S200000 ![] bcast_S_S200000 (constantI S_ 32 0#32)))
              (addi idx (broadcastInDim S200000 ![] bcast_S_S200000 (constantI S_ 32 80000#32))) idx)) := by
  unfold KT.take_80000_200000
  exact select_bcast_one _ _ _
    (inside_eq_one (N := 80000) (E := 200000) (by norm_num) 79999#32 rfl 80000#32 bcast_S200000_S200000x1_0 bcast_S_S200000
      bcast_S_S200000x1 bcast_S1x1_S200000x1_0_1 bcast_S1_S1x1_1 reducesTo_S200000x1_S200000_d1 h_S_ idx h) _ _

end Cert.KernelIdeal.TakeFacts

end
-- ==== Proof.MsgBridge.lean ====
/- Both sides' messages are one array: a sum over 259 columns is the sum of the sums over its first 128, next 128 and last 3. -/
import proofs.«412327_j14886356648020_1_alg».proof.Proof.KTerms
import proofs.«412327_j14886356648020_1_alg».proof.Proof.IdxFacts
import proofs.«412327_j14886356648020_1_alg».proof.Proof.TakeFacts
import proofs.«412327_j14886356648020_1_alg».proof.Proof.RefRead
import Idealize.ShloMosaic.Lib.IdealHost

set_option maxRecDepth 16384

noncomputable section

namespace Cert.MsgBridge

open Idealize.ShloMosaic Idealize.ShloMosaic.ValueIdx Cert.IdxFacts
open Cert.KernelIdeal Cert.KernelIdeal.Facts₀ Cert.KernelIdeal.Facts
open Cert.Spec (Mat Row)
open Cert.ReferenceIdeal.Read

theorem sum_259 (f : Fin 259 → EReal) :
    ∑ k : Fin 259, f k
      = ((∑ k : Fin 128, f ⟨k.val, by have := k.isLt; omega⟩) + ∑ k : Fin 128, f ⟨128 + k.val, by have := k.isLt; omega⟩)
          + ∑ k : Fin 3, f ⟨256 + k.val, by have := k.isLt; omega⟩ := by
  have h1 := Fin.sum_univ_add (M := EReal) (a := 256) (b := 3) f
  have h2 := Fin.sum_univ_add (M := EReal) (a := 128) (b := 128) (fun i : Fin 256 => f (Fin.castAdd 3 i))
  rw [h1, h2]; rfl

theorem Ws_apply (Wm : FVec Ideal S259x128 .f32) (k j : Fin 128) :
    extractStridedSlice S128x128 ![0, 0] Wm slices_S259x128_S128x128_0_0 (ix2 k j)
      = Wm (ix2 ⟨k.val, by have := k.isLt; omega⟩ j) :=
  extractStridedSlice_apply ![0, 0] Wm slices_S259x128_S128x128_0_0 (ix2 k j) (ix2 ⟨k.val, by have := k.isLt; omega⟩ j)
    (fun a => match a with
      | ⟨0, _⟩ => by show k.val = 0 + k.val; omega
      | ⟨1, _⟩ => by show j.val = 0 + j.val; omega)

theorem Wr_apply (Wm : FVec Ideal S259x128 .f32) (k j : Fin 128) :
    extractStridedSlice S128x128 ![128, 0] Wm slices_S259x128_S128x128_128_0 (ix2 k j)
      = Wm (ix2 ⟨128 + k.val, by have := k.isLt; omega⟩ j) :=
  extractStridedSlice_apply ![128, 0] Wm slices_S259x128_S128x128_128_0 (ix2 k j) (ix2 ⟨128 + k.val, by have := k.isLt; omega⟩ j)
    (fun a => match a with
      | ⟨0, _⟩ => by show 128 + k.val = 128 + k.val; omega
      | ⟨1, _⟩ => by show j.val = 0 + j.val; omega)

theorem Wv_apply (Wm : FVec Ideal S259x128 .f32) (k : Fin 3) (j : Fin 128) :
    extractStridedSlice S3x128 ![256, 0] Wm slices_S259x128_S3x128_256_0 (ix2 k j)
      = Wm (ix2 ⟨256 + k.val, by have := k.isLt; omega⟩ j) :=
  extractStridedSlice_apply ![256, 0] Wm slices_S259x128_S3x128_256_0 (ix2 k j) (ix2 ⟨256 + k.val, by have := k.isLt; omega⟩ j)
    (fun a => match a with
      | ⟨0, _⟩ => by show 256 + k.val = 256 + k.val; omega
      | ⟨1, _⟩ => by show j.val = 0 + j.val; omega)

theorem wi_apply (Wi : FVec Ideal S128x1 .f32) (k : Fin 128) :
    shapeCast S128 Wi shapeCasts_S128x1_S128 (ix1 k) = Wi (ix2 k 0) :=
  shapeCast_apply Wi shapeCasts_S128x1_S128 (ix1 k) (ix2 k 0)
    (by rewrite [Shape.rowMajor_val_two, Shape.rowMajor_val_one]; show k.val * 1 + 0 = k.val; omega)

theorem sigma_spelt (x : EReal) :
    Ideal.div (Ideal.ofBits .f32 0x3F800000#32) (Ideal.ofBits .f32 0x3F800000#32 + Ideal.exp (-x)) = Ideal.logistic x := by
  rw [Ideal.ofBits_one_f32]; rfl

theorem pre_of_cat {n : ℕ} (a b : Mat n 128) (v : Mat n 3) (cat : Mat n 259)
    (Wm : FVec Ideal S259x128 .f32) (bm : FVec Ideal S128 .f32)
    (hcat0 : ∀ (e : Fin n) (k : Fin 128), cat (ix2 e ⟨k.val, by have := k.isLt; omega⟩) = a (ix2 e k))
    (hcat1 : ∀ (e : Fin n) (k : Fin 128), cat (ix2 e ⟨128 + k.val, by have := k.isLt; omega⟩) = b (ix2 e k))
    (hcat2 : ∀ (e : Fin n) (k : Fin 3), cat (ix2 e ⟨256 + k.val, by have := k.isLt; omega⟩) = v (ix2 e k))
    (e : Fin n) (j : Fin 128) :
    (∑ k : Fin 259, cat (ix2 e k) * Wm (ix2 k j)) + bm (ix1 j)
      = Spec.pre a b v (extractStridedSlice S128x128 ![0, 0] Wm slices_S259x128_S128x128_0_0)
          (extractStridedSlice S128x128 ![128, 0] Wm slices_S259x128_S128x128_128_0)
          (extractStridedSlice S3x128 ![256, 0] Wm slices_S259x128_S3x128_256_0) bm e j := by
  unfold Spec.pre
  rw [sum_259]
  simp only [hcat0, hcat1, hcat2, Ws_apply, Wr_apply, Wv_apply]

theorem msgArr_of_stages {n : ℕ} (a b : Mat n 128) (v : Mat n 3) (cat : Mat n 259)
    (Wm : FVec Ideal S259x128 .f32) (bm : FVec Ideal S128 .f32) (Wi : FVec Ideal S128x1 .f32) (bi : FVec Ideal S1 .f32)
    (D A M : Mat n 128) (g : Mat n 1)
    (hcat0 : ∀ (e : Fin n) (k : Fin 128), cat (ix2 e ⟨k.val, by have := k.isLt; omega⟩) = a (ix2 e k))
    (hcat1 : ∀ (e : Fin n) (k : Fin 128), cat (ix2 e ⟨128 + k.val, by have := k.isLt; omega⟩) = b (ix2 e k))
    (hcat2 : ∀ (e : Fin n) (k : Fin 3), cat (ix2 e ⟨256 + k.val, by have := k.isLt; omega⟩) = v (ix2 e k))
    (hD : ∀ (e : Fin n) (j : Fin 128), D (ix2 e j) = (∑ k : Fin 259, cat (ix2 e k) * Wm (ix2 k j)) + bm (ix1 j))
    (hA : ∀ i, A i = D i * Ideal.logistic (D i))
    (hg : ∀ e : Fin n, g (ix2 e 0) = Ideal.logistic ((∑ k : Fin 128, A (ix2 e k) * Wi (ix2 k 0)) + bi (ix1 0)))
    (hM : ∀ (e : Fin n) (j : Fin 128), M (ix2 e j) = A (ix2 e j) * g (ix2 e 0)) :
    M = Spec.msgArr a b v (extractStridedSlice S128x128 ![0, 0] Wm slices_S259x128_S128x128_0_0)
          (extractStridedSlice S128x128 ![128, 0] Wm slices_S259x128_S128x128_128_0)
          (extractStridedSlice S3x128 ![256, 0] Wm slices_S259x128_S3x128_256_0) bm
          (shapeCast S128 Wi shapeCasts_S128x1_S128) bi := by
  have hact : ∀ (e : Fin n) (j : Fin 128), A (ix2 e j)
      = Spec.act a b v (extractStridedSlice S128x128 ![0, 0] Wm slices_S259x128_S128x128_0_0)
          (extractStridedSlice S128x128 ![128, 0] Wm slices_S259x128_S128x128_128_0)
          (extractStridedSlice S3x128 ![256, 0] Wm slices_S259x128_S3x128_256_0) bm e j := fun e j => by
    rw [hA, hD, pre_of_cat a b v cat Wm bm hcat0 hcat1 hcat2]; rfl
  funext i
  obtain ⟨e, j, rfl⟩ : ∃ (e : Fin n) (j : Fin 128), i = ix2 e j := ⟨i 0, i 1, eq_ix2 i⟩
  show M (ix2 e j) = Spec.act a b v _ _ _ bm e j * Spec.gate a b v _ _ _ bm _ bi e
  rw [hM, hg, hact]
  unfold Spec.gate
  simp only [hact, wi_apply]

section T00
variable (xs : FVec Ideal S100000x128 .f32) (adj : IVec S2x500000 32) (inv : FVec Ideal S500000x3 .f32)
  (Wm : FVec Ideal S259x128 .f32) (bm : FVec Ideal S128 .f32) (Wi : FVec Ideal S128x1 .f32) (bi : FVec Ideal S1 .f32)

theorem send_00 (h0 : InRange 100000 (KT.idx0_00 adj)) :
    KT.take_100000_500000 xs (KT.idx0_00 adj) = val_main_v8 (F := Ideal) xs adj := by
  rw [TakeFacts.take_100000_500000_eq xs _ h0]; rfl

theorem recv_00 (h1 : InRange 100000 (KT.idx1_00 adj)) :
    KT.take_100000_500000 xs (KT.idx1_00 adj) = val_main_v17 (F := Ideal) xs adj := by
  rw [TakeFacts.take_100000_500000_eq xs _ h1]; rfl

theorem cat0_00 (e : Fin 500000) (k : Fin 128) :
    val_main_v18 (F := Ideal) xs adj inv (ix2 e ⟨k.val, by have := k.isLt; omega⟩) = val_main_v8 (F := Ideal) xs adj (ix2 e k) := by
  unfold val_main_v18
  generalize val_main_v8 (F := Ideal) xs adj = y0
  generalize val_main_v17 (F := Ideal) xs adj = y1
  refine concatenate_apply_piece (t := Cert.ReferenceIdeal.S500000x259) 1 _ _
    (ix2 e ⟨k.val, by have := k.isLt; omega⟩) 0 ?_ S500000x128 y0 rfl rfl 0 rfl (ix2 e k) ?_ ?_
  · show (0 : ℕ) < 3; omega
  · exact fun b hb => match b, hb with
      | ⟨0, _⟩, _ => rfl
      | ⟨1, _⟩, hb => absurd rfl hb
  · show 0 + k.val = k.val; omega

theorem cat1_00 (e : Fin 500000) (k : Fin 128) :
    val_main_v18 (F := Ideal) xs adj inv (ix2 e ⟨128 + k.val, by have := k.isLt; omega⟩) = val_main_v17 (F := Ideal) xs adj (ix2 e k) := by
  unfold val_main_v18
  generalize val_main_v8 (F := Ideal) xs adj = y0
  generalize val_main_v17 (F := Ideal) xs adj = y1
  refine concatenate_apply_piece (t := Cert.ReferenceIdeal.S500000x259) 1 _ _
    (ix2 e ⟨128 + k.val, by have := k.isLt; omega⟩) 1 ?_ S500000x128 y1 rfl rfl 128 rfl (ix2 e k) ?_ ?_
  · show (1 : ℕ) < 3; omega
  · exact fun b hb => match b, hb with
      | ⟨0, _⟩, _ => rfl
      | ⟨1, _⟩, hb => absurd rfl hb
  · show 128 + k.val = 128 + k.val; omega

theorem cat2_00 (e : Fin 500000) (k : Fin 3) :
    val_main_v18 (F := Ideal) xs adj inv (ix2 e ⟨256 + k.val, by have := k.isLt; omega⟩) = inv (ix2 e k) := by
  unfold val_main_v18
  generalize val_main_v8 (F := Ideal) xs adj = y0
  generalize val_main_v17 (F := Ideal) xs adj = y1
  refine concatenate_apply_piece (t := Cert.ReferenceIdeal.S500000x259) 1 _ _
    (ix2 e ⟨256 + k.val, by have := k.isLt; omega⟩) 2 ?_ S500000x3 inv rfl rfl 256 rfl (ix2 e k) ?_ ?_
  · show (2 : ℕ) < 3; omega
  · exact fun b hb => match b, hb with
      | ⟨0, _⟩, _ => rfl
      | ⟨1, _⟩, hb => absurd rfl hb
  · show 256 + k.val = 256 + k.val; omega

theorem pre_00 (e : Fin 500000) (j : Fin 128) :
    val_main_v22 (F := Ideal) xs adj inv Wm bm (ix2 e j)
      = (∑ k : Fin 259, val_main_v18 (F := Ideal) xs adj inv (ix2 e k) * Wm (ix2 k j)) + bm (ix1 j) := by
  have el : ∀ k : Fin 259, lidx_main_v19 (ix2 e j) k = ix2 e k := fun k =>
    funext fun a => match a with | ⟨0, _⟩ => rfl | ⟨1, _⟩ => rfl
  have er : ∀ k : Fin 259, ridx_main_v19 (ix2 e j) k = ix2 k j := fun k =>
    funext fun a => match a with | ⟨0, _⟩ => rfl | ⟨1, _⟩ => rfl
  have eb : idx_main_v20 (idx_main_v21 (ix2 e j)) = ix1 j :=
    funext fun a => match a with | ⟨0, _⟩ => rfl
  rw [val_main_v22_apply, val_main_v19_apply, val_main_v21_apply, val_main_v20_apply, eb]
  simp only [el, er]
  rfl

theorem act_00 (i : S500000x128.Idx) :
    val_main_v23 (F := Ideal) xs adj inv Wm bm i
      = val_main_v22 (F := Ideal) xs adj inv Wm bm i * Ideal.logistic (val_main_v22 (F := Ideal) xs adj inv Wm bm i) := by
  rw [val_main_v23_apply, val_main_call0_v5_apply, val_main_call0_v4_apply, val_main_call0_cst_0_apply,
    val_main_call0_v3_apply, val_main_call0_v2_apply, val_main_call0_cst_apply, val_main_call0_v1_apply,
    val_main_call0_v0_apply]
  exact congrArg (fun t => val_main_v22 (F := Ideal) xs adj inv Wm bm i * t) (sigma_spelt _)

theorem gate_00 (e : Fin 500000) :
    val_main_v33 (F := Ideal) xs adj inv Wm bm Wi bi (ix2 e 0)
      = Ideal.logistic ((∑ k : Fin 128, val_main_v23 (F := Ideal) xs adj inv Wm bm (ix2 e k) * Wi (ix2 k 0)) + bi (ix1 0)) := by
  have el : ∀ k : Fin 128, lidx_main_v24 (ix2 e (0 : Fin 1)) k = ix2 e k := fun k =>
    funext fun a => match a with | ⟨0, _⟩ => rfl | ⟨1, _⟩ => rfl
  have er : ∀ k : Fin 128, ridx_main_v24 (ix2 e (0 : Fin 1)) k = ix2 k 0 := fun k =>
    funext fun a => match a with | ⟨0, _⟩ => rfl | ⟨1, _⟩ => rfl
  have eb : idx_main_v25 (idx_main_v26 (ix2 e (0 : Fin 1))) = ix1 0 :=
    funext fun a => match a with | ⟨0, _⟩ => rfl
  rw [val_main_v33_apply, val_main_v32_apply, val_main_cst_3_apply, val_main_v31_apply, val_main_v30_apply,
    val_main_cst_apply, val_main_v29_apply, val_main_v28_apply, val_main_v27_apply, val_main_v24_apply,
    val_main_v26_apply, val_main_v25_apply, eb]
  simp only [el, er]
  exact sigma_spelt _

theorem out_00 (e : Fin 500000) (j : Fin 128) :
    val_main_v35 (F := Ideal) xs adj inv Wm bm Wi bi (ix2 e j)
      = val_main_v23 (F := Ideal) xs adj inv Wm bm (ix2 e j) * val_main_v33 (F := Ideal) xs adj inv Wm bm Wi bi (ix2 e 0) := by
  have eb : idx_main_v34 (ix2 e j) = ix2 e 0 :=
    funext fun a => match a with | ⟨0, _⟩ => rfl | ⟨1, _⟩ => rfl
  rw [val_main_v35_apply, val_main_v34_apply, eb]
  rfl

end T00

theorem msg_00 (xs : FVec Ideal Cert.KernelIdeal.S100000x128 .f32) (adj : IVec Cert.KernelIdeal.S2x500000 32)
    (inv : FVec Ideal Cert.KernelIdeal.S500000x3 .f32) (Wm : FVec Ideal Cert.KernelIdeal.S259x128 .f32) (bm : FVec Ideal Cert.KernelIdeal.S128 .f32)
    (Wi : FVec Ideal Cert.KernelIdeal.S128x1 .f32) (bi : FVec Ideal Cert.KernelIdeal.S1 .f32)
    (h0 : InRange 100000 (KT.idx0_00 adj)) (h1 : InRange 100000 (KT.idx1_00 adj)) :
    KT.msg_00 xs xs adj inv Wm bm Wi bi = Cert.ReferenceIdeal.Read.val_main_v35 (F := Ideal) xs adj inv Wm bm Wi bi := by
  unfold KT.msg_00
  rw [send_00 xs adj h0, recv_00 xs adj h1]
  exact (msgArr_of_stages (n := 500000) (val_main_v8 (F := Ideal) xs adj) (val_main_v17 (F := Ideal) xs adj) inv
    (val_main_v18 (F := Ideal) xs adj inv) Wm bm Wi bi
    (val_main_v22 (F := Ideal) xs adj inv Wm bm) (val_main_v23 (F := Ideal) xs adj inv Wm bm)
    (val_main_v35 (F := Ideal) xs adj inv Wm bm Wi bi) (val_main_v33 (F := Ideal) xs adj inv Wm bm Wi bi)
    (cat0_00 xs adj inv) (cat1_00 xs adj inv) (cat2_00 xs adj inv) (pre_00 xs adj inv Wm bm)
    (act_00 xs adj inv Wm bm) (gate_00 xs adj inv Wm bm Wi bi) (out_00 xs adj inv Wm bm Wi bi)).symm

theorem agg_00 (xs : FVec Ideal Cert.KernelIdeal.S100000x128 .f32) (adj : IVec Cert.KernelIdeal.S2x500000 32)
    (inv : FVec Ideal Cert.KernelIdeal.S500000x3 .f32) (Wm : FVec Ideal Cert.KernelIdeal.S259x128 .f32) (bm : FVec Ideal Cert.KernelIdeal.S128 .f32)
    (Wi : FVec Ideal Cert.KernelIdeal.S128x1 .f32) (bi : FVec Ideal Cert.KernelIdeal.S1 .f32)
    (h0 : InRange 100000 (KT.idx0_00 adj)) (h1 : InRange 100000 (KT.idx1_00 adj)) :
    KT.agg_00 xs xs adj inv Wm bm Wi bi = Cert.ReferenceIdeal.Read.val_main_v40 (F := Ideal) xs adj inv Wm bm Wi bi := by
  unfold KT.agg_00 val_main_v40
  rw [msg_00 xs adj inv Wm bm Wi bi h0 h1]
  rfl

section T01
variable (xs : FVec Ideal S100000x128 .f32) (xr : FVec Ideal S150000x128 .f32) (adj : IVec S2x300000 32) (inv : FVec Ideal S300000x3 .f32)
  (Wm : FVec Ideal S259x128 .f32) (bm : FVec Ideal S128 .f32) (Wi : FVec Ideal S128x1 .f32) (bi : FVec Ideal S1 .f32)

theorem send_01 (h0 : InRange 100000 (KT.idx0_01 adj)) :
    KT.take_100000_300000 xs (KT.idx0_01 adj) = val_main_v49 (F := Ideal) xs adj := by
  rw [TakeFacts.take_100000_300000_eq xs _ h0]; rfl

theorem recv_01 (h1 : InRange 150000 (KT.idx1_01 adj)) :
    KT.take_150000_300000 xr (KT.idx1_01 adj) = val_main_v58 (F := Ideal) xr adj := by
  rw [TakeFacts.take_150000_300000_eq xr _ h1]; rfl

theorem cat0_01 (e : Fin 300000) (k : Fin 128) :
    val_main_v59 (F := Ideal) xs xr adj inv (ix2 e ⟨k.val, by have := k.isLt; omega⟩) = val_main_v49 (F := Ideal) xs adj (ix2 e k) := by
  unfold val_main_v59
  generalize val_main_v49 (F := Ideal) xs adj = y0
  generalize val_main_v58 (F := Ideal) xr adj = y1
  refine concatenate_apply_piece (t := Cert.ReferenceIdeal.S300000x259) 1 _ _
    (ix2 e ⟨k.val, by have := k.isLt; omega⟩) 0 ?_ S300000x128 y0 rfl rfl 0 rfl (ix2 e k) ?_ ?_
  · show (0 : ℕ) < 3; omega
  · exact fun b hb => match b, hb with
      | ⟨0, _⟩, _ => rfl
      | ⟨1, _⟩, hb => absurd rfl hb
  · show 0 + k.val = k.val; omega

theorem cat1_01 (e : Fin 300000) (k : Fin 128) :
    val_main_v59 (F := Ideal) xs xr adj inv (ix2 e ⟨128 + k.val, by have := k.isLt; omega⟩) = val_main_v58 (F := Ideal) xr adj (ix2 e k) := by
  unfold val_main_v59
  generalize val_main_v49 (F := Ideal) xs adj = y0
  generalize val_main_v58 (F := Ideal) xr adj = y1
  refine concatenate_apply_piece (t := Cert.ReferenceIdeal.S300000x259) 1 _ _
    (ix2 e ⟨128 + k.val, by have := k.isLt; omega⟩) 1 ?_ S300000x128 y1 rfl rfl 128 rfl (ix2 e k) ?_ ?_
  · show (1 : ℕ) < 3; omega
  · exact fun b hb => match b, hb with
      | ⟨0, _⟩, _ => rfl
      | ⟨1, _⟩, hb => absurd rfl hb
  · show 128 + k.val = 128 + k.val; omega

theorem cat2_01 (e : Fin 300000) (k : Fin 3) :
    val_main_v59 (F := Ideal) xs xr adj inv (ix2 e ⟨256 + k.val, by have := k.isLt; omega⟩) = inv (ix2 e k) := by
  unfold val_main_v59
  generalize val_main_v49 (F := Ideal) xs adj = y0
  generalize val_main_v58 (F := Ideal) xr adj = y1
  refine concatenate_apply_piece (t := Cert.ReferenceIdeal.S300000x259) 1 _ _
    (ix2 e ⟨256 + k.val, by have := k.isLt; omega⟩) 2 ?_ S300000x3 inv rfl rfl 256 rfl (ix2 e k) ?_ ?_
  · show (2 : ℕ) < 3; omega
  · exact fun b hb => match b, hb with
      | ⟨0, _⟩, _ => rfl
      | ⟨1, _⟩, hb => absurd rfl hb
  · show 256 + k.val = 256 + k.val; omega

theorem pre_01 (e : Fin 300000) (j : Fin 128) :
    val_main_v63 (F := Ideal) xs xr adj inv Wm bm (ix2 e j)
      = (∑ k : Fin 259, val_main_v59 (F := Ideal) xs xr adj inv (ix2 e k) * Wm (ix2 k j)) + bm (ix1 j) := by
  have el : ∀ k : Fin 259, lidx_main_v60 (ix2 e j) k = ix2 e k := fun k =>
    funext fun a => match a with | ⟨0, _⟩ => rfl | ⟨1, _⟩ => rfl
  have er : ∀ k : Fin 259, ridx_main_v60 (ix2 e j) k = ix2 k j := fun k =>
    funext fun a => match a with | ⟨0, _⟩ => rfl | ⟨1, _⟩ => rfl
  have eb : idx_main_v61 (idx_main_v62 (ix2 e j)) = ix1 j :=
    funext fun a => match a with | ⟨0, _⟩ => rfl
  rw [val_main_v63_apply, val_main_v60_apply, val_main_v62_apply, val_main_v61_apply, eb]
  simp only [el, er]
  rfl

theorem act_01 (i : S300000x128.Idx) :
    val_main_v64 (F := Ideal) xs xr adj inv Wm bm i
      = val_main_v63 (F := Ideal) xs xr adj inv Wm bm i * Ideal.logistic (val_main_v63 (F := Ideal) xs xr adj inv Wm bm i) := by
  rw [val_main_v64_apply, val_main_call1_v5_apply, val_main_call1_v4_apply, val_main_call1_cst_0_apply,
    val_main_call1_v3_apply, val_main_call1_v2_apply, val_main_call1_cst_apply, val_main_call1_v1_apply,
    val_main_call1_v0_apply]
  exact congrArg (fun t => val_main_v63 (F := Ideal) xs xr adj inv Wm bm i * t) (sigma_spelt _)

theorem gate_01 (e : Fin 300000) :
    val_main_v74 (F := Ideal) xs xr adj inv Wm bm Wi bi (ix2 e 0)
      = Ideal.logistic ((∑ k : Fin 128, val_main_v64 (F := Ideal) xs xr adj inv Wm bm (ix2 e k) * Wi (ix2 k 0)) + bi (ix1 0)) := by
  have el : ∀ k : Fin 128, lidx_main_v65 (ix2 e (0 : Fin 1)) k = ix2 e k := fun k =>
    funext fun a => match a with | ⟨0, _⟩ => rfl | ⟨1, _⟩ => rfl
  have er : ∀ k : Fin 128, ridx_main_v65 (ix2 e (0 : Fin 1)) k = ix2 k 0 := fun k =>
    funext fun a => match a with | ⟨0, _⟩ => rfl | ⟨1, _⟩ => rfl
  have eb : idx_main_v66 (idx_main_v67 (ix2 e (0 : Fin 1))) = ix1 0 :=
    funext fun a => match a with | ⟨0, _⟩ => rfl
  rw [val_main_v74_apply, val_main_v73_apply, val_main_cst_10_apply, val_main_v72_apply, val_main_v71_apply,
    val_main_cst_9_apply, val_main_v70_apply, val_main_v69_apply, val_main_v68_apply, val_main_v65_apply,
    val_main_v67_apply, val_main_v66_apply, eb]
  simp only [el, er]
  exact sigma_spelt _

theorem out_01 (e : Fin 300000) (j : Fin 128) :
    val_main_v76 (F := Ideal) xs xr adj inv Wm bm Wi bi (ix2 e j)
      = val_main_v64 (F := Ideal) xs xr adj inv Wm bm (ix2 e j) * val_main_v74 (F := Ideal) xs xr adj inv Wm bm Wi bi (ix2 e 0) := by
  have eb : idx_main_v75 (ix2 e j) = ix2 e 0 :=
    funext fun a => match a with | ⟨0, _⟩ => rfl | ⟨1, _⟩ => rfl
  rw [val_main_v76_apply, val_main_v75_apply, eb]
  rfl

end T01

theorem msg_01 (xs : FVec Ideal Cert.KernelIdeal.S100000x128 .f32) (xr : FVec Ideal Cert.KernelIdeal.S150000x128 .f32) (adj : IVec Cert.KernelIdeal.S2x300000 32)
    (inv : FVec Ideal Cert.KernelIdeal.S300000x3 .f32) (Wm : FVec Ideal Cert.KernelIdeal.S259x128 .f32) (bm : FVec Ideal Cert.KernelIdeal.S128 .f32)
    (Wi : FVec Ideal Cert.KernelIdeal.S128x1 .f32) (bi : FVec Ideal Cert.KernelIdeal.S1 .f32)
    (h0 : InRange 100000 (KT.idx0_01 adj)) (h1 : InRange 150000 (KT.idx1_01 adj)) :
    KT.msg_01 xs xr adj inv Wm bm Wi bi = Cert.ReferenceIdeal.Read.val_main_v76 (F := Ideal) xs xr adj inv Wm bm Wi bi := by
  unfold KT.msg_01
  rw [send_01 xs adj h0, recv_01 xr adj h1]
  exact (msgArr_of_stages (n := 300000) (val_main_v49 (F := Ideal) xs adj) (val_main_v58 (F := Ideal) xr adj) inv
    (val_main_v59 (F := Ideal) xs xr adj inv) Wm bm Wi bi
    (val_main_v63 (F := Ideal) xs xr adj inv Wm bm) (val_main_v64 (F := Ideal) xs xr adj inv Wm bm)
    (val_main_v76 (F := Ideal) xs xr adj inv Wm bm Wi bi) (val_main_v74 (F := Ideal) xs xr adj inv Wm bm Wi bi)
    (cat0_01 xs xr adj inv) (cat1_01 xs xr adj inv) (cat2_01 xs xr adj inv) (pre_01 xs xr adj inv Wm bm)
    (act_01 xs xr adj inv Wm bm) (gate_01 xs xr adj inv Wm bm Wi bi) (out_01 xs xr adj inv Wm bm Wi bi)).symm

theorem agg_01 (xs : FVec Ideal Cert.KernelIdeal.S100000x128 .f32) (xr : FVec Ideal Cert.KernelIdeal.S150000x128 .f32) (adj : IVec Cert.KernelIdeal.S2x300000 32)
    (inv : FVec Ideal Cert.KernelIdeal.S300000x3 .f32) (Wm : FVec Ideal Cert.KernelIdeal.S259x128 .f32) (bm : FVec Ideal Cert.KernelIdeal.S128 .f32)
    (Wi : FVec Ideal Cert.KernelIdeal.S128x1 .f32) (bi : FVec Ideal Cert.KernelIdeal.S1 .f32)
    (h0 : InRange 100000 (KT.idx0_01 adj)) (h1 : InRange 150000 (KT.idx1_01 adj)) :
    KT.agg_01 xs xr adj inv Wm bm Wi bi = Cert.ReferenceIdeal.Read.val_main_v81 (F := Ideal) xs xr adj inv Wm bm Wi bi := by
  unfold KT.agg_01 val_main_v81
  rw [msg_01 xs xr adj inv Wm bm Wi bi h0 h1]
  rfl

section T11
variable (xs : FVec Ideal S150000x128 .f32) (adj : IVec S2x300000 32) (inv : FVec Ideal S300000x3 .f32)
  (Wm : FVec Ideal S259x128 .f32) (bm : FVec Ideal S128 .f32) (Wi : FVec Ideal S128x1 .f32) (bi : FVec Ideal S1 .f32)

theorem send_11 (h0 : InRange 150000 (KT.idx0_11 adj)) :
    KT.take_150000_300000 xs (KT.idx0_11 adj) = val_main_v90 (F := Ideal) xs adj := by
  rw [TakeFacts.take_150000_300000_eq xs _ h0]; rfl

theorem recv_11 (h1 : InRange 150000 (KT.idx1_11 adj)) :
    KT.take_150000_300000 xs (KT.idx1_11 adj) = val_main_v99 (F := Ideal) xs adj := by
  rw [TakeFacts.take_150000_300000_eq xs _ h1]; rfl

theorem cat0_11 (e : Fin 300000) (k : Fin 128) :
    val_main_v100 (F := Ideal) xs adj inv (ix2 e ⟨k.val, by have := k.isLt; omega⟩) = val_main_v90 (F := Ideal) xs adj (ix2 e k) := by
  unfold val_main_v100
  generalize val_main_v90 (F := Ideal) xs adj = y0
  generalize val_main_v99 (F := Ideal) xs adj = y1
  refine concatenate_apply_piece (t := Cert.ReferenceIdeal.S300000x259) 1 _ _
    (ix2 e ⟨k.val, by have := k.isLt; omega⟩) 0 ?_ S300000x128 y0 rfl rfl 0 rfl (ix2 e k) ?_ ?_
  · show (0 : ℕ) < 3; omega
  · exact fun b hb => match b, hb with
      | ⟨0, _⟩, _ => rfl
      | ⟨1, _⟩, hb => absurd rfl hb
  · show 0 + k.val = k.val; omega

theorem cat1_11 (e : Fin 300000) (k : Fin 128) :
    val_main_v100 (F := Ideal) xs adj inv (ix2 e ⟨128 + k.val, by have := k.isLt; omega⟩) = val_main_v99 (F := Ideal) xs adj (ix2 e k) := by
  unfold val_main_v100
  generalize val_main_v90 (F := Ideal) xs adj = y0
  generalize val_main_v99 (F := Ideal) xs adj = y1
  refine concatenate_apply_piece (t := Cert.ReferenceIdeal.S300000x259) 1 _ _
    (ix2 e ⟨128 + k.val, by have := k.isLt; omega⟩) 1 ?_ S300000x128 y1 rfl rfl 128 rfl (ix2 e k) ?_ ?_
  · show (1 : ℕ) < 3; omega
  · exact fun b hb => match b, hb with
      | ⟨0, _⟩, _ => rfl
      | ⟨1, _⟩, hb => absurd rfl hb
  · show 128 + k.val = 128 + k.val; omega

theorem cat2_11 (e : Fin 300000) (k : Fin 3) :
    val_main_v100 (F := Ideal) xs adj inv (ix2 e ⟨256 + k.val, by have := k.isLt; omega⟩) = inv (ix2 e k) := by
  unfold val_main_v100
  generalize val_main_v90 (F := Ideal) xs adj = y0
  generalize val_main_v99 (F := Ideal) xs adj = y1
  refine concatenate_apply_piece (t := Cert.ReferenceIdeal.S300000x259) 1 _ _
    (ix2 e ⟨256 + k.val, by have := k.isLt; omega⟩) 2 ?_ S300000x3 inv rfl rfl 256 rfl (ix2 e k) ?_ ?_
  · show (2 : ℕ) < 3; omega
  · exact fun b hb => match b, hb with
      | ⟨0, _⟩, _ => rfl
      | ⟨1, _⟩, hb => absurd rfl hb
  · show 256 + k.val = 256 + k.val; omega

theorem pre_11 (e : Fin 300000) (j : Fin 128) :
    val_main_v104 (F := Ideal) xs adj inv Wm bm (ix2 e j)
      = (∑ k : Fin 259, val_main_v100 (F := Ideal) xs adj inv (ix2 e k) * Wm (ix2 k j)) + bm (ix1 j) := by
  have el : ∀ k : Fin 259, lidx_main_v101 (ix2 e j) k = ix2 e k := fun k =>
    funext fun a => match a with | ⟨0, _⟩ => rfl | ⟨1, _⟩ => rfl
  have er : ∀ k : Fin 259, ridx_main_v101 (ix2 e j) k = ix2 k j := fun k =>
    funext fun a => match a with | ⟨0, _⟩ => rfl | ⟨1, _⟩ => rfl
  have eb : idx_main_v102 (idx_main_v103 (ix2 e j)) = ix1 j :=
    funext fun a => match a with | ⟨0, _⟩ => rfl
  rw [val_main_v104_apply, val_main_v101_apply, val_main_v103_apply, val_main_v102_apply, eb]
  simp only [el, er]
  rfl

theorem act_11 (i : S300000x128.Idx) :
    val_main_v105 (F := Ideal) xs adj inv Wm bm i
      = val_main_v104 (F := Ideal) xs adj inv Wm bm i * Ideal.logistic (val_main_v104 (F := Ideal) xs adj inv Wm bm i) := by
  rw [val_main_v105_apply, val_main_call2_v5_apply, val_main_call2_v4_apply, val_main_call2_cst_0_apply,
    val_main_call2_v3_apply, val_main_call2_v2_apply, val_main_call2_cst_apply, val_main_call2_v1_apply,
    val_main_call2_v0_apply]
  exact congrArg (fun t => val_main_v104 (F := Ideal) xs adj inv Wm bm i * t) (sigma_spelt _)

theorem gate_11 (e : Fin 300000) :
    val_main_v115 (F := Ideal) xs adj inv Wm bm Wi bi (ix2 e 0)
      = Ideal.logistic ((∑ k : Fin 128, val_main_v105 (F := Ideal) xs adj inv Wm bm (ix2 e k) * Wi (ix2 k 0)) + bi (ix1 0)) := by
  have el : ∀ k : Fin 128, lidx_main_v106 (ix2 e (0 : Fin 1)) k = ix2 e k := fun k =>
    funext fun a => match a with | ⟨0, _⟩ => rfl | ⟨1, _⟩ => rfl
  have er : ∀ k : Fin 128, ridx_main_v106 (ix2 e (0 : Fin 1)) k = ix2 k 0 := fun k =>
    funext fun a => match a with | ⟨0, _⟩ => rfl | ⟨1, _⟩ => rfl
  have eb : idx_main_v107 (idx_main_v108 (ix2 e (0 : Fin 1))) = ix1 0 :=
    funext fun a => match a with | ⟨0, _⟩ => rfl
  rw [val_main_v115_apply, val_main_v114_apply, val_main_cst_17_apply, val_main_v113_apply, val_main_v112_apply,
    val_main_cst_16_apply, val_main_v111_apply, val_main_v110_apply, val_main_v109_apply, val_main_v106_apply,
    val_main_v108_apply, val_main_v107_apply, eb]
  simp only [el, er]
  exact sigma_spelt _

theorem out_11 (e : Fin 300000) (j : Fin 128) :
    val_main_v117 (F := Ideal) xs adj inv Wm bm Wi bi (ix2 e j)
      = val_main_v105 (F := Ideal) xs adj inv Wm bm (ix2 e j) * val_main_v115 (F := Ideal) xs adj inv Wm bm Wi bi (ix2 e 0) := by
  have eb : idx_main_v116 (ix2 e j) = ix2 e 0 :=
    funext fun a => match a with | ⟨0, _⟩ => rfl | ⟨1, _⟩ => rfl
  rw [val_main_v117_apply, val_main_v116_apply, eb]
  rfl

end T11

theorem msg_11 (xs : FVec Ideal Cert.KernelIdeal.S150000x128 .f32) (adj : IVec Cert.KernelIdeal.S2x300000 32)
    (inv : FVec Ideal Cert.KernelIdeal.S300000x3 .f32) (Wm : FVec Ideal Cert.KernelIdeal.S259x128 .f32) (bm : FVec Ideal Cert.KernelIdeal.S128 .f32)
    (Wi : FVec Ideal Cert.KernelIdeal.S128x1 .f32) (bi : FVec Ideal Cert.KernelIdeal.S1 .f32)
    (h0 : InRange 150000 (KT.idx0_11 adj)) (h1 : InRange 150000 (KT.idx1_11 adj)) :
    KT.msg_11 xs xs adj inv Wm bm Wi bi = Cert.ReferenceIdeal.Read.val_main_v117 (F := Ideal) xs adj inv Wm bm Wi bi := by
  unfold KT.msg_11
  rw [send_11 xs adj h0, recv_11 xs adj h1]
  exact (msgArr_of_stages (n := 300000) (val_main_v90 (F := Ideal) xs adj) (val_main_v99 (F := Ideal) xs adj) inv
    (val_main_v100 (F := Ideal) xs adj inv) Wm bm Wi bi
    (val_main_v104 (F := Ideal) xs adj inv Wm bm) (val_main_v105 (F := Ideal) xs adj inv Wm bm)
    (val_main_v117 (F := Ideal) xs adj inv Wm bm Wi bi) (val_main_v115 (F := Ideal) xs adj inv Wm bm Wi bi)
    (cat0_11 xs adj inv) (cat1_11 xs adj inv) (cat2_11 xs adj inv) (pre_11 xs adj inv Wm bm)
    (act_11 xs adj inv Wm bm) (gate_11 xs adj inv Wm bm Wi bi) (out_11 xs adj inv Wm bm Wi bi)).symm

theorem agg_11 (xs : FVec Ideal Cert.KernelIdeal.S150000x128 .f32) (adj : IVec Cert.KernelIdeal.S2x300000 32)
    (inv : FVec Ideal Cert.KernelIdeal.S300000x3 .f32) (Wm : FVec Ideal Cert.KernelIdeal.S259x128 .f32) (bm : FVec Ideal Cert.KernelIdeal.S128 .f32)
    (Wi : FVec Ideal Cert.KernelIdeal.S128x1 .f32) (bi : FVec Ideal Cert.KernelIdeal.S1 .f32)
    (h0 : InRange 150000 (KT.idx0_11 adj)) (h1 : InRange 150000 (KT.idx1_11 adj)) :
    KT.agg_11 xs xs adj inv Wm bm Wi bi = Cert.ReferenceIdeal.Read.val_main_v122 (F := Ideal) xs adj inv Wm bm Wi bi := by
  unfold KT.agg_11 val_main_v122
  rw [msg_11 xs adj inv Wm bm Wi bi h0 h1]
  rfl

section T12
variable (xs : FVec Ideal S150000x128 .f32) (xr : FVec Ideal S80000x128 .f32) (adj : IVec S2x200000 32) (inv : FVec Ideal S200000x3 .f32)
  (Wm : FVec Ideal S259x128 .f32) (bm : FVec Ideal S128 .f32) (Wi : FVec Ideal S128x1 .f32) (bi : FVec Ideal S1 .f32)

theorem send_12 (h0 : InRange 150000 (KT.idx0_12 adj)) :
    KT.take_150000_200000 xs (KT.idx0_12 adj) = val_main_v131 (F := Ideal) xs adj := by
  rw [TakeFacts.take_150000_200000_eq xs _ h0]; rfl

theorem recv_12 (h1 : InRange 80000 (KT.idx1_12 adj)) :
    KT.take_80000_200000 xr (KT.idx1_12 adj) = val_main_v140 (F := Ideal) xr adj := by
  rw [TakeFacts.take_80000_200000_eq xr _ h1]; rfl

theorem cat0_12 (e : Fin 200000) (k : Fin 128) :
    val_main_v141 (F := Ideal) xs xr adj inv (ix2 e ⟨k.val, by have := k.isLt; omega⟩) = val_main_v131 (F := Ideal) xs adj (ix2 e k) := by
  unfold val_main_v141
  generalize val_main_v131 (F := Ideal) xs adj = y0
  generalize val_main_v140 (F := Ideal) xr adj = y1
  refine concatenate_apply_piece (t := Cert.ReferenceIdeal.S200000x259) 1 _ _
    (ix2 e ⟨k.val, by have := k.isLt; omega⟩) 0 ?_ S200000x128 y0 rfl rfl 0 rfl (ix2 e k) ?_ ?_
  · show (0 : ℕ) < 3; omega
  · exact fun b hb => match b, hb with
      | ⟨0, _⟩, _ => rfl
      | ⟨1, _⟩, hb => absurd rfl hb
  · show 0 + k.val = k.val; omega

theorem cat1_12 (e : Fin 200000) (k : Fin 128) :
    val_main_v141 (F := Ideal) xs xr adj inv (ix2 e ⟨128 + k.val, by have := k.isLt; omega⟩) = val_main_v140 (F := Ideal) xr adj (ix2 e k) := by
  unfold val_main_v141
  generalize val_main_v131 (F := Ideal) xs adj = y0
  generalize val_main_v140 (F := Ideal) xr adj = y1
  refine concatenate_apply_piece (t := Cert.ReferenceIdeal.S200000x259) 1 _ _
    (ix2 e ⟨128 + k.val, by have := k.isLt; omega⟩) 1 ?_ S200000x128 y1 rfl rfl 128 rfl (ix2 e k) ?_ ?_
  · show (1 : ℕ) < 3; omega
  · exact fun b hb => match b, hb with
      | ⟨0, _⟩, _ => rfl
      | ⟨1, _⟩, hb => absurd rfl hb
  · show 128 + k.val = 128 + k.val; omega

theorem cat2_12 (e : Fin 200000) (k : Fin 3) :
    val_main_v141 (F := Ideal) xs xr adj inv (ix2 e ⟨256 + k.val, by have := k.isLt; omega⟩) = inv (ix2 e k) := by
  unfold val_main_v141
  generalize val_main_v131 (F := Ideal) xs adj = y0
  generalize val_main_v140 (F := Ideal) xr adj = y1
  refine concatenate_apply_piece (t := Cert.ReferenceIdeal.S200000x259) 1 _ _
    (ix2 e ⟨256 + k.val, by have := k.isLt; omega⟩) 2 ?_ S200000x3 inv rfl rfl 256 rfl (ix2 e k) ?_ ?_
  · show (2 : ℕ) < 3; omega
  · exact fun b hb => match b, hb with
      | ⟨0, _⟩, _ => rfl
      | ⟨1, _⟩, hb => absurd rfl hb
  · show 256 + k.val = 256 + k.val; omega

theorem pre_12 (e : Fin 200000) (j : Fin 128) :
    val_main_v145 (F := Ideal) xs xr adj inv Wm bm (ix2 e j)
      = (∑ k : Fin 259, val_main_v141 (F := Ideal) xs xr adj inv (ix2 e k) * Wm (ix2 k j)) + bm (ix1 j) := by
  have el : ∀ k : Fin 259, lidx_main_v142 (ix2 e j) k = ix2 e k := fun k =>
    funext fun a => match a with | ⟨0, _⟩ => rfl | ⟨1, _⟩ => rfl
  have er : ∀ k : Fin 259, ridx_main_v142 (ix2 e j) k = ix2 k j := fun k =>
    funext fun a => match a with | ⟨0, _⟩ => rfl | ⟨1, _⟩ => rfl
  have eb : idx_main_v143 (idx_main_v144 (ix2 e j)) = ix1 j :=
    funext fun a => match a with | ⟨0, _⟩ => rfl
  rw [val_main_v145_apply, val_main_v142_apply, val_main_v144_apply, val_main_v143_apply, eb]
  simp only [el, er]
  rfl

theorem act_12 (i : S200000x128.Idx) :
    val_main_v146 (F := Ideal) xs xr adj inv Wm bm i
      = val_main_v145 (F := Ideal) xs xr adj inv Wm bm i * Ideal.logistic (val_main_v145 (F := Ideal) xs xr adj inv Wm bm i) := by
  rw [val_main_v146_apply, val_main_call3_v5_apply, val_main_call3_v4_apply, val_main_call3_cst_0_apply,
    val_main_call3_v3_apply, val_main_call3_v2_apply, val_main_call3_cst_apply, val_main_call3_v1_apply,
    val_main_call3_v0_apply]
  exact congrArg (fun t => val_main_v145 (F := Ideal) xs xr adj inv Wm bm i * t) (sigma_spelt _)

theorem gate_12 (e : Fin 200000) :
    val_main_v156 (F := Ideal) xs xr adj inv Wm bm Wi bi (ix2 e 0)
      = Ideal.logistic ((∑ k : Fin 128, val_main_v146 (F := Ideal) xs xr adj inv Wm bm (ix2 e k) * Wi (ix2 k 0)) + bi (ix1 0)) := by
  have el : ∀ k : Fin 128, lidx_main_v147 (ix2 e (0 : Fin 1)) k = ix2 e k := fun k =>
    funext fun a => match a with | ⟨0, _⟩ => rfl | ⟨1, _⟩ => rfl
  have er : ∀ k : Fin 128, ridx_main_v147 (ix2 e (0 : Fin 1)) k = ix2 k 0 := fun k =>
    funext fun a => match a with | ⟨0, _⟩ => rfl | ⟨1, _⟩ => rfl
  have eb : idx_main_v148 (idx_main_v149 (ix2 e (0 : Fin 1))) = ix1 0 :=
    funext fun a => match a with | ⟨0, _⟩ => rfl
  rw [val_main_v156_apply, val_main_v155_apply, val_main_cst_24_apply, val_main_v154_apply, val_main_v153_apply,
    val_main_cst_23_apply, val_main_v152_apply, val_main_v151_apply, val_main_v150_apply, val_main_v147_apply,
    val_main_v149_apply, val_main_v148_apply, eb]
  simp only [el, er]
  exact sigma_spelt _

theorem out_12 (e : Fin 200000) (j : Fin 128) :
    val_main_v158 (F := Ideal) xs xr adj inv Wm bm Wi bi (ix2 e j)
      = val_main_v146 (F := Ideal) xs xr adj inv Wm bm (ix2 e j) * val_main_v156 (F := Ideal) xs xr adj inv Wm bm Wi bi (ix2 e 0) := by
  have eb : idx_main_v157 (ix2 e j) = ix2 e 0 :=
    funext fun a => match a with | ⟨0, _⟩ => rfl | ⟨1, _⟩ => rfl
  rw [val_main_v158_apply, val_main_v157_apply, eb]
  rfl

end T12

theorem msg_12 (xs : FVec Ideal Cert.KernelIdeal.S150000x128 .f32) (xr : FVec Ideal Cert.KernelIdeal.S80000x128 .f32) (adj : IVec Cert.KernelIdeal.S2x200000 32)
    (inv : FVec Ideal Cert.KernelIdeal.S200000x3 .f32) (Wm : FVec Ideal Cert.KernelIdeal.S259x128 .f32) (bm : FVec Ideal Cert.KernelIdeal.S128 .f32)
    (Wi : FVec Ideal Cert.KernelIdeal.S128x1 .f32) (bi : FVec Ideal Cert.KernelIdeal.S1 .f32)
    (h0 : InRange 150000 (KT.idx0_12 adj)) (h1 : InRange 80000 (KT.idx1_12 adj)) :
    KT.msg_12 xs xr adj inv Wm bm Wi bi = Cert.ReferenceIdeal.Read.val_main_v158 (F := Ideal) xs xr adj inv Wm bm Wi bi := by
  unfold KT.msg_12
  rw [send_12 xs adj h0, recv_12 xr adj h1]
  exact (msgArr_of_stages (n := 200000) (val_main_v131 (F := Ideal) xs adj) (val_main_v140 (F := Ideal) xr adj) inv
    (val_main_v141 (F := Ideal) xs xr adj inv) Wm bm Wi bi
    (val_main_v145 (F := Ideal) xs xr adj inv Wm bm) (val_main_v146 (F := Ideal) xs xr adj inv Wm bm)
    (val_main_v158 (F := Ideal) xs xr adj inv Wm bm Wi bi) (val_main_v156 (F := Ideal) xs xr adj inv Wm bm Wi bi)
    (cat0_12 xs xr adj inv) (cat1_12 xs xr adj inv) (cat2_12 xs xr adj inv) (pre_12 xs xr adj inv Wm bm)
    (act_12 xs xr adj inv Wm bm) (gate_12 xs xr adj inv Wm bm Wi bi) (out_12 xs xr adj inv Wm bm Wi bi)).symm

theorem agg_12 (xs : FVec Ideal Cert.KernelIdeal.S150000x128 .f32) (xr : FVec Ideal Cert.KernelIdeal.S80000x128 .f32) (adj : IVec Cert.KernelIdeal.S2x200000 32)
    (inv : FVec Ideal Cert.KernelIdeal.S200000x3 .f32) (Wm : FVec Ideal Cert.KernelIdeal.S259x128 .f32) (bm : FVec Ideal Cert.KernelIdeal.S128 .f32)
    (Wi : FVec Ideal Cert.KernelIdeal.S128x1 .f32) (bi : FVec Ideal Cert.KernelIdeal.S1 .f32)
    (h0 : InRange 150000 (KT.idx0_12 adj)) (h1 : InRange 80000 (KT.idx1_12 adj)) :
    KT.agg_12 xs xr adj inv Wm bm Wi bi = Cert.ReferenceIdeal.Read.val_main_v163 (F := Ideal) xs xr adj inv Wm bm Wi bi := by
  unfold KT.agg_12 val_main_v163
  rw [msg_12 xs xr adj inv Wm bm Wi bi h0 h1]
  rfl

section T22
variable (xs : FVec Ideal S80000x128 .f32) (adj : IVec S2x200000 32) (inv : FVec Ideal S200000x3 .f32)
  (Wm : FVec Ideal S259x128 .f32) (bm : FVec Ideal S128 .f32) (Wi : FVec Ideal S128x1 .f32) (bi : FVec Ideal S1 .f32)

theorem send_22 (h0 : InRange 80000 (KT.idx0_22 adj)) :
    KT.take_80000_200000 xs (KT.idx0_22 adj) = val_main_v172 (F := Ideal) xs adj := by
  rw [TakeFacts.take_80000_200000_eq xs _ h0]; rfl

theorem recv_22 (h1 : InRange 80000 (KT.idx1_22 adj)) :
    KT.take_80000_200000 xs (KT.idx1_22 adj) = val_main_v181 (F := Ideal) xs adj := by
  rw [TakeFacts.take_80000_200000_eq xs _ h1]; rfl

theorem cat0_22 (e : Fin 200000) (k : Fin 128) :
    val_main_v182 (F := Ideal) xs adj inv (ix2 e ⟨k.val, by have := k.isLt; omega⟩) = val_main_v172 (F := Ideal) xs adj (ix2 e k) := by
  unfold val_main_v182
  generalize val_main_v172 (F := Ideal) xs adj = y0
  generalize val_main_v181 (F := Ideal) xs adj = y1
  refine concatenate_apply_piece (t := Cert.ReferenceIdeal.S200000x259) 1 _ _
    (ix2 e ⟨k.val, by have := k.isLt; omega⟩) 0 ?_ S200000x128 y0 rfl rfl 0 rfl (ix2 e k) ?_ ?_
  · show (0 : ℕ) < 3; omega
  · exact fun b hb => match b, hb with
      | ⟨0, _⟩, _ => rfl
      | ⟨1, _⟩, hb => absurd rfl hb
  · show 0 + k.val = k.val; omega

theorem cat1_22 (e : Fin 200000) (k : Fin 128) :
    val_main_v182 (F := Ideal) xs adj inv (ix2 e ⟨128 + k.val, by have := k.isLt; omega⟩) = val_main_v181 (F := Ideal) xs adj (ix2 e k) := by
  unfold val_main_v182
  generalize val_main_v172 (F := Ideal) xs adj = y0
  generalize val_main_v181 (F := Ideal) xs adj = y1
  refine concatenate_apply_piece (t := Cert.ReferenceIdeal.S200000x259) 1 _ _
    (ix2 e ⟨128 + k.val, by have := k.isLt; omega⟩) 1 ?_ S200000x128 y1 rfl rfl 128 rfl (ix2 e k) ?_ ?_
  · show (1 : ℕ) < 3; omega
  · exact fun b hb => match b, hb with
      | ⟨0, _⟩, _ => rfl
      | ⟨1, _⟩, hb => absurd rfl hb
  · show 128 + k.val = 128 + k.val; omega

theorem cat2_22 (e : Fin 200000) (k : Fin 3) :
    val_main_v182 (F := Ideal) xs adj inv (ix2 e ⟨256 + k.val, by have := k.isLt; omega⟩) = inv (ix2 e k) := by
  unfold val_main_v182
  generalize val_main_v172 (F := Ideal) xs adj = y0
  generalize val_main_v181 (F := Ideal) xs adj = y1
  refine concatenate_apply_piece (t := Cert.ReferenceIdeal.S200000x259) 1 _ _
    (ix2 e ⟨256 + k.val, by have := k.isLt; omega⟩) 2 ?_ S200000x3 inv rfl rfl 256 rfl (ix2 e k) ?_ ?_
  · show (2 : ℕ) < 3; omega
  · exact fun b hb => match b, hb with
      | ⟨0, _⟩, _ => rfl
      | ⟨1, _⟩, hb => absurd rfl hb
  · show 256 + k.val = 256 + k.val; omega

theorem pre_22 (e : Fin 200000) (j : Fin 128) :
    val_main_v186 (F := Ideal) xs adj inv Wm bm (ix2 e j)
      = (∑ k : Fin 259, val_main_v182 (F := Ideal) xs adj inv (ix2 e k) * Wm (ix2 k j)) + bm (ix1 j) := by
  have el : ∀ k : Fin 259, lidx_main_v183 (ix2 e j) k = ix2 e k := fun k =>
    funext fun a => match a with | ⟨0, _⟩ => rfl | ⟨1, _⟩ => rfl
  have er : ∀ k : Fin 259, ridx_main_v183 (ix2 e j) k = ix2 k j := fun k =>
    funext fun a => match a with | ⟨0, _⟩ => rfl | ⟨1, _⟩ => rfl
  have eb : idx_main_v184 (idx_main_v185 (ix2 e j)) = ix1 j :=
    funext fun a => match a with | ⟨0, _⟩ => rfl
  rw [val_main_v186_apply, val_main_v183_apply, val_main_v185_apply, val_main_v184_apply, eb]
  simp only [el, er]
  rfl

theorem act_22 (i : S200000x128.Idx) :
    val_main_v187 (F := Ideal) xs adj inv Wm bm i
      = val_main_v186 (F := Ideal) xs adj inv Wm bm i * Ideal.logistic (val_main_v186 (F := Ideal) xs adj inv Wm bm i) := by
  rw [val_main_v187_apply, val_main_call4_v5_apply, val_main_call4_v4_apply, val_main_call4_cst_0_apply,
    val_main_call4_v3_apply, val_main_call4_v2_apply, val_main_call4_cst_apply, val_main_call4_v1_apply,
    val_main_call4_v0_apply]
  exact congrArg (fun t => val_main_v186 (F := Ideal) xs adj inv Wm bm i * t) (sigma_spelt _)

theorem gate_22 (e : Fin 200000) :
    val_main_v197 (F := Ideal) xs adj inv Wm bm Wi bi (ix2 e 0)
      = Ideal.logistic ((∑ k : Fin 128, val_main_v187 (F := Ideal) xs adj inv Wm bm (ix2 e k) * Wi (ix2 k 0)) + bi (ix1 0)) := by
  have el : ∀ k : Fin 128, lidx_main_v188 (ix2 e (0 : Fin 1)) k = ix2 e k := fun k =>
    funext fun a => match a with | ⟨0, _⟩ => rfl | ⟨1, _⟩ => rfl
  have er : ∀ k : Fin 128, ridx_main_v188 (ix2 e (0 : Fin 1)) k = ix2 k 0 := fun k =>
    funext fun a => match a with | ⟨0, _⟩ => rfl | ⟨1, _⟩ => rfl
  have eb : idx_main_v189 (idx_main_v190 (ix2 e (0 : Fin 1))) = ix1 0 :=
    funext fun a => match a with | ⟨0, _⟩ => rfl
  rw [val_main_v197_apply, val_main_v196_apply, val_main_cst_31_apply, val_main_v195_apply, val_main_v194_apply,
    val_main_cst_30_apply, val_main_v193_apply, val_main_v192_apply, val_main_v191_apply, val_main_v188_apply,
    val_main_v190_apply, val_main_v189_apply, eb]
  simp only [el, er]
  exact sigma_spelt _

theorem out_22 (e : Fin 200000) (j : Fin 128) :
    val_main_v199 (F := Ideal) xs adj inv Wm bm Wi bi (ix2 e j)
      = val_main_v187 (F := Ideal) xs adj inv Wm bm (ix2 e j) * val_main_v197 (F := Ideal) xs adj inv Wm bm Wi bi (ix2 e 0) := by
  have eb : idx_main_v198 (ix2 e j) = ix2 e 0 :=
    funext fun a => match a with | ⟨0, _⟩ => rfl | ⟨1, _⟩ => rfl
  rw [val_main_v199_apply, val_main_v198_apply, eb]
  rfl

end T22

theorem msg_22 (xs : FVec Ideal Cert.KernelIdeal.S80000x128 .f32) (adj : IVec Cert.KernelIdeal.S2x200000 32)
    (inv : FVec Ideal Cert.KernelIdeal.S200000x3 .f32) (Wm : FVec Ideal Cert.KernelIdeal.S259x128 .f32) (bm : FVec Ideal Cert.KernelIdeal.S128 .f32)
    (Wi : FVec Ideal Cert.KernelIdeal.S128x1 .f32) (bi : FVec Ideal Cert.KernelIdeal.S1 .f32)
    (h0 : InRange 80000 (KT.idx0_22 adj)) (h1 : InRange 80000 (KT.idx1_22 adj)) :
    KT.msg_22 xs xs adj inv Wm bm Wi bi = Cert.ReferenceIdeal.Read.val_main_v199 (F := Ideal) xs adj inv Wm bm Wi bi := by
  unfold KT.msg_22
  rw [send_22 xs adj h0, recv_22 xs adj h1]
  exact (msgArr_of_stages (n := 200000) (val_main_v172 (F := Ideal) xs adj) (val_main_v181 (F := Ideal) xs adj) inv
    (val_main_v182 (F := Ideal) xs adj inv) Wm bm Wi bi
    (val_main_v186 (F := Ideal) xs adj inv Wm bm) (val_main_v187 (F := Ideal) xs adj inv Wm bm)
    (val_main_v199 (F := Ideal) xs adj inv Wm bm Wi bi) (val_main_v197 (F := Ideal) xs adj inv Wm bm Wi bi)
    (cat0_22 xs adj inv) (cat1_22 xs adj inv) (cat2_22 xs adj inv) (pre_22 xs adj inv Wm bm)
    (act_22 xs adj inv Wm bm) (gate_22 xs adj inv Wm bm Wi bi) (out_22 xs adj inv Wm bm Wi bi)).symm

theorem agg_22 (xs : FVec Ideal Cert.KernelIdeal.S80000x128 .f32) (adj : IVec Cert.KernelIdeal.S2x200000 32)
    (inv : FVec Ideal Cert.KernelIdeal.S200000x3 .f32) (Wm : FVec Ideal Cert.KernelIdeal.S259x128 .f32) (bm : FVec Ideal Cert.KernelIdeal.S128 .f32)
    (Wi : FVec Ideal Cert.KernelIdeal.S128x1 .f32) (bi : FVec Ideal Cert.KernelIdeal.S1 .f32)
    (h0 : InRange 80000 (KT.idx0_22 adj)) (h1 : InRange 80000 (KT.idx1_22 adj)) :
    KT.agg_22 xs xs adj inv Wm bm Wi bi = Cert.ReferenceIdeal.Read.val_main_v204 (F := Ideal) xs adj inv Wm bm Wi bi := by
  unfold KT.agg_22 val_main_v204
  rw [msg_22 xs adj inv Wm bm Wi bi h0 h1]
  rfl

end Cert.MsgBridge

end
-- ==== Proof.UpdBridge.lean ====
/- Both sides' node updates are one array: a sum over 256 (384) columns is the sum of the sums over its blocks of 128. -/
import proofs.«412327_j14886356648020_1_alg».proof.Proof.KTerms
import proofs.«412327_j14886356648020_1_alg».proof.Proof.RefRead

set_option maxRecDepth 16384

noncomputable section

namespace Cert.UpdBridge

open Idealize.ShloMosaic Idealize.ShloMosaic.ValueIdx
open Cert.KernelIdeal
open Cert.Spec

theorem sum_blocks2 (f : Fin 256 → EReal) :
    ∑ k : Fin 256, f k
      = (∑ k : Fin 128, f ⟨k.val, by omega⟩) + ∑ k : Fin 128, f ⟨128 + k.val, by omega⟩ :=
  Fin.sum_univ_add (M := EReal) (a := 128) (b := 128) f

theorem sum_blocks3 (f : Fin 384 → EReal) :
    ∑ k : Fin 384, f k
      = ((∑ k : Fin 128, f ⟨k.val, by omega⟩) + ∑ k : Fin 128, f ⟨128 + k.val, by omega⟩)
          + ∑ k : Fin 128, f ⟨256 + k.val, by omega⟩ := by
  have h := Fin.sum_univ_add (M := EReal) (a := 256) (b := 128) f
  have h2 := sum_blocks2 fun k => f ⟨k.val, by omega⟩
  exact h.trans (congrArg (· + ∑ k : Fin 128, f ⟨256 + k.val, by omega⟩) h2)

theorem rows_at {m : ℕ} (W : Mat m 128) (off : ℕ)
    (h : (⟨2, ![m, 128]⟩ : Shape).Slices ![off, 0] (⟨2, ![128, 128]⟩ : Shape)) (k j : Fin 128) (q : Fin m)
    (hq : q.val = off + k.val) :
    extractStridedSlice (⟨2, ![128, 128]⟩ : Shape) ![off, 0] W h (ix2 k j) = W (ix2 q j) :=
  extractStridedSlice_apply ![off, 0] W h (ix2 k j) (ix2 q j) (fun a => match a with
    | ⟨0, _⟩ => hq
    | ⟨1, _⟩ => by show j.val = 0 + j.val; omega)

section Cat2
variable {n : ℕ} (x g : Mat n 128)
  (hc : Shape.Concatenates [(⟨2, ![n, 128]⟩ : Shape), (⟨2, ![n, 128]⟩ : Shape)] (⟨2, ![n, 256]⟩ : Shape) 1)

theorem cat2_fst (r : Fin n) (k : Fin 128) :
    concatenate (⟨2, ![n, 256]⟩ : Shape) 1 [⟨(⟨2, ![n, 128]⟩ : Shape), x⟩, ⟨(⟨2, ![n, 128]⟩ : Shape), g⟩] hc
      (ix2 r ⟨k.val, by omega⟩) = x (ix2 r k) :=
  concatenate_pair_apply_left 1 x g hc _ rfl (ix2 r k) (fun b => match b with
    | ⟨0, _⟩ => rfl
    | ⟨1, _⟩ => rfl)

theorem cat2_snd (r : Fin n) (k : Fin 128) :
    concatenate (⟨2, ![n, 256]⟩ : Shape) 1 [⟨(⟨2, ![n, 128]⟩ : Shape), x⟩, ⟨(⟨2, ![n, 128]⟩ : Shape), g⟩] hc
      (ix2 r ⟨128 + k.val, by omega⟩) = g (ix2 r k) :=
  concatenate_pair_apply_right 1 x g hc _ rfl rfl (ix2 r k) (fun b hb => match b, hb with
    | ⟨0, _⟩, _ => rfl
    | ⟨1, _⟩, hb => absurd rfl hb) (by show k.val + 128 = 128 + k.val; omega)

end Cat2

section Cat3
variable {n : ℕ} (x g h : Mat n 128)
  (hc : Shape.Concatenates [(⟨2, ![n, 128]⟩ : Shape), (⟨2, ![n, 128]⟩ : Shape), (⟨2, ![n, 128]⟩ : Shape)]
    (⟨2, ![n, 384]⟩ : Shape) 1)

theorem cat3_fst (r : Fin n) (k : Fin 128) :
    concatenate (⟨2, ![n, 384]⟩ : Shape) 1 [⟨(⟨2, ![n, 128]⟩ : Shape), x⟩, ⟨(⟨2, ![n, 128]⟩ : Shape), g⟩,
      ⟨(⟨2, ![n, 128]⟩ : Shape), h⟩] hc (ix2 r ⟨k.val, by omega⟩) = x (ix2 r k) :=
  concatenate_apply_piece (t := (⟨2, ![n, 384]⟩ : Shape)) 1
    [⟨(⟨2, ![n, 128]⟩ : Shape), x⟩, ⟨(⟨2, ![n, 128]⟩ : Shape), g⟩, ⟨(⟨2, ![n, 128]⟩ : Shape), h⟩] hc _ 0 (by show (0 : ℕ) < 3; omega) _ x rfl rfl 0 rfl (ix2 r k) (fun b hb => match b, hb with
    | ⟨0, _⟩, _ => rfl
    | ⟨1, _⟩, hb => absurd rfl hb) (by show 0 + k.val = k.val; omega)

theorem cat3_snd (r : Fin n) (k : Fin 128) :
    concatenate (⟨2, ![n, 384]⟩ : Shape) 1 [⟨(⟨2, ![n, 128]⟩ : Shape), x⟩, ⟨(⟨2, ![n, 128]⟩ : Shape), g⟩,
      ⟨(⟨2, ![n, 128]⟩ : Shape), h⟩] hc (ix2 r ⟨128 + k.val, by omega⟩) = g (ix2 r k) :=
  concatenate_apply_piece (t := (⟨2, ![n, 384]⟩ : Shape)) 1
    [⟨(⟨2, ![n, 128]⟩ : Shape), x⟩, ⟨(⟨2, ![n, 128]⟩ : Shape), g⟩, ⟨(⟨2, ![n, 128]⟩ : Shape), h⟩] hc _ 1 (by show (1 : ℕ) < 3; omega) _ g rfl rfl 128 rfl (ix2 r k) (fun b hb => match b, hb with
    | ⟨0, _⟩, _ => rfl
    | ⟨1, _⟩, hb => absurd rfl hb) rfl

theorem cat3_thd (r : Fin n) (k : Fin 128) :
    concatenate (⟨2, ![n, 384]⟩ : Shape) 1 [⟨(⟨2, ![n, 128]⟩ : Shape), x⟩, ⟨(⟨2, ![n, 128]⟩ : Shape), g⟩,
      ⟨(⟨2, ![n, 128]⟩ : Shape), h⟩] hc (ix2 r ⟨256 + k.val, by omega⟩) = h (ix2 r k) :=
  concatenate_apply_piece (t := (⟨2, ![n, 384]⟩ : Shape)) 1
    [⟨(⟨2, ![n, 128]⟩ : Shape), x⟩, ⟨(⟨2, ![n, 128]⟩ : Shape), g⟩, ⟨(⟨2, ![n, 128]⟩ : Shape), h⟩] hc _ 2 (by show (2 : ℕ) < 3; omega) _ h rfl rfl 256 rfl (ix2 r k) (fun b hb => match b, hb with
    | ⟨0, _⟩, _ => rfl
    | ⟨1, _⟩, hb => absurd rfl hb) rfl

end Cat3

theorem upd2_at {n : ℕ} (x g : Mat n 128) (W : Mat 256 128) (bu : Row 128)
    (hc : Shape.Concatenates [(⟨2, ![n, 128]⟩ : Shape), (⟨2, ![n, 128]⟩ : Shape)] (⟨2, ![n, 256]⟩ : Shape) 1)
    (h0 : (⟨2, ![256, 128]⟩ : Shape).Slices ![0, 0] (⟨2, ![128, 128]⟩ : Shape))
    (h1 : (⟨2, ![256, 128]⟩ : Shape).Slices ![128, 0] (⟨2, ![128, 128]⟩ : Shape))
    (r : Fin n) (j : Fin 128) :
    upd2Arr x g (extractStridedSlice (⟨2, ![128, 128]⟩ : Shape) ![0, 0] W h0)
        (extractStridedSlice (⟨2, ![128, 128]⟩ : Shape) ![128, 0] W h1) bu (ix2 r j)
      = x (ix2 r j) + ((∑ k : Fin 256,
          concatenate (⟨2, ![n, 256]⟩ : Shape) 1 [⟨(⟨2, ![n, 128]⟩ : Shape), x⟩, ⟨(⟨2, ![n, 128]⟩ : Shape), g⟩] hc
            (ix2 r k) * W (ix2 k j)) + bu (ix1 j)) := by
  rw [sum_blocks2]
  show x (ix2 r j) + (((∑ k : Fin 128, x (ix2 r k) * extractStridedSlice (⟨2, ![128, 128]⟩ : Shape) ![0, 0] W h0 (ix2 k j))
      + ∑ k : Fin 128, g (ix2 r k) * extractStridedSlice (⟨2, ![128, 128]⟩ : Shape) ![128, 0] W h1 (ix2 k j))
      + bu (ix1 j)) = _
  rw [Finset.sum_congr rfl fun (k : Fin 128) _ => congrArg₂ (· * ·) (cat2_fst x g hc r k).symm
        (rows_at W 0 h0 k j ⟨k.val, by omega⟩ (by show k.val = 0 + k.val; omega)),
      Finset.sum_congr rfl fun (k : Fin 128) _ => congrArg₂ (· * ·) (cat2_snd x g hc r k).symm
        (rows_at W 128 h1 k j ⟨128 + k.val, by omega⟩ rfl)]

theorem upd3_at {n : ℕ} (x g h : Mat n 128) (W : Mat 384 128) (bu : Row 128)
    (hc : Shape.Concatenates [(⟨2, ![n, 128]⟩ : Shape), (⟨2, ![n, 128]⟩ : Shape), (⟨2, ![n, 128]⟩ : Shape)]
      (⟨2, ![n, 384]⟩ : Shape) 1)
    (h0 : (⟨2, ![384, 128]⟩ : Shape).Slices ![0, 0] (⟨2, ![128, 128]⟩ : Shape))
    (h1 : (⟨2, ![384, 128]⟩ : Shape).Slices ![128, 0] (⟨2, ![128, 128]⟩ : Shape))
    (h2 : (⟨2, ![384, 128]⟩ : Shape).Slices ![256, 0] (⟨2, ![128, 128]⟩ : Shape))
    (r : Fin n) (j : Fin 128) :
    upd3Arr x g h (extractStridedSlice (⟨2, ![128, 128]⟩ : Shape) ![0, 0] W h0)
        (extractStridedSlice (⟨2, ![128, 128]⟩ : Shape) ![128, 0] W h1)
        (extractStridedSlice (⟨2, ![128, 128]⟩ : Shape) ![256, 0] W h2) bu (ix2 r j)
      = x (ix2 r j) + ((∑ k : Fin 384,
          concatenate (⟨2, ![n, 384]⟩ : Shape) 1 [⟨(⟨2, ![n, 128]⟩ : Shape), x⟩, ⟨(⟨2, ![n, 128]⟩ : Shape), g⟩,
            ⟨(⟨2, ![n, 128]⟩ : Shape), h⟩] hc (ix2 r k) * W (ix2 k j)) + bu (ix1 j)) := by
  rw [sum_blocks3]
  show x (ix2 r j) + ((((∑ k : Fin 128, x (ix2 r k) * extractStridedSlice (⟨2, ![128, 128]⟩ : Shape) ![0, 0] W h0 (ix2 k j))
      + ∑ k : Fin 128, g (ix2 r k) * extractStridedSlice (⟨2, ![128, 128]⟩ : Shape) ![128, 0] W h1 (ix2 k j))
      + ∑ k : Fin 128, h (ix2 r k) * extractStridedSlice (⟨2, ![128, 128]⟩ : Shape) ![256, 0] W h2 (ix2 k j))
      + bu (ix1 j)) = _
  rw [Finset.sum_congr rfl fun (k : Fin 128) _ => congrArg₂ (· * ·) (cat3_fst x g h hc r k).symm
        (rows_at W 0 h0 k j ⟨k.val, by omega⟩ (by show k.val = 0 + k.val; omega)),
      Finset.sum_congr rfl fun (k : Fin 128) _ => congrArg₂ (· * ·) (cat3_snd x g h hc r k).symm
        (rows_at W 128 h1 k j ⟨128 + k.val, by omega⟩ rfl),
      Finset.sum_congr rfl fun (k : Fin 128) _ => congrArg₂ (· * ·) (cat3_thd x g h hc r k).symm
        (rows_at W 256 h2 k j ⟨256 + k.val, by omega⟩ rfl)]

theorem out0 (x0 : FVec Ideal Cert.KernelIdeal.S100000x128 .f32) (x3 : IVec Cert.KernelIdeal.S2x500000 32) (x8 : FVec Ideal Cert.KernelIdeal.S500000x3 .f32) (x13 : FVec Ideal Cert.KernelIdeal.S259x128 .f32) (x14 : FVec Ideal Cert.KernelIdeal.S128 .f32) (x15 : FVec Ideal Cert.KernelIdeal.S128x1 .f32) (x16 : FVec Ideal Cert.KernelIdeal.S1 .f32) (x33 : FVec Ideal Cert.KernelIdeal.S256x128 .f32) (x34 : FVec Ideal Cert.KernelIdeal.S128 .f32) :
    KT.out0 x0 (Cert.ReferenceIdeal.Read.val_main_v40 (F := Ideal) x0 x3 x8 x13 x14 x15 x16) x33 x34
      = Cert.ReferenceIdeal.Read.val_main_v220 (F := Ideal) x0 x3 x8 x13 x14 x15 x16 x33 x34 := by
  funext i
  obtain ⟨r, j, rfl⟩ : ∃ (r : Fin 100000) (j : Fin 128), i = ix2 r j := ⟨i 0, i 1, eq_ix2 i⟩
  rw [Cert.ReferenceIdeal.Read.val_main_v220_apply, Cert.ReferenceIdeal.Read.val_main_v209_apply, Cert.ReferenceIdeal.Read.val_main_v206_apply,
    Cert.ReferenceIdeal.Read.val_main_v208_apply, Cert.ReferenceIdeal.Read.val_main_v207_apply]
  have hl : ∀ k : Fin 256, Cert.ReferenceIdeal.Read.lidx_main_v206 (ix2 r j) k = ix2 r k := fun k => funext fun a =>
    match a with
    | ⟨0, _⟩ => rfl
    | ⟨1, _⟩ => rfl
  have hr : ∀ k : Fin 256, Cert.ReferenceIdeal.Read.ridx_main_v206 (ix2 r j) k = ix2 k j := fun k => funext fun a =>
    match a with
    | ⟨0, _⟩ => rfl
    | ⟨1, _⟩ => rfl
  have hb : Cert.ReferenceIdeal.Read.idx_main_v207 (Cert.ReferenceIdeal.Read.idx_main_v208 (ix2 r j)) = ix1 j := funext fun a =>
    match a with
    | ⟨0, _⟩ => rfl
  rw [hb]
  simp only [hl, hr]
  unfold Cert.ReferenceIdeal.Read.val_main_v205 KT.out0
  generalize Cert.ReferenceIdeal.Read.val_main_v40 (F := Ideal) x0 x3 x8 x13 x14 x15 x16 = g
  exact upd2_at x0 g x33 x34 _ _ _ r j

theorem out1 (x0 : FVec Ideal Cert.KernelIdeal.S100000x128 .f32) (x1 : FVec Ideal Cert.KernelIdeal.S150000x128 .f32) (x4 : IVec Cert.KernelIdeal.S2x300000 32) (x5 : IVec Cert.KernelIdeal.S2x300000 32) (x9 : FVec Ideal Cert.KernelIdeal.S300000x3 .f32) (x10 : FVec Ideal Cert.KernelIdeal.S300000x3 .f32) (x17 : FVec Ideal Cert.KernelIdeal.S259x128 .f32) (x18 : FVec Ideal Cert.KernelIdeal.S128 .f32) (x19 : FVec Ideal Cert.KernelIdeal.S128x1 .f32) (x20 : FVec Ideal Cert.KernelIdeal.S1 .f32) (x21 : FVec Ideal Cert.KernelIdeal.S259x128 .f32) (x22 : FVec Ideal Cert.KernelIdeal.S128 .f32) (x23 : FVec Ideal Cert.KernelIdeal.S128x1 .f32) (x24 : FVec Ideal Cert.KernelIdeal.S1 .f32) (x35 : FVec Ideal Cert.KernelIdeal.S384x128 .f32) (x36 : FVec Ideal Cert.KernelIdeal.S128 .f32) :
    KT.out1 x1 (Cert.ReferenceIdeal.Read.val_main_v81 (F := Ideal) x0 x1 x4 x9 x17 x18 x19 x20) (Cert.ReferenceIdeal.Read.val_main_v122 (F := Ideal) x1 x5 x10 x21 x22 x23 x24) x35 x36
      = Cert.ReferenceIdeal.Read.val_main_v221 (F := Ideal) x0 x1 x4 x5 x9 x10 x17 x18 x19 x20 x21 x22 x23 x24 x35 x36 := by
  funext i
  obtain ⟨r, j, rfl⟩ : ∃ (r : Fin 150000) (j : Fin 128), i = ix2 r j := ⟨i 0, i 1, eq_ix2 i⟩
  rw [Cert.ReferenceIdeal.Read.val_main_v221_apply, Cert.ReferenceIdeal.Read.val_main_v214_apply, Cert.ReferenceIdeal.Read.val_main_v211_apply,
    Cert.ReferenceIdeal.Read.val_main_v213_apply, Cert.ReferenceIdeal.Read.val_main_v212_apply]
  have hl : ∀ k : Fin 384, Cert.ReferenceIdeal.Read.lidx_main_v211 (ix2 r j) k = ix2 r k := fun k => funext fun a =>
    match a with
    | ⟨0, _⟩ => rfl
    | ⟨1, _⟩ => rfl
  have hr : ∀ k : Fin 384, Cert.ReferenceIdeal.Read.ridx_main_v211 (ix2 r j) k = ix2 k j := fun k => funext fun a =>
    match a with
    | ⟨0, _⟩ => rfl
    | ⟨1, _⟩ => rfl
  have hb : Cert.ReferenceIdeal.Read.idx_main_v212 (Cert.ReferenceIdeal.Read.idx_main_v213 (ix2 r j)) = ix1 j := funext fun a =>
    match a with
    | ⟨0, _⟩ => rfl
  rw [hb]
  simp only [hl, hr]
  unfold Cert.ReferenceIdeal.Read.val_main_v210 KT.out1
  generalize Cert.ReferenceIdeal.Read.val_main_v81 (F := Ideal) x0 x1 x4 x9 x17 x18 x19 x20 = g
  generalize Cert.ReferenceIdeal.Read.val_main_v122 (F := Ideal) x1 x5 x10 x21 x22 x23 x24 = h
  exact upd3_at x1 g h x35 x36 _ _ _ _ r j

theorem out2 (x1 : FVec Ideal Cert.KernelIdeal.S150000x128 .f32) (x2 : FVec Ideal Cert.KernelIdeal.S80000x128 .f32) (x6 : IVec Cert.KernelIdeal.S2x200000 32) (x7 : IVec Cert.KernelIdeal.S2x200000 32) (x11 : FVec Ideal Cert.KernelIdeal.S200000x3 .f32) (x12 : FVec Ideal Cert.KernelIdeal.S200000x3 .f32) (x25 : FVec Ideal Cert.KernelIdeal.S259x128 .f32) (x26 : FVec Ideal Cert.KernelIdeal.S128 .f32) (x27 : FVec Ideal Cert.KernelIdeal.S128x1 .f32) (x28 : FVec Ideal Cert.KernelIdeal.S1 .f32) (x29 : FVec Ideal Cert.KernelIdeal.S259x128 .f32) (x30 : FVec Ideal Cert.KernelIdeal.S128 .f32) (x31 : FVec Ideal Cert.KernelIdeal.S128x1 .f32) (x32 : FVec Ideal Cert.KernelIdeal.S1 .f32) (x37 : FVec Ideal Cert.KernelIdeal.S384x128 .f32) (x38 : FVec Ideal Cert.KernelIdeal.S128 .f32) :
    KT.out2 x2 (Cert.ReferenceIdeal.Read.val_main_v163 (F := Ideal) x1 x2 x6 x11 x25 x26 x27 x28) (Cert.ReferenceIdeal.Read.val_main_v204 (F := Ideal) x2 x7 x12 x29 x30 x31 x32) x37 x38
      = Cert.ReferenceIdeal.Read.val_main_v222 (F := Ideal) x1 x2 x6 x7 x11 x12 x25 x26 x27 x28 x29 x30 x31 x32 x37 x38 := by
  funext i
  obtain ⟨r, j, rfl⟩ : ∃ (r : Fin 80000) (j : Fin 128), i = ix2 r j := ⟨i 0, i 1, eq_ix2 i⟩
  rw [Cert.ReferenceIdeal.Read.val_main_v222_apply, Cert.ReferenceIdeal.Read.val_main_v219_apply, Cert.ReferenceIdeal.Read.val_main_v216_apply,
    Cert.ReferenceIdeal.Read.val_main_v218_apply, Cert.ReferenceIdeal.Read.val_main_v217_apply]
  have hl : ∀ k : Fin 384, Cert.ReferenceIdeal.Read.lidx_main_v216 (ix2 r j) k = ix2 r k := fun k => funext fun a =>
    match a with
    | ⟨0, _⟩ => rfl
    | ⟨1, _⟩ => rfl
  have hr : ∀ k : Fin 384, Cert.ReferenceIdeal.Read.ridx_main_v216 (ix2 r j) k = ix2 k j := fun k => funext fun a =>
    match a with
    | ⟨0, _⟩ => rfl
    | ⟨1, _⟩ => rfl
  have hb : Cert.ReferenceIdeal.Read.idx_main_v217 (Cert.ReferenceIdeal.Read.idx_main_v218 (ix2 r j)) = ix1 j := funext fun a =>
    match a with
    | ⟨0, _⟩ => rfl
  rw [hb]
  simp only [hl, hr]
  unfold Cert.ReferenceIdeal.Read.val_main_v215 KT.out2
  generalize Cert.ReferenceIdeal.Read.val_main_v163 (F := Ideal) x1 x2 x6 x11 x25 x26 x27 x28 = g
  generalize Cert.ReferenceIdeal.Read.val_main_v204 (F := Ideal) x2 x7 x12 x29 x30 x31 x32 = h
  exact upd3_at x2 g h x37 x38 _ _ _ _ r j

end Cert.UpdBridge

end
-- ==== Proof.lean ====
/- The certificate: the three programs run to the end with their arguments unchanged, and at the ideal instance kernel and
   reference end with equal results. Sums of extended reals are regrouped; finiteness of the inputs is never needed. -/
import proofs.«412327_j14886356648020_1_alg».proof.Defs
import proofs.«412327_j14886356648020_1_alg».proof.Proof.Gen.Kernel
import proofs.«412327_j14886356648020_1_alg».proof.Proof.Gen.Kernel.Skeleton
import proofs.«412327_j14886356648020_1_alg».proof.Proof.Gen.Kernel.Launch
import proofs.«412327_j14886356648020_1_alg».proof.Proof.Gen.Kernel.Points
import proofs.«412327_j14886356648020_1_alg».proof.Proof.Gen.Kernel.Frame
import proofs.«412327_j14886356648020_1_alg».proof.Proof.Gen.KernelIdeal
import proofs.«412327_j14886356648020_1_alg».proof.Proof.Gen.KernelIdeal.Skeleton
import proofs.«412327_j14886356648020_1_alg».proof.Proof.Gen.KernelIdeal.Launch
import proofs.«412327_j14886356648020_1_alg».proof.Proof.Gen.KernelIdeal.Points
import proofs.«412327_j14886356648020_1_alg».proof.Proof.Gen.KernelIdeal.Frame
import proofs.«412327_j14886356648020_1_alg».proof.Proof.Gen.ReferenceIdeal
import proofs.«412327_j14886356648020_1_alg».proof.Proof.Gen.Pre_finite_inputs
import proofs.«412327_j14886356648020_1_alg».proof.Proof.KRun
import proofs.«412327_j14886356648020_1_alg».proof.Proof.KFold0
import proofs.«412327_j14886356648020_1_alg».proof.Proof.KFold1
import proofs.«412327_j14886356648020_1_alg».proof.Proof.KFold2
import proofs.«412327_j14886356648020_1_alg».proof.Proof.RefRun
import proofs.«412327_j14886356648020_1_alg».proof.Proof.PreFacts
import proofs.«412327_j14886356648020_1_alg».proof.Proof.MsgBridge
import proofs.«412327_j14886356648020_1_alg».proof.Proof.UpdBridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2) (Cert.RefRun.run (F := Ideal) m ρ)

theorem res0 (x0 y0 : FVec Ideal Cert.KernelIdeal.S100000x128 .f32) (x3 y3 : IVec Cert.KernelIdeal.S2x500000 32) (x8 y8 : FVec Ideal Cert.KernelIdeal.S500000x3 .f32) (x13 y13 : FVec Ideal Cert.KernelIdeal.S259x128 .f32) (x14 y14 : FVec Ideal Cert.KernelIdeal.S128 .f32) (x15 y15 : FVec Ideal Cert.KernelIdeal.S128x1 .f32) (x16 y16 : FVec Ideal Cert.KernelIdeal.S1 .f32) (x33 y33 : FVec Ideal Cert.KernelIdeal.S256x128 .f32) (x34 y34 : FVec Ideal Cert.KernelIdeal.S128 .f32)
    (e0 : y0 = x0) (e3 : y3 = x3) (e8 : y8 = x8) (e13 : y13 = x13) (e14 : y14 = x14) (e15 : y15 = x15) (e16 : y16 = x16) (e33 : y33 = x33) (e34 : y34 = x34)
    (i00 : Cert.IdxFacts.InRange 100000 (Cert.KernelIdeal.KT.idx0_00 x3)) (j00 : Cert.IdxFacts.InRange 100000 (Cert.KernelIdeal.KT.idx1_00 x3)) :
    Cert.ReferenceIdeal.Read.val_main_v220 (F := Ideal) y0 y3 y8 y13 y14 y15 y16 y33 y34 = Cert.KernelIdeal.KT.out0 x0 (Cert.KernelIdeal.KT.agg_00 x0 x0 x3 x8 x13 x14 x15 x16) x33 x34 := by
  subst_vars
  rw [Cert.MsgBridge.agg_00 _ _ _ _ _ _ _ i00 j00]
  exact (Cert.UpdBridge.out0 _ _ _ _ _ _ _ _ _).symm

theorem res1 (x0 y0 : FVec Ideal Cert.KernelIdeal.S100000x128 .f32) (x1 y1 : FVec Ideal Cert.KernelIdeal.S150000x128 .f32) (x4 y4 : IVec Cert.KernelIdeal.S2x300000 32) (x5 y5 : IVec Cert.KernelIdeal.S2x300000 32) (x9 y9 : FVec Ideal Cert.KernelIdeal.S300000x3 .f32) (x10 y10 : FVec Ideal Cert.KernelIdeal.S300000x3 .f32) (x17 y17 : FVec Ideal Cert.KernelIdeal.S259x128 .f32) (x18 y18 : FVec Ideal Cert.KernelIdeal.S128 .f32) (x19 y19 : FVec Ideal Cert.KernelIdeal.S128x1 .f32) (x20 y20 : FVec Ideal Cert.KernelIdeal.S1 .f32) (x21 y21 : FVec Ideal Cert.KernelIdeal.S259x128 .f32) (x22 y22 : FVec Ideal Cert.KernelIdeal.S128 .f32) (x23 y23 : FVec Ideal Cert.KernelIdeal.S128x1 .f32) (x24 y24 : FVec Ideal Cert.KernelIdeal.S1 .f32) (x35 y35 : FVec Ideal Cert.KernelIdeal.S384x128 .f32) (x36 y36 : FVec Ideal Cert.KernelIdeal.S128 .f32)
    (e0 : y0 = x0) (e1 : y1 = x1) (e4 : y4 = x4) (e5 : y5 = x5) (e9 : y9 = x9) (e10 : y10 = x10) (e17 : y17 = x17) (e18 : y18 = x18) (e19 : y19 = x19) (e20 : y20 = x20) (e21 : y21 = x21) (e22 : y22 = x22) (e23 : y23 = x23) (e24 : y24 = x24) (e35 : y35 = x35) (e36 : y36 = x36)
    (i01 : Cert.IdxFacts.InRange 100000 (Cert.KernelIdeal.KT.idx0_01 x4)) (j01 : Cert.IdxFacts.InRange 150000 (Cert.KernelIdeal.KT.idx1_01 x4)) (i11 : Cert.IdxFacts.InRange 150000 (Cert.KernelIdeal.KT.idx0_11 x5)) (j11 : Cert.IdxFacts.InRange 150000 (Cert.KernelIdeal.KT.idx1_11 x5)) :
    Cert.ReferenceIdeal.Read.val_main_v221 (F := Ideal) y0 y1 y4 y5 y9 y10 y17 y18 y19 y20 y21 y22 y23 y24 y35 y36 = Cert.KernelIdeal.KT.out1 x1 (Cert.KernelIdeal.KT.agg_01 x0 x1 x4 x9 x17 x18 x19 x20) (Cert.KernelIdeal.KT.agg_11 x1 x1 x5 x10 x21 x22 x23 x24) x35 x36 := by
  subst_vars
  rw [Cert.MsgBridge.agg_01 _ _ _ _ _ _ _ _ i01 j01, Cert.MsgBridge.agg_11 _ _ _ _ _ _ _ i11 j11]
  exact (Cert.UpdBridge.out1 _ _ _ _ _ _ _ _ _ _ _ _ _ _ _ _).symm

theorem res2 (x1 y1 : FVec Ideal Cert.KernelIdeal.S150000x128 .f32) (x2 y2 : FVec Ideal Cert.KernelIdeal.S80000x128 .f32) (x6 y6 : IVec Cert.KernelIdeal.S2x200000 32) (x7 y7 : IVec Cert.KernelIdeal.S2x200000 32) (x11 y11 : FVec Ideal Cert.KernelIdeal.S200000x3 .f32) (x12 y12 : FVec Ideal Cert.KernelIdeal.S200000x3 .f32) (x25 y25 : FVec Ideal Cert.KernelIdeal.S259x128 .f32) (x26 y26 : FVec Ideal Cert.KernelIdeal.S128 .f32) (x27 y27 : FVec Ideal Cert.KernelIdeal.S128x1 .f32) (x28 y28 : FVec Ideal Cert.KernelIdeal.S1 .f32) (x29 y29 : FVec Ideal Cert.KernelIdeal.S259x128 .f32) (x30 y30 : FVec Ideal Cert.KernelIdeal.S128 .f32) (x31 y31 : FVec Ideal Cert.KernelIdeal.S128x1 .f32) (x32 y32 : FVec Ideal Cert.KernelIdeal.S1 .f32) (x37 y37 : FVec Ideal Cert.KernelIdeal.S384x128 .f32) (x38 y38 : FVec Ideal Cert.KernelIdeal.S128 .f32)
    (e1 : y1 = x1) (e2 : y2 = x2) (e6 : y6 = x6) (e7 : y7 = x7) (e11 : y11 = x11) (e12 : y12 = x12) (e25 : y25 = x25) (e26 : y26 = x26) (e27 : y27 = x27) (e28 : y28 = x28) (e29 : y29 = x29) (e30 : y30 = x30) (e31 : y31 = x31) (e32 : y32 = x32) (e37 : y37 = x37) (e38 : y38 = x38)
    (i12 : Cert.IdxFacts.InRange 150000 (Cert.KernelIdeal.KT.idx0_12 x6)) (j12 : Cert.IdxFacts.InRange 80000 (Cert.KernelIdeal.KT.idx1_12 x6)) (i22 : Cert.IdxFacts.InRange 80000 (Cert.KernelIdeal.KT.idx0_22 x7)) (j22 : Cert.IdxFacts.InRange 80000 (Cert.KernelIdeal.KT.idx1_22 x7)) :
    Cert.ReferenceIdeal.Read.val_main_v222 (F := Ideal) y1 y2 y6 y7 y11 y12 y25 y26 y27 y28 y29 y30 y31 y32 y37 y38 = Cert.KernelIdeal.KT.out2 x2 (Cert.KernelIdeal.KT.agg_12 x1 x2 x6 x11 x25 x26 x27 x28) (Cert.KernelIdeal.KT.agg_22 x2 x2 x7 x12 x29 x30 x31 x32) x37 x38 := by
  subst_vars
  rw [Cert.MsgBridge.agg_12 _ _ _ _ _ _ _ _ i12 j12, Cert.MsgBridge.agg_22 _ _ _ _ _ _ _ i22 j22]
  exact (Cert.UpdBridge.out2 _ _ _ _ _ _ _ _ _ _ _ _ _ _ _ _).symm

theorem algebraic : Cert.algebraic_KernelIdeal_ReferenceIdeal := by
  intro m ρ m' ρ' hpre hagree
  refine ⟨_, _, _, (θ_run Cert.KernelIdeal.defs _ _).mono (fun r h c =>
      ⟨(h c).1.trans (Cert.KernelIdeal.KFold.out0_eq m ρ c), (h c).2.1.trans (Cert.KernelIdeal.KFold.out1_eq m ρ c),
        (h c).2.2.1.trans (Cert.KernelIdeal.KFold.out2_eq m ρ c), (h c).2.2.2⟩)
      (Cert.KernelIdeal.KRun.run (F := Ideal) m ρ), ?_⟩
  refine (θ_run Cert.ReferenceIdeal.defs _ _).mono (fun r h c => ?_) (Cert.RefRun.run (F := Ideal) m' ρ')
  obtain ⟨i00, j00, i01, j01, i11, j11, i12, j12, i22, j22⟩ := Cert.PreFacts.of_pre m hpre c
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38⟩ := hagree c
  exact ⟨(h c).1.trans (res0 _ _ _ _ _ _ _ _ _ _ _ _ _ _ _ _ _ _ a0 a3 a8 a13 a14 a15 a16 a33 a34 i00 j00),
    (h c).2.1.trans (res1 _ _ _ _ _ _ _ _ _ _ _ _ _ _ _ _ _ _ _ _ _ _ _ _ _ _ _ _ _ _ _ _ a0 a1 a4 a5 a9 a10 a17 a18 a19 a20 a21 a22 a23 a24 a35 a36 i01 j01 i11 j11),
    (h c).2.2.1.trans (res2 _ _ _ _ _ _ _ _ _ _ _ _ _ _ _ _ _ _ _ _ _ _ _ _ _ _ _ _ _ _ _ _ a1 a2 a6 a7 a11 a12 a25 a26 a27 a28 a29 a30 a31 a32 a37 a38 i12 j12 i22 j22),
    (h c).2.2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
